-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S30000x128 : Shape := ⟨2, ![30000, 128]⟩
abbrev S20000x128 : Shape := ⟨2, ![20000, 128]⟩
abbrev S128x64 : Shape := ⟨2, ![128, 64]⟩
abbrev S64x64 : Shape := ⟨2, ![64, 64]⟩
abbrev S64 : Shape := ⟨1, ![64]⟩
abbrev S64x32 : Shape := ⟨2, ![64, 32]⟩
abbrev S128x16 : Shape := ⟨2, ![128, 16]⟩
abbrev S16x1 : Shape := ⟨2, ![16, 1]⟩
abbrev S3200000 : Shape := ⟨1, ![3200000]⟩
abbrev S100000 : Shape := ⟨1, ![100000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S30000x128 : S_.BroadcastsInDim S30000x128 (![] : Fin 0 → Fin S30000x128.rank)
  reducesTo_S30000x128_S_d0_1 : S30000x128.ReducesTo [0, 1] S_
  bcast_S_S20000x128 : S_.BroadcastsInDim S20000x128 (![] : Fin 0 → Fin S20000x128.rank)
  reducesTo_S20000x128_S_d0_1 : S20000x128.ReducesTo [0, 1] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S128x16 : S_.BroadcastsInDim S128x16 (![] : Fin 0 → Fin S128x16.rank)
  reducesTo_S128x16_S_d0_1 : S128x16.ReducesTo [0, 1] S_
  bcast_S_S16x1 : S_.BroadcastsInDim S16x1 (![] : Fin 0 → Fin S16x1.rank)
  reducesTo_S16x1_S_d0_1 : S16x1.ReducesTo [0, 1] S_
  bcast_S_S100000 : S_.BroadcastsInDim S100000 (![] : Fin 0 → Fin S100000.rank)
  reducesTo_S100000_S_d0 : S100000.ReducesTo [0] S_

variable [Facts]

def fn_part8 {F : FTy → Type} [FloatOps F] (main_arg26 : IVec S100000 32) (main_arg27 : IVec S100000 32) (main_v132 : IVec S_ 1) (main_v134 : IVec S100000 1) (main_c_54 : IVec S_ 32) : IVec S_ 1 :=
  let main_v135 : IVec S100000 32 := broadcastInDim S100000 ![] bcast_S_S100000 main_c_54
  let main_v136 : IVec S100000 1 := cmpi .slt main_arg26 main_v135
  let main_v137 : IVec S100000 1 := andi main_v134 main_v136
  let main_c_55 : IVec S_ 1 := constantI S_ 1 1#1
  let main_v138 : IVec S_ 1 := (fun x v => Host.reduce IntOp.andi x v reducesTo_S100000_S_d0 h_S_) main_v137 main_c_55
  let main_v139 : IVec S_ 1 := andi main_v132 main_v138
  let main_c_56 : IVec S_ 32 := constantI S_ 32 4294947296#32
  let main_v140 : IVec S100000 32 := broadcastInDim S100000 ![] bcast_S_S100000 main_c_56
  let main_v141 : IVec S100000 1 := cmpi .sge main_arg27 main_v140
  let main_c_57 : IVec S_ 32 := constantI S_ 32 20000#32
  let main_v142 : IVec S100000 32 := broadcastInDim S100000 ![] bcast_S_S100000 main_c_57
  let main_v143 : IVec S100000 1 := cmpi .slt main_arg27 main_v142
  let main_v144 : IVec S100000 1 := andi main_v141 main_v143
  let main_c_58 : IVec S_ 1 := constantI S_ 1 1#1
  let main_v145 : IVec S_ 1 := (fun x v => Host.reduce IntOp.andi x v reducesTo_S100000_S_d0 h_S_) main_v144 main_c_58
  let main_v146 : IVec S_ 1 := andi main_v139 main_v145
  main_v146

def fn_part7 {F : FTy → Type} [FloatOps F] (main_arg24 : IVec S100000 32) (main_arg25 : IVec S100000 32) (main_arg26 : IVec S100000 32) (main_arg27 : IVec S100000 32) (main_v118 : IVec S_ 1) : IVec S_ 1 :=
  let main_c_47 : IVec S_ 32 := constantI S_ 32 4294947296#32
  let main_v119 : IVec S100000 32 := broadcastInDim S100000 ![] bcast_S_S100000 main_c_47
  let main_v120 : IVec S100000 1 := cmpi .sge main_arg24 main_v119
  let main_c_48 : IVec S_ 32 := constantI S_ 32 20000#32
  let main_v121 : IVec S100000 32 := broadcastInDim S100000 ![] bcast_S_S100000 main_c_48
  let main_v122 : IVec S100000 1 := cmpi .slt main_arg24 main_v121
  let main_v123 : IVec S100000 1 := andi main_v120 main_v122
  let main_c_49 : IVec S_ 1 := constantI S_ 1 1#1
  let main_v124 : IVec S_ 1 := (fun x v => Host.reduce IntOp.andi x v reducesTo_S100000_S_d0 h_S_) main_v123 main_c_49
  let main_v125 : IVec S_ 1 := andi main_v118 main_v124
  let main_c_50 : IVec S_ 32 := constantI S_ 32 4294917296#32
  let main_v126 : IVec S100000 32 := broadcastInDim S100000 ![] bcast_S_S100000 main_c_50
  let main_v127 : IVec S100000 1 := cmpi .sge main_arg25 main_v126
  let main_c_51 : IVec S_ 32 := constantI S_ 32 50000#32
  let main_v128 : IVec S100000 32 := broadcastInDim S100000 ![] bcast_S_S100000 main_c_51
  let main_v129 : IVec S100000 1 := cmpi .slt main_arg25 main_v128
  let main_v130 : IVec S100000 1 := andi main_v127 main_v129
  let main_c_52 : IVec S_ 1 := constantI S_ 1 1#1
  let main_v131 : IVec S_ 1 := (fun x v => Host.reduce IntOp.andi x v reducesTo_S100000_S_d0 h_S_) main_v130 main_c_52
  let main_v132 : IVec S_ 1 := andi main_v125 main_v131
  let main_c_53 : IVec S_ 32 := constantI S_ 32 4294937296#32
  let main_v133 : IVec S100000 32 := broadcastInDim S100000 ![] bcast_S_S100000 main_c_53
  let main_v134 : IVec S100000 1 := cmpi .sge main_arg26 main_v133
  let main_c_54 : IVec S_ 32 := constantI S_ 32 30000#32
  fn_part8 (F := F) main_arg26 main_arg27 main_v132 main_v134 main_c_54

def fn_part6 {F : FTy → Type} [FloatOps F] (main_arg22 : IVec S100000 32) (main_arg23 : IVec S100000 32) (main_arg24 : IVec S100000 32) (main_arg25 : IVec S100000 32) (main_arg26 : IVec S100000 32) (main_arg27 : IVec S100000 32) (main_v97 : IVec S_ 1) (main_v99 : IVec S100000 1) (main_v101 : IVec S100000 1) : IVec S_ 1 :=
  let main_v102 : IVec S100000 1 := andi main_v99 main_v101
  let main_c_40 : IVec S_ 1 := constantI S_ 1 1#1
  let main_v103 : IVec S_ 1 := (fun x v => Host.reduce IntOp.andi x v reducesTo_S100000_S_d0 h_S_) main_v102 main_c_40
  let main_v104 : IVec S_ 1 := andi main_v97 main_v103
  let main_c_41 : IVec S_ 32 := constantI S_ 32 4294917296#32
  let main_v105 : IVec S100000 32 := broadcastInDim S100000 ![] bcast_S_S100000 main_c_41
  let main_v106 : IVec S100000 1 := cmpi .sge main_arg22 main_v105
  let main_c_42 : IVec S_ 32 := constantI S_ 32 50000#32
  let main_v107 : IVec S100000 32 := broadcastInDim S100000 ![] bcast_S_S100000 main_c_42
  let main_v108 : IVec S100000 1 := cmpi .slt main_arg22 main_v107
  let main_v109 : IVec S100000 1 := andi main_v106 main_v108
  let main_c_43 : IVec S_ 1 := constantI S_ 1 1#1
  let main_v110 : IVec S_ 1 := (fun x v => Host.reduce IntOp.andi x v reducesTo_S100000_S_d0 h_S_) main_v109 main_c_43
  let main_v111 : IVec S_ 1 := andi main_v104 main_v110
  let main_c_44 : IVec S_ 32 := constantI S_ 32 4294937296#32
  let main_v112 : IVec S100000 32 := broadcastInDim S100000 ![] bcast_S_S100000 main_c_44
  let main_v113 : IVec S100000 1 := cmpi .sge main_arg23 main_v112
  let main_c_45 : IVec S_ 32 := constantI S_ 32 30000#32
  let main_v114 : IVec S100000 32 := broadcastInDim S100000 ![] bcast_S_S100000 main_c_45
  let main_v115 : IVec S100000 1 := cmpi .slt main_arg23 main_v114
  let main_v116 : IVec S100000 1 := andi main_v113 main_v115
  let main_c_46 : IVec S_ 1 := constantI S_ 1 1#1
  let main_v117 : IVec S_ 1 := (fun x v => Host.reduce IntOp.andi x v reducesTo_S100000_S_d0 h_S_) main_v116 main_c_46
  let main_v118 : IVec S_ 1 := andi main_v111 main_v117
  fn_part7 (F := F) main_arg24 main_arg25 main_arg26 main_arg27 main_v118

def fn_part5 {F : FTy → Type} [FloatOps F] (main_arg19 : IVec S100000 32) (main_arg20 : IVec S100000 32) (main_arg21 : IVec S100000 32) (main_arg22 : IVec S100000 32) (main_arg23 : IVec S100000 32) (main_arg24 : IVec S100000 32) (main_arg25 : IVec S100000 32) (main_arg26 : IVec S100000 32) (main_arg27 : IVec S100000 32) (main_v83 : IVec S_ 1) (main_v84 : IVec S100000 32) : IVec S_ 1 :=
  let main_v85 : IVec S100000 1 := cmpi .sge main_arg19 main_v84
  let main_c_33 : IVec S_ 32 := constantI S_ 32 50000#32
  let main_v86 : IVec S100000 32 := broadcastInDim S100000 ![] bcast_S_S100000 main_c_33
  let main_v87 : IVec S100000 1 := cmpi .slt main_arg19 main_v86
  let main_v88 : IVec S100000 1 := andi main_v85 main_v87
  let main_c_34 : IVec S_ 1 := constantI S_ 1 1#1
  let main_v89 : IVec S_ 1 := (fun x v => Host.reduce IntOp.andi x v reducesTo_S100000_S_d0 h_S_) main_v88 main_c_34
  let main_v90 : IVec S_ 1 := andi main_v83 main_v89
  let main_c_35 : IVec S_ 32 := constantI S_ 32 4294937296#32
  let main_v91 : IVec S100000 32 := broadcastInDim S100000 ![] bcast_S_S100000 main_c_35
  let main_v92 : IVec S100000 1 := cmpi .sge main_arg20 main_v91
  let main_c_36 : IVec S_ 32 := constantI S_ 32 30000#32
  let main_v93 : IVec S100000 32 := broadcastInDim S100000 ![] bcast_S_S100000 main_c_36
  let main_v94 : IVec S100000 1 := cmpi .slt main_arg20 main_v93
  let main_v95 : IVec S100000 1 := andi main_v92 main_v94
  let main_c_37 : IVec S_ 1 := constantI S_ 1 1#1
  let main_v96 : IVec S_ 1 := (fun x v => Host.reduce IntOp.andi x v reducesTo_S100000_S_d0 h_S_) main_v95 main_c_37
  let main_v97 : IVec S_ 1 := andi main_v90 main_v96
  let main_c_38 : IVec S_ 32 := constantI S_ 32 4294947296#32
  let main_v98 : IVec S100000 32 := broadcastInDim S100000 ![] bcast_S_S100000 main_c_38
  let main_v99 : IVec S100000 1 := cmpi .sge main_arg21 main_v98
  let main_c_39 : IVec S_ 32 := constantI S_ 32 20000#32
  let main_v100 : IVec S100000 32 := broadcastInDim S100000 ![] bcast_S_S100000 main_c_39
  let main_v101 : IVec S100000 1 := cmpi .slt main_arg21 main_v100
  fn_part6 (F := F) main_arg22 main_arg23 main_arg24 main_arg25 main_arg26 main_arg27 main_v97 main_v99 main_v101

def fn_part4 {F : FTy → Type} [FloatOps F] (main_arg14 : FVec F S16x1 .f32) (main_arg15 : FVec F S16x1 .f32) (main_arg16 : FVec F S16x1 .f32) (main_arg19 : IVec S100000 32) (main_arg20 : IVec S100000 32) (main_arg21 : IVec S100000 32) (main_arg22 : IVec S100000 32) (main_arg23 : IVec S100000 32) (main_arg24 : IVec S100000 32) (main_arg25 : IVec S100000 32) (main_arg26 : IVec S100000 32) (main_arg27 : IVec S100000 32) (main_v63 : IVec S_ 1) (main_v67 : IVec S_ 1) : IVec S_ 1 :=
  let main_v68 : IVec S_ 1 := andi main_v63 main_v67
  let main_v69 : FVec F S16x1 .f32 := Host.absf main_arg14
  let main_cst_26 : FVec F S_ .f32 := constant S_ .f32 0x7F800000#32
  let main_v70 : FVec F S16x1 .f32 := broadcastInDim S16x1 ![] bcast_S_S16x1 main_cst_26
  let main_v71 : IVec S16x1 1 := cmpf .olt main_v69 main_v70
  let main_c_27 : IVec S_ 1 := constantI S_ 1 1#1
  let main_v72 : IVec S_ 1 := (fun x v => Host.reduce IntOp.andi x v reducesTo_S16x1_S_d0_1 h_S_) main_v71 main_c_27
  let main_v73 : IVec S_ 1 := andi main_v68 main_v72
  let main_v74 : FVec F S16x1 .f32 := Host.absf main_arg15
  let main_cst_28 : FVec F S_ .f32 := constant S_ .f32 0x7F800000#32
  let main_v75 : FVec F S16x1 .f32 := broadcastInDim S16x1 ![] bcast_S_S16x1 main_cst_28
  let main_v76 : IVec S16x1 1 := cmpf .olt main_v74 main_v75
  let main_c_29 : IVec S_ 1 := constantI S_ 1 1#1
  let main_v77 : IVec S_ 1 := (fun x v => Host.reduce IntOp.andi x v reducesTo_S16x1_S_d0_1 h_S_) main_v76 main_c_29
  let main_v78 : IVec S_ 1 := andi main_v73 main_v77
  let main_v79 : FVec F S16x1 .f32 := Host.absf main_arg16
  let main_cst_30 : FVec F S_ .f32 := constant S_ .f32 0x7F800000#32
  let main_v80 : FVec F S16x1 .f32 := broadcastInDim S16x1 ![] bcast_S_S16x1 main_cst_30
  let main_v81 : IVec S16x1 1 := cmpf .olt main_v79 main_v80
  let main_c_31 : IVec S_ 1 := constantI S_ 1 1#1
  let main_v82 : IVec S_ 1 := (fun x v => Host.reduce IntOp.andi x v reducesTo_S16x1_S_d0_1 h_S_) main_v81 main_c_31
  let main_v83 : IVec S_ 1 := andi main_v78 main_v82
  let main_c_32 : IVec S_ 32 := constantI S_ 32 4294917296#32
  let main_v84 : IVec S100000 32 := broadcastInDim S100000 ![] bcast_S_S100000 main_c_32
  fn_part5 (F := F) main_arg19 main_arg20 main_arg21 main_arg22 main_arg23 main_arg24 main_arg25 main_arg26 main_arg27 main_v83 main_v84

def fn_part3 {F : FTy → Type} [FloatOps F] (main_arg11 : FVec F S128x16 .f32) (main_arg12 : FVec F S128x16 .f32) (main_arg13 : FVec F S128x16 .f32) (main_arg14 : FVec F S16x1 .f32) (main_arg15 : FVec F S16x1 .f32) (main_arg16 : FVec F S16x1 .f32) (main_arg19 : IVec S100000 32) (main_arg20 : IVec S100000 32) (main_arg21 : IVec S100000 32) (main_arg22 : IVec S100000 32) (main_arg23 : IVec S100000 32) (main_arg24 : IVec S100000 32) (main_arg25 : IVec S100000 32) (main_arg26 : IVec S100000 32) (main_arg27 : IVec S100000 32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S128x16 .f32 := Host.absf main_arg11
  let main_cst_20 : FVec F S_ .f32 := constant S_ .f32 0x7F800000#32
  let main_v55 : FVec F S128x16 .f32 := broadcastInDim S128x16 ![] bcast_S_S128x16 main_cst_20
  let main_v56 : IVec S128x16 1 := cmpf .olt main_v54 main_v55
  let main_c_21 : IVec S_ 1 := constantI S_ 1 1#1
  let main_v57 : IVec S_ 1 := (fun x v => Host.reduce IntOp.andi x v reducesTo_S128x16_S_d0_1 h_S_) main_v56 main_c_21
  let main_v58 : IVec S_ 1 := andi main_v53 main_v57
  let main_v59 : FVec F S128x16 .f32 := Host.absf main_arg12
  let main_cst_22 : FVec F S_ .f32 := constant S_ .f32 0x7F800000#32
  let main_v60 : FVec F S128x16 .f32 := broadcastInDim S128x16 ![] bcast_S_S128x16 main_cst_22
  let main_v61 : IVec S128x16 1 := cmpf .olt main_v59 main_v60
  let main_c_23 : IVec S_ 1 := constantI S_ 1 1#1
  let main_v62 : IVec S_ 1 := (fun x v => Host.reduce IntOp.andi x v reducesTo_S128x16_S_d0_1 h_S_) main_v61 main_c_23
  let main_v63 : IVec S_ 1 := andi main_v58 main_v62
  let main_v64 : FVec F S128x16 .f32 := Host.absf main_arg13
  let main_cst_24 : FVec F S_ .f32 := constant S_ .f32 0x7F800000#32
  let main_v65 : FVec F S128x16 .f32 := broadcastInDim S128x16 ![] bcast_S_S128x16 main_cst_24
  let main_v66 : IVec S128x16 1 := cmpf .olt main_v64 main_v65
  let main_c_25 : IVec S_ 1 := constantI S_ 1 1#1
  let main_v67 : IVec S_ 1 := (fun x v => Host.reduce IntOp.andi x v reducesTo_S128x16_S_d0_1 h_S_) main_v66 main_c_25
  fn_part4 (F := F) main_arg14 main_arg15 main_arg16 main_arg19 main_arg20 main_arg21 main_arg22 main_arg23 main_arg24 main_arg25 main_arg26 main_arg27 main_v63 main_v67

def fn_part2 {F : FTy → Type} [FloatOps F] (main_arg7 : FVec F S64 .f32) (main_arg8 : FVec F S64x32 .f32) (main_arg9 : FVec F S64x32 .f32) (main_arg10 : FVec F S64x32 .f32) (main_arg11 : FVec F S128x16 .f32) (main_arg12 : FVec F S128x16 .f32) (main_arg13 : FVec F S128x16 .f32) (main_arg14 : FVec F S16x1 .f32) (main_arg15 : FVec F S16x1 .f32) (main_arg16 : FVec F S16x1 .f32) (main_arg19 : IVec S100000 32) (main_arg20 : IVec S100000 32) (main_arg21 : IVec S100000 32) (main_arg22 : IVec S100000 32) (main_arg23 : IVec S100000 32) (main_arg24 : IVec S100000 32) (main_arg25 : IVec S100000 32) (main_arg26 : IVec S100000 32) (main_arg27 : IVec S100000 32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg8
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S64x32 .f32 := Host.absf main_arg9
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S64x32 .f32 := Host.absf main_arg10
  let main_cst_18 : FVec F S_ .f32 := constant S_ .f32 0x7F800000#32
  let main_v50 : FVec F S64x32 .f32 := broadcastInDim S64x32 ![] bcast_S_S64x32 main_cst_18
  fn_part3 (F := F) main_arg11 main_arg12 main_arg13 main_arg14 main_arg15 main_arg16 main_arg19 main_arg20 main_arg21 main_arg22 main_arg23 main_arg24 main_arg25 main_arg26 main_arg27 main_v48 main_v49 main_v50

def fn_part1 {F : FTy → Type} [FloatOps F] (main_arg4 : FVec F S128x64 .f32) (main_arg5 : FVec F S128x64 .f32) (main_arg6 : FVec F S64x64 .f32) (main_arg7 : FVec F S64 .f32) (main_arg8 : FVec F S64x32 .f32) (main_arg9 : FVec F S64x32 .f32) (main_arg10 : FVec F S64x32 .f32) (main_arg11 : FVec F S128x16 .f32) (main_arg12 : FVec F S128x16 .f32) (main_arg13 : FVec F S128x16 .f32) (main_arg14 : FVec F S16x1 .f32) (main_arg15 : FVec F S16x1 .f32) (main_arg16 : FVec F S16x1 .f32) (main_arg19 : IVec S100000 32) (main_arg20 : IVec S100000 32) (main_arg21 : IVec S100000 32) (main_arg22 : IVec S100000 32) (main_arg23 : IVec S100000 32) (main_arg24 : IVec S100000 32) (main_arg25 : IVec S100000 32) (main_arg26 : IVec S100000 32) (main_arg27 : IVec S100000 32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg19 main_arg20 main_arg21 main_arg22 main_arg23 main_arg24 main_arg25 main_arg26 main_arg27 main_v33

def fn {F : FTy → Type} [FloatOps F] (main_arg0 : FVec F S50000x128 .f32) (main_arg1 : FVec F S30000x128 .f32) (main_arg2 : FVec F S20000x128 .f32) (main_arg3 : FVec F S128x64 .f32) (main_arg4 : FVec F S128x64 .f32) (main_arg5 : FVec F S128x64 .f32) (main_arg6 : FVec F S64x64 .f32) (main_arg7 : FVec F S64 .f32) (main_arg8 : FVec F S64x32 .f32) (main_arg9 : FVec F S64x32 .f32) (main_arg10 : FVec F S64x32 .f32) (main_arg11 : FVec F S128x16 .f32) (main_arg12 : FVec F S128x16 .f32) (main_arg13 : FVec F S128x16 .f32) (main_arg14 : FVec F S16x1 .f32) (main_arg15 : FVec F S16x1 .f32) (main_arg16 : FVec F S16x1 .f32) (main_arg17 : IVec S3200000 32) (main_arg18 : IVec S3200000 32) (main_arg19 : IVec S100000 32) (main_arg20 : IVec S100000 32) (main_arg21 : IVec S100000 32) (main_arg22 : IVec S100000 32) (main_arg23 : IVec S100000 32) (main_arg24 : IVec S100000 32) (main_arg25 : IVec S100000 32) (main_arg26 : IVec S100000 32) (main_arg27 : IVec S100000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S30000x128 .f32 := Host.absf main_arg1
  let main_cst_0 : FVec F S_ .f32 := constant S_ .f32 0x7F800000#32
  let main_v5 : FVec F S30000x128 .f32 := broadcastInDim S30000x128 ![] bcast_S_S30000x128 main_cst_0
  let main_v6 : IVec S30000x128 1 := cmpf .olt main_v4 main_v5
  let main_c_1 : IVec S_ 1 := constantI S_ 1 1#1
  let main_v7 : IVec S_ 1 := (fun x v => Host.reduce IntOp.andi x v reducesTo_S30000x128_S_d0_1 h_S_) main_v6 main_c_1
  let main_v8 : IVec S_ 1 := andi main_v3 main_v7
  let main_v9 : FVec F S20000x128 .f32 := Host.absf main_arg2
  let main_cst_2 : FVec F S_ .f32 := constant S_ .f32 0x7F800000#32
  let main_v10 : FVec F S20000x128 .f32 := broadcastInDim S20000x128 ![] bcast_S_S20000x128 main_cst_2
  let main_v11 : IVec S20000x128 1 := cmpf .olt main_v9 main_v10
  let main_c_3 : IVec S_ 1 := constantI S_ 1 1#1
  let main_v12 : IVec S_ 1 := (fun x v => Host.reduce IntOp.andi x v reducesTo_S20000x128_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_arg12 main_arg13 main_arg14 main_arg15 main_arg16 main_arg19 main_arg20 main_arg21 main_arg22 main_arg23 main_arg24 main_arg25 main_arg26 main_arg27 main_v13 main_v16
-- ==== Kernel.lean ====
abbrev S50000x128 : Shape := ⟨2, ![50000, 128]⟩
abbrev S30000x128 : Shape := ⟨2, ![30000, 128]⟩
abbrev S20000x128 : Shape := ⟨2, ![20000, 128]⟩
abbrev S128x64 : Shape := ⟨2, ![128, 64]⟩
abbrev S64x64 : Shape := ⟨2, ![64, 64]⟩
abbrev S64 : Shape := ⟨1, ![64]⟩
abbrev S64x32 : Shape := ⟨2, ![64, 32]⟩
abbrev S128x16 : Shape := ⟨2, ![128, 16]⟩
abbrev S16x1 : Shape := ⟨2, ![16, 1]⟩
abbrev S3200000 : Shape := ⟨1, ![3200000]⟩
abbrev S100000 : Shape := ⟨1, ![100000]⟩
abbrev S50000x64 : Shape := ⟨2, ![50000, 64]⟩
abbrev S10000x128 : Shape := ⟨2, ![10000, 128]⟩
abbrev S10000x64 : Shape := ⟨2, ![10000, 64]⟩
abbrev S30000x64 : Shape := ⟨2, ![30000, 64]⟩
abbrev S20000x64 : Shape := ⟨2, ![20000, 64]⟩
abbrev S100000x64 : Shape := ⟨2, ![100000, 64]⟩
abbrev S_ : Shape := ⟨0, ![]⟩
abbrev S3200000x1 : Shape := ⟨2, ![3200000, 1]⟩
abbrev S3200000x64 : Shape := ⟨2, ![3200000, 64]⟩
abbrev S1x64 : Shape := ⟨2, ![1, 64]⟩
abbrev S50000x32 : Shape := ⟨2, ![50000, 32]⟩
abbrev S5000x64 : Shape := ⟨2, ![5000, 64]⟩
abbrev S5000x32 : Shape := ⟨2, ![5000, 32]⟩
abbrev S5000 : Shape := ⟨1, ![5000]⟩
abbrev S5000x1 : Shape := ⟨2, ![5000, 1]⟩
abbrev S30000x32 : Shape := ⟨2, ![30000, 32]⟩
abbrev S20000x32 : Shape := ⟨2, ![20000, 32]⟩
abbrev S100000x1 : Shape := ⟨2, ![100000, 1]⟩
abbrev S1 : Shape := ⟨1, ![1]⟩
abbrev S1x1 : Shape := ⟨2, ![1, 1]⟩
abbrev S100000x32 : Shape := ⟨2, ![100000, 32]⟩
abbrev S100000x128 : Shape := ⟨2, ![100000, 128]⟩
abbrev S5000x128 : Shape := ⟨2, ![5000, 128]⟩
abbrev S5000x16 : Shape := ⟨2, ![5000, 16]⟩
abbrev S300000x1 : Shape := ⟨2, ![300000, 1]⟩
abbrev S300000 : Shape := ⟨1, ![300000]⟩

abbrev nBuf : Space → Nat
  | .hbm => 272
  | .vmem => 60
  | .smem => 0
  | _ => 0

abbrev hbmTy0_0 (i : Nat) : BufTy := match i % 128 with
  | 0 => ⟨S50000x128, .f32⟩
  | 1 => ⟨S30000x128, .f32⟩
  | 2 => ⟨S20000x128, .f32⟩
  | 3 => ⟨S128x64, .f32⟩
  | 4 => ⟨S128x64, .f32⟩
  | 5 => ⟨S128x64, .f32⟩
  | 6 => ⟨S64x64, .f32⟩
  | 7 => ⟨S64, .f32⟩
  | 8 => ⟨S64x32, .f32⟩
  | 9 => ⟨S64x32, .f32⟩
  | 10 => ⟨S64x32, .f32⟩
  | 11 => ⟨S128x16, .f32⟩
  | 12 => ⟨S128x16, .f32⟩
  | 13 => ⟨S128x16, .f32⟩
  | 14 => ⟨S16x1, .f32⟩
  | 15 => ⟨S16x1, .f32⟩
  | 16 => ⟨S16x1, .f32⟩
  | 17 => ⟨S3200000, .i32⟩
  | 18 => ⟨S3200000, .i32⟩
  | 19 => ⟨S100000, .i32⟩
  | 20 => ⟨S100000, .i32⟩
  | 21 => ⟨S100000, .i32⟩
  | 22 => ⟨S100000, .i32⟩
  | 23 => ⟨S100000, .i32⟩
  | 24 => ⟨S100000, .i32⟩
  | 25 => ⟨S100000, .i32⟩
  | 26 => ⟨S100000, .i32⟩
  | 27 => ⟨S100000, .i32⟩
  | 28 => ⟨S50000x64, .bf16⟩
  | 29 => ⟨S30000x64, .bf16⟩
  | 30 => ⟨S20000x64, .bf16⟩
  | 31 => ⟨S100000x64, .bf16⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000x64, .bf16⟩
  | 41 => ⟨S3200000x64, .f32⟩
  | 42 => ⟨S_, .f32⟩
  | 43 => ⟨S100000x64, .f32⟩
  | 44 => ⟨S3200000x1, .i32⟩
  | 45 => ⟨S100000x64, .f32⟩
  | 46 => ⟨S50000x64, .f32⟩
  | 47 => ⟨S30000x64, .f32⟩
  | 48 => ⟨S20000x64, .f32⟩
  | 49 => ⟨S1x64, .f32⟩
  | 50 => ⟨S50000x64, .f32⟩
  | 51 => ⟨S50000x32, .f32⟩
  | 52 => ⟨S30000x64, .f32⟩
  | 53 => ⟨S30000x32, .f32⟩
  | 54 => ⟨S20000x64, .f32⟩
  | 55 => ⟨S20000x32, .f32⟩
  | 56 => ⟨S100000x64, .f32⟩
  | 57 => ⟨S_, .i32⟩
  | 58 => ⟨S100000, .i32⟩
  | 59 => ⟨S100000, .i1⟩
  | 60 => ⟨S_, .i32⟩
  | 61 => ⟨S100000, .i32⟩
  | 62 => ⟨S100000, .i32⟩
  | 63 => ⟨S100000, .i32⟩
  | 64 => ⟨S100000x1, .i32⟩
  | 65 => ⟨S1, .i32⟩
  | 66 => ⟨S_, .i32⟩
  | 67 => ⟨S100000x1, .i32⟩
  | 68 => ⟨S100000x1, .i1⟩
  | 69 => ⟨S1x1, .i32⟩
  | 70 => ⟨S100000x1, .i32⟩
  | 71 => ⟨S100000x1, .i1⟩
  | 72 => ⟨S100000x1, .i1⟩
  | 73 => ⟨S_, .i1⟩
  | 74 => ⟨S100000, .i1⟩
  | 75 => ⟨S100000x64, .f32⟩
  | 76 => ⟨S100000x64, .i1⟩
  | 77 => ⟨S_, .f32⟩
  | 78 => ⟨S100000x64, .f32⟩
  | 79 => ⟨S100000x64, .f32⟩
  | 80 => ⟨S_, .i32⟩
  | 81 => ⟨S100000, .i32⟩
  | 82 => ⟨S100000, .i1⟩
  | 83 => ⟨S_, .i32⟩
  | 84 => ⟨S100000, .i32⟩
  | 85 => ⟨S100000, .i32⟩
  | 86 => ⟨S100000, .i32⟩
  | 87 => ⟨S100000x1, .i32⟩
  | 88 => ⟨S1, .i32⟩
  | 89 => ⟨S_, .i32⟩
  | 90 => ⟨S100000x1, .i32⟩
  | 91 => ⟨S100000x1, .i1⟩
  | 92 => ⟨S1x1, .i32⟩
  | 93 => ⟨S100000x1, .i32⟩
  | 94 => ⟨S100000x1, .i1⟩
  | 95 => ⟨S100000x1, .i1⟩
  | 96 => ⟨S_, .i1⟩
  | 97 => ⟨S100000, .i1⟩
  | 98 => ⟨S100000x32, .f32⟩
  | 99 => ⟨S100000x32, .i1⟩
  | 100 => ⟨S_, .f32⟩
  | 101 => ⟨S100000x32, .f32⟩
  | 102 => ⟨S100000x32, .f32⟩
  | 103 => ⟨S_, .i32⟩
  | 104 => ⟨S100000, .i32⟩
  | 105 => ⟨S100000, .i1⟩
  | 106 => ⟨S_, .i32⟩
  | 107 => ⟨S100000, .i32⟩
  | 108 => ⟨S100000, .i32⟩
  | 109 => ⟨S100000, .i32⟩
  | 110 => ⟨S100000x1, .i32⟩
  | 111 => ⟨S1, .i32⟩
  | 112 => ⟨S_, .i32⟩
  | 113 => ⟨S100000x1, .i32⟩
  | 114 => ⟨S100000x1, .i1⟩
  | 115 => ⟨S1x1, .i32⟩
  | 116 => ⟨S100000x1, .i32⟩
  | 117 => ⟨S100000x1, .i1⟩
  | 118 => ⟨S100000x1, .i1⟩
  | 119 => ⟨S_, .i1⟩
  | 120 => ⟨S100000, .i1⟩
  | 121 => ⟨S100000x32, .f32⟩
  | 122 => ⟨S100000x32, .i1⟩
  | 123 => ⟨S_, .f32⟩
  | 124 => ⟨S100000x32, .f32⟩
  | 125 => ⟨S100000x32, .f32⟩
  | 126 => ⟨S100000x128, .f32⟩
  | 127 => ⟨S100000x1, .f32⟩
  | _ => ⟨S50000x128, .f32⟩

abbrev hbmTy0_1 (i : Nat) : BufTy := match i % 128 with
  | 0 => ⟨S_, .i32⟩
  | 1 => ⟨S100000, .i32⟩
  | 2 => ⟨S100000, .i1⟩
  | 3 => ⟨S_, .i32⟩
  | 4 => ⟨S100000, .i32⟩
  | 5 => ⟨S100000, .i32⟩
  | 6 => ⟨S100000, .i32⟩
  | 7 => ⟨S100000x1, .i32⟩
  | 8 => ⟨S1, .i32⟩
  | 9 => ⟨S_, .i32⟩
  | 10 => ⟨S100000x1, .i32⟩
  | 11 => ⟨S100000x1, .i1⟩
  | 12 => ⟨S1x1, .i32⟩
  | 13 => ⟨S100000x1, .i32⟩
  | 14 => ⟨S100000x1, .i1⟩
  | 15 => ⟨S100000x1, .i1⟩
  | 16 => ⟨S_, .i1⟩
  | 17 => ⟨S100000, .i1⟩
  | 18 => ⟨S100000x64, .f32⟩
  | 19 => ⟨S100000x64, .i1⟩
  | 20 => ⟨S_, .f32⟩
  | 21 => ⟨S100000x64, .f32⟩
  | 22 => ⟨S100000x64, .f32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S1, .i32⟩
  | 32 => ⟨S_, .i32⟩
  | 33 => ⟨S100000x1, .i32⟩
  | 34 => ⟨S100000x1, .i1⟩
  | 35 => ⟨S1x1, .i32⟩
  | 36 => ⟨S100000x1, .i32⟩
  | 37 => ⟨S100000x1, .i1⟩
  | 38 => ⟨S100000x1, .i1⟩
  | 39 => ⟨S_, .i1⟩
  | 40 => ⟨S100000, .i1⟩
  | 41 => ⟨S100000x32, .f32⟩
  | 42 => ⟨S100000x32, .i1⟩
  | 43 => ⟨S_, .f32⟩
  | 44 => ⟨S100000x32, .f32⟩
  | 45 => ⟨S100000x32, .f32⟩
  | 46 => ⟨S_, .i32⟩
  | 47 => ⟨S100000, .i32⟩
  | 48 => ⟨S100000, .i1⟩
  | 49 => ⟨S_, .i32⟩
  | 50 => ⟨S100000, .i32⟩
  | 51 => ⟨S100000, .i32⟩
  | 52 => ⟨S100000, .i32⟩
  | 53 => ⟨S100000x1, .i32⟩
  | 54 => ⟨S1, .i32⟩
  | 55 => ⟨S_, .i32⟩
  | 56 => ⟨S100000x1, .i32⟩
  | 57 => ⟨S100000x1, .i1⟩
  | 58 => ⟨S1x1, .i32⟩
  | 59 => ⟨S100000x1, .i32⟩
  | 60 => ⟨S100000x1, .i1⟩
  | 61 => ⟨S100000x1, .i1⟩
  | 62 => ⟨S_, .i1⟩
  | 63 => ⟨S100000, .i1⟩
  | 64 => ⟨S100000x32, .f32⟩
  | 65 => ⟨S100000x32, .i1⟩
  | 66 => ⟨S_, .f32⟩
  | 67 => ⟨S100000x32, .f32⟩
  | 68 => ⟨S100000x32, .f32⟩
  | 69 => ⟨S100000x128, .f32⟩
  | 70 => ⟨S100000x1, .f32⟩
  | 71 => ⟨S_, .i32⟩
  | 72 => ⟨S100000, .i32⟩
  | 73 => ⟨S100000, .i1⟩
  | 74 => ⟨S_, .i32⟩
  | 75 => ⟨S100000, .i32⟩
  | 76 => ⟨S100000, .i32⟩
  | 77 => ⟨S100000, .i32⟩
  | 78 => ⟨S100000x1, .i32⟩
  | 79 => ⟨S1, .i32⟩
  | 80 => ⟨S_, .i32⟩
  | 81 => ⟨S100000x1, .i32⟩
  | 82 => ⟨S100000x1, .i1⟩
  | 83 => ⟨S1x1, .i32⟩
  | 84 => ⟨S100000x1, .i32⟩
  | 85 => ⟨S100000x1, .i1⟩
  | 86 => ⟨S100000x1, .i1⟩
  | 87 => ⟨S_, .i1⟩
  | 88 => ⟨S100000, .i1⟩
  | 89 => ⟨S100000x64, .f32⟩
  | 90 => ⟨S100000x64, .i1⟩
  | 91 => ⟨S_, .f32⟩
  | 92 => ⟨S100000x64, .f32⟩
  | 93 => ⟨S100000x64, .f32⟩
  | 94 => ⟨S_, .i32⟩
  | 95 => ⟨S100000, .i32⟩
  | 96 => ⟨S100000, .i1⟩
  | 97 => ⟨S_, .i32⟩
  | 98 => ⟨S100000, .i32⟩
  | 99 => ⟨S100000, .i32⟩
  | 100 => ⟨S100000, .i32⟩
  | 101 => ⟨S100000x1, .i32⟩
  | 102 => ⟨S1, .i32⟩
  | 103 => ⟨S_, .i32⟩
  | 104 => ⟨S100000x1, .i32⟩
  | 105 => ⟨S100000x1, .i1⟩
  | 106 => ⟨S1x1, .i32⟩
  | 107 => ⟨S100000x1, .i32⟩
  | 108 => ⟨S100000x1, .i1⟩
  | 109 => ⟨S100000x1, .i1⟩
  | 110 => ⟨S_, .i1⟩
  | 111 => ⟨S100000, .i1⟩
  | 112 => ⟨S100000x32, .f32⟩
  | 113 => ⟨S100000x32, .i1⟩
  | 114 => ⟨S_, .f32⟩
  | 115 => ⟨S100000x32, .f32⟩
  | 116 => ⟨S100000x32, .f32⟩
  | 117 => ⟨S_, .i32⟩
  | 118 => ⟨S100000, .i32⟩
  | 119 => ⟨S100000, .i1⟩
  | 120 => ⟨S_, .i32⟩
  | 121 => ⟨S100000, .i32⟩
  | 122 => ⟨S100000, .i32⟩
  | 123 => ⟨S100000, .i32⟩
  | 124 => ⟨S100000x1, .i32⟩
  | 125 => ⟨S1, .i32⟩
  | 126 => ⟨S_, .i32⟩
  | 127 => ⟨S100000x1, .i32⟩
  | _ => ⟨S50000x128, .f32⟩

abbrev hbmTy0_2 (i : Nat) : BufTy := match i % 128 with
  | 0 => ⟨S100000x1, .i1⟩
  | 1 => ⟨S1x1, .i32⟩
  | 2 => ⟨S100000x1, .i32⟩
  | 3 => ⟨S100000x1, .i1⟩
  | 4 => ⟨S100000x1, .i1⟩
  | 5 => ⟨S_, .i1⟩
  | 6 => ⟨S100000, .i1⟩
  | 7 => ⟨S100000x32, .f32⟩
  | 8 => ⟨S100000x32, .i1⟩
  | 9 => ⟨S_, .f32⟩
  | 10 => ⟨S100000x32, .f32⟩
  | 11 => ⟨S100000x32, .f32⟩
  | 12 => ⟨S100000x128, .f32⟩
  | 13 => ⟨S100000x1, .f32⟩
  | 14 => ⟨S300000x1, .f32⟩
  | 15 => ⟨S300000, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .bf16⟩
  | .local _ .vmem, ⟨4, _⟩ => ⟨S10000x64, .bf16⟩
  | .local _ .vmem, ⟨5, _⟩ => ⟨S10000x128, .f32⟩
  | .local _ .vmem, ⟨6, _⟩ => ⟨S10000x128, .f32⟩
  | .local _ .vmem, ⟨7, _⟩ => ⟨S128x64, .f32⟩
  | .local _ .vmem, ⟨8, _⟩ => ⟨S10000x64, .bf16⟩
  | .local _ .vmem, ⟨9, _⟩ => ⟨S10000x64, .bf16⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .bf16⟩
  | .local _ .vmem, ⟨14, _⟩ => ⟨S10000x64, .bf16⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S1x64, .f32⟩
  | .local _ .vmem, ⟨19, _⟩ => ⟨S64x32, .f32⟩
  | .local _ .vmem, ⟨20, _⟩ => ⟨S5000x64, .f32⟩
  | .local _ .vmem, ⟨21, _⟩ => ⟨S5000x64, .f32⟩
  | .local _ .vmem, ⟨22, _⟩ => ⟨S5000x32, .f32⟩
  | .local _ .vmem, ⟨23, _⟩ => ⟨S5000x32, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S1x64, .f32⟩
  | .local _ .vmem, ⟨28, _⟩ => ⟨S64x32, .f32⟩
  | .local _ .vmem, ⟨29, _⟩ => ⟨S5000x64, .f32⟩
  | .local _ .vmem, ⟨30, _⟩ => ⟨S5000x64, .f32⟩
  | .local _ .vmem, ⟨31, _⟩ => ⟨S5000x32, .f32⟩
  | .local _ .vmem, ⟨32, _⟩ => ⟨S5000x32, .f32⟩
  | .local _ .vmem, ⟨33, _⟩ => ⟨S5000x64, .f32⟩
  | .local _ .vmem, ⟨34, _⟩ => ⟨S5000x64, .f32⟩
  | .local _ .vmem, ⟨35, _⟩ => ⟨S64x64, .f32⟩
  | .local _ .vmem, ⟨36, _⟩ => ⟨S1x64, .f32⟩
  | .local _ .vmem, ⟨37, _⟩ => ⟨S64x32, .f32⟩
  | .local _ .vmem, ⟨38, _⟩ => ⟨S5000x64, .f32⟩
  | .local _ .vmem, ⟨39, _⟩ => ⟨S5000x64, .f32⟩
  | .local _ .vmem, ⟨40, _⟩ => ⟨S5000x32, .f32⟩
  | .local _ .vmem, ⟨41, _⟩ => ⟨S5000x32, .f32⟩
  | .local _ .vmem, ⟨42, _⟩ => ⟨S5000x128, .f32⟩
  | .local _ .vmem, ⟨43, _⟩ => ⟨S5000x128, .f32⟩
  | .local _ .vmem, ⟨44, _⟩ => ⟨S128x16, .f32⟩
  | .local _ .vmem, ⟨45, _⟩ => ⟨S16x1, .f32⟩
  | .local _ .vmem, ⟨46, _⟩ => ⟨S5000x1, .f32⟩
  | .local _ .vmem, ⟨47, _⟩ => ⟨S5000x1, .f32⟩
  | .local _ .vmem, ⟨48, _⟩ => ⟨S5000x128, .f32⟩
  | .local _ .vmem, ⟨49, _⟩ => ⟨S5000x128, .f32⟩
  | .local _ .vmem, ⟨50, _⟩ => ⟨S128x16, .f32⟩
  | .local _ .vmem, ⟨51, _⟩ => ⟨S16x1, .f32⟩
  | .local _ .vmem, ⟨52, _⟩ => ⟨S5000x1, .f32⟩
  | .local _ .vmem, ⟨53, _⟩ => ⟨S5000x1, .f32⟩
  | .local _ .vmem, ⟨54, _⟩ => ⟨S5000x128, .f32⟩
  | .local _ .vmem, ⟨55, _⟩ => ⟨S5000x128, .f32⟩
  | .local _ .vmem, ⟨56, _⟩ => ⟨S128x16, .f32⟩
  | .local _ .vmem, ⟨57, _⟩ => ⟨S16x1, .f32⟩
  | .local _ .vmem, ⟨58, _⟩ => ⟨S5000x1, .f32⟩
  | .local _ .vmem, ⟨59, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_c : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19_0 : Ref sig .tc := ⟨.hbm, 50, rfl⟩
abbrev main_v19_1 : Ref sig .tc := ⟨.hbm, 51, rfl⟩
abbrev main_v20_0 : Ref sig .tc := ⟨.hbm, 52, rfl⟩
abbrev main_v20_1 : Ref sig .tc := ⟨.hbm, 53, rfl⟩
abbrev main_v21_0 : Ref sig .tc := ⟨.hbm, 54, rfl⟩
abbrev main_v21_1 : Ref sig .tc := ⟨.hbm, 55, rfl⟩
abbrev main_v22 : Ref sig .tc := ⟨.hbm, 56, rfl⟩
abbrev main_call0_c : Ref sig .tc := ⟨.hbm, 57, rfl⟩
abbrev main_call0_v0 : Ref sig .tc := ⟨.hbm, 58, rfl⟩
abbrev main_call0_v1 : Ref sig .tc := ⟨.hbm, 59, rfl⟩
abbrev main_call0_c_0 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_c_1 : Ref sig .tc := ⟨.hbm, 65, rfl⟩
abbrev main_call0_c_2 : Ref sig .tc := ⟨.hbm, 66, rfl⟩
abbrev main_call0_v6 : Ref sig .tc := ⟨.hbm, 67, rfl⟩
abbrev main_call0_v7 : Ref sig .tc := ⟨.hbm, 68, rfl⟩
abbrev main_call0_v8 : Ref sig .tc := ⟨.hbm, 69, rfl⟩
abbrev main_call0_v9 : Ref sig .tc := ⟨.hbm, 70, rfl⟩
abbrev main_call0_v10 : Ref sig .tc := ⟨.hbm, 71, rfl⟩
abbrev main_call0_v11 : Ref sig .tc := ⟨.hbm, 72, rfl⟩
abbrev main_call0_c_3 : Ref sig .tc := ⟨.hbm, 73, rfl⟩
abbrev main_call0_v12 : Ref sig .tc := ⟨.hbm, 74, rfl⟩
abbrev main_call0_v13 : Ref sig .tc := ⟨.hbm, 75, rfl⟩
abbrev main_call0_v14 : Ref sig .tc := ⟨.hbm, 76, rfl⟩
abbrev main_call0_cst : Ref sig .tc := ⟨.hbm, 77, rfl⟩
abbrev main_call0_v15 : Ref sig .tc := ⟨.hbm, 78, rfl⟩
abbrev main_v23 : Ref sig .tc := ⟨.hbm, 79, rfl⟩
abbrev main_call1_c : Ref sig .tc := ⟨.hbm, 80, rfl⟩
abbrev main_call1_v0 : Ref sig .tc := ⟨.hbm, 81, rfl⟩
abbrev main_call1_v1 : Ref sig .tc := ⟨.hbm, 82, rfl⟩
abbrev main_call1_c_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_c_1 : Ref sig .tc := ⟨.hbm, 88, rfl⟩
abbrev main_call1_c_2 : Ref sig .tc := ⟨.hbm, 89, rfl⟩
abbrev main_call1_v6 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_c_3 : Ref sig .tc := ⟨.hbm, 96, rfl⟩
abbrev main_call1_v12 : Ref sig .tc := ⟨.hbm, 97, rfl⟩
abbrev main_call1_v13 : Ref sig .tc := ⟨.hbm, 98, rfl⟩
abbrev main_call1_v14 : Ref sig .tc := ⟨.hbm, 99, rfl⟩
abbrev main_call1_cst : Ref sig .tc := ⟨.hbm, 100, rfl⟩
abbrev main_call1_v15 : Ref sig .tc := ⟨.hbm, 101, rfl⟩
abbrev main_v24 : Ref sig .tc := ⟨.hbm, 102, rfl⟩
abbrev main_call2_c : Ref sig .tc := ⟨.hbm, 103, rfl⟩
abbrev main_call2_v0 : Ref sig .tc := ⟨.hbm, 104, rfl⟩
abbrev main_call2_v1 : Ref sig .tc := ⟨.hbm, 105, rfl⟩
abbrev main_call2_c_0 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_v5 : Ref sig .tc := ⟨.hbm, 110, rfl⟩
abbrev main_call2_c_1 : Ref sig .tc := ⟨.hbm, 111, rfl⟩
abbrev main_call2_c_2 : Ref sig .tc := ⟨.hbm, 112, rfl⟩
abbrev main_call2_v6 : Ref sig .tc := ⟨.hbm, 113, rfl⟩
abbrev main_call2_v7 : Ref sig .tc := ⟨.hbm, 114, rfl⟩
abbrev main_call2_v8 : Ref sig .tc := ⟨.hbm, 115, rfl⟩
abbrev main_call2_v9 : Ref sig .tc := ⟨.hbm, 116, rfl⟩
abbrev main_call2_v10 : Ref sig .tc := ⟨.hbm, 117, rfl⟩
abbrev main_call2_v11 : Ref sig .tc := ⟨.hbm, 118, rfl⟩
abbrev main_call2_c_3 : Ref sig .tc := ⟨.hbm, 119, rfl⟩
abbrev main_call2_v12 : Ref sig .tc := ⟨.hbm, 120, rfl⟩
abbrev main_call2_v13 : Ref sig .tc := ⟨.hbm, 121, rfl⟩
abbrev main_call2_v14 : Ref sig .tc := ⟨.hbm, 122, rfl⟩
abbrev main_call2_cst : Ref sig .tc := ⟨.hbm, 123, rfl⟩
abbrev main_call2_v15 : Ref sig .tc := ⟨.hbm, 124, rfl⟩
abbrev main_v25 : Ref sig .tc := ⟨.hbm, 125, rfl⟩
abbrev main_v26 : Ref sig .tc := ⟨.hbm, 126, rfl⟩
abbrev main_v27 : Ref sig .tc := ⟨.hbm, 127, rfl⟩
abbrev main_call3_c : Ref sig .tc := ⟨.hbm, 128, rfl⟩
abbrev main_call3_v0 : Ref sig .tc := ⟨.hbm, 129, rfl⟩
abbrev main_call3_v1 : Ref sig .tc := ⟨.hbm, 130, rfl⟩
abbrev main_call3_c_0 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_c_1 : Ref sig .tc := ⟨.hbm, 136, rfl⟩
abbrev main_call3_c_2 : Ref sig .tc := ⟨.hbm, 137, rfl⟩
abbrev main_call3_v6 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_call3_v11 : Ref sig .tc := ⟨.hbm, 143, rfl⟩
abbrev main_call3_c_3 : Ref sig .tc := ⟨.hbm, 144, rfl⟩
abbrev main_call3_v12 : Ref sig .tc := ⟨.hbm, 145, rfl⟩
abbrev main_call3_v13 : Ref sig .tc := ⟨.hbm, 146, rfl⟩
abbrev main_call3_v14 : Ref sig .tc := ⟨.hbm, 147, rfl⟩
abbrev main_call3_cst : Ref sig .tc := ⟨.hbm, 148, rfl⟩
abbrev main_call3_v15 : Ref sig .tc := ⟨.hbm, 149, rfl⟩
abbrev main_v28 : Ref sig .tc := ⟨.hbm, 150, rfl⟩
abbrev main_call4_c : Ref sig .tc := ⟨.hbm, 151, rfl⟩
abbrev main_call4_v0 : Ref sig .tc := ⟨.hbm, 152, rfl⟩
abbrev main_call4_v1 : Ref sig .tc := ⟨.hbm, 153, rfl⟩
abbrev main_call4_c_0 : Ref sig .tc := ⟨.hbm, 154, rfl⟩
abbrev main_call4_v2 : Ref sig .tc := ⟨.hbm, 155, rfl⟩
abbrev main_call4_v3 : Ref sig .tc := ⟨.hbm, 156, rfl⟩
abbrev main_call4_v4 : Ref sig .tc := ⟨.hbm, 157, rfl⟩
abbrev main_call4_v5 : Ref sig .tc := ⟨.hbm, 158, rfl⟩
abbrev main_call4_c_1 : Ref sig .tc := ⟨.hbm, 159, rfl⟩
abbrev main_call4_c_2 : Ref sig .tc := ⟨.hbm, 160, rfl⟩
abbrev main_call4_v6 : Ref sig .tc := ⟨.hbm, 161, rfl⟩
abbrev main_call4_v7 : Ref sig .tc := ⟨.hbm, 162, rfl⟩
abbrev main_call4_v8 : Ref sig .tc := ⟨.hbm, 163, rfl⟩
abbrev main_call4_v9 : Ref sig .tc := ⟨.hbm, 164, rfl⟩
abbrev main_call4_v10 : Ref sig .tc := ⟨.hbm, 165, rfl⟩
abbrev main_call4_v11 : Ref sig .tc := ⟨.hbm, 166, rfl⟩
abbrev main_call4_c_3 : Ref sig .tc := ⟨.hbm, 167, rfl⟩
abbrev main_call4_v12 : Ref sig .tc := ⟨.hbm, 168, rfl⟩
abbrev main_call4_v13 : Ref sig .tc := ⟨.hbm, 169, rfl⟩
abbrev main_call4_v14 : Ref sig .tc := ⟨.hbm, 170, rfl⟩
abbrev main_call4_cst : Ref sig .tc := ⟨.hbm, 171, rfl⟩
abbrev main_call4_v15 : Ref sig .tc := ⟨.hbm, 172, rfl⟩
abbrev main_v29 : Ref sig .tc := ⟨.hbm, 173, rfl⟩
abbrev main_call5_c : Ref sig .tc := ⟨.hbm, 174, rfl⟩
abbrev main_call5_v0 : Ref sig .tc := ⟨.hbm, 175, rfl⟩
abbrev main_call5_v1 : Ref sig .tc := ⟨.hbm, 176, rfl⟩
abbrev main_call5_c_0 : Ref sig .tc := ⟨.hbm, 177, rfl⟩
abbrev main_call5_v2 : Ref sig .tc := ⟨.hbm, 178, rfl⟩
abbrev main_call5_v3 : Ref sig .tc := ⟨.hbm, 179, rfl⟩
abbrev main_call5_v4 : Ref sig .tc := ⟨.hbm, 180, rfl⟩
abbrev main_call5_v5 : Ref sig .tc := ⟨.hbm, 181, rfl⟩
abbrev main_call5_c_1 : Ref sig .tc := ⟨.hbm, 182, rfl⟩
abbrev main_call5_c_2 : Ref sig .tc := ⟨.hbm, 183, rfl⟩
abbrev main_call5_v6 : Ref sig .tc := ⟨.hbm, 184, rfl⟩
abbrev main_call5_v7 : Ref sig .tc := ⟨.hbm, 185, rfl⟩
abbrev main_call5_v8 : Ref sig .tc := ⟨.hbm, 186, rfl⟩
abbrev main_call5_v9 : Ref sig .tc := ⟨.hbm, 187, rfl⟩
abbrev main_call5_v10 : Ref sig .tc := ⟨.hbm, 188, rfl⟩
abbrev main_call5_v11 : Ref sig .tc := ⟨.hbm, 189, rfl⟩
abbrev main_call5_c_3 : Ref sig .tc := ⟨.hbm, 190, rfl⟩
abbrev main_call5_v12 : Ref sig .tc := ⟨.hbm, 191, rfl⟩
abbrev main_call5_v13 : Ref sig .tc := ⟨.hbm, 192, rfl⟩
abbrev main_call5_v14 : Ref sig .tc := ⟨.hbm, 193, rfl⟩
abbrev main_call5_cst : Ref sig .tc := ⟨.hbm, 194, rfl⟩
abbrev main_call5_v15 : Ref sig .tc := ⟨.hbm, 195, rfl⟩
abbrev main_v30 : Ref sig .tc := ⟨.hbm, 196, rfl⟩
abbrev main_v31 : Ref sig .tc := ⟨.hbm, 197, rfl⟩
abbrev main_v32 : Ref sig .tc := ⟨.hbm, 198, rfl⟩
abbrev main_call6_c : Ref sig .tc := ⟨.hbm, 199, rfl⟩
abbrev main_call6_v0 : Ref sig .tc := ⟨.hbm, 200, rfl⟩
abbrev main_call6_v1 : Ref sig .tc := ⟨.hbm, 201, rfl⟩
abbrev main_call6_c_0 : Ref sig .tc := ⟨.hbm, 202, rfl⟩
abbrev main_call6_v2 : Ref sig .tc := ⟨.hbm, 203, rfl⟩
abbrev main_call6_v3 : Ref sig .tc := ⟨.hbm, 204, rfl⟩
abbrev main_call6_v4 : Ref sig .tc := ⟨.hbm, 205, rfl⟩
abbrev main_call6_v5 : Ref sig .tc := ⟨.hbm, 206, rfl⟩
abbrev main_call6_c_1 : Ref sig .tc := ⟨.hbm, 207, rfl⟩
abbrev main_call6_c_2 : Ref sig .tc := ⟨.hbm, 208, rfl⟩
abbrev main_call6_v6 : Ref sig .tc := ⟨.hbm, 209, rfl⟩
abbrev main_call6_v7 : Ref sig .tc := ⟨.hbm, 210, rfl⟩
abbrev main_call6_v8 : Ref sig .tc := ⟨.hbm, 211, rfl⟩
abbrev main_call6_v9 : Ref sig .tc := ⟨.hbm, 212, rfl⟩
abbrev main_call6_v10 : Ref sig .tc := ⟨.hbm, 213, rfl⟩
abbrev main_call6_v11 : Ref sig .tc := ⟨.hbm, 214, rfl⟩
abbrev main_call6_c_3 : Ref sig .tc := ⟨.hbm, 215, rfl⟩
abbrev main_call6_v12 : Ref sig .tc := ⟨.hbm, 216, rfl⟩
abbrev main_call6_v13 : Ref sig .tc := ⟨.hbm, 217, rfl⟩
abbrev main_call6_v14 : Ref sig .tc := ⟨.hbm, 218, rfl⟩
abbrev main_call6_cst : Ref sig .tc := ⟨.hbm, 219, rfl⟩
abbrev main_call6_v15 : Ref sig .tc := ⟨.hbm, 220, rfl⟩
abbrev main_v33 : Ref sig .tc := ⟨.hbm, 221, rfl⟩
abbrev main_call7_c : Ref sig .tc := ⟨.hbm, 222, rfl⟩
abbrev main_call7_v0 : Ref sig .tc := ⟨.hbm, 223, rfl⟩
abbrev main_call7_v1 : Ref sig .tc := ⟨.hbm, 224, rfl⟩
abbrev main_call7_c_0 : Ref sig .tc := ⟨.hbm, 225, rfl⟩
abbrev main_call7_v2 : Ref sig .tc := ⟨.hbm, 226, rfl⟩
abbrev main_call7_v3 : Ref sig .tc := ⟨.hbm, 227, rfl⟩
abbrev main_call7_v4 : Ref sig .tc := ⟨.hbm, 228, rfl⟩
abbrev main_call7_v5 : Ref sig .tc := ⟨.hbm, 229, rfl⟩
abbrev main_call7_c_1 : Ref sig .tc := ⟨.hbm, 230, rfl⟩
abbrev main_call7_c_2 : Ref sig .tc := ⟨.hbm, 231, rfl⟩
abbrev main_call7_v6 : Ref sig .tc := ⟨.hbm, 232, rfl⟩
abbrev main_call7_v7 : Ref sig .tc := ⟨.hbm, 233, rfl⟩
abbrev main_call7_v8 : Ref sig .tc := ⟨.hbm, 234, rfl⟩
abbrev main_call7_v9 : Ref sig .tc := ⟨.hbm, 235, rfl⟩
abbrev main_call7_v10 : Ref sig .tc := ⟨.hbm, 236, rfl⟩
abbrev main_call7_v11 : Ref sig .tc := ⟨.hbm, 237, rfl⟩
abbrev main_call7_c_3 : Ref sig .tc := ⟨.hbm, 238, rfl⟩
abbrev main_call7_v12 : Ref sig .tc := ⟨.hbm, 239, rfl⟩
abbrev main_call7_v13 : Ref sig .tc := ⟨.hbm, 240, rfl⟩
abbrev main_call7_v14 : Ref sig .tc := ⟨.hbm, 241, rfl⟩
abbrev main_call7_cst : Ref sig .tc := ⟨.hbm, 242, rfl⟩
abbrev main_call7_v15 : Ref sig .tc := ⟨.hbm, 243, rfl⟩
abbrev main_v34 : Ref sig .tc := ⟨.hbm, 244, rfl⟩
abbrev main_call8_c : Ref sig .tc := ⟨.hbm, 245, rfl⟩
abbrev main_call8_v0 : Ref sig .tc := ⟨.hbm, 246, rfl⟩
abbrev main_call8_v1 : Ref sig .tc := ⟨.hbm, 247, rfl⟩
abbrev main_call8_c_0 : Ref sig .tc := ⟨.hbm, 248, rfl⟩
abbrev main_call8_v2 : Ref sig .tc := ⟨.hbm, 249, rfl⟩
abbrev main_call8_v3 : Ref sig .tc := ⟨.hbm, 250, rfl⟩
abbrev main_call8_v4 : Ref sig .tc := ⟨.hbm, 251, rfl⟩
abbrev main_call8_v5 : Ref sig .tc := ⟨.hbm, 252, rfl⟩
abbrev main_call8_c_1 : Ref sig .tc := ⟨.hbm, 253, rfl⟩
abbrev main_call8_c_2 : Ref sig .tc := ⟨.hbm, 254, rfl⟩
abbrev main_call8_v6 : Ref sig .tc := ⟨.hbm, 255, rfl⟩
abbrev main_call8_v7 : Ref sig .tc := ⟨.hbm, 256, rfl⟩
abbrev main_call8_v8 : Ref sig .tc := ⟨.hbm, 257, rfl⟩
abbrev main_call8_v9 : Ref sig .tc := ⟨.hbm, 258, rfl⟩
abbrev main_call8_v10 : Ref sig .tc := ⟨.hbm, 259, rfl⟩
abbrev main_call8_v11 : Ref sig .tc := ⟨.hbm, 260, rfl⟩
abbrev main_call8_c_3 : Ref sig .tc := ⟨.hbm, 261, rfl⟩
abbrev main_call8_v12 : Ref sig .tc := ⟨.hbm, 262, rfl⟩
abbrev main_call8_v13 : Ref sig .tc := ⟨.hbm, 263, rfl⟩
abbrev main_call8_v14 : Ref sig .tc := ⟨.hbm, 264, rfl⟩
abbrev main_call8_cst : Ref sig .tc := ⟨.hbm, 265, rfl⟩
abbrev main_call8_v15 : Ref sig .tc := ⟨.hbm, 266, rfl⟩
abbrev main_v35 : Ref sig .tc := ⟨.hbm, 267, rfl⟩
abbrev main_v36 : Ref sig .tc := ⟨.hbm, 268, rfl⟩
abbrev main_v37 : Ref sig .tc := ⟨.hbm, 269, rfl⟩
abbrev main_v38 : Ref sig .tc := ⟨.hbm, 270, rfl⟩
abbrev main_v39 : Ref sig .tc := ⟨.hbm, 271, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg4_1 : Ref sig .tc := ⟨.vmem, 21, rfl⟩
abbrev cc3_stg5_0 : Ref sig .tc := ⟨.vmem, 22, rfl⟩
abbrev cc3_stg5_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg4_0 : Ref sig .tc := ⟨.vmem, 29, rfl⟩
abbrev cc4_stg4_1 : Ref sig .tc := ⟨.vmem, 30, rfl⟩
abbrev cc4_stg5_0 : Ref sig .tc := ⟨.vmem, 31, rfl⟩
abbrev cc4_stg5_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg4_1 : Ref sig .tc := ⟨.vmem, 39, rfl⟩
abbrev cc5_stg5_0 : Ref sig .tc := ⟨.vmem, 40, rfl⟩
abbrev cc5_stg5_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg3_1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg2_0 : Ref sig .tc := ⟨.vmem, 57, rfl⟩
abbrev cc8_stg3_0 : Ref sig .tc := ⟨.vmem, 58, rfl⟩
abbrev cc8_stg3_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem4_1 : DmaSem sig := 21
abbrev cc3_sem5_0 : DmaSem sig := 22
abbrev cc3_sem5_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem4_0 : DmaSem sig := 29
abbrev cc4_sem4_1 : DmaSem sig := 30
abbrev cc4_sem5_0 : DmaSem sig := 31
abbrev cc4_sem5_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem4_1 : DmaSem sig := 39
abbrev cc5_sem5_0 : DmaSem sig := 40
abbrev cc5_sem5_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem2_0 : DmaSem sig := 51
abbrev cc7_sem3_0 : DmaSem sig := 52
abbrev cc7_sem3_1 : DmaSem sig := 53
abbrev cc8_sem0_0 : DmaSem sig := 54
abbrev cc8_sem0_1 : DmaSem sig := 55
abbrev cc8_sem1_0 : DmaSem sig := 56
abbrev cc8_sem2_0 : DmaSem sig := 57
abbrev cc8_sem3_0 : DmaSem sig := 58
abbrev cc8_sem3_1 : DmaSem sig := 59

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![3], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![6], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S5000x32 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S5000x32 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S16x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x16 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S16x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x16 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S16x1 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x1 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  concatenates_S50000x64_S30000x64_S20000x64_S100000x64_d0 : Shape.Concatenates [S50000x64, S30000x64, S20000x64] S100000x64 0
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  slices_S100000x64_S50000x64_0_0 : S100000x64.Slices ![0, 0] S50000x64
  slices_S100000x64_S30000x64_50000_0 : S100000x64.Slices ![50000, 0] S30000x64
  slices_S100000x64_S20000x64_80000_0 : S100000x64.Slices ![80000, 0] S20000x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x64_0 : S100000.BroadcastsInDim S100000x64 (![0] : Fin 1 → Fin S100000x64.rank)
  bcast_S100000_S100000x32_0 : S100000.BroadcastsInDim S100000x32 (![0] : Fin 1 → Fin S100000x32.rank)
  bcast_S_S100000x32 : S_.BroadcastsInDim S100000x32 (![] : Fin 0 → Fin S100000x32.rank)
  concatenates_S100000x64_S100000x32_S100000x32_S100000x128_d1 : Shape.Concatenates [S100000x64, S100000x32, S100000x32] S100000x128 1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x16_S128x16_0_0 : ∀ a, (![0, 0] : Fin 2 → Nat) a + S128x16.size a ≤ S128x16.size a
  h_S128x16 : 0 < S128x16.numel
  inb_S16x1_S16x1_0_0 : ∀ a, (![0, 0] : Fin 2 → Nat) a + S16x1.size a ≤ S16x1.size a
  h_S16x1 : 0 < S16x1.numel
  inb_S5000x1_S5000x1_0_0 : ∀ a, (![0, 0] : Fin 2 → Nat) a + S5000x1.size a ≤ S5000x1.size a
  h_S5000x1 : 0 < S5000x1.numel
  concatenates_S100000x1_S100000x1_S100000x1_S300000x1_d0 : Shape.Concatenates [S100000x1, S100000x1, S100000x1] S300000x1 0
  shapeCasts_S300000x1_S300000 : S300000x1.ShapeCasts S300000
  dot_S10000x128_S128x64_S10000x64_1_0_0_1_n_n_wf : DotDims.WF S10000x128 S128x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  gather_S50000x64_S100000x1_S100000x64_1_0_n_n_0_1_164_wf : GatherDims.WF S50000x64 S100000x1 S100000x64 [1] [0] [] [0] [] 1 ![1, 64]
  gather_S30000x32_S100000x1_S100000x32_1_0_n_n_0_1_132_wf : GatherDims.WF S30000x32 S100000x1 S100000x32 [1] [0] [] [0] [] 1 ![1, 32]
  gather_S20000x32_S100000x1_S100000x32_1_0_n_n_0_1_132_wf : GatherDims.WF S20000x32 S100000x1 S100000x32 [1] [0] [] [0] [] 1 ![1, 32]
  dot_S5000x128_S128x16_S5000x16_1_0_0_1_n_n_wf : DotDims.WF S5000x128 S128x16 S5000x16 [1] [0] [0] [1] [] []
  dot_S5000x16_S16x1_S5000x1_1_0_0_1_n_n_wf : DotDims.WF S5000x16 S16x1 S5000x1 [1] [0] [0] [1] [] []
  gather_S30000x64_S100000x1_S100000x64_1_0_n_n_0_1_164_wf : GatherDims.WF S30000x64 S100000x1 S100000x64 [1] [0] [] [0] [] 1 ![1, 64]
  gather_S50000x32_S100000x1_S100000x32_1_0_n_n_0_1_132_wf : GatherDims.WF S50000x32 S100000x1 S100000x32 [1] [0] [] [0] [] 1 ![1, 32]
  gather_S20000x64_S100000x1_S100000x64_1_0_n_n_0_1_164_wf : GatherDims.WF S20000x64 S100000x1 S100000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .bf16 = 32 ∨ (Rect.block (s := S50000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S30000x128.size a
  hwx1_0 : ∀ i : grid1.Coords, EltTy.bits .f32 = 32 ∨ (Rect.block (s := S30000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S30000x64.size a
  hwx1_2 : ∀ i : grid1.Coords, EltTy.bits .bf16 = 32 ∨ (Rect.block (s := S30000x64) S10000x64.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S20000x128.size a
  hwx2_0 : ∀ i : grid2.Coords, EltTy.bits .f32 = 32 ∨ (Rect.block (s := S20000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S20000x64.size a
  hwx2_2 : ∀ i : grid2.Coords, EltTy.bits .bf16 = 32 ∨ (Rect.block (s := S20000x64) S10000x64.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x32.size a ≤ S64x32.size a
  hwx3_3 : ∀ i : grid3.Coords, EltTy.bits .f32 = 32 ∨ (Rect.block (s := S64x32) S64x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x32.size a ≤ S50000x32.size a
  hwx3_5 : ∀ i : grid3.Coords, EltTy.bits .f32 = 32 ∨ (Rect.block (s := S50000x32) S5000x32.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S30000x64.size a
  hwx4_0 : ∀ i : grid4.Coords, EltTy.bits .f32 = 32 ∨ (Rect.block (s := S30000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x32.size a ≤ S64x32.size a
  hwx4_3 : ∀ i : grid4.Coords, EltTy.bits .f32 = 32 ∨ (Rect.block (s := S64x32) S64x32.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S30000x64.size a
  hwx4_4 : ∀ i : grid4.Coords, EltTy.bits .f32 = 32 ∨ (Rect.block (s := S30000x64) S5000x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x32.size a ≤ S30000x32.size a
  hwx4_5 : ∀ i : grid4.Coords, EltTy.bits .f32 = 32 ∨ (Rect.block (s := S30000x32) S5000x32.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S20000x64.size a
  hwx5_0 : ∀ i : grid5.Coords, EltTy.bits .f32 = 32 ∨ (Rect.block (s := S20000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x32.size a ≤ S64x32.size a
  hwx5_3 : ∀ i : grid5.Coords, EltTy.bits .f32 = 32 ∨ (Rect.block (s := S64x32) S64x32.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S20000x64.size a
  hwx5_4 : ∀ i : grid5.Coords, EltTy.bits .f32 = 32 ∨ (Rect.block (s := S20000x64) S5000x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x32.size a ≤ S20000x32.size a
  hwx5_5 : ∀ i : grid5.Coords, EltTy.bits .f32 = 32 ∨ (Rect.block (s := S20000x32) S5000x32.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x16.size a ≤ S128x16.size a
  hwx6_1 : ∀ i : grid6.Coords, EltTy.bits .f32 = 32 ∨ (Rect.block (s := S128x16) S128x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S16x1.size a ≤ S16x1.size a
  hwx6_2 : ∀ i : grid6.Coords, EltTy.bits .f32 = 32 ∨ (Rect.block (s := S16x1) S16x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x1.size a ≤ S100000x1.size a
  hwx6_3 : ∀ i : grid6.Coords, EltTy.bits .f32 = 32 ∨ (Rect.block (s := S100000x1) S5000x1.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x16.size a ≤ S128x16.size a
  hwx7_1 : ∀ i : grid7.Coords, EltTy.bits .f32 = 32 ∨ (Rect.block (s := S128x16) S128x16.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S16x1.size a ≤ S16x1.size a
  hwx7_2 : ∀ i : grid7.Coords, EltTy.bits .f32 = 32 ∨ (Rect.block (s := S16x1) S16x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x1.size a ≤ S100000x1.size a
  hwx7_3 : ∀ i : grid7.Coords, EltTy.bits .f32 = 32 ∨ (Rect.block (s := S100000x1) S5000x1.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x16.size a ≤ S128x16.size a
  hwx8_1 : ∀ i : grid8.Coords, EltTy.bits .f32 = 32 ∨ (Rect.block (s := S128x16) S128x16.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S16x1.size a ≤ S16x1.size a
  hwx8_2 : ∀ i : grid8.Coords, EltTy.bits .f32 = 32 ∨ (Rect.block (s := S16x1) S16x1.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x1.size a ≤ S100000x1.size a
  hwx8_3 : ∀ i : grid8.Coords, EltTy.bits .f32 = 32 ∨ (Rect.block (s := S100000x1) S5000x1.size (cc8_transform_3 i) (hinb8_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x64_S100000x1_S100000x64_1_0_n_n_0_1_164 : GatherDims S50000x64 S100000x1 S100000x64 where
  offsetDims := [1]
  collapsedSliceDims := [0]
  operandBatchingDims := []
  startIndicesBatchingDims := []
  startIndexMap := [0]
  indexVectorDim := 1
  sliceSizes := ![1, 64]
  wf := gather_S50000x64_S100000x1_S100000x64_1_0_n_n_0_1_164_wf
def gather_S30000x32_S100000x1_S100000x32_1_0_n_n_0_1_132 : GatherDims S30000x32 S100000x1 S100000x32 where
  offsetDims := [1]
  collapsedSliceDims := [0]
  operandBatchingDims := []
  startIndicesBatchingDims := []
  startIndexMap := [0]
  indexVectorDim := 1
  sliceSizes := ![1, 32]
  wf := gather_S30000x32_S100000x1_S100000x32_1_0_n_n_0_1_132_wf
def gather_S20000x32_S100000x1_S100000x32_1_0_n_n_0_1_132 : GatherDims S20000x32 S100000x1 S100000x32 where
  offsetDims := [1]
  collapsedSliceDims := [0]
  operandBatchingDims := []
  startIndicesBatchingDims := []
  startIndexMap := [0]
  indexVectorDim := 1
  sliceSizes := ![1, 32]
  wf := gather_S20000x32_S100000x1_S100000x32_1_0_n_n_0_1_132_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf
def gather_S30000x64_S100000x1_S100000x64_1_0_n_n_0_1_164 : GatherDims S30000x64 S100000x1 S100000x64 where
  offsetDims := [1]
  collapsedSliceDims := [0]
  operandBatchingDims := []
  startIndicesBatchingDims := []
  startIndexMap := [0]
  indexVectorDim := 1
  sliceSizes := ![1, 64]
  wf := gather_S30000x64_S100000x1_S100000x64_1_0_n_n_0_1_164_wf
def gather_S50000x32_S100000x1_S100000x32_1_0_n_n_0_1_132 : GatherDims S50000x32 S100000x1 S100000x32 where
  offsetDims := [1]
  collapsedSliceDims := [0]
  operandBatchingDims := []
  startIndicesBatchingDims := []
  startIndexMap := [0]
  indexVectorDim := 1
  sliceSizes := ![1, 32]
  wf := gather_S50000x32_S100000x1_S100000x32_1_0_n_n_0_1_132_wf
def gather_S20000x64_S100000x1_S100000x64_1_0_n_n_0_1_164 : GatherDims S20000x64 S100000x1 S100000x64 where
  offsetDims := [1]
  collapsedSliceDims := [0]
  operandBatchingDims := []
  startIndicesBatchingDims := []
  startIndexMap := [0]
  indexVectorDim := 1
  sliceSizes := ![1, 64]
  wf := gather_S20000x64_S100000x1_S100000x64_1_0_n_n_0_1_164_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v15) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v18) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S64x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v19_0) S5000x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v19_1) S5000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v16) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v18) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S64x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v20_0) S5000x64.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v20_1) S5000x32.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v17) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg6) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v18) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg10) S64x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v21_0) S5000x64.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v21_1) S5000x32.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v26) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S128x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg14) S16x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v27) S5000x1.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v31) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg12) S128x16.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg15) S16x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v32) S5000x1.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v36) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg13) S128x16.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg16) S16x1.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v37) S5000x1.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S50000x128 : Shape := ⟨2, ![50000, 128]⟩
abbrev S30000x128 : Shape := ⟨2, ![30000, 128]⟩
abbrev S20000x128 : Shape := ⟨2, ![20000, 128]⟩
abbrev S128x64 : Shape := ⟨2, ![128, 64]⟩
abbrev S64x64 : Shape := ⟨2, ![64, 64]⟩
abbrev S64 : Shape := ⟨1, ![64]⟩
abbrev S64x32 : Shape := ⟨2, ![64, 32]⟩
abbrev S128x16 : Shape := ⟨2, ![128, 16]⟩
abbrev S16x1 : Shape := ⟨2, ![16, 1]⟩
abbrev S3200000 : Shape := ⟨1, ![3200000]⟩
abbrev S100000 : Shape := ⟨1, ![100000]⟩
abbrev S50000x64 : Shape := ⟨2, ![50000, 64]⟩
abbrev S30000x64 : Shape := ⟨2, ![30000, 64]⟩
abbrev S20000x64 : Shape := ⟨2, ![20000, 64]⟩
abbrev S100000x64 : Shape := ⟨2, ![100000, 64]⟩
abbrev S_ : Shape := ⟨0, ![]⟩
abbrev S3200000x1 : Shape := ⟨2, ![3200000, 1]⟩
abbrev S3200000x64 : Shape := ⟨2, ![3200000, 64]⟩
abbrev S1x64 : Shape := ⟨2, ![1, 64]⟩
abbrev S100000x1 : Shape := ⟨2, ![100000, 1]⟩
abbrev S50000x32 : Shape := ⟨2, ![50000, 32]⟩
abbrev S30000x32 : Shape := ⟨2, ![30000, 32]⟩
abbrev S20000x32 : Shape := ⟨2, ![20000, 32]⟩
abbrev S100000x32 : Shape := ⟨2, ![100000, 32]⟩
abbrev S100000x128 : Shape := ⟨2, ![100000, 128]⟩
abbrev S100000x16 : Shape := ⟨2, ![100000, 16]⟩
abbrev S300000x1 : Shape := ⟨2, ![300000, 1]⟩
abbrev S300000 : Shape := ⟨1, ![300000]⟩

abbrev nBuf : Space → Nat
  | .hbm => 174
  | .vmem => 0
  | .smem => 0
  | _ => 0

abbrev hbmTy0_0 (i : Nat) : BufTy := match i % 128 with
  | 0 => ⟨S50000x128, .f32⟩
  | 1 => ⟨S30000x128, .f32⟩
  | 2 => ⟨S20000x128, .f32⟩
  | 3 => ⟨S128x64, .f32⟩
  | 4 => ⟨S128x64, .f32⟩
  | 5 => ⟨S128x64, .f32⟩
  | 6 => ⟨S64x64, .f32⟩
  | 7 => ⟨S64, .f32⟩
  | 8 => ⟨S64x32, .f32⟩
  | 9 => ⟨S64x32, .f32⟩
  | 10 => ⟨S64x32, .f32⟩
  | 11 => ⟨S128x16, .f32⟩
  | 12 => ⟨S128x16, .f32⟩
  | 13 => ⟨S128x16, .f32⟩
  | 14 => ⟨S16x1, .f32⟩
  | 15 => ⟨S16x1, .f32⟩
  | 16 => ⟨S16x1, .f32⟩
  | 17 => ⟨S3200000, .i32⟩
  | 18 => ⟨S3200000, .i32⟩
  | 19 => ⟨S100000, .i32⟩
  | 20 => ⟨S100000, .i32⟩
  | 21 => ⟨S100000, .i32⟩
  | 22 => ⟨S100000, .i32⟩
  | 23 => ⟨S100000, .i32⟩
  | 24 => ⟨S100000, .i32⟩
  | 25 => ⟨S100000, .i32⟩
  | 26 => ⟨S100000, .i32⟩
  | 27 => ⟨S100000, .i32⟩
  | 28 => ⟨S50000x64, .f32⟩
  | 29 => ⟨S30000x64, .f32⟩
  | 30 => ⟨S20000x64, .f32⟩
  | 31 => ⟨S100000x64, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000x64, .f32⟩
  | 41 => ⟨S_, .f32⟩
  | 42 => ⟨S100000x64, .f32⟩
  | 43 => ⟨S3200000x1, .i32⟩
  | 44 => ⟨S100000x64, .f32⟩
  | 45 => ⟨S100000x64, .f32⟩
  | 46 => ⟨S1x64, .f32⟩
  | 47 => ⟨S100000x64, .f32⟩
  | 48 => ⟨S100000x64, .f32⟩
  | 49 => ⟨S100000x64, .f32⟩
  | 50 => ⟨S_, .f32⟩
  | 51 => ⟨S100000, .f32⟩
  | 52 => ⟨S100000x1, .f32⟩
  | 53 => ⟨S100000x1, .f32⟩
  | 54 => ⟨S_, .f32⟩
  | 55 => ⟨S100000x1, .f32⟩
  | 56 => ⟨S100000x1, .f32⟩
  | 57 => ⟨S100000x64, .f32⟩
  | 58 => ⟨S100000x64, .f32⟩
  | 59 => ⟨S50000x64, .f32⟩
  | 60 => ⟨S30000x64, .f32⟩
  | 61 => ⟨S20000x64, .f32⟩
  | 62 => ⟨S50000x32, .f32⟩
  | 63 => ⟨S30000x32, .f32⟩
  | 64 => ⟨S20000x32, .f32⟩
  | 65 => ⟨S_, .i32⟩
  | 66 => ⟨S100000, .i32⟩
  | 67 => ⟨S100000, .i1⟩
  | 68 => ⟨S_, .i32⟩
  | 69 => ⟨S100000, .i32⟩
  | 70 => ⟨S100000, .i32⟩
  | 71 => ⟨S100000, .i32⟩
  | 72 => ⟨S100000x1, .i32⟩
  | 73 => ⟨S100000x64, .f32⟩
  | 74 => ⟨S_, .i32⟩
  | 75 => ⟨S100000, .i32⟩
  | 76 => ⟨S100000, .i1⟩
  | 77 => ⟨S_, .i32⟩
  | 78 => ⟨S100000, .i32⟩
  | 79 => ⟨S100000, .i32⟩
  | 80 => ⟨S100000, .i32⟩
  | 81 => ⟨S100000x1, .i32⟩
  | 82 => ⟨S100000x32, .f32⟩
  | 83 => ⟨S_, .i32⟩
  | 84 => ⟨S100000, .i32⟩
  | 85 => ⟨S100000, .i1⟩
  | 86 => ⟨S_, .i32⟩
  | 87 => ⟨S100000, .i32⟩
  | 88 => ⟨S100000, .i32⟩
  | 89 => ⟨S100000, .i32⟩
  | 90 => ⟨S100000x1, .i32⟩
  | 91 => ⟨S100000x32, .f32⟩
  | 92 => ⟨S100000x128, .f32⟩
  | 93 => ⟨S100000x16, .f32⟩
  | 94 => ⟨S_, .f32⟩
  | 95 => ⟨S100000x16, .f32⟩
  | 96 => ⟨S100000x16, .f32⟩
  | 97 => ⟨S100000x1, .f32⟩
  | 98 => ⟨S_, .i32⟩
  | 99 => ⟨S100000, .i32⟩
  | 100 => ⟨S100000, .i1⟩
  | 101 => ⟨S_, .i32⟩
  | 102 => ⟨S100000, .i32⟩
  | 103 => ⟨S100000, .i32⟩
  | 104 => ⟨S100000, .i32⟩
  | 105 => ⟨S100000x1, .i32⟩
  | 106 => ⟨S100000x64, .f32⟩
  | 107 => ⟨S_, .i32⟩
  | 108 => ⟨S100000, .i32⟩
  | 109 => ⟨S100000, .i1⟩
  | 110 => ⟨S_, .i32⟩
  | 111 => ⟨S100000, .i32⟩
  | 112 => ⟨S100000, .i32⟩
  | 113 => ⟨S100000, .i32⟩
  | 114 => ⟨S100000x1, .i32⟩
  | 115 => ⟨S100000x32, .f32⟩
  | 116 => ⟨S_, .i32⟩
  | 117 => ⟨S100000, .i32⟩
  | 118 => ⟨S100000, .i1⟩
  | 119 => ⟨S_, .i32⟩
  | 120 => ⟨S100000, .i32⟩
  | 121 => ⟨S100000, .i32⟩
  | 122 => ⟨S100000, .i32⟩
  | 123 => ⟨S100000x1, .i32⟩
  | 124 => ⟨S100000x32, .f32⟩
  | 125 => ⟨S100000x128, .f32⟩
  | 126 => ⟨S100000x16, .f32⟩
  | 127 => ⟨S_, .f32⟩
  | _ => ⟨S50000x128, .f32⟩

abbrev hbmTy0_1 (i : Nat) : BufTy := match i % 128 with
  | 0 => ⟨S100000x16, .f32⟩
  | 1 => ⟨S100000x16, .f32⟩
  | 2 => ⟨S100000x1, .f32⟩
  | 3 => ⟨S_, .i32⟩
  | 4 => ⟨S100000, .i32⟩
  | 5 => ⟨S100000, .i1⟩
  | 6 => ⟨S_, .i32⟩
  | 7 => ⟨S100000, .i32⟩
  | 8 => ⟨S100000, .i32⟩
  | 9 => ⟨S100000, .i32⟩
  | 10 => ⟨S100000x1, .i32⟩
  | 11 => ⟨S100000x64, .f32⟩
  | 12 => ⟨S_, .i32⟩
  | 13 => ⟨S100000, .i32⟩
  | 14 => ⟨S100000, .i1⟩
  | 15 => ⟨S_, .i32⟩
  | 16 => ⟨S100000, .i32⟩
  | 17 => ⟨S100000, .i32⟩
  | 18 => ⟨S100000, .i32⟩
  | 19 => ⟨S100000x1, .i32⟩
  | 20 => ⟨S100000x32, .f32⟩
  | 21 => ⟨S_, .i32⟩
  | 22 => ⟨S100000, .i32⟩
  | 23 => ⟨S100000, .i1⟩
  | 24 => ⟨S_, .i32⟩
  | 25 => ⟨S100000, .i32⟩
  | 26 => ⟨S100000, .i32⟩
  | 27 => ⟨S100000, .i32⟩
  | 28 => ⟨S100000x1, .i32⟩
  | 29 => ⟨S100000x32, .f32⟩
  | 30 => ⟨S100000x128, .f32⟩
  | 31 => ⟨S100000x16, .f32⟩
  | 32 => ⟨S_, .f32⟩
  | 33 => ⟨S100000x16, .f32⟩
  | 34 => ⟨S100000x16, .f32⟩
  | 35 => ⟨S100000x1, .f32⟩
  | 36 => ⟨S300000x1, .f32⟩
  | 37 => ⟨S300000x1, .f32⟩
  | 38 => ⟨S300000x1, .f32⟩
  | 39 => ⟨S_, .f32⟩
  | 40 => ⟨S300000x1, .f32⟩
  | 41 => ⟨S300000x1, .f32⟩
  | 42 => ⟨S_, .f32⟩
  | 43 => ⟨S300000x1, .f32⟩
  | 44 => ⟨S300000x1, .f32⟩
  | 45 => ⟨S300000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_c : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_call0_v0 : Ref sig .tc := ⟨.hbm, 49, rfl⟩
abbrev main_call0_cst : Ref sig .tc := ⟨.hbm, 50, rfl⟩
abbrev main_call0_v1 : Ref sig .tc := ⟨.hbm, 51, rfl⟩
abbrev main_call0_v2 : Ref sig .tc := ⟨.hbm, 52, rfl⟩
abbrev main_v18 : Ref sig .tc := ⟨.hbm, 53, rfl⟩
abbrev main_cst_1 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_c_2 : Ref sig .tc := ⟨.hbm, 65, rfl⟩
abbrev main_v29 : Ref sig .tc := ⟨.hbm, 66, rfl⟩
abbrev main_v30 : Ref sig .tc := ⟨.hbm, 67, rfl⟩
abbrev main_c_3 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_c_4 : Ref sig .tc := ⟨.hbm, 74, rfl⟩
abbrev main_v36 : Ref sig .tc := ⟨.hbm, 75, rfl⟩
abbrev main_v37 : Ref sig .tc := ⟨.hbm, 76, rfl⟩
abbrev main_c_5 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_c_6 : Ref sig .tc := ⟨.hbm, 83, rfl⟩
abbrev main_v43 : Ref sig .tc := ⟨.hbm, 84, rfl⟩
abbrev main_v44 : Ref sig .tc := ⟨.hbm, 85, rfl⟩
abbrev main_c_7 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_call1_cst : Ref sig .tc := ⟨.hbm, 94, rfl⟩
abbrev main_call1_v0 : Ref sig .tc := ⟨.hbm, 95, rfl⟩
abbrev main_v52 : Ref sig .tc := ⟨.hbm, 96, rfl⟩
abbrev main_v53 : Ref sig .tc := ⟨.hbm, 97, rfl⟩
abbrev main_c_8 : Ref sig .tc := ⟨.hbm, 98, rfl⟩
abbrev main_v54 : Ref sig .tc := ⟨.hbm, 99, rfl⟩
abbrev main_v55 : Ref sig .tc := ⟨.hbm, 100, rfl⟩
abbrev main_c_9 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_c_10 : Ref sig .tc := ⟨.hbm, 107, rfl⟩
abbrev main_v61 : Ref sig .tc := ⟨.hbm, 108, rfl⟩
abbrev main_v62 : Ref sig .tc := ⟨.hbm, 109, rfl⟩
abbrev main_c_11 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_c_12 : Ref sig .tc := ⟨.hbm, 116, rfl⟩
abbrev main_v68 : Ref sig .tc := ⟨.hbm, 117, rfl⟩
abbrev main_v69 : Ref sig .tc := ⟨.hbm, 118, rfl⟩
abbrev main_c_13 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_call2_cst : Ref sig .tc := ⟨.hbm, 127, rfl⟩
abbrev main_call2_v0 : Ref sig .tc := ⟨.hbm, 128, rfl⟩
abbrev main_v77 : Ref sig .tc := ⟨.hbm, 129, rfl⟩
abbrev main_v78 : Ref sig .tc := ⟨.hbm, 130, rfl⟩
abbrev main_c_14 : Ref sig .tc := ⟨.hbm, 131, rfl⟩
abbrev main_v79 : Ref sig .tc := ⟨.hbm, 132, rfl⟩
abbrev main_v80 : Ref sig .tc := ⟨.hbm, 133, rfl⟩
abbrev main_c_15 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_c_16 : Ref sig .tc := ⟨.hbm, 140, rfl⟩
abbrev main_v86 : Ref sig .tc := ⟨.hbm, 141, rfl⟩
abbrev main_v87 : Ref sig .tc := ⟨.hbm, 142, rfl⟩
abbrev main_c_17 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_c_18 : Ref sig .tc := ⟨.hbm, 149, rfl⟩
abbrev main_v93 : Ref sig .tc := ⟨.hbm, 150, rfl⟩
abbrev main_v94 : Ref sig .tc := ⟨.hbm, 151, rfl⟩
abbrev main_c_19 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_call3_cst : Ref sig .tc := ⟨.hbm, 160, rfl⟩
abbrev main_call3_v0 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_cst_20 : Ref sig .tc := ⟨.hbm, 167, rfl⟩
abbrev main_v107 : Ref sig .tc := ⟨.hbm, 168, rfl⟩
abbrev main_v108 : Ref sig .tc := ⟨.hbm, 169, rfl⟩
abbrev main_cst_21 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩

abbrev nD : Nat := 1
abbrev τ : Topo := Topo.v7x

variable {F : FTy → Type} [FloatOps F]

class Facts₀ : Prop where
  concatenates_S50000x64_S30000x64_S20000x64_S100000x64_d0 : Shape.Concatenates [S50000x64, S30000x64, S20000x64] S100000x64 0
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  slices_S100000x64_S50000x64_0_0 : S100000x64.Slices ![0, 0] S50000x64
  slices_S100000x64_S30000x64_50000_0 : S100000x64.Slices ![50000, 0] S30000x64
  slices_S100000x64_S20000x64_80000_0 : S100000x64.Slices ![80000, 0] S20000x64
  bcast_S_S100000 : S_.BroadcastsInDim S100000 (![] : Fin 0 → Fin S100000.rank)
  concatenates_S100000x64_S100000x32_S100000x32_S100000x128_d1 : Shape.Concatenates [S100000x64, S100000x32, S100000x32] S100000x128 1
  bcast_S_S100000x16 : S_.BroadcastsInDim S100000x16 (![] : Fin 0 → Fin S100000x16.rank)
  concatenates_S100000x1_S100000x1_S100000x1_S300000x1_d0 : Shape.Concatenates [S100000x1, S100000x1, S100000x1] S300000x1 0
  bcast_S_S300000x1 : S_.BroadcastsInDim S300000x1 (![] : Fin 0 → Fin S300000x1.rank)
  shapeCasts_S300000x1_S300000 : S300000x1.ShapeCasts S300000
  dot_S50000x128_S128x64_S50000x64_1_0_0_1_n_n_wf : DotDims.WF S50000x128 S128x64 S50000x64 [1] [0] [0] [1] [] []
  dot_S30000x128_S128x64_S30000x64_1_0_0_1_n_n_wf : DotDims.WF S30000x128 S128x64 S30000x64 [1] [0] [0] [1] [] []
  dot_S20000x128_S128x64_S20000x64_1_0_0_1_n_n_wf : DotDims.WF S20000x128 S128x64 S20000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S50000x64_S64x32_S50000x32_1_0_0_1_n_n_wf : DotDims.WF S50000x64 S64x32 S50000x32 [1] [0] [0] [1] [] []
  dot_S30000x64_S64x32_S30000x32_1_0_0_1_n_n_wf : DotDims.WF S30000x64 S64x32 S30000x32 [1] [0] [0] [1] [] []
  dot_S20000x64_S64x32_S20000x32_1_0_0_1_n_n_wf : DotDims.WF S20000x64 S64x32 S20000x32 [1] [0] [0] [1] [] []
  gather_S50000x64_S100000x1_S100000x64_1_0_n_n_0_1_164_wf : GatherDims.WF S50000x64 S100000x1 S100000x64 [1] [0] [] [0] [] 1 ![1, 64]
  gather_S30000x32_S100000x1_S100000x32_1_0_n_n_0_1_132_wf : GatherDims.WF S30000x32 S100000x1 S100000x32 [1] [0] [] [0] [] 1 ![1, 32]
  gather_S20000x32_S100000x1_S100000x32_1_0_n_n_0_1_132_wf : GatherDims.WF S20000x32 S100000x1 S100000x32 [1] [0] [] [0] [] 1 ![1, 32]
  dot_S100000x128_S128x16_S100000x16_1_0_0_1_n_n_wf : DotDims.WF S100000x128 S128x16 S100000x16 [1] [0] [0] [1] [] []
  dot_S100000x16_S16x1_S100000x1_1_0_0_1_n_n_wf : DotDims.WF S100000x16 S16x1 S100000x1 [1] [0] [0] [1] [] []
  gather_S30000x64_S100000x1_S100000x64_1_0_n_n_0_1_164_wf : GatherDims.WF S30000x64 S100000x1 S100000x64 [1] [0] [] [0] [] 1 ![1, 64]
  gather_S50000x32_S100000x1_S100000x32_1_0_n_n_0_1_132_wf : GatherDims.WF S50000x32 S100000x1 S100000x32 [1] [0] [] [0] [] 1 ![1, 32]
  gather_S20000x64_S100000x1_S100000x64_1_0_n_n_0_1_164_wf : GatherDims.WF S20000x64 S100000x1 S100000x64 [1] [0] [] [0] [] 1 ![1, 64]

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S30000x128_S128x64_S30000x64_1_0_0_1_n_n : DotDims S30000x128 S128x64 S30000x64 where
  lhsContracting := [1]
  rhsContracting := [0]
  lhsNonContracting := [0]
  rhsNonContracting := [1]
  lhsBatch := []
  rhsBatch := []
  wf := dot_S30000x128_S128x64_S30000x64_1_0_0_1_n_n_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S30000x64_S64x32_S30000x32_1_0_0_1_n_n : DotDims S30000x64 S64x32 S30000x32 where
  lhsContracting := [1]
  rhsContracting := [0]
  lhsNonContracting := [0]
  rhsNonContracting := [1]
  lhsBatch := []
  rhsBatch := []
  wf := dot_S30000x64_S64x32_S30000x32_1_0_0_1_n_n_wf
def dot_S20000x64_S64x32_S20000x32_1_0_0_1_n_n : DotDims S20000x64 S64x32 S20000x32 where
  lhsContracting := [1]
  rhsContracting := [0]
  lhsNonContracting := [0]
  rhsNonContracting := [1]
  lhsBatch := []
  rhsBatch := []
  wf := dot_S20000x64_S64x32_S20000x32_1_0_0_1_n_n_wf
def gather_S50000x64_S100000x1_S100000x64_1_0_n_n_0_1_164 : GatherDims S50000x64 S100000x1 S100000x64 where
  offsetDims := [1]
  collapsedSliceDims := [0]
  operandBatchingDims := []
  startIndicesBatchingDims := []
  startIndexMap := [0]
  indexVectorDim := 1
  sliceSizes := ![1, 64]
  wf := gather_S50000x64_S100000x1_S100000x64_1_0_n_n_0_1_164_wf
def gather_S30000x32_S100000x1_S100000x32_1_0_n_n_0_1_132 : GatherDims S30000x32 S100000x1 S100000x32 where
  offsetDims := [1]
  collapsedSliceDims := [0]
  operandBatchingDims := []
  startIndicesBatchingDims := []
  startIndexMap := [0]
  indexVectorDim := 1
  sliceSizes := ![1, 32]
  wf := gather_S30000x32_S100000x1_S100000x32_1_0_n_n_0_1_132_wf
def gather_S20000x32_S100000x1_S100000x32_1_0_n_n_0_1_132 : GatherDims S20000x32 S100000x1 S100000x32 where
  offsetDims := [1]
  collapsedSliceDims := [0]
  operandBatchingDims := []
  startIndicesBatchingDims := []
  startIndexMap := [0]
  indexVectorDim := 1
  sliceSizes := ![1, 32]
  wf := gather_S20000x32_S100000x1_S100000x32_1_0_n_n_0_1_132_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S30000x64_S100000x1_S100000x64_1_0_n_n_0_1_164 : GatherDims S30000x64 S100000x1 S100000x64 where
  offsetDims := [1]
  collapsedSliceDims := [0]
  operandBatchingDims := []
  startIndicesBatchingDims := []
  startIndexMap := [0]
  indexVectorDim := 1
  sliceSizes := ![1, 64]
  wf := gather_S30000x64_S100000x1_S100000x64_1_0_n_n_0_1_164_wf
def gather_S50000x32_S100000x1_S100000x32_1_0_n_n_0_1_132 : GatherDims S50000x32 S100000x1 S100000x32 where
  offsetDims := [1]
  collapsedSliceDims := [0]
  operandBatchingDims := []
  startIndicesBatchingDims := []
  startIndexMap := [0]
  indexVectorDim := 1
  sliceSizes := ![1, 32]
  wf := gather_S50000x32_S100000x1_S100000x32_1_0_n_n_0_1_132_wf
def gather_S20000x64_S100000x1_S100000x64_1_0_n_n_0_1_164 : GatherDims S20000x64 S100000x1 S100000x64 where
  offsetDims := [1]
  collapsedSliceDims := [0]
  operandBatchingDims := []
  startIndicesBatchingDims := []
  startIndexMap := [0]
  indexVectorDim := 1
  sliceSizes := ![1, 64]
  wf := gather_S20000x64_S100000x1_S100000x64_1_0_n_n_0_1_164_wf

class Facts : Prop extends Facts₀ where

variable [Facts]
-- ==== Proof.KernelIdeal.Reg0.lean ====
import proofs.«418426_j87943750353447_3_alg».proof.Proof.Gen.KernelIdeal.Launch
import proofs.«418426_j87943750353447_3_alg».proof.Proof.Gen.KernelIdeal.Skeleton
import proofs.«418426_j87943750353447_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S10000x128 := Rect.unit (s := S10000x128) ![0, 0] S10000x128.size inb_S10000x128_S10000x128_0_0
abbrev r0_w : Rect S128x64 := Rect.unit (s := S128x64) ![0, 0] S128x64.size inb_S128x64_S128x64_0_0
abbrev r0_o : Rect S10000x64 := Rect.unit (s := S10000x64) ![0, 0] S10000x64.size inb_S10000x64_S10000x64_0_0

def out0_2 (x0 : Vec F S10000x128 .f32) (x1 : Vec F S128x64 .f32) : Vec F S10000x64 .bf16 :=
  View.canon [⟨r0_o, k0_pay1 (View.ld x0 r0_x) (View.ld x1 r0_w)⟩]

theorem cover0_2 (p0 : Vec F S10000x64 .bf16) (y : S10000x64.Idx) :
    ∃ pc ∈ ([⟨r0_o, p0⟩] : List (View.Piece (Elt F) S10000x64 .bf16)), y ∈ pc.1.set :=
  View.cover_of_tiled [⟨r0_o, p0⟩] S10000x64.size (by rfl) y

set_option maxHeartbeats 1000000 in
theorem sound_kernel0 (c : Dev nD) (E : Set ℕ) (i : grid0.Coords) (arg1 : Memref sig .tc .vmem S10000x128 .f32) (harg1 : arg1.IsWhole) (arg2 : Memref sig .tc .vmem S128x64 .f32) (harg2 : arg2.IsWhole) (arg3 : Memref sig .tc .vmem S10000x64 .bf16) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Reg1.lean ====
import proofs.«418426_j87943750353447_3_alg».proof.Proof.Gen.KernelIdeal.Launch
import proofs.«418426_j87943750353447_3_alg».proof.Proof.Gen.KernelIdeal.Skeleton
import proofs.«418426_j87943750353447_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S10000x128 := Rect.unit (s := S10000x128) ![0, 0] S10000x128.size inb_S10000x128_S10000x128_0_0
abbrev r1_w : Rect S128x64 := Rect.unit (s := S128x64) ![0, 0] S128x64.size inb_S128x64_S128x64_0_0
abbrev r1_o : Rect S10000x64 := Rect.unit (s := S10000x64) ![0, 0] S10000x64.size inb_S10000x64_S10000x64_0_0

def out1_2 (x0 : Vec F S10000x128 .f32) (x1 : Vec F S128x64 .f32) : Vec F S10000x64 .bf16 :=
  View.canon [⟨r1_o, k1_pay1 (View.ld x0 r1_x) (View.ld x1 r1_w)⟩]

theorem cover1_2 (p0 : Vec F S10000x64 .bf16) (y : S10000x64.Idx) :
    ∃ pc ∈ ([⟨r1_o, p0⟩] : List (View.Piece (Elt F) S10000x64 .bf16)), y ∈ pc.1.set :=
  View.cover_of_tiled [⟨r1_o, p0⟩] S10000x64.size (by rfl) y

set_option maxHeartbeats 1000000 in
theorem sound_kernel1 (c : Dev nD) (E : Set ℕ) (i : grid1.Coords) (arg1 : Memref sig .tc .vmem S10000x128 .f32) (harg1 : arg1.IsWhole) (arg2 : Memref sig .tc .vmem S128x64 .f32) (harg2 : arg2.IsWhole) (arg3 : Memref sig .tc .vmem S10000x64 .bf16) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Reg2.lean ====
import proofs.«418426_j87943750353447_3_alg».proof.Proof.Gen.KernelIdeal.Launch
import proofs.«418426_j87943750353447_3_alg».proof.Proof.Gen.KernelIdeal.Skeleton
import proofs.«418426_j87943750353447_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_x : Rect S10000x128 := Rect.unit (s := S10000x128) ![0, 0] S10000x128.size inb_S10000x128_S10000x128_0_0
abbrev r2_w : Rect S128x64 := Rect.unit (s := S128x64) ![0, 0] S128x64.size inb_S128x64_S128x64_0_0
abbrev r2_o : Rect S10000x64 := Rect.unit (s := S10000x64) ![0, 0] S10000x64.size inb_S10000x64_S10000x64_0_0

def out2_2 (x0 : Vec F S10000x128 .f32) (x1 : Vec F S128x64 .f32) : Vec F S10000x64 .bf16 :=
  View.canon [⟨r2_o, k2_pay1 (View.ld x0 r2_x) (View.ld x1 r2_w)⟩]

theorem cover2_2 (p0 : Vec F S10000x64 .bf16) (y : S10000x64.Idx) :
    ∃ pc ∈ ([⟨r2_o, p0⟩] : List (View.Piece (Elt F) S10000x64 .bf16)), y ∈ pc.1.set :=
  View.cover_of_tiled [⟨r2_o, p0⟩] S10000x64.size (by rfl) y

set_option maxHeartbeats 1000000 in
theorem sound_kernel2 (c : Dev nD) (E : Set ℕ) (i : grid2.Coords) (arg1 : Memref sig .tc .vmem S10000x128 .f32) (harg1 : arg1.IsWhole) (arg2 : Memref sig .tc .vmem S128x64 .f32) (harg2 : arg2.IsWhole) (arg3 : Memref sig .tc .vmem S10000x64 .bf16) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__proj_kernel i arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.Reg3.lean ====
import proofs.«418426_j87943750353447_3_alg».proof.Proof.Gen.KernelIdeal.Launch
import proofs.«418426_j87943750353447_3_alg».proof.Proof.Gen.KernelIdeal.Skeleton
import proofs.«418426_j87943750353447_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S5000x64 := Rect.unit (s := S5000x64) ![0, 0] S5000x64.size inb_S5000x64_S5000x64_0_0
abbrev r3_1 : Rect S64x64 := Rect.unit (s := S64x64) ![0, 0] S64x64.size inb_S64x64_S64x64_0_0
abbrev r3_2 : Rect S1x64 := Rect.unit (s := S1x64) ![0, 0] S1x64.size inb_S1x64_S1x64_0_0
abbrev r3_3 : Rect S64x32 := Rect.unit (s := S64x32) ![0, 0] S64x32.size inb_S64x32_S64x32_0_0
abbrev r3_4 : Rect S5000x64 := Rect.unit (s := S5000x64) ![0, 0] S5000x64.size inb_S5000x64_S5000x64_0_0
abbrev r3_5 : Rect S5000x32 := Rect.unit (s := S5000x32) ![0, 0] S5000x32.size inb_S5000x32_S5000x32_0_0

def out3_4 (x0 : Vec F S5000x64 .f32) (x1 : Vec F S64x64 .f32) (x2 : Vec F S1x64 .f32) (x3 : Vec F S64x32 .f32) : Vec F S5000x64 .f32 :=
  View.canon [⟨r3_4, k3_pay1 (View.ld x0 r3_0) (View.ld x1 r3_1) (View.ld x2 r3_2)⟩]

theorem cover3_4 (p0 : Vec F S5000x64 .f32) (y : S5000x64.Idx) :
    ∃ pc ∈ ([⟨r3_4, p0⟩] : List (View.Piece (Elt F) S5000x64 .f32)), y ∈ pc.1.set :=
  View.cover_of_tiled [⟨r3_4, p0⟩] S5000x64.size (by rfl) y

def out3_5 (x0 : Vec F S5000x64 .f32) (x1 : Vec F S64x64 .f32) (x2 : Vec F S1x64 .f32) (x3 : Vec F S64x32 .f32) : Vec F S5000x32 .f32 :=
  View.canon [⟨r3_5, k3_pay2 (View.ld x0 r3_0) (View.ld x1 r3_1) (View.ld x2 r3_2) (View.ld x3 r3_3)⟩]

theorem cover3_5 (p0 : Vec F S5000x32 .f32) (y : S5000x32.Idx) :
    ∃ pc ∈ ([⟨r3_5, p0⟩] : List (View.Piece (Elt F) S5000x32 .f32)), y ∈ pc.1.set :=
  View.cover_of_tiled [⟨r3_5, p0⟩] S5000x32.size (by rfl) y

set_option maxHeartbeats 1000000 in
theorem sound_kernel3 (c : Dev nD) (E : Set ℕ) (i : grid3.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S5000x64 .f32) (harg5 : arg5.IsWhole) (arg6 : Memref sig .tc .vmem S5000x32 .f32) (harg6 : arg6.IsWhole)
    (x0 : Vec F S5000x64 .f32) (x1 : Vec F S64x64 .f32) (x2 : Vec F S1x64 .f32) (x3 : Vec F S64x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3) ∗ owns (c : Thread nD τ) arg6 fullShare (out3_5 x0 x1 x2 x3)) -∗ K ⟨⟩))
      ⊢ wp frame (wpE (defs₀ (F := F)) Variants.none c none) E (cc3__postagg_kernel i arg1 harg1 arg2 harg2 arg3 harg3 arg4 harg4 arg5 harg5 arg6 harg6) K := by
  simp only [cc3__postagg_kernel_eq_skeleton]; unfold cc3__postagg_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_4 _)
  iexists _; isplitr
  swap; · iexact H5
  ipureintro
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
    | ⟨5, _⟩ => out3_5 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KernelIdeal.Reg4.lean ====
import proofs.«418426_j87943750353447_3_alg».proof.Proof.Gen.KernelIdeal.Launch
import proofs.«418426_j87943750353447_3_alg».proof.Proof.Gen.KernelIdeal.Skeleton
import proofs.«418426_j87943750353447_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S5000x64 := Rect.unit (s := S5000x64) ![0, 0] S5000x64.size inb_S5000x64_S5000x64_0_0
abbrev r4_1 : Rect S64x64 := Rect.unit (s := S64x64) ![0, 0] S64x64.size inb_S64x64_S64x64_0_0
abbrev r4_2 : Rect S1x64 := Rect.unit (s := S1x64) ![0, 0] S1x64.size inb_S1x64_S1x64_0_0
abbrev r4_3 : Rect S64x32 := Rect.unit (s := S64x32) ![0, 0] S64x32.size inb_S64x32_S64x32_0_0
abbrev r4_4 : Rect S5000x64 := Rect.unit (s := S5000x64) ![0, 0] S5000x64.size inb_S5000x64_S5000x64_0_0
abbrev r4_5 : Rect S5000x32 := Rect.unit (s := S5000x32) ![0, 0] S5000x32.size inb_S5000x32_S5000x32_0_0

def out4_4 (x0 : Vec F S5000x64 .f32) (x1 : Vec F S64x64 .f32) (x2 : Vec F S1x64 .f32) (x3 : Vec F S64x32 .f32) : Vec F S5000x64 .f32 :=
  View.canon [⟨r4_4, k4_pay1 (View.ld x0 r4_0) (View.ld x1 r4_1) (View.ld x2 r4_2)⟩]

theorem cover4_4 (p0 : Vec F S5000x64 .f32) (y : S5000x64.Idx) :
    ∃ pc ∈ ([⟨r4_4, p0⟩] : List (View.Piece (Elt F) S5000x64 .f32)), y ∈ pc.1.set :=
  View.cover_of_tiled [⟨r4_4, p0⟩] S5000x64.size (by rfl) y

def out4_5 (x0 : Vec F S5000x64 .f32) (x1 : Vec F S64x64 .f32) (x2 : Vec F S1x64 .f32) (x3 : Vec F S64x32 .f32) : Vec F S5000x32 .f32 :=
  View.canon [⟨r4_5, k4_pay2 (View.ld x0 r4_0) (View.ld x1 r4_1) (View.ld x2 r4_2) (View.ld x3 r4_3)⟩]

theorem cover4_5 (p0 : Vec F S5000x32 .f32) (y : S5000x32.Idx) :
    ∃ pc ∈ ([⟨r4_5, p0⟩] : List (View.Piece (Elt F) S5000x32 .f32)), y ∈ pc.1.set :=
  View.cover_of_tiled [⟨r4_5, p0⟩] S5000x32.size (by rfl) y

set_option maxHeartbeats 1000000 in
theorem sound_kernel4 (c : Dev nD) (E : Set ℕ) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S5000x64 .f32) (harg5 : arg5.IsWhole) (arg6 : Memref sig .tc .vmem S5000x32 .f32) (harg6 : arg6.IsWhole)
    (x0 : Vec F S5000x64 .f32) (x1 : Vec F S64x64 .f32) (x2 : Vec F S1x64 .f32) (x3 : Vec F S64x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4_4 x0 x1 x2 x3) ∗ owns (c : Thread nD τ) arg6 fullShare (out4_5 x0 x1 x2 x3)) -∗ K ⟨⟩))
      ⊢ wp frame (wpE (defs₀ (F := F)) Variants.none c none) E (cc4__postagg_kernel i arg1 harg1 arg2 harg2 arg3 harg3 arg4 harg4 arg5 harg5 arg6 harg6) K := by
  simp only [cc4__postagg_kernel_eq_skeleton]; unfold cc4__postagg_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4_4 _)
  iexists _; isplitr
  swap; · iexact H5
  ipureintro
  exact View.read_writes_eq_canon _ _ _ (cover4_5 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
    | ⟨5, _⟩ => out4_5 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]
theorem after4_5 (c : Dev nD) (t : Fin cfg4.N) : (dat4 V c).after 5 t = out4_5 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KernelIdeal.Reg5.lean ====
import proofs.«418426_j87943750353447_3_alg».proof.Proof.Gen.KernelIdeal.Launch
import proofs.«418426_j87943750353447_3_alg».proof.Proof.Gen.KernelIdeal.Skeleton
import proofs.«418426_j87943750353447_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S5000x64 := Rect.unit (s := S5000x64) ![0, 0] S5000x64.size inb_S5000x64_S5000x64_0_0
abbrev r5_1 : Rect S64x64 := Rect.unit (s := S64x64) ![0, 0] S64x64.size inb_S64x64_S64x64_0_0
abbrev r5_2 : Rect S1x64 := Rect.unit (s := S1x64) ![0, 0] S1x64.size inb_S1x64_S1x64_0_0
abbrev r5_3 : Rect S64x32 := Rect.unit (s := S64x32) ![0, 0] S64x32.size inb_S64x32_S64x32_0_0
abbrev r5_4 : Rect S5000x64 := Rect.unit (s := S5000x64) ![0, 0] S5000x64.size inb_S5000x64_S5000x64_0_0
abbrev r5_5 : Rect S5000x32 := Rect.unit (s := S5000x32) ![0, 0] S5000x32.size inb_S5000x32_S5000x32_0_0

def out5_4 (x0 : Vec F S5000x64 .f32) (x1 : Vec F S64x64 .f32) (x2 : Vec F S1x64 .f32) (x3 : Vec F S64x32 .f32) : Vec F S5000x64 .f32 :=
  View.canon [⟨r5_4, k5_pay1 (View.ld x0 r5_0) (View.ld x1 r5_1) (View.ld x2 r5_2)⟩]

theorem cover5_4 (p0 : Vec F S5000x64 .f32) (y : S5000x64.Idx) :
    ∃ pc ∈ ([⟨r5_4, p0⟩] : List (View.Piece (Elt F) S5000x64 .f32)), y ∈ pc.1.set :=
  View.cover_of_tiled [⟨r5_4, p0⟩] S5000x64.size (by rfl) y

def out5_5 (x0 : Vec F S5000x64 .f32) (x1 : Vec F S64x64 .f32) (x2 : Vec F S1x64 .f32) (x3 : Vec F S64x32 .f32) : Vec F S5000x32 .f32 :=
  View.canon [⟨r5_5, k5_pay2 (View.ld x0 r5_0) (View.ld x1 r5_1) (View.ld x2 r5_2) (View.ld x3 r5_3)⟩]

theorem cover5_5 (p0 : Vec F S5000x32 .f32) (y : S5000x32.Idx) :
    ∃ pc ∈ ([⟨r5_5, p0⟩] : List (View.Piece (Elt F) S5000x32 .f32)), y ∈ pc.1.set :=
  View.cover_of_tiled [⟨r5_5, p0⟩] S5000x32.size (by rfl) y

set_option maxHeartbeats 1000000 in
theorem sound_kernel5 (c : Dev nD) (E : Set ℕ) (i : grid5.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S5000x64 .f32) (harg5 : arg5.IsWhole) (arg6 : Memref sig .tc .vmem S5000x32 .f32) (harg6 : arg6.IsWhole)
    (x0 : Vec F S5000x64 .f32) (x1 : Vec F S64x64 .f32) (x2 : Vec F S1x64 .f32) (x3 : Vec F S64x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5_4 x0 x1 x2 x3) ∗ owns (c : Thread nD τ) arg6 fullShare (out5_5 x0 x1 x2 x3)) -∗ K ⟨⟩))
      ⊢ wp frame (wpE (defs₀ (F := F)) Variants.none c none) E (cc5__postagg_kernel i arg1 harg1 arg2 harg2 arg3 harg3 arg4 harg4 arg5 harg5 arg6 harg6) K := by
  simp only [cc5__postagg_kernel_eq_skeleton]; unfold cc5__postagg_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover5_4 _)
  iexists _; isplitr
  swap; · iexact H5
  ipureintro
  exact View.read_writes_eq_canon _ _ _ (cover5_5 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
    | ⟨5, _⟩ => out5_5 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]
theorem after5_5 (c : Dev nD) (t : Fin cfg5.N) : (dat5 V c).after 5 t = out5_5 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KernelIdeal.Reg6.lean ====
import proofs.«418426_j87943750353447_3_alg».proof.Proof.Gen.KernelIdeal.Launch
import proofs.«418426_j87943750353447_3_alg».proof.Proof.Gen.KernelIdeal.Skeleton
import proofs.«418426_j87943750353447_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S5000x128 := Rect.unit (s := S5000x128) ![0, 0] S5000x128.size inb_S5000x128_S5000x128_0_0
abbrev r6_1 : Rect S128x16 := Rect.unit (s := S128x16) ![0, 0] S128x16.size inb_S128x16_S128x16_0_0
abbrev r6_2 : Rect S16x1 := Rect.unit (s := S16x1) ![0, 0] S16x1.size inb_S16x1_S16x1_0_0
abbrev r6_3 : Rect S5000x1 := Rect.unit (s := S5000x1) ![0, 0] S5000x1.size inb_S5000x1_S5000x1_0_0

def out6_3 (x0 : Vec F S5000x128 .f32) (x1 : Vec F S128x16 .f32) (x2 : Vec F S16x1 .f32) : Vec F S5000x1 .f32 :=
  View.canon [⟨r6_3, k6_pay1 (View.ld x0 r6_0) (View.ld x1 r6_1) (View.ld x2 r6_2)⟩]

theorem cover6_3 (p0 : Vec F S5000x1 .f32) (y : S5000x1.Idx) :
    ∃ pc ∈ ([⟨r6_3, p0⟩] : List (View.Piece (Elt F) S5000x1 .f32)), y ∈ pc.1.set :=
  View.cover_of_tiled [⟨r6_3, p0⟩] S5000x1.size (by rfl) y

set_option maxHeartbeats 1000000 in
theorem sound_kernel6 (c : Dev nD) (E : Set ℕ) (i : grid6.Coords) (arg1 : Memref sig .tc .vmem S5000x128 .f32) (harg1 : arg1.IsWhole) (arg2 : Memref sig .tc .vmem S128x16 .f32) (harg2 : arg2.IsWhole) (arg3 : Memref sig .tc .vmem S16x1 .f32) (harg3 : arg3.IsWhole) (arg4 : Memref sig .tc .vmem S5000x1 .f32) (harg4 : arg4.IsWhole)
    (x0 : Vec F S5000x128 .f32) (x1 : Vec F S128x16 .f32) (x2 : Vec F S16x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__classifier_kernel i arg1 harg1 arg2 harg2 arg3 harg3 arg4 harg4) K := by
  simp only [cc6__classifier_kernel_eq_skeleton]; unfold cc6__classifier_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KernelIdeal.Reg7.lean ====
import proofs.«418426_j87943750353447_3_alg».proof.Proof.Gen.KernelIdeal.Launch
import proofs.«418426_j87943750353447_3_alg».proof.Proof.Gen.KernelIdeal.Skeleton
import proofs.«418426_j87943750353447_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S5000x128 := Rect.unit (s := S5000x128) ![0, 0] S5000x128.size inb_S5000x128_S5000x128_0_0
abbrev r7_1 : Rect S128x16 := Rect.unit (s := S128x16) ![0, 0] S128x16.size inb_S128x16_S128x16_0_0
abbrev r7_2 : Rect S16x1 := Rect.unit (s := S16x1) ![0, 0] S16x1.size inb_S16x1_S16x1_0_0
abbrev r7_3 : Rect S5000x1 := Rect.unit (s := S5000x1) ![0, 0] S5000x1.size inb_S5000x1_S5000x1_0_0

def out7_3 (x0 : Vec F S5000x128 .f32) (x1 : Vec F S128x16 .f32) (x2 : Vec F S16x1 .f32) : Vec F S5000x1 .f32 :=
  View.canon [⟨r7_3, k7_pay1 (View.ld x0 r7_0) (View.ld x1 r7_1) (View.ld x2 r7_2)⟩]

theorem cover7_3 (p0 : Vec F S5000x1 .f32) (y : S5000x1.Idx) :
    ∃ pc ∈ ([⟨r7_3, p0⟩] : List (View.Piece (Elt F) S5000x1 .f32)), y ∈ pc.1.set :=
  View.cover_of_tiled [⟨r7_3, p0⟩] S5000x1.size (by rfl) y

set_option maxHeartbeats 1000000 in
theorem sound_kernel7 (c : Dev nD) (E : Set ℕ) (i : grid7.Coords) (arg1 : Memref sig .tc .vmem S5000x128 .f32) (harg1 : arg1.IsWhole) (arg2 : Memref sig .tc .vmem S128x16 .f32) (harg2 : arg2.IsWhole) (arg3 : Memref sig .tc .vmem S16x1 .f32) (harg3 : arg3.IsWhole) (arg4 : Memref sig .tc .vmem S5000x1 .f32) (harg4 : arg4.IsWhole)
    (x0 : Vec F S5000x128 .f32) (x1 : Vec F S128x16 .f32) (x2 : Vec F S16x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__classifier_kernel i arg1 harg1 arg2 harg2 arg3 harg3 arg4 harg4) K := by
  simp only [cc7__classifier_kernel_eq_skeleton]; unfold cc7__classifier_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KernelIdeal.Reg8.lean ====
import proofs.«418426_j87943750353447_3_alg».proof.Proof.Gen.KernelIdeal.Launch
import proofs.«418426_j87943750353447_3_alg».proof.Proof.Gen.KernelIdeal.Skeleton
import proofs.«418426_j87943750353447_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

abbrev r8_0 : Rect S5000x128 := Rect.unit (s := S5000x128) ![0, 0] S5000x128.size inb_S5000x128_S5000x128_0_0
abbrev r8_1 : Rect S128x16 := Rect.unit (s := S128x16) ![0, 0] S128x16.size inb_S128x16_S128x16_0_0
abbrev r8_2 : Rect S16x1 := Rect.unit (s := S16x1) ![0, 0] S16x1.size inb_S16x1_S16x1_0_0
abbrev r8_3 : Rect S5000x1 := Rect.unit (s := S5000x1) ![0, 0] S5000x1.size inb_S5000x1_S5000x1_0_0

def out8_3 (x0 : Vec F S5000x128 .f32) (x1 : Vec F S128x16 .f32) (x2 : Vec F S16x1 .f32) : Vec F S5000x1 .f32 :=
  View.canon [⟨r8_3, k8_pay1 (View.ld x0 r8_0) (View.ld x1 r8_1) (View.ld x2 r8_2)⟩]

theorem cover8_3 (p0 : Vec F S5000x1 .f32) (y : S5000x1.Idx) :
    ∃ pc ∈ ([⟨r8_3, p0⟩] : List (View.Piece (Elt F) S5000x1 .f32)), y ∈ pc.1.set :=
  View.cover_of_tiled [⟨r8_3, p0⟩] S5000x1.size (by rfl) y

set_option maxHeartbeats 1000000 in
theorem sound_kernel8 (c : Dev nD) (E : Set ℕ) (i : grid8.Coords) (arg1 : Memref sig .tc .vmem S5000x128 .f32) (harg1 : arg1.IsWhole) (arg2 : Memref sig .tc .vmem S128x16 .f32) (harg2 : arg2.IsWhole) (arg3 : Memref sig .tc .vmem S16x1 .f32) (harg3 : arg3.IsWhole) (arg4 : Memref sig .tc .vmem S5000x1 .f32) (harg4 : arg4.IsWhole)
    (x0 : Vec F S5000x128 .f32) (x1 : Vec F S128x16 .f32) (x2 : Vec F S16x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__classifier_kernel i arg1 harg1 arg2 harg2 arg3 harg3 arg4 harg4) K := by
  simp only [cc8__classifier_kernel_eq_skeleton]; unfold cc8__classifier_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KernelIdeal.Bounds.lean ====
import proofs.«418426_j87943750353447_3_alg».proof.Proof.Gen.KernelIdeal.Regions
import proofs.«418426_j87943750353447_3_alg».proof.Proof.KernelIdeal.Reg0
import proofs.«418426_j87943750353447_3_alg».proof.Proof.KernelIdeal.Reg1
import proofs.«418426_j87943750353447_3_alg».proof.Proof.KernelIdeal.Reg2
import proofs.«418426_j87943750353447_3_alg».proof.Proof.KernelIdeal.Reg3
import proofs.«418426_j87943750353447_3_alg».proof.Proof.KernelIdeal.Reg4
import proofs.«418426_j87943750353447_3_alg».proof.Proof.KernelIdeal.Reg5
import proofs.«418426_j87943750353447_3_alg».proof.Proof.KernelIdeal.Reg6
import proofs.«418426_j87943750353447_3_alg».proof.Proof.KernelIdeal.Reg7
import proofs.«418426_j87943750353447_3_alg».proof.Proof.KernelIdeal.Reg8

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

def U0 : Dev nD → Valuation τ sig (Elt F) := fun c => V0 m c

def o1_0 (c : Dev nD) : Buf (Elt F) ((c : Thread nD τ).loc main_v0) := (dat0 (rd (U0 m)) c).arrAt 2 cfg0.N

def U1 : Dev nD → Valuation τ sig (Elt F) := fun c => Function.update (U0 m c) main_v0 (o1_0 m c)

def o2_0 (c : Dev nD) : Buf (Elt F) ((c : Thread nD τ).loc main_v1) := (dat1 (rd (U1 m)) c).arrAt 2 cfg1.N

def U2 : Dev nD → Valuation τ sig (Elt F) := fun c => Function.update (U1 m c) main_v1 (o2_0 m c)

def o3_0 (c : Dev nD) : Buf (Elt F) ((c : Thread nD τ).loc main_v2) := (dat2 (rd (U2 m)) c).arrAt 2 cfg2.N

def U3 : Dev nD → Valuation τ sig (Elt F) := fun c => Function.update (U2 m c) main_v2 (o3_0 m c)

def U4 : Dev nD → Valuation τ sig (Elt F) := fun c => StableHlo.after hostOps3 (U3 m c)

def o5_0 (c : Dev nD) : Buf (Elt F) ((c : Thread nD τ).loc main_v19_0) := (dat3 (rd (U4 m)) c).arrAt 4 cfg3.N

def o5_1 (c : Dev nD) : Buf (Elt F) ((c : Thread nD τ).loc main_v19_1) := (dat3 (rd (U4 m)) c).arrAt 5 cfg3.N

def U5 : Dev nD → Valuation τ sig (Elt F) := fun c => Function.update (Function.update (U4 m c) main_v19_0 (o5_0 m c)) main_v19_1 (o5_1 m c)

def o6_0 (c : Dev nD) : Buf (Elt F) ((c : Thread nD τ).loc main_v20_0) := (dat4 (rd (U5 m)) c).arrAt 4 cfg4.N

def o6_1 (c : Dev nD) : Buf (Elt F) ((c : Thread nD τ).loc main_v20_1) := (dat4 (rd (U5 m)) c).arrAt 5 cfg4.N

def U6 : Dev nD → Valuation τ sig (Elt F) := fun c => Function.update (Function.update (U5 m c) main_v20_0 (o6_0 m c)) main_v20_1 (o6_1 m c)

def o7_0 (c : Dev nD) : Buf (Elt F) ((c : Thread nD τ).loc main_v21_0) := (dat5 (rd (U6 m)) c).arrAt 4 cfg5.N

def o7_1 (c : Dev nD) : Buf (Elt F) ((c : Thread nD τ).loc main_v21_1) := (dat5 (rd (U6 m)) c).arrAt 5 cfg5.N

def U7 : Dev nD → Valuation τ sig (Elt F) := fun c => Function.update (Function.update (U6 m c) main_v21_0 (o7_0 m c)) main_v21_1 (o7_1 m c)

def U8 : Dev nD → Valuation τ sig (Elt F) := fun c => StableHlo.after hostOps6 (U7 m c)

def U9 : Dev nD → Valuation τ sig (Elt F) := fun c => StableHlo.after hostOps6_1 (U8 m c)

def U10 : Dev nD → Valuation τ sig (Elt F) := fun c => StableHlo.after hostOps6_2 (U9 m c)

def U11 : Dev nD → Valuation τ sig (Elt F) := fun c => StableHlo.after hostOps6_3 (U10 m c)

def U12 : Dev nD → Valuation τ sig (Elt F) := fun c => StableHlo.after hostOps6_4 (U11 m c)

def o13_0 (c : Dev nD) : Buf (Elt F) ((c : Thread nD τ).loc main_v27) := (dat6 (rd (U12 m)) c).arrAt 3 cfg6.N

def U13 : Dev nD → Valuation τ sig (Elt F) := fun c => Function.update (U12 m c) main_v27 (o13_0 m c)

def U14 : Dev nD → Valuation τ sig (Elt F) := fun c => StableHlo.after hostOps7 (U13 m c)

def U15 : Dev nD → Valuation τ sig (Elt F) := fun c => StableHlo.after hostOps7_1 (U14 m c)

def U16 : Dev nD → Valuation τ sig (Elt F) := fun c => StableHlo.after hostOps7_2 (U15 m c)

def U17 : Dev nD → Valuation τ sig (Elt F) := fun c => StableHlo.after hostOps7_3 (U16 m c)

def o18_0 (c : Dev nD) : Buf (Elt F) ((c : Thread nD τ).loc main_v32) := (dat7 (rd (U17 m)) c).arrAt 3 cfg7.N

def U18 : Dev nD → Valuation τ sig (Elt F) := fun c => Function.update (U17 m c) main_v32 (o18_0 m c)

def U19 : Dev nD → Valuation τ sig (Elt F) := fun c => StableHlo.after hostOps8 (U18 m c)

def U20 : Dev nD → Valuation τ sig (Elt F) := fun c => StableHlo.after hostOps8_1 (U19 m c)

def U21 : Dev nD → Valuation τ sig (Elt F) := fun c => StableHlo.after hostOps8_2 (U20 m c)

def U22 : Dev nD → Valuation τ sig (Elt F) := fun c => StableHlo.after hostOps8_3 (U21 m c)

def o23_0 (c : Dev nD) : Buf (Elt F) ((c : Thread nD τ).loc main_v37) := (dat8 (rd (U22 m)) c).arrAt 3 cfg8.N

def U23 : Dev nD → Valuation τ sig (Elt F) := fun c => Function.update (U22 m c) main_v37 (o23_0 m c)

def U24 : Dev nD → Valuation τ sig (Elt F) := fun c => StableHlo.after hostOps9 (U23 m c)

def outs : Outs (F := F) := fun n r c => match n with
  | 1 => U1 m c r
  | 2 => U2 m c r
  | 3 => U3 m c r
  | 5 => U5 m c r
  | 6 => U6 m c r
  | 7 => U7 m c r
  | 13 => U13 m c r
  | 18 => U18 m c r
  | 23 => U23 m c r
  | _ => U0 m c r

theorem V0_eq (c : Dev nD) : V0 m c = U0 m c := rfl
theorem V1_eq (c : Dev nD) : V1 m (outs m) c = U1 m c := by
  show Function.update (V0 m c) main_v0 (U1 m c main_v0) = U1 m c
  rw [V0_eq]; unfold U1; rw [Function.update_self]
theorem V2_eq (c : Dev nD) : V2 m (outs m) c = U2 m c := by
  show Function.update (V1 m (outs m) c) main_v1 (U2 m c main_v1) = U2 m c
  rw [V1_eq]; unfold U2; rw [Function.update_self]
theorem V3_eq (c : Dev nD) : V3 m (outs m) c = U3 m c := by
  show Function.update (V2 m (outs m) c) main_v2 (U3 m c main_v2) = U3 m c
  rw [V2_eq]; unfold U3; rw [Function.update_self]
theorem V4_eq (c : Dev nD) : V4 m (outs m) c = U4 m c := by
  show StableHlo.after hostOps3 (V3 m (outs m) c) = U4 m c
  rw [V3_eq]; rfl
theorem V5_eq (c : Dev nD) : V5 m (outs m) c = U5 m c := by
  show Function.update (Function.update (V4 m (outs m) c) main_v19_0 (U5 m c main_v19_0)) main_v19_1 (U5 m c main_v19_1) = U5 m c
  rw [V4_eq]; unfold U5
  rw [Function.update_self, Function.update_of_ne (StableHlo.devRef_ne_of_ne (by decide)), Function.update_self]
theorem V6_eq (c : Dev nD) : V6 m (outs m) c = U6 m c := by
  show Function.update (Function.update (V5 m (outs m) c) main_v20_0 (U6 m c main_v20_0)) main_v20_1 (U6 m c main_v20_1) = U6 m c
  rw [V5_eq]; unfold U6
  rw [Function.update_self, Function.update_of_ne (StableHlo.devRef_ne_of_ne (by decide)), Function.update_self]
theorem V7_eq (c : Dev nD) : V7 m (outs m) c = U7 m c := by
  show Function.update (Function.update (V6 m (outs m) c) main_v21_0 (U7 m c main_v21_0)) main_v21_1 (U7 m c main_v21_1) = U7 m c
  rw [V6_eq]; unfold U7
  rw [Function.update_self, Function.update_of_ne (StableHlo.devRef_ne_of_ne (by decide)), Function.update_self]
theorem V8_eq (c : Dev nD) : V8 m (outs m) c = U8 m c := by
  show StableHlo.after hostOps6 (V7 m (outs m) c) = U8 m c
  rw [V7_eq]; rfl
theorem V9_eq (c : Dev nD) : V9 m (outs m) c = U9 m c := by
  show StableHlo.after hostOps6_1 (V8 m (outs m) c) = U9 m c
  rw [V8_eq]; rfl
theorem V10_eq (c : Dev nD) : V10 m (outs m) c = U10 m c := by
  show StableHlo.after hostOps6_2 (V9 m (outs m) c) = U10 m c
  rw [V9_eq]; rfl
theorem V11_eq (c : Dev nD) : V11 m (outs m) c = U11 m c := by
  show StableHlo.after hostOps6_3 (V10 m (outs m) c) = U11 m c
  rw [V10_eq]; rfl
theorem V12_eq (c : Dev nD) : V12 m (outs m) c = U12 m c := by
  show StableHlo.after hostOps6_4 (V11 m (outs m) c) = U12 m c
  rw [V11_eq]; rfl
theorem V13_eq (c : Dev nD) : V13 m (outs m) c = U13 m c := by
  show Function.update (V12 m (outs m) c) main_v27 (U13 m c main_v27) = U13 m c
  rw [V12_eq]; unfold U13; rw [Function.update_self]
theorem V14_eq (c : Dev nD) : V14 m (outs m) c = U14 m c := by
  show StableHlo.after hostOps7 (V13 m (outs m) c) = U14 m c
  rw [V13_eq]; rfl
theorem V15_eq (c : Dev nD) : V15 m (outs m) c = U15 m c := by
  show StableHlo.after hostOps7_1 (V14 m (outs m) c) = U15 m c
  rw [V14_eq]; rfl
theorem V16_eq (c : Dev nD) : V16 m (outs m) c = U16 m c := by
  show StableHlo.after hostOps7_2 (V15 m (outs m) c) = U16 m c
  rw [V15_eq]; rfl
theorem V17_eq (c : Dev nD) : V17 m (outs m) c = U17 m c := by
  show StableHlo.after hostOps7_3 (V16 m (outs m) c) = U17 m c
  rw [V16_eq]; rfl
theorem V18_eq (c : Dev nD) : V18 m (outs m) c = U18 m c := by
  show Function.update (V17 m (outs m) c) main_v32 (U18 m c main_v32) = U18 m c
  rw [V17_eq]; unfold U18; rw [Function.update_self]
theorem V19_eq (c : Dev nD) : V19 m (outs m) c = U19 m c := by
  show StableHlo.after hostOps8 (V18 m (outs m) c) = U19 m c
  rw [V18_eq]; rfl
theorem V20_eq (c : Dev nD) : V20 m (outs m) c = U20 m c := by
  show StableHlo.after hostOps8_1 (V19 m (outs m) c) = U20 m c
  rw [V19_eq]; rfl
theorem V21_eq (c : Dev nD) : V21 m (outs m) c = U21 m c := by
  show StableHlo.after hostOps8_2 (V20 m (outs m) c) = U21 m c
  rw [V20_eq]; rfl
theorem V22_eq (c : Dev nD) : V22 m (outs m) c = U22 m c := by
  show StableHlo.after hostOps8_3 (V21 m (outs m) c) = U22 m c
  rw [V21_eq]; rfl
theorem V23_eq (c : Dev nD) : V23 m (outs m) c = U23 m c := by
  show Function.update (V22 m (outs m) c) main_v37 (U23 m c main_v37) = U23 m c
  rw [V22_eq]; unfold U23; rw [Function.update_self]
theorem V24_eq (c : Dev nD) : V24 m (outs m) c = U24 m c := by
  show StableHlo.after hostOps9 (V23 m (outs m) c) = U24 m c
  rw [V23_eq]; rfl

abbrev adm' : (p : Fin 9) → (pcfgs (F := F) p).Adm := adm

def pdats : (p : Fin 9) → (c : Dev nD) → Dat τ (Elt F) Unit ℕ (UR sig nD τ) ℕ (cfgs p) c
  | ⟨0, _⟩ => fun c => dat0 (rd (U0 m)) c
  | ⟨1, _⟩ => fun c => dat1 (rd (U1 m)) c
  | ⟨2, _⟩ => fun c => dat2 (rd (U2 m)) c
  | ⟨3, _⟩ => fun c => dat3 (rd (U4 m)) c
  | ⟨4, _⟩ => fun c => dat4 (rd (U5 m)) c
  | ⟨5, _⟩ => fun c => dat5 (rd (U6 m)) c
  | ⟨6, _⟩ => fun c => dat6 (rd (U12 m)) c
  | ⟨7, _⟩ => fun c => dat7 (rd (U17 m)) c
  | ⟨8, _⟩ => fun c => dat8 (rd (U22 m)) c

end Cert.KernelIdeal.Hand

end
-- ==== Proof.KernelIdeal.Rest.lean ====
import proofs.«418426_j87943750353447_3_alg».proof.Proof.KernelIdeal.Bounds
import Idealize.ShloMosaic.Lib.Pipeline.Frame
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev Rr (c : Dev nD) : sProp (MT nD τ sig Unit (Elt F) ℕ (UR sig nD τ) ℕ) :=
  iprop((∃ r, prngReg c r) ∗ ∃ W, owes (c : Thread nD τ) (0 : CellTallies nD τ sig Unit) W)

end Cert.KernelIdeal.Hand

end
-- ==== Proof.KernelIdeal.Seg0.lean ====
import proofs.«418426_j87943750353447_3_alg».proof.Proof.KernelIdeal.Rest
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem hF0 (c : Dev nD) (w : Fin cfg0.W) : (pdats m 0 c).arrAt w cfg0.N = rd (U1 m) c (Pipeline.arrRef spec0 w) := by
  fin_cases w
  · exact ((pdats m 0 c).arrAt_in 0 rfl _).trans (((A_eq0 (rd (U0 m)) c 0)).trans (by
      unfold U1; exact (Function.update_of_ne (StableHlo.devRef_ne_of_ne (by decide)) _ _).symm))
  · exact ((pdats m 0 c).arrAt_in 1 rfl _).trans (((A_eq0 (rd (U0 m)) c 1)).trans (by
      unfold U1; exact (Function.update_of_ne (StableHlo.devRef_ne_of_ne (by decide)) _ _).symm))
  · exact (by unfold U1; exact Function.update_self _ _ _ : U1 m c main_v0 = o1_0 m c).symm

theorem hrest0 (c : Dev nD) : ∀ b, b ∉ Finset.univ.image (Pipeline.arrRef spec0) → rd (U1 m) c b = rd (U0 m) c b := fun b hb => by
  unfold rd U1
  exact (Function.update_of_ne (StableHlo.devRef_ne_of_ne (show b ≠ main_v0 from fun h => hb (Finset.mem_image.mpr ⟨2, Finset.mem_univ _, h.symm⟩))) _ _)

set_option backward.isDefEq.respectTransparency.types false in
def reg0 : Pipeline.RegionSeg (pcfgs (F := F)) adm (pdats m) () defs₀ Variants.none (fun _ => (∅ : Finset Unit)) (fun _ _ => (0 : ℕ)) 0 where
  win := launch0.win.to₀
  block_pos := launch0.block_pos
  stage_whole := launch0.stage_whole
  K := PEmpty
  osem k := k.elim
  ho := Pipeline.OwnSemFacts.none _
  hbody c := (body_obligation0 (rd (U0 m)) c).loose
  hwaits := Pipeline.hwaits_of_owed_zero _ _ _ _ (fun _ => (∅ : Finset Unit)) (fun _ _ => (0 : ℕ)) 0 fun _ _ => rfl
  pre c := iprop(StableHlo.held (c : Thread nD τ) (Pipeline.ucRefs τ sig) (U0 m c) ∗ Rr c)
  post c := iprop(StableHlo.held (c : Thread nD τ) (Pipeline.ucRefs τ sig) (U1 m c) ∗ Rr c)
  X c := iprop(∃ r, prngReg c r)
  Y c := iprop(∃ r, prngReg c r)
  Z c := Pipeline.unscopedRest (Ix := Unit) (Name := ℕ) (U := UR sig nD τ) (Lvl := ℕ) spec0 c (rd (U0 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (U0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (U0 m) c) (rd (U1 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg1.lean ====
import proofs.«418426_j87943750353447_3_alg».proof.Proof.KernelIdeal.Rest
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem hF1 (c : Dev nD) (w : Fin cfg1.W) : (pdats m 1 c).arrAt w cfg1.N = rd (U2 m) c (Pipeline.arrRef spec1 w) := by
  fin_cases w
  · exact ((pdats m 1 c).arrAt_in 0 rfl _).trans (((A_eq1 (rd (U1 m)) c 0)).trans (by
      unfold U2; exact (Function.update_of_ne (StableHlo.devRef_ne_of_ne (by decide)) _ _).symm))
  · exact ((pdats m 1 c).arrAt_in 1 rfl _).trans (((A_eq1 (rd (U1 m)) c 1)).trans (by
      unfold U2; exact (Function.update_of_ne (StableHlo.devRef_ne_of_ne (by decide)) _ _).symm))
  · exact (by unfold U2; exact Function.update_self _ _ _ : U2 m c main_v1 = o2_0 m c).symm

theorem hrest1 (c : Dev nD) : ∀ b, b ∉ Finset.univ.image (Pipeline.arrRef spec1) → rd (U2 m) c b = rd (U1 m) c b := fun b hb => by
  unfold rd U2
  exact (Function.update_of_ne (StableHlo.devRef_ne_of_ne (show b ≠ main_v1 from fun h => hb (Finset.mem_image.mpr ⟨2, Finset.mem_univ _, h.symm⟩))) _ _)

set_option backward.isDefEq.respectTransparency.types false in
def reg1 : Pipeline.RegionSeg (pcfgs (F := F)) adm (pdats m) () defs₀ Variants.none (fun _ => (∅ : Finset Unit)) (fun _ _ => (0 : ℕ)) 1 where
  win := launch1.win.to₀
  block_pos := launch1.block_pos
  stage_whole := launch1.stage_whole
  K := PEmpty
  osem k := k.elim
  ho := Pipeline.OwnSemFacts.none _
  hbody c := (body_obligation1 (rd (U1 m)) c).loose
  hwaits := Pipeline.hwaits_of_owed_zero _ _ _ _ (fun _ => (∅ : Finset Unit)) (fun _ _ => (0 : ℕ)) 1 fun _ _ => rfl
  pre c := iprop(StableHlo.held (c : Thread nD τ) (Pipeline.ucRefs τ sig) (U1 m c) ∗ Rr c)
  post c := iprop(StableHlo.held (c : Thread nD τ) (Pipeline.ucRefs τ sig) (U2 m c) ∗ Rr c)
  X c := iprop(∃ r, prngReg c r)
  Y c := iprop(∃ r, prngReg c r)
  Z c := Pipeline.unscopedRest (Ix := Unit) (Name := ℕ) (U := UR sig nD τ) (Lvl := ℕ) spec1 c (rd (U1 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (U1 m) c) (rd (U2 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg2.lean ====
import proofs.«418426_j87943750353447_3_alg».proof.Proof.KernelIdeal.Rest
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem hF2 (c : Dev nD) (w : Fin cfg2.W) : (pdats m 2 c).arrAt w cfg2.N = rd (U3 m) c (Pipeline.arrRef spec2 w) := by
  fin_cases w
  · exact ((pdats m 2 c).arrAt_in 0 rfl _).trans (((A_eq2 (rd (U2 m)) c 0)).trans (by
      unfold U3; exact (Function.update_of_ne (StableHlo.devRef_ne_of_ne (by decide)) _ _).symm))
  · exact ((pdats m 2 c).arrAt_in 1 rfl _).trans (((A_eq2 (rd (U2 m)) c 1)).trans (by
      unfold U3; exact (Function.update_of_ne (StableHlo.devRef_ne_of_ne (by decide)) _ _).symm))
  · exact (by unfold U3; exact Function.update_self _ _ _ : U3 m c main_v2 = o3_0 m c).symm

theorem hrest2 (c : Dev nD) : ∀ b, b ∉ Finset.univ.image (Pipeline.arrRef spec2) → rd (U3 m) c b = rd (U2 m) c b := fun b hb => by
  unfold rd U3
  exact (Function.update_of_ne (StableHlo.devRef_ne_of_ne (show b ≠ main_v2 from fun h => hb (Finset.mem_image.mpr ⟨2, Finset.mem_univ _, h.symm⟩))) _ _)

set_option backward.isDefEq.respectTransparency.types false in
def reg2 : Pipeline.RegionSeg (pcfgs (F := F)) adm (pdats m) () defs₀ Variants.none (fun _ => (∅ : Finset Unit)) (fun _ _ => (0 : ℕ)) 2 where
  win := launch2.win.to₀
  block_pos := launch2.block_pos
  stage_whole := launch2.stage_whole
  K := PEmpty
  osem k := k.elim
  ho := Pipeline.OwnSemFacts.none _
  hbody c := (body_obligation2 (rd (U2 m)) c).loose
  hwaits := Pipeline.hwaits_of_owed_zero _ _ _ _ (fun _ => (∅ : Finset Unit)) (fun _ _ => (0 : ℕ)) 2 fun _ _ => rfl
  pre c := iprop(StableHlo.held (c : Thread nD τ) (Pipeline.ucRefs τ sig) (U2 m c) ∗ Rr c)
  post c := iprop(StableHlo.held (c : Thread nD τ) (Pipeline.ucRefs τ sig) (U3 m c) ∗ Rr c)
  X c := iprop(∃ r, prngReg c r)
  Y c := iprop(∃ r, prngReg c r)
  Z c := Pipeline.unscopedRest (Ix := Unit) (Name := ℕ) (U := UR sig nD τ) (Lvl := ℕ) spec2 c (rd (U2 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (U2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (U2 m) c) (rd (U3 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg3.lean ====
import proofs.«418426_j87943750353447_3_alg».proof.Proof.KernelIdeal.Rest
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem U5_of_ne (c : Dev nD) (b : Ref sig .tc) (h0 : b ≠ main_v19_0) (h1 : b ≠ main_v19_1) : U5 m c b = U4 m c b := by
  unfold U5
  exact (Function.update_of_ne (StableHlo.devRef_ne_of_ne h1) _ _).trans (Function.update_of_ne (StableHlo.devRef_ne_of_ne h0) _ _)

theorem hF3 (c : Dev nD) (w : Fin cfg3.W) : (pdats m 3 c).arrAt w cfg3.N = rd (U5 m) c (Pipeline.arrRef spec3 w) := by
  fin_cases w
  · refine ((pdats m 3 c).arrAt_in 0 rfl _).trans ((A_eq3 (rd (U4 m)) c 0).trans ?_)
    exact (U5_of_ne m c _ (by decide) (by decide)).symm
  · refine ((pdats m 3 c).arrAt_in 1 rfl _).trans ((A_eq3 (rd (U4 m)) c 1).trans ?_)
    exact (U5_of_ne m c _ (by decide) (by decide)).symm
  · refine ((pdats m 3 c).arrAt_in 2 rfl _).trans ((A_eq3 (rd (U4 m)) c 2).trans ?_)
    exact (U5_of_ne m c _ (by decide) (by decide)).symm
  · refine ((pdats m 3 c).arrAt_in 3 rfl _).trans ((A_eq3 (rd (U4 m)) c 3).trans ?_)
    exact (U5_of_ne m c _ (by decide) (by decide)).symm
  · exact (by unfold U5; exact (Function.update_of_ne (StableHlo.devRef_ne_of_ne (by decide)) _ _).trans (Function.update_self _ _ _) : U5 m c main_v19_0 = o5_0 m c).symm
  · exact (by unfold U5; exact Function.update_self _ _ _ : U5 m c main_v19_1 = o5_1 m c).symm

theorem hrest3 (c : Dev nD) : ∀ b, b ∉ Finset.univ.image (Pipeline.arrRef spec3) → rd (U5 m) c b = rd (U4 m) c b := fun b hb => by
  unfold rd U5
  exact (Function.update_of_ne (StableHlo.devRef_ne_of_ne (show b ≠ main_v19_1 from fun h => hb (Finset.mem_image.mpr ⟨5, Finset.mem_univ _, h.symm⟩))) _ _).trans (Function.update_of_ne (StableHlo.devRef_ne_of_ne (show b ≠ main_v19_0 from fun h => hb (Finset.mem_image.mpr ⟨4, Finset.mem_univ _, h.symm⟩))) _ _)

set_option backward.isDefEq.respectTransparency.types false in
def reg3 : Pipeline.RegionSeg (pcfgs (F := F)) adm (pdats m) () defs₀ Variants.none (fun _ => (∅ : Finset Unit)) (fun _ _ => (0 : ℕ)) 3 where
  win := launch3.win.to₀
  block_pos := launch3.block_pos
  stage_whole := launch3.stage_whole
  K := PEmpty
  osem k := k.elim
  ho := Pipeline.OwnSemFacts.none _
  hbody c := (body_obligation3 (rd (U4 m)) c).loose
  hwaits := Pipeline.hwaits_of_owed_zero _ _ _ _ (fun _ => (∅ : Finset Unit)) (fun _ _ => (0 : ℕ)) 3 fun _ _ => rfl
  pre c := iprop(StableHlo.held (c : Thread nD τ) (Pipeline.ucRefs τ sig) (U4 m c) ∗ Rr c)
  post c := iprop(StableHlo.held (c : Thread nD τ) (Pipeline.ucRefs τ sig) (U5 m c) ∗ Rr c)
  X c := iprop(∃ r, prngReg c r)
  Y c := iprop(∃ r, prngReg c r)
  Z c := Pipeline.unscopedRest (Ix := Unit) (Name := ℕ) (U := UR sig nD τ) (Lvl := ℕ) spec3 c (rd (U4 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (rd (U4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd (U4 m) c) (rd (U5 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg4.lean ====
import proofs.«418426_j87943750353447_3_alg».proof.Proof.KernelIdeal.Rest
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem U6_of_ne (c : Dev nD) (b : Ref sig .tc) (h0 : b ≠ main_v20_0) (h1 : b ≠ main_v20_1) : U6 m c b = U5 m c b := by
  unfold U6
  exact (Function.update_of_ne (StableHlo.devRef_ne_of_ne h1) _ _).trans (Function.update_of_ne (StableHlo.devRef_ne_of_ne h0) _ _)

theorem hF4 (c : Dev nD) (w : Fin cfg4.W) : (pdats m 4 c).arrAt w cfg4.N = rd (U6 m) c (Pipeline.arrRef spec4 w) := by
  fin_cases w
  · refine ((pdats m 4 c).arrAt_in 0 rfl _).trans ((A_eq4 (rd (U5 m)) c 0).trans ?_)
    exact (U6_of_ne m c _ (by decide) (by decide)).symm
  · refine ((pdats m 4 c).arrAt_in 1 rfl _).trans ((A_eq4 (rd (U5 m)) c 1).trans ?_)
    exact (U6_of_ne m c _ (by decide) (by decide)).symm
  · refine ((pdats m 4 c).arrAt_in 2 rfl _).trans ((A_eq4 (rd (U5 m)) c 2).trans ?_)
    exact (U6_of_ne m c _ (by decide) (by decide)).symm
  · refine ((pdats m 4 c).arrAt_in 3 rfl _).trans ((A_eq4 (rd (U5 m)) c 3).trans ?_)
    exact (U6_of_ne m c _ (by decide) (by decide)).symm
  · exact (by unfold U6; exact (Function.update_of_ne (StableHlo.devRef_ne_of_ne (by decide)) _ _).trans (Function.update_self _ _ _) : U6 m c main_v20_0 = o6_0 m c).symm
  · exact (by unfold U6; exact Function.update_self _ _ _ : U6 m c main_v20_1 = o6_1 m c).symm

theorem hrest4 (c : Dev nD) : ∀ b, b ∉ Finset.univ.image (Pipeline.arrRef spec4) → rd (U6 m) c b = rd (U5 m) c b := fun b hb => by
  unfold rd U6
  exact (Function.update_of_ne (StableHlo.devRef_ne_of_ne (show b ≠ main_v20_1 from fun h => hb (Finset.mem_image.mpr ⟨5, Finset.mem_univ _, h.symm⟩))) _ _).trans (Function.update_of_ne (StableHlo.devRef_ne_of_ne (show b ≠ main_v20_0 from fun h => hb (Finset.mem_image.mpr ⟨4, Finset.mem_univ _, h.symm⟩))) _ _)

set_option backward.isDefEq.respectTransparency.types false in
def reg4 : Pipeline.RegionSeg (pcfgs (F := F)) adm (pdats m) () defs₀ Variants.none (fun _ => (∅ : Finset Unit)) (fun _ _ => (0 : ℕ)) 4 where
  win := launch4.win.to₀
  block_pos := launch4.block_pos
  stage_whole := launch4.stage_whole
  K := PEmpty
  osem k := k.elim
  ho := Pipeline.OwnSemFacts.none _
  hbody c := (body_obligation4 (rd (U5 m)) c).loose
  hwaits := Pipeline.hwaits_of_owed_zero _ _ _ _ (fun _ => (∅ : Finset Unit)) (fun _ _ => (0 : ℕ)) 4 fun _ _ => rfl
  pre c := iprop(StableHlo.held (c : Thread nD τ) (Pipeline.ucRefs τ sig) (U5 m c) ∗ Rr c)
  post c := iprop(StableHlo.held (c : Thread nD τ) (Pipeline.ucRefs τ sig) (U6 m c) ∗ Rr c)
  X c := iprop(∃ r, prngReg c r)
  Y c := iprop(∃ r, prngReg c r)
  Z c := Pipeline.unscopedRest (Ix := Unit) (Name := ℕ) (U := UR sig nD τ) (Lvl := ℕ) spec4 c (rd (U5 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (rd (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (rd (U5 m) c) (rd (U6 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg5.lean ====
import proofs.«418426_j87943750353447_3_alg».proof.Proof.KernelIdeal.Rest
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem U7_of_ne (c : Dev nD) (b : Ref sig .tc) (h0 : b ≠ main_v21_0) (h1 : b ≠ main_v21_1) : U7 m c b = U6 m c b := by
  unfold U7
  exact (Function.update_of_ne (StableHlo.devRef_ne_of_ne h1) _ _).trans (Function.update_of_ne (StableHlo.devRef_ne_of_ne h0) _ _)

theorem hF5 (c : Dev nD) (w : Fin cfg5.W) : (pdats m 5 c).arrAt w cfg5.N = rd (U7 m) c (Pipeline.arrRef spec5 w) := by
  fin_cases w
  · refine ((pdats m 5 c).arrAt_in 0 rfl _).trans ((A_eq5 (rd (U6 m)) c 0).trans ?_)
    exact (U7_of_ne m c _ (by decide) (by decide)).symm
  · refine ((pdats m 5 c).arrAt_in 1 rfl _).trans ((A_eq5 (rd (U6 m)) c 1).trans ?_)
    exact (U7_of_ne m c _ (by decide) (by decide)).symm
  · refine ((pdats m 5 c).arrAt_in 2 rfl _).trans ((A_eq5 (rd (U6 m)) c 2).trans ?_)
    exact (U7_of_ne m c _ (by decide) (by decide)).symm
  · refine ((pdats m 5 c).arrAt_in 3 rfl _).trans ((A_eq5 (rd (U6 m)) c 3).trans ?_)
    exact (U7_of_ne m c _ (by decide) (by decide)).symm
  · exact (by unfold U7; exact (Function.update_of_ne (StableHlo.devRef_ne_of_ne (by decide)) _ _).trans (Function.update_self _ _ _) : U7 m c main_v21_0 = o7_0 m c).symm
  · exact (by unfold U7; exact Function.update_self _ _ _ : U7 m c main_v21_1 = o7_1 m c).symm

theorem hrest5 (c : Dev nD) : ∀ b, b ∉ Finset.univ.image (Pipeline.arrRef spec5) → rd (U7 m) c b = rd (U6 m) c b := fun b hb => by
  unfold rd U7
  exact (Function.update_of_ne (StableHlo.devRef_ne_of_ne (show b ≠ main_v21_1 from fun h => hb (Finset.mem_image.mpr ⟨5, Finset.mem_univ _, h.symm⟩))) _ _).trans (Function.update_of_ne (StableHlo.devRef_ne_of_ne (show b ≠ main_v21_0 from fun h => hb (Finset.mem_image.mpr ⟨4, Finset.mem_univ _, h.symm⟩))) _ _)

set_option backward.isDefEq.respectTransparency.types false in
def reg5 : Pipeline.RegionSeg (pcfgs (F := F)) adm (pdats m) () defs₀ Variants.none (fun _ => (∅ : Finset Unit)) (fun _ _ => (0 : ℕ)) 5 where
  win := launch5.win.to₀
  block_pos := launch5.block_pos
  stage_whole := launch5.stage_whole
  K := PEmpty
  osem k := k.elim
  ho := Pipeline.OwnSemFacts.none _
  hbody c := (body_obligation5 (rd (U6 m)) c).loose
  hwaits := Pipeline.hwaits_of_owed_zero _ _ _ _ (fun _ => (∅ : Finset Unit)) (fun _ _ => (0 : ℕ)) 5 fun _ _ => rfl
  pre c := iprop(StableHlo.held (c : Thread nD τ) (Pipeline.ucRefs τ sig) (U6 m c) ∗ Rr c)
  post c := iprop(StableHlo.held (c : Thread nD τ) (Pipeline.ucRefs τ sig) (U7 m c) ∗ Rr c)
  X c := iprop(∃ r, prngReg c r)
  Y c := iprop(∃ r, prngReg c r)
  Z c := Pipeline.unscopedRest (Ix := Unit) (Name := ℕ) (U := UR sig nD τ) (Lvl := ℕ) spec5 c (rd (U6 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (rd (U6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (rd (U6 m) c) (rd (U7 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg6.lean ====
import proofs.«418426_j87943750353447_3_alg».proof.Proof.KernelIdeal.Rest
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem hF6 (c : Dev nD) (w : Fin cfg6.W) : (pdats m 6 c).arrAt w cfg6.N = rd (U13 m) c (Pipeline.arrRef spec6 w) := by
  fin_cases w
  · exact ((pdats m 6 c).arrAt_in 0 rfl _).trans (((A_eq6 (rd (U12 m)) c 0)).trans (by
      unfold U13; exact (Function.update_of_ne (StableHlo.devRef_ne_of_ne (by decide)) _ _).symm))
  · exact ((pdats m 6 c).arrAt_in 1 rfl _).trans (((A_eq6 (rd (U12 m)) c 1)).trans (by
      unfold U13; exact (Function.update_of_ne (StableHlo.devRef_ne_of_ne (by decide)) _ _).symm))
  · exact ((pdats m 6 c).arrAt_in 2 rfl _).trans (((A_eq6 (rd (U12 m)) c 2)).trans (by
      unfold U13; exact (Function.update_of_ne (StableHlo.devRef_ne_of_ne (by decide)) _ _).symm))
  · exact (by unfold U13; exact Function.update_self _ _ _ : U13 m c main_v27 = o13_0 m c).symm

theorem hrest6 (c : Dev nD) : ∀ b, b ∉ Finset.univ.image (Pipeline.arrRef spec6) → rd (U13 m) c b = rd (U12 m) c b := fun b hb => by
  unfold rd U13
  exact (Function.update_of_ne (StableHlo.devRef_ne_of_ne (show b ≠ main_v27 from fun h => hb (Finset.mem_image.mpr ⟨3, Finset.mem_univ _, h.symm⟩))) _ _)

set_option backward.isDefEq.respectTransparency.types false in
def reg6 : Pipeline.RegionSeg (pcfgs (F := F)) adm (pdats m) () defs₀ Variants.none (fun _ => (∅ : Finset Unit)) (fun _ _ => (0 : ℕ)) 6 where
  win := launch6.win.to₀
  block_pos := launch6.block_pos
  stage_whole := launch6.stage_whole
  K := PEmpty
  osem k := k.elim
  ho := Pipeline.OwnSemFacts.none _
  hbody c := (body_obligation6 (rd (U12 m)) c).loose
  hwaits := Pipeline.hwaits_of_owed_zero _ _ _ _ (fun _ => (∅ : Finset Unit)) (fun _ _ => (0 : ℕ)) 6 fun _ _ => rfl
  pre c := iprop(StableHlo.held (c : Thread nD τ) (Pipeline.ucRefs τ sig) (U12 m c) ∗ Rr c)
  post c := iprop(StableHlo.held (c : Thread nD τ) (Pipeline.ucRefs τ sig) (U13 m c) ∗ Rr c)
  X c := iprop(∃ r, prngReg c r)
  Y c := iprop(∃ r, prngReg c r)
  Z c := Pipeline.unscopedRest (Ix := Unit) (Name := ℕ) (U := UR sig nD τ) (Lvl := ℕ) spec6 c (rd (U12 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (rd (U12 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (rd (U12 m) c) (rd (U13 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg7.lean ====
import proofs.«418426_j87943750353447_3_alg».proof.Proof.KernelIdeal.Rest
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem hF7 (c : Dev nD) (w : Fin cfg7.W) : (pdats m 7 c).arrAt w cfg7.N = rd (U18 m) c (Pipeline.arrRef spec7 w) := by
  fin_cases w
  · exact ((pdats m 7 c).arrAt_in 0 rfl _).trans (((A_eq7 (rd (U17 m)) c 0)).trans (by
      unfold U18; exact (Function.update_of_ne (StableHlo.devRef_ne_of_ne (by decide)) _ _).symm))
  · exact ((pdats m 7 c).arrAt_in 1 rfl _).trans (((A_eq7 (rd (U17 m)) c 1)).trans (by
      unfold U18; exact (Function.update_of_ne (StableHlo.devRef_ne_of_ne (by decide)) _ _).symm))
  · exact ((pdats m 7 c).arrAt_in 2 rfl _).trans (((A_eq7 (rd (U17 m)) c 2)).trans (by
      unfold U18; exact (Function.update_of_ne (StableHlo.devRef_ne_of_ne (by decide)) _ _).symm))
  · exact (by unfold U18; exact Function.update_self _ _ _ : U18 m c main_v32 = o18_0 m c).symm

theorem hrest7 (c : Dev nD) : ∀ b, b ∉ Finset.univ.image (Pipeline.arrRef spec7) → rd (U18 m) c b = rd (U17 m) c b := fun b hb => by
  unfold rd U18
  exact (Function.update_of_ne (StableHlo.devRef_ne_of_ne (show b ≠ main_v32 from fun h => hb (Finset.mem_image.mpr ⟨3, Finset.mem_univ _, h.symm⟩))) _ _)

set_option backward.isDefEq.respectTransparency.types false in
def reg7 : Pipeline.RegionSeg (pcfgs (F := F)) adm (pdats m) () defs₀ Variants.none (fun _ => (∅ : Finset Unit)) (fun _ _ => (0 : ℕ)) 7 where
  win := launch7.win.to₀
  block_pos := launch7.block_pos
  stage_whole := launch7.stage_whole
  K := PEmpty
  osem k := k.elim
  ho := Pipeline.OwnSemFacts.none _
  hbody c := (body_obligation7 (rd (U17 m)) c).loose
  hwaits := Pipeline.hwaits_of_owed_zero _ _ _ _ (fun _ => (∅ : Finset Unit)) (fun _ _ => (0 : ℕ)) 7 fun _ _ => rfl
  pre c := iprop(StableHlo.held (c : Thread nD τ) (Pipeline.ucRefs τ sig) (U17 m c) ∗ Rr c)
  post c := iprop(StableHlo.held (c : Thread nD τ) (Pipeline.ucRefs τ sig) (U18 m c) ∗ Rr c)
  X c := iprop(∃ r, prngReg c r)
  Y c := iprop(∃ r, prngReg c r)
  Z c := Pipeline.unscopedRest (Ix := Unit) (Name := ℕ) (U := UR sig nD τ) (Lvl := ℕ) spec7 c (rd (U17 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (rd (U17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (rd (U17 m) c) (rd (U18 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg8.lean ====
import proofs.«418426_j87943750353447_3_alg».proof.Proof.KernelIdeal.Rest
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem hF8 (c : Dev nD) (w : Fin cfg8.W) : (pdats m 8 c).arrAt w cfg8.N = rd (U23 m) c (Pipeline.arrRef spec8 w) := by
  fin_cases w
  · exact ((pdats m 8 c).arrAt_in 0 rfl _).trans (((A_eq8 (rd (U22 m)) c 0)).trans (by
      unfold U23; exact (Function.update_of_ne (StableHlo.devRef_ne_of_ne (by decide)) _ _).symm))
  · exact ((pdats m 8 c).arrAt_in 1 rfl _).trans (((A_eq8 (rd (U22 m)) c 1)).trans (by
      unfold U23; exact (Function.update_of_ne (StableHlo.devRef_ne_of_ne (by decide)) _ _).symm))
  · exact ((pdats m 8 c).arrAt_in 2 rfl _).trans (((A_eq8 (rd (U22 m)) c 2)).trans (by
      unfold U23; exact (Function.update_of_ne (StableHlo.devRef_ne_of_ne (by decide)) _ _).symm))
  · exact (by unfold U23; exact Function.update_self _ _ _ : U23 m c main_v37 = o23_0 m c).symm

theorem hrest8 (c : Dev nD) : ∀ b, b ∉ Finset.univ.image (Pipeline.arrRef spec8) → rd (U23 m) c b = rd (U22 m) c b := fun b hb => by
  unfold rd U23
  exact (Function.update_of_ne (StableHlo.devRef_ne_of_ne (show b ≠ main_v37 from fun h => hb (Finset.mem_image.mpr ⟨3, Finset.mem_univ _, h.symm⟩))) _ _)

set_option backward.isDefEq.respectTransparency.types false in
def reg8 : Pipeline.RegionSeg (pcfgs (F := F)) adm (pdats m) () defs₀ Variants.none (fun _ => (∅ : Finset Unit)) (fun _ _ => (0 : ℕ)) 8 where
  win := launch8.win.to₀
  block_pos := launch8.block_pos
  stage_whole := launch8.stage_whole
  K := PEmpty
  osem k := k.elim
  ho := Pipeline.OwnSemFacts.none _
  hbody c := (body_obligation8 (rd (U22 m)) c).loose
  hwaits := Pipeline.hwaits_of_owed_zero _ _ _ _ (fun _ => (∅ : Finset Unit)) (fun _ _ => (0 : ℕ)) 8 fun _ _ => rfl
  pre c := iprop(StableHlo.held (c : Thread nD τ) (Pipeline.ucRefs τ sig) (U22 m c) ∗ Rr c)
  post c := iprop(StableHlo.held (c : Thread nD τ) (Pipeline.ucRefs τ sig) (U23 m c) ∗ Rr c)
  X c := iprop(∃ r, prngReg c r)
  Y c := iprop(∃ r, prngReg c r)
  Z c := Pipeline.unscopedRest (Ix := Unit) (Name := ℕ) (U := UR sig nD τ) (Lvl := ℕ) spec8 c (rd (U22 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (rd (U22 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (rd (U22 m) c) (rd (U23 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Frame.lean ====
import proofs.«418426_j87943750353447_3_alg».proof.Proof.KernelIdeal.Seg0
import proofs.«418426_j87943750353447_3_alg».proof.Proof.KernelIdeal.Seg1
import proofs.«418426_j87943750353447_3_alg».proof.Proof.KernelIdeal.Seg2
import proofs.«418426_j87943750353447_3_alg».proof.Proof.KernelIdeal.Seg3
import proofs.«418426_j87943750353447_3_alg».proof.Proof.KernelIdeal.Seg4
import proofs.«418426_j87943750353447_3_alg».proof.Proof.KernelIdeal.Seg5
import proofs.«418426_j87943750353447_3_alg».proof.Proof.KernelIdeal.Seg6
import proofs.«418426_j87943750353447_3_alg».proof.Proof.KernelIdeal.Seg7
import proofs.«418426_j87943750353447_3_alg».proof.Proof.KernelIdeal.Seg8

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem fund : (ownU (initOf (Pipeline.cells cfgs cellOf_inj) (Pipeline.launchToks cfgs cellOf_inj)) : sProp 𝕄)
    ⊢ |={Set.univ}=> iprop(BI.own ((emb₁ : Emb _ 𝕄) (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own ((emb₁ : Emb _ 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem rest0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts (fun _ : GSem nD τ sig => (∅ : Finset Unit)) (fun _ _ => (0 : ℕ)))
    ⊢ (|={Set.univ}=> bigSep Finset.univ (fun c : Dev nD => Rr (F := F) c) : sProp 𝕄) :=
  Pipeline.initEach (fun _ => (∅ : Finset Unit)) (fun _ _ => (0 : ℕ)) fun c => by
    iintro ⟨⟨-, HO, -, Hp, -⟩, -⟩
    imodintro
    isplitl [Hp]; · iexists _; iexact Hp
    iexists ∅; iexact HO

end Cert.KernelIdeal.Hand

end
-- ==== Proof.KernelIdeal.RunVal.lean ====
import proofs.«418426_j87943750353447_3_alg».proof.Proof.KernelIdeal.Frame
import proofs.«418426_j87943750353447_3_alg».proof.Proof.KernelIdeal.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_val : θ_run defs (onTc (τ := τ) (main (F := F))) ⟨m, fun _ => 0, ρ⟩ (fun r => ∀ c : Dev nD,
      r.2.mem ((c.tc : Thread nD τ).loc main_v22) = U24 m c main_v22
      ∧ r.2.mem ((c.tc : Thread nD τ).loc main_v39) = U24 m c main_v39
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c => by have h' := h c; rw [V24_eq] at h'; exact h')
    (frame_cond_val m (emb₁ : Emb _ 𝕄) () Variants.none (fun _ => (∅ : Finset Unit)) (fun _ _ => (0 : ℕ)) (fun _ _ => rfl) ρ (outs m) (pdats m)
      0 (fun _ => (BI.emp : sProp 𝕄)) (initOf (Pipeline.cells cfgs cellOf_inj) (Pipeline.launchToks cfgs cellOf_inj)) fund
      (fun _ c => Rr c) (rest0 ρ) (fun c => by iintro ⟨-, HO⟩; iexact HO)
      (reg0 m) (fun c => by rw [V0_eq]; exact .rfl) (fun c => by rw [V1_eq]; exact .rfl)
      (reg1 m) (fun c => by rw [V1_eq]; exact .rfl) (fun c => by rw [V2_eq]; exact .rfl)
      (reg2 m) (fun c => by rw [V2_eq]; exact .rfl) (fun c => by rw [V3_eq]; exact .rfl)
      (reg3 m) (fun c => by rw [V4_eq]; exact .rfl) (fun c => by rw [V5_eq]; exact .rfl)
      (reg4 m) (fun c => by rw [V5_eq]; exact .rfl) (fun c => by rw [V6_eq]; exact .rfl)
      (reg5 m) (fun c => by rw [V6_eq]; exact .rfl) (fun c => by rw [V7_eq]; exact .rfl)
      (reg6 m) (fun c => by rw [V12_eq]; exact .rfl) (fun c => by rw [V13_eq]; exact .rfl)
      (reg7 m) (fun c => by rw [V17_eq]; exact .rfl) (fun c => by rw [V18_eq]; exact .rfl)
      (reg8 m) (fun c => by rw [V22_eq]; exact .rfl) (fun c => by rw [V23_eq]; exact .rfl))

end Cert.KernelIdeal.Hand

end
-- ==== Proof.Val.PreDecode.lean ====
import proofs.«418426_j87943750353447_3_alg».proof.Defs
import Idealize.ShloMosaic.Lib.ReduceAll
import Idealize.ShloMosaic.Lib.ValueIdx

noncomputable section

namespace Cert.KernelIdeal.Hand

open Idealize.ShloMosaic Idealize.ShloMosaic.TcCoe Idealize.SL.Sem

theorem range_word (v L H : BitVec 32) (k : Int) (hL : L.toInt = -k) (hH : H.toInt = k)
    (e : IntOp.andi (IntOp.cmpi .sge v L) (IntOp.cmpi .slt v H) = 1#1) : -k ≤ v.toInt ∧ v.toInt < k := by
  obtain ⟨e1, e2⟩ := IntOp.andi_eq_one.1 e
  simp only [IntOp.cmpi, BitVec.sle, BitVec.slt, hL, hH] at e1 e2
  have b1 : ∀ b : Bool, BitVec.ofBool b = 1#1 → b = true := by decide
  have h1 := of_decide_eq_true (b1 _ e1)
  have h2 := of_decide_eq_true (b1 _ e2)
  exact ⟨h1, h2⟩

theorem range_of_all {n : Nat} (a : IVec ⟨1, ![n]⟩ 32) (L H : IVec ⟨0, ![]⟩ 32) (k : Int)
    (hb : (⟨0, ![]⟩ : Shape).BroadcastsInDim ⟨1, ![n]⟩ (![] : Fin 0 → Fin 1))
    (hr : (⟨1, ![n]⟩ : Shape).ReducesTo [0] ⟨0, ![]⟩) (hu : 0 < (⟨0, ![]⟩ : Shape).numel)
    (hL : (L ValueIdx.ix0).toInt = -k) (hH : (H ValueIdx.ix0).toInt = k)
    (e : Host.reduce IntOp.andi
        (andi (cmpi .sge a (broadcastInDim ⟨1, ![n]⟩ ![] hb L)) (cmpi .slt a (broadcastInDim ⟨1, ![n]⟩ ![] hb H)))
        (constantI ⟨0, ![]⟩ 1 1#1) hr hu ValueIdx.ix0 = 1#1) (j : (⟨1, ![n]⟩ : Shape).Idx) :
    -k ≤ (a j).toInt ∧ (a j).toInt < k := by

  haveI : Subsingleton (⟨0, ![]⟩ : Shape).Idx := ⟨fun _ _ => funext fun d => d.elim0⟩
  have ej := Host.reduce_andi_all _ _ hr hu ValueIdx.ix0 e j
  refine range_word (a j) (L ValueIdx.ix0) (H ValueIdx.ix0) k hL hH ?_
  have eL : broadcastInDim ⟨1, ![n]⟩ ![] hb L j = L ValueIdx.ix0 := congrArg L (funext fun d => d.elim0)
  have eH : broadcastInDim ⟨1, ![n]⟩ ![] hb H j = H ValueIdx.ix0 := congrArg H (funext fun d => d.elim0)
  rw [← eL, ← eH]
  exact ej

theorem idx_bounds_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ j, -50000 ≤ ((m ((c.tc : Thread Cert.KernelIdeal.nD Cert.KernelIdeal.τ).loc Cert.KernelIdeal.main_arg19)) j).toInt ∧ ((m ((c.tc : Thread Cert.KernelIdeal.nD Cert.KernelIdeal.τ).loc Cert.KernelIdeal.main_arg19)) j).toInt < 50000)
      ∧ (∀ j, -30000 ≤ ((m ((c.tc : Thread Cert.KernelIdeal.nD Cert.KernelIdeal.τ).loc Cert.KernelIdeal.main_arg20)) j).toInt ∧ ((m ((c.tc : Thread Cert.KernelIdeal.nD Cert.KernelIdeal.τ).loc Cert.KernelIdeal.main_arg20)) j).toInt < 30000)
      ∧ (∀ j, -20000 ≤ ((m ((c.tc : Thread Cert.KernelIdeal.nD Cert.KernelIdeal.τ).loc Cert.KernelIdeal.main_arg21)) j).toInt ∧ ((m ((c.tc : Thread Cert.KernelIdeal.nD Cert.KernelIdeal.τ).loc Cert.KernelIdeal.main_arg21)) j).toInt < 20000)
      ∧ (∀ j, -50000 ≤ ((m ((c.tc : Thread Cert.KernelIdeal.nD Cert.KernelIdeal.τ).loc Cert.KernelIdeal.main_arg22)) j).toInt ∧ ((m ((c.tc : Thread Cert.KernelIdeal.nD Cert.KernelIdeal.τ).loc Cert.KernelIdeal.main_arg22)) j).toInt < 50000)
      ∧ (∀ j, -30000 ≤ ((m ((c.tc : Thread Cert.KernelIdeal.nD Cert.KernelIdeal.τ).loc Cert.KernelIdeal.main_arg23)) j).toInt ∧ ((m ((c.tc : Thread Cert.KernelIdeal.nD Cert.KernelIdeal.τ).loc Cert.KernelIdeal.main_arg23)) j).toInt < 30000)
      ∧ (∀ j, -20000 ≤ ((m ((c.tc : Thread Cert.KernelIdeal.nD Cert.KernelIdeal.τ).loc Cert.KernelIdeal.main_arg24)) j).toInt ∧ ((m ((c.tc : Thread Cert.KernelIdeal.nD Cert.KernelIdeal.τ).loc Cert.KernelIdeal.main_arg24)) j).toInt < 20000)
      ∧ (∀ j, -50000 ≤ ((m ((c.tc : Thread Cert.KernelIdeal.nD Cert.KernelIdeal.τ).loc Cert.KernelIdeal.main_arg25)) j).toInt ∧ ((m ((c.tc : Thread Cert.KernelIdeal.nD Cert.KernelIdeal.τ).loc Cert.KernelIdeal.main_arg25)) j).toInt < 50000)
      ∧ (∀ j, -30000 ≤ ((m ((c.tc : Thread Cert.KernelIdeal.nD Cert.KernelIdeal.τ).loc Cert.KernelIdeal.main_arg26)) j).toInt ∧ ((m ((c.tc : Thread Cert.KernelIdeal.nD Cert.KernelIdeal.τ).loc Cert.KernelIdeal.main_arg26)) j).toInt < 30000)
      ∧ (∀ j, -20000 ≤ ((m ((c.tc : Thread Cert.KernelIdeal.nD Cert.KernelIdeal.τ).loc Cert.KernelIdeal.main_arg27)) j).toInt ∧ ((m ((c.tc : Thread Cert.KernelIdeal.nD Cert.KernelIdeal.τ).loc Cert.KernelIdeal.main_arg27)) j).toInt < 20000) := by
  have e := congrFun (h c) ValueIdx.ix0
  obtain ⟨e, h27⟩ := IntOp.andi_eq_one.1 e
  obtain ⟨e, h26⟩ := IntOp.andi_eq_one.1 e
  obtain ⟨e, h25⟩ := IntOp.andi_eq_one.1 e
  obtain ⟨e, h24⟩ := IntOp.andi_eq_one.1 e
  obtain ⟨e, h23⟩ := IntOp.andi_eq_one.1 e
  obtain ⟨e, h22⟩ := IntOp.andi_eq_one.1 e
  obtain ⟨e, h21⟩ := IntOp.andi_eq_one.1 e
  obtain ⟨e, h20⟩ := IntOp.andi_eq_one.1 e
  obtain ⟨-, h19⟩ := IntOp.andi_eq_one.1 e
  exact ⟨range_of_all (m ((c.tc : Thread Cert.KernelIdeal.nD Cert.KernelIdeal.τ).loc Cert.KernelIdeal.main_arg19)) (constantI _ 32 4294917296#32) (constantI _ 32 50000#32) 50000 _ _ _ (by decide) (by decide) h19,
    range_of_all (m ((c.tc : Thread Cert.KernelIdeal.nD Cert.KernelIdeal.τ).loc Cert.KernelIdeal.main_arg20)) (constantI _ 32 4294937296#32) (constantI _ 32 30000#32) 30000 _ _ _ (by decide) (by decide) h20,
    range_of_all (m ((c.tc : Thread Cert.KernelIdeal.nD Cert.KernelIdeal.τ).loc Cert.KernelIdeal.main_arg21)) (constantI _ 32 4294947296#32) (constantI _ 32 20000#32) 20000 _ _ _ (by decide) (by decide) h21,
    range_of_all (m ((c.tc : Thread Cert.KernelIdeal.nD Cert.KernelIdeal.τ).loc Cert.KernelIdeal.main_arg22)) (constantI _ 32 4294917296#32) (constantI _ 32 50000#32) 50000 _ _ _ (by decide) (by decide) h22,
    range_of_all (m ((c.tc : Thread Cert.KernelIdeal.nD Cert.KernelIdeal.τ).loc Cert.KernelIdeal.main_arg23)) (constantI _ 32 4294937296#32) (constantI _ 32 30000#32) 30000 _ _ _ (by decide) (by decide) h23,
    range_of_all (m ((c.tc : Thread Cert.KernelIdeal.nD Cert.KernelIdeal.τ).loc Cert.KernelIdeal.main_arg24)) (constantI _ 32 4294947296#32) (constantI _ 32 20000#32) 20000 _ _ _ (by decide) (by decide) h24,
    range_of_all (m ((c.tc : Thread Cert.KernelIdeal.nD Cert.KernelIdeal.τ).loc Cert.KernelIdeal.main_arg25)) (constantI _ 32 4294917296#32) (constantI _ 32 50000#32) 50000 _ _ _ (by decide) (by decide) h25,
    range_of_all (m ((c.tc : Thread Cert.KernelIdeal.nD Cert.KernelIdeal.τ).loc Cert.KernelIdeal.main_arg26)) (constantI _ 32 4294937296#32) (constantI _ 32 30000#32) 30000 _ _ _ (by decide) (by decide) h26,
    range_of_all (m ((c.tc : Thread Cert.KernelIdeal.nD Cert.KernelIdeal.τ).loc Cert.KernelIdeal.main_arg27)) (constantI _ 32 4294947296#32) (constantI _ 32 20000#32) 20000 _ _ _ (by decide) (by decide) h27⟩

end Cert.KernelIdeal.Hand

end
-- ==== Proof.KernelIdeal.Carry.lean ====
import proofs.«418426_j87943750353447_3_alg».proof.Proof.KernelIdeal.Bounds

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

theorem U1_of (c : Dev nD) (r : Ref sig .tc) (h : r ∉ ([main_v0] : List (Ref sig .tc))) : U1 m c r = U0 m c r := by
  have h' := V1_of m (outs m) c r h
  rw [V1_eq, V0_eq] at h'
  exact h'
theorem U2_of (c : Dev nD) (r : Ref sig .tc) (h : r ∉ ([main_v1] : List (Ref sig .tc))) : U2 m c r = U1 m c r := by
  have h' := V2_of m (outs m) c r h
  rw [V2_eq, V1_eq] at h'
  exact h'
theorem U3_of (c : Dev nD) (r : Ref sig .tc) (h : r ∉ ([main_v2] : List (Ref sig .tc))) : U3 m c r = U2 m c r := by
  have h' := V3_of m (outs m) c r h
  rw [V3_eq, V2_eq] at h'
  exact h'
theorem U4_of (c : Dev nD) (r : Ref sig .tc) (h : r ∉ hostOps3_W) : U4 m c r = U3 m c r := by
  have h' := V4_of m (outs m) c r h
  rw [V4_eq, V3_eq] at h'
  exact h'
theorem U5_of (c : Dev nD) (r : Ref sig .tc) (h : r ∉ ([main_v19_0, main_v19_1] : List (Ref sig .tc))) : U5 m c r = U4 m c r := by
  have h' := V5_of m (outs m) c r h
  rw [V5_eq, V4_eq] at h'
  exact h'
theorem U6_of (c : Dev nD) (r : Ref sig .tc) (h : r ∉ ([main_v20_0, main_v20_1] : List (Ref sig .tc))) : U6 m c r = U5 m c r := by
  have h' := V6_of m (outs m) c r h
  rw [V6_eq, V5_eq] at h'
  exact h'
theorem U7_of (c : Dev nD) (r : Ref sig .tc) (h : r ∉ ([main_v21_0, main_v21_1] : List (Ref sig .tc))) : U7 m c r = U6 m c r := by
  have h' := V7_of m (outs m) c r h
  rw [V7_eq, V6_eq] at h'
  exact h'
theorem U8_of (c : Dev nD) (r : Ref sig .tc) (h : r ∉ hostOps6_W) : U8 m c r = U7 m c r := by
  have h' := V8_of m (outs m) c r h
  rw [V8_eq, V7_eq] at h'
  exact h'
theorem U9_of (c : Dev nD) (r : Ref sig .tc) (h : r ∉ hostOps6_1_W) : U9 m c r = U8 m c r := by
  have h' := V9_of m (outs m) c r h
  rw [V9_eq, V8_eq] at h'
  exact h'
theorem U10_of (c : Dev nD) (r : Ref sig .tc) (h : r ∉ hostOps6_2_W) : U10 m c r = U9 m c r := by
  have h' := V10_of m (outs m) c r h
  rw [V10_eq, V9_eq] at h'
  exact h'
theorem U11_of (c : Dev nD) (r : Ref sig .tc) (h : r ∉ hostOps6_3_W) : U11 m c r = U10 m c r := by
  have h' := V11_of m (outs m) c r h
  rw [V11_eq, V10_eq] at h'
  exact h'
theorem U12_of (c : Dev nD) (r : Ref sig .tc) (h : r ∉ hostOps6_4_W) : U12 m c r = U11 m c r := by
  have h' := V12_of m (outs m) c r h
  rw [V12_eq, V11_eq] at h'
  exact h'
theorem U13_of (c : Dev nD) (r : Ref sig .tc) (h : r ∉ ([main_v27] : List (Ref sig .tc))) : U13 m c r = U12 m c r := by
  have h' := V13_of m (outs m) c r h
  rw [V13_eq, V12_eq] at h'
  exact h'
theorem U14_of (c : Dev nD) (r : Ref sig .tc) (h : r ∉ hostOps7_W) : U14 m c r = U13 m c r := by
  have h' := V14_of m (outs m) c r h
  rw [V14_eq, V13_eq] at h'
  exact h'
theorem U15_of (c : Dev nD) (r : Ref sig .tc) (h : r ∉ hostOps7_1_W) : U15 m c r = U14 m c r := by
  have h' := V15_of m (outs m) c r h
  rw [V15_eq, V14_eq] at h'
  exact h'
theorem U16_of (c : Dev nD) (r : Ref sig .tc) (h : r ∉ hostOps7_2_W) : U16 m c r = U15 m c r := by
  have h' := V16_of m (outs m) c r h
  rw [V16_eq, V15_eq] at h'
  exact h'
theorem U17_of (c : Dev nD) (r : Ref sig .tc) (h : r ∉ hostOps7_3_W) : U17 m c r = U16 m c r := by
  have h' := V17_of m (outs m) c r h
  rw [V17_eq, V16_eq] at h'
  exact h'
theorem U18_of (c : Dev nD) (r : Ref sig .tc) (h : r ∉ ([main_v32] : List (Ref sig .tc))) : U18 m c r = U17 m c r := by
  have h' := V18_of m (outs m) c r h
  rw [V18_eq, V17_eq] at h'
  exact h'
theorem U19_of (c : Dev nD) (r : Ref sig .tc) (h : r ∉ hostOps8_W) : U19 m c r = U18 m c r := by
  have h' := V19_of m (outs m) c r h
  rw [V19_eq, V18_eq] at h'
  exact h'
theorem U20_of (c : Dev nD) (r : Ref sig .tc) (h : r ∉ hostOps8_1_W) : U20 m c r = U19 m c r := by
  have h' := V20_of m (outs m) c r h
  rw [V20_eq, V19_eq] at h'
  exact h'
theorem U21_of (c : Dev nD) (r : Ref sig .tc) (h : r ∉ hostOps8_2_W) : U21 m c r = U20 m c r := by
  have h' := V21_of m (outs m) c r h
  rw [V21_eq, V20_eq] at h'
  exact h'
theorem U22_of (c : Dev nD) (r : Ref sig .tc) (h : r ∉ hostOps8_3_W) : U22 m c r = U21 m c r := by
  have h' := V22_of m (outs m) c r h
  rw [V22_eq, V21_eq] at h'
  exact h'
theorem U23_of (c : Dev nD) (r : Ref sig .tc) (h : r ∉ ([main_v37] : List (Ref sig .tc))) : U23 m c r = U22 m c r := by
  have h' := V23_of m (outs m) c r h
  rw [V23_eq, V22_eq] at h'
  exact h'
theorem U24_of (c : Dev nD) (r : Ref sig .tc) (h : r ∉ hostOps9_W) : U24 m c r = U23 m c r := by
  have h' := V24_of m (outs m) c r h
  rw [V24_eq, V23_eq] at h'
  exact h'

end Cert.KernelIdeal.Hand

end
-- ==== Proof.RefStages.lean ====
import proofs.«418426_j87943750353447_3_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v0 (x0 : (⟨S50000x128, .f32⟩ : BufTy).Contents (Elt F)) (x3 : (⟨S128x64, .f32⟩ : BufTy).Contents (Elt F)) : (⟨S50000x64, .f32⟩ : BufTy).Contents (Elt F) :=
  Host.dotGeneral dot_S50000x128_S128x64_S50000x64_1_0_0_1_n_n none (x0) (x3)

theorem lhs_main_v0_0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl

theorem lhs_main_v0_1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q

theorem rhs_main_v0_0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q

theorem rhs_main_v0_1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

abbrev lidx_main_v0 (i : S50000x64.Idx) (k : Fin 128) : S50000x128.Idx := fun a => match a with
  | ⟨0, _⟩ => ⟨(i 0).val, (i 0).isLt⟩
  | ⟨1, _⟩ => ⟨k.val, k.isLt⟩

abbrev ridx_main_v0 (i : S50000x64.Idx) (k : Fin 128) : S128x64.Idx := fun a => match a with
  | ⟨0, _⟩ => ⟨k.val, k.isLt⟩
  | ⟨1, _⟩ => ⟨(i 1).val, (i 1).isLt⟩

theorem val_main_v0_apply (x0 : (⟨S50000x128, .f32⟩ : BufTy).Contents (Elt Ideal)) (x3 : (⟨S128x64, .f32⟩ : BufTy).Contents (Elt Ideal)) (i : S50000x64.Idx) :
    val_main_v0 (F := Ideal) x0 x3 i = ∑ k : Fin 128, x0 (lidx_main_v0 i k) * x3 (ridx_main_v0 i k) := by
  unfold val_main_v0
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = lidx_main_v0 i k := funext fun a => Fin.ext (by
    match a with
    | ⟨0, _⟩ => exact lhs_main_v0_0 _ _
    | ⟨1, _⟩ => exact (lhs_main_v0_1 _ _).trans hk)
  have er : dot_S50000x128_S128x64_S50000x64_1_0_0_1_n_n.rhsIdx i ((ValueIdx.contrEquiv1 dot_S50000x128_S128x64_S50000x64_1_0_0_1_n_n 128 rfl rfl).symm k) = ridx_main_v0 i k := funext fun a => Fin.ext (by
    match a with
    | ⟨0, _⟩ => exact (rhs_main_v0_0 _ _).trans hk
    | ⟨1, _⟩ => exact rhs_main_v0_1 _ _)
  rw [el, er]

def val_main_v1 (x1 : (⟨S30000x128, .f32⟩ : BufTy).Contents (Elt F)) (x4 : (⟨S128x64, .f32⟩ : BufTy).Contents (Elt F)) : (⟨S30000x64, .f32⟩ : BufTy).Contents (Elt F) :=
  Host.dotGeneral dot_S30000x128_S128x64_S30000x64_1_0_0_1_n_n none (x1) (x4)

theorem lhs_main_v1_0 (i : S30000x64.Idx) (q : dot_S30000x128_S128x64_S30000x64_1_0_0_1_n_n.contr.Idx) :
    (dot_S30000x128_S128x64_S30000x64_1_0_0_1_n_n.lhsIdx i q 0).val = (i 0).val := by
  unfold DotDims.lhsIdx
  rw [dif_neg (show ¬(0 : Fin S30000x128.rank) ∈ dot_S30000x128_S128x64_S30000x64_1_0_0_1_n_n.lhsBatch by decide), dif_pos (show (0 : Fin S30000x128.rank) ∈ dot_S30000x128_S128x64_S30000x64_1_0_0_1_n_n.lhsNonContracting by decide)]
  rfl

theorem lhs_main_v1_1 (i : S30000x64.Idx) (q : dot_S30000x128_S128x64_S30000x64_1_0_0_1_n_n.contr.Idx) :
    (dot_S30000x128_S128x64_S30000x64_1_0_0_1_n_n.lhsIdx i q 1).val = (q ⟨0, by decide⟩).val :=
  dot_S30000x128_S128x64_S30000x64_1_0_0_1_n_n.lhsIdx_val_of_single rfl i q

theorem rhs_main_v1_0 (i : S30000x64.Idx) (q : dot_S30000x128_S128x64_S30000x64_1_0_0_1_n_n.contr.Idx) :
    (dot_S30000x128_S128x64_S30000x64_1_0_0_1_n_n.rhsIdx i q 0).val = (q ⟨0, by decide⟩).val :=
  dot_S30000x128_S128x64_S30000x64_1_0_0_1_n_n.rhsIdx_val_of_single rfl i q

theorem rhs_main_v1_1 (i : S30000x64.Idx) (q : dot_S30000x128_S128x64_S30000x64_1_0_0_1_n_n.contr.Idx) :
    (dot_S30000x128_S128x64_S30000x64_1_0_0_1_n_n.rhsIdx i q 1).val = (i 1).val := by
  unfold DotDims.rhsIdx
  rw [dif_neg (show ¬(1 : Fin S128x64.rank) ∈ dot_S30000x128_S128x64_S30000x64_1_0_0_1_n_n.rhsBatch by decide), dif_pos (show (1 : Fin S128x64.rank) ∈ dot_S30000x128_S128x64_S30000x64_1_0_0_1_n_n.rhsNonContracting by decide)]
  rfl

abbrev lidx_main_v1 (i : S30000x64.Idx) (k : Fin 128) : S30000x128.Idx := fun a => match a with
  | ⟨0, _⟩ => ⟨(i 0).val, (i 0).isLt⟩
  | ⟨1, _⟩ => ⟨k.val, k.isLt⟩

abbrev ridx_main_v1 (i : S30000x64.Idx) (k : Fin 128) : S128x64.Idx := fun a => match a with
  | ⟨0, _⟩ => ⟨k.val, k.isLt⟩
  | ⟨1, _⟩ => ⟨(i 1).val, (i 1).isLt⟩

theorem val_main_v1_apply (x1 : (⟨S30000x128, .f32⟩ : BufTy).Contents (Elt Ideal)) (x4 : (⟨S128x64, .f32⟩ : BufTy).Contents (Elt Ideal)) (i : S30000x64.Idx) :
    val_main_v1 (F := Ideal) x1 x4 i = ∑ k : Fin 128, x1 (lidx_main_v1 i k) * x4 (ridx_main_v1 i k) := by
  unfold val_main_v1
  simp only [Host.dotGeneral]
  rw [Ideal.dotGeneral_apply, ← Equiv.sum_comp (ValueIdx.contrEquiv1 dot_S30000x128_S128x64_S30000x64_1_0_0_1_n_n 128 rfl rfl).symm]
  refine Finset.sum_congr rfl fun k _ => ?_
  have hk := ValueIdx.contrEquiv1_symm_val dot_S30000x128_S128x64_S30000x64_1_0_0_1_n_n 128 rfl rfl k
  have el : dot_S30000x128_S128x64_S30000x64_1_0_0_1_n_n.lhsIdx i ((ValueIdx.contrEquiv1 dot_S30000x128_S128x64_S30000x64_1_0_0_1_n_n 128 rfl rfl).symm k) = lidx_main_v1 i k := funext fun a => Fin.ext (by
    match a with
    | ⟨0, _⟩ => exact lhs_main_v1_0 _ _
    | ⟨1, _⟩ => exact (lhs_main_v1_1 _ _).trans hk)
  have er : dot_S30000x128_S128x64_S30000x64_1_0_0_1_n_n.rhsIdx i ((ValueIdx.contrEquiv1 dot_S30000x128_S128x64_S30000x64_1_0_0_1_n_n 128 rfl rfl).symm k) = ridx_main_v1 i k := funext fun a => Fin.ext (by
    match a with
    | ⟨0, _⟩ => exact (rhs_main_v1_0 _ _).trans hk
    | ⟨1, _⟩ => exact rhs_main_v1_1 _ _)
  rw [el, er]

def val_main_v2 (x2 : (⟨S20000x128, .f32⟩ : BufTy).Contents (Elt F)) (x5 : (⟨S128x64, .f32⟩ : BufTy).Contents (Elt F)) : (⟨S20000x64, .f32⟩ : BufTy).Contents (Elt F) :=
  Host.dotGeneral dot_S20000x128_S128x64_S20000x64_1_0_0_1_n_n none (x2) (x5)

theorem lhs_main_v2_0 (i : S20000x64.Idx) (q : dot_S20000x128_S128x64_S20000x64_1_0_0_1_n_n.contr.Idx) :
    (dot_S20000x128_S128x64_S20000x64_1_0_0_1_n_n.lhsIdx i q 0).val = (i 0).val := by
  unfold DotDims.lhsIdx
  rw [dif_neg (show ¬(0 : Fin S20000x128.rank) ∈ dot_S20000x128_S128x64_S20000x64_1_0_0_1_n_n.lhsBatch by decide), dif_pos (show (0 : Fin S20000x128.rank) ∈ dot_S20000x128_S128x64_S20000x64_1_0_0_1_n_n.lhsNonContracting by decide)]
  rfl

theorem lhs_main_v2_1 (i : S20000x64.Idx) (q : dot_S20000x128_S128x64_S20000x64_1_0_0_1_n_n.contr.Idx) :
    (dot_S20000x128_S128x64_S20000x64_1_0_0_1_n_n.lhsIdx i q 1).val = (q ⟨0, by decide⟩).val :=
  dot_S20000x128_S128x64_S20000x64_1_0_0_1_n_n.lhsIdx_val_of_single rfl i q

theorem rhs_main_v2_0 (i : S20000x64.Idx) (q : dot_S20000x128_S128x64_S20000x64_1_0_0_1_n_n.contr.Idx) :
    (dot_S20000x128_S128x64_S20000x64_1_0_0_1_n_n.rhsIdx i q 0).val = (q ⟨0, by decide⟩).val :=
  dot_S20000x128_S128x64_S20000x64_1_0_0_1_n_n.rhsIdx_val_of_single rfl i q

theorem rhs_main_v2_1 (i : S20000x64.Idx) (q : dot_S20000x128_S128x64_S20000x64_1_0_0_1_n_n.contr.Idx) :
    (dot_S20000x128_S128x64_S20000x64_1_0_0_1_n_n.rhsIdx i q 1).val = (i 1).val := by
  unfold DotDims.rhsIdx
  rw [dif_neg (show ¬(1 : Fin S128x64.rank) ∈ dot_S20000x128_S128x64_S20000x64_1_0_0_1_n_n.rhsBatch by decide), dif_pos (show (1 : Fin S128x64.rank) ∈ dot_S20000x128_S128x64_S20000x64_1_0_0_1_n_n.rhsNonContracting by decide)]
  rfl

abbrev lidx_main_v2 (i : S20000x64.Idx) (k : Fin 128) : S20000x128.Idx := fun a => match a with
  | ⟨0, _⟩ => ⟨(i 0).val, (i 0).isLt⟩
  | ⟨1, _⟩ => ⟨k.val, k.isLt⟩

abbrev ridx_main_v2 (i : S20000x64.Idx) (k : Fin 128) : S128x64.Idx := fun a => match a with
  | ⟨0, _⟩ => ⟨k.val, k.isLt⟩
  | ⟨1, _⟩ => ⟨(i 1).val, (i 1).isLt⟩

theorem val_main_v2_apply (x2 : (⟨S20000x128, .f32⟩ : BufTy).Contents (Elt Ideal)) (x5 : (⟨S128x64, .f32⟩ : BufTy).Contents (Elt Ideal)) (i : S20000x64.Idx) :
    val_main_v2 (F := Ideal) x2 x5 i = ∑ k : Fin 128, x2 (lidx_main_v2 i k) * x5 (ridx_main_v2 i k) := by
  unfold val_main_v2
  simp only [Host.dotGeneral]
  rw [Ideal.dotGeneral_apply, ← Equiv.sum_comp (ValueIdx.contrEquiv1 dot_S20000x128_S128x64_S20000x64_1_0_0_1_n_n 128 rfl rfl).symm]
  refine Finset.sum_congr rfl fun k _ => ?_
  have hk := ValueIdx.contrEquiv1_symm_val dot_S20000x128_S128x64_S20000x64_1_0_0_1_n_n 128 rfl rfl k
  have el : dot_S20000x128_S128x64_S20000x64_1_0_0_1_n_n.lhsIdx i ((ValueIdx.contrEquiv1 dot_S20000x128_S128x64_S20000x64_1_0_0_1_n_n 128 rfl rfl).symm k) = lidx_main_v2 i k := funext fun a => Fin.ext (by
    match a with
    | ⟨0, _⟩ => exact lhs_main_v2_0 _ _
    | ⟨1, _⟩ => exact (lhs_main_v2_1 _ _).trans hk)
  have er : dot_S20000x128_S128x64_S20000x64_1_0_0_1_n_n.rhsIdx i ((ValueIdx.contrEquiv1 dot_S20000x128_S128x64_S20000x64_1_0_0_1_n_n 128 rfl rfl).symm k) = ridx_main_v2 i k := funext fun a => Fin.ext (by
    match a with
    | ⟨0, _⟩ => exact (rhs_main_v2_0 _ _).trans hk
    | ⟨1, _⟩ => exact rhs_main_v2_1 _ _)
  rw [el, er]

def val_main_v3 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) : (⟨S100000x64, .f32⟩ : BufTy).Contents (Elt F) :=
  concatenate S100000x64 0 [⟨S50000x64, (val_main_v0 (F := F) x0 x3)⟩, ⟨S30000x64, (val_main_v1 (F := F) x1 x4)⟩, ⟨S20000x64, (val_main_v2 (F := F) x2 x5)⟩] concatenates_S50000x64_S30000x64_S20000x64_S100000x64_d0

def val_main_c : (⟨S_, .i32⟩ : BufTy).Contents (Elt F) :=
  constantI S_ 32 0#32

def val_main_v4 : (⟨S3200000, .i32⟩ : BufTy).Contents (Elt F) :=
  broadcastInDim S3200000 ![] bcast_S_S3200000 (val_main_c (F := F))

def val_main_v5 (x17 : (⟨S3200000, .i32⟩ : BufTy).Contents (Elt F)) : (⟨S3200000, .i1⟩ : BufTy).Contents (Elt F) :=
  cmpi .slt (x17) (val_main_v4 (F := F))

def val_main_c_0 : (⟨S_, .i32⟩ : BufTy).Contents (Elt F) :=
  constantI S_ 32 100000#32

def val_main_v6 : (⟨S3200000, .i32⟩ : BufTy).Contents (Elt F) :=
  broadcastInDim S3200000 ![] bcast_S_S3200000 (val_main_c_0 (F := F))

def val_main_v7 (x17 : (⟨S3200000, .i32⟩ : BufTy).Contents (Elt F)) : (⟨S3200000, .i32⟩ : BufTy).Contents (Elt F) :=
  addi (x17) (val_main_v6 (F := F))

def val_main_v8 (x17 : (⟨S3200000, .i32⟩ : BufTy).Contents (Elt F)) : (⟨S3200000, .i32⟩ : BufTy).Contents (Elt F) :=
  select (val_main_v5 (F := F) x17) (val_main_v7 (F := F) x17) (x17)

def val_main_v9 (x17 : (⟨S3200000, .i32⟩ : BufTy).Contents (Elt F)) : (⟨S3200000x1, .i32⟩ : BufTy).Contents (Elt F) :=
  broadcastInDim S3200000x1 ![0] bcast_S3200000_S3200000x1_0 (val_main_v8 (F := F) x17)

def val_main_v10 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x17 : (⟨S3200000, .i32⟩ : BufTy).Contents (Elt F)) : (⟨S3200000x64, .f32⟩ : BufTy).Contents (Elt F) :=
  Host.gather gather_S100000x64_S3200000x1_S3200000x64_1_0_n_n_0_1_164 (val_main_v3 (F := F) x0 x1 x2 x3 x4 x5) (val_main_v9 (F := F) x17)

def val_main_cst : (⟨S_, .f32⟩ : BufTy).Contents (Elt F) :=
  constant S_ .f32 0x00000000#32

def val_main_v11 : (⟨S100000x64, .f32⟩ : BufTy).Contents (Elt F) :=
  broadcastInDim S100000x64 ![] bcast_S_S100000x64 (val_main_cst (F := F))

def val_main_v12 (x18 : (⟨S3200000, .i32⟩ : BufTy).Contents (Elt F)) : (⟨S3200000x1, .i32⟩ : BufTy).Contents (Elt F) :=
  broadcastInDim S3200000x1 ![0] bcast_S3200000_S3200000x1_0 (x18)

def val_main_v13 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x17 x18 : (⟨S3200000, .i32⟩ : BufTy).Contents (Elt F)) : (⟨S100000x64, .f32⟩ : BufTy).Contents (Elt F) :=
  Host.scatterAdd scatter_S100000x64_S3200000x1_S3200000x64_1_0_0_1 (val_main_v11 (F := F)) (val_main_v12 (F := F) x18) (val_main_v10 (F := F) x0 x1 x2 x3 x4 x5 x17)

def val_main_v14 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x17 x18 : (⟨S3200000, .i32⟩ : BufTy).Contents (Elt F)) : (⟨S100000x64, .f32⟩ : BufTy).Contents (Elt F) :=
  Host.dotGeneral dot_S100000x64_S64x64_S100000x64_1_0_0_1_n_n none (val_main_v13 (F := F) x0 x1 x2 x3 x4 x5 x17 x18) (x6)

theorem lhs_main_v14_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl

theorem lhs_main_v14_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q

theorem rhs_main_v14_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q

theorem rhs_main_v14_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

abbrev lidx_main_v14 (i : S100000x64.Idx) (k : Fin 64) : S100000x64.Idx := fun a => match a with
  | ⟨0, _⟩ => ⟨(i 0).val, (i 0).isLt⟩
  | ⟨1, _⟩ => ⟨k.val, k.isLt⟩

abbrev ridx_main_v14 (i : S100000x64.Idx) (k : Fin 64) : S64x64.Idx := fun a => match a with
  | ⟨0, _⟩ => ⟨k.val, k.isLt⟩
  | ⟨1, _⟩ => ⟨(i 1).val, (i 1).isLt⟩

theorem val_main_v14_apply (x0 : (⟨S50000x128, .f32⟩ : BufTy).Contents (Elt Ideal)) (x1 : (⟨S30000x128, .f32⟩ : BufTy).Contents (Elt Ideal)) (x2 : (⟨S20000x128, .f32⟩ : BufTy).Contents (Elt Ideal)) (x3 x4 x5 : (⟨S128x64, .f32⟩ : BufTy).Contents (Elt Ideal)) (x6 : (⟨S64x64, .f32⟩ : BufTy).Contents (Elt Ideal)) (x17 x18 : (⟨S3200000, .i32⟩ : BufTy).Contents (Elt Ideal)) (i : S100000x64.Idx) :
    val_main_v14 (F := Ideal) x0 x1 x2 x3 x4 x5 x6 x17 x18 i = ∑ k : Fin 64, (val_main_v13 (F := Ideal) x0 x1 x2 x3 x4 x5 x17 x18) (lidx_main_v14 i k) * x6 (ridx_main_v14 i k) := by
  unfold val_main_v14
  generalize val_main_v13 (F := Ideal) x0 x1 x2 x3 x4 x5 x17 x18 = y0
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = lidx_main_v14 i k := funext fun a => Fin.ext (by
    match a with
    | ⟨0, _⟩ => exact lhs_main_v14_0 _ _
    | ⟨1, _⟩ => exact (lhs_main_v14_1 _ _).trans hk)
  have er : dot_S100000x64_S64x64_S100000x64_1_0_0_1_n_n.rhsIdx i ((ValueIdx.contrEquiv1 dot_S100000x64_S64x64_S100000x64_1_0_0_1_n_n 64 rfl rfl).symm k) = ridx_main_v14 i k := funext fun a => Fin.ext (by
    match a with
    | ⟨0, _⟩ => exact (rhs_main_v14_0 _ _).trans hk
    | ⟨1, _⟩ => exact rhs_main_v14_1 _ _)
  rw [el, er]

def val_main_v15 (x7 : (⟨S64, .f32⟩ : BufTy).Contents (Elt F)) : (⟨S1x64, .f32⟩ : BufTy).Contents (Elt F) :=
  broadcastInDim S1x64 ![1] bcast_S64_S1x64_1 (x7)

abbrev idx_main_v15 (i : S1x64.Idx) : S64.Idx := fun a => match a with
  | ⟨0, _⟩ => ⟨(i 1).val, (i 1).isLt⟩

theorem val_main_v15_apply (x7 : (⟨S64, .f32⟩ : BufTy).Contents (Elt F)) (i : S1x64.Idx) :
    val_main_v15 (F := F) x7 i = x7 (idx_main_v15 i) := by
  unfold val_main_v15
  exact broadcastInDim_apply _ bcast_S64_S1x64_1 x7 i (idx_main_v15 i) (fun a => match a with
    | ⟨0, _⟩ => by show (i 1).val = if (64 : Nat) = 1 then 0 else (i 1).val; rw [if_neg (by decide)])

def val_main_v16 (x7 : (⟨S64, .f32⟩ : BufTy).Contents (Elt F)) : (⟨S100000x64, .f32⟩ : BufTy).Contents (Elt F) :=
  broadcastInDim S100000x64 ![0, 1] bcast_S1x64_S100000x64_0_1 (val_main_v15 (F := F) x7)

abbrev idx_main_v16 (i : S100000x64.Idx) : S1x64.Idx := fun a => match a with
  | ⟨0, _⟩ => ⟨0, Nat.one_pos⟩
  | ⟨1, _⟩ => ⟨(i 1).val, (i 1).isLt⟩

theorem val_main_v16_apply (x7 : (⟨S64, .f32⟩ : BufTy).Contents (Elt F)) (i : S100000x64.Idx) :
    val_main_v16 (F := F) x7 i = val_main_v15 (F := F) x7 (idx_main_v16 i) := by
  unfold val_main_v16
  generalize val_main_v15 (F := F) x7 = y
  exact broadcastInDim_apply _ bcast_S1x64_S100000x64_0_1 y i (idx_main_v16 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v17 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x17 x18 : (⟨S3200000, .i32⟩ : BufTy).Contents (Elt F)) : (⟨S100000x64, .f32⟩ : BufTy).Contents (Elt F) :=
  addf (val_main_v14 (F := F) x0 x1 x2 x3 x4 x5 x6 x17 x18) (val_main_v16 (F := F) x7)

theorem val_main_v17_apply (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x17 x18 : (⟨S3200000, .i32⟩ : BufTy).Contents (Elt F)) (i : S100000x64.Idx) :
    val_main_v17 (F := F) x0 x1 x2 x3 x4 x5 x6 x7 x17 x18 i = FloatOps.addf (val_main_v14 (F := F) x0 x1 x2 x3 x4 x5 x6 x17 x18 i) (val_main_v16 (F := F) x7 i) := rfl

def val_main_call0_v0 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x17 x18 : (⟨S3200000, .i32⟩ : BufTy).Contents (Elt F)) : (⟨S100000x64, .f32⟩ : BufTy).Contents (Elt F) :=
  mulf (val_main_v17 (F := F) x0 x1 x2 x3 x4 x5 x6 x7 x17 x18) (val_main_v17 (F := F) x0 x1 x2 x3 x4 x5 x6 x7 x17 x18)

theorem val_main_call0_v0_apply (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x17 x18 : (⟨S3200000, .i32⟩ : BufTy).Contents (Elt F)) (i : S100000x64.Idx) :
    val_main_call0_v0 (F := F) x0 x1 x2 x3 x4 x5 x6 x7 x17 x18 i = FloatOps.mulf (val_main_v17 (F := F) x0 x1 x2 x3 x4 x5 x6 x7 x17 x18 i) (val_main_v17 (F := F) x0 x1 x2 x3 x4 x5 x6 x7 x17 x18 i) := rfl

def val_main_call0_cst : (⟨S_, .f32⟩ : BufTy).Contents (Elt F) :=
  constant S_ .f32 0x00000000#32

theorem val_main_call0_cst_apply (i : S_.Idx) :
    val_main_call0_cst (F := F) i = FloatOps.ofBits .f32 0x00000000#32 := rfl

def val_main_call0_v1 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x17 x18 : (⟨S3200000, .i32⟩ : BufTy).Contents (Elt F)) : (⟨S100000, .f32⟩ : BufTy).Contents (Elt F) :=
  Host.reduceAdd (val_main_call0_v0 (F := F) x0 x1 x2 x3 x4 x5 x6 x7 x17 x18) (val_main_call0_cst (F := F)) reducesTo_S100000x64_S100000_d1 h_S_

abbrev idx_main_call0_v1 (i : S100000.Idx) (k : Fin 64) : S100000x64.Idx := fun a => match a with
  | ⟨0, _⟩ => ⟨(i 0).val, (i 0).isLt⟩
  | ⟨1, _⟩ => ⟨k.val, k.isLt⟩

theorem val_main_call0_v1_apply (x0 : (⟨S50000x128, .f32⟩ : BufTy).Contents (Elt Ideal)) (x1 : (⟨S30000x128, .f32⟩ : BufTy).Contents (Elt Ideal)) (x2 : (⟨S20000x128, .f32⟩ : BufTy).Contents (Elt Ideal)) (x3 x4 x5 : (⟨S128x64, .f32⟩ : BufTy).Contents (Elt Ideal)) (x6 : (⟨S64x64, .f32⟩ : BufTy).Contents (Elt Ideal)) (x7 : (⟨S64, .f32⟩ : BufTy).Contents (Elt Ideal)) (x17 x18 : (⟨S3200000, .i32⟩ : BufTy).Contents (Elt Ideal)) (i : S100000.Idx) :
    val_main_call0_v1 (F := Ideal) x0 x1 x2 x3 x4 x5 x6 x7 x17 x18 i = (val_main_call0_cst (F := Ideal)) (Shape.Idx.first h_S_) + ∑ k : Fin 64, (val_main_call0_v0 (F := Ideal) x0 x1 x2 x3 x4 x5 x6 x7 x17 x18) (idx_main_call0_v1 i k) := by
  unfold val_main_call0_v1
  generalize val_main_call0_v0 (F := Ideal) x0 x1 x2 x3 x4 x5 x6 x7 x17 x18 = y0
  simp only [Host.reduceAdd, Ideal.hostReduceAdd_def]
  rw [Ideal.hostReduceAdd_single reducesTo_S100000x64_S100000_d1 (by decide)]
  refine congrArg (_ + ·) (Finset.sum_congr rfl fun k _ => ?_)
  exact congrArg y0 (funext fun a => Fin.ext (by match a with | ⟨0, _⟩ => rfl | ⟨1, _⟩ => rfl))

def val_main_call0_v2 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x17 x18 : (⟨S3200000, .i32⟩ : BufTy).Contents (Elt F)) : (⟨S100000x1, .f32⟩ : BufTy).Contents (Elt F) :=
  broadcastInDim S100000x1 ![0] bcast_S100000_S100000x1_0 (val_main_call0_v1 (F := F) x0 x1 x2 x3 x4 x5 x6 x7 x17 x18)

abbrev idx_main_call0_v2 (i : S100000x1.Idx) : S100000.Idx := fun a => match a with
  | ⟨0, _⟩ => ⟨(i 0).val, (i 0).isLt⟩

theorem val_main_call0_v2_apply (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x17 x18 : (⟨S3200000, .i32⟩ : BufTy).Contents (Elt F)) (i : S100000x1.Idx) :
    val_main_call0_v2 (F := F) x0 x1 x2 x3 x4 x5 x6 x7 x17 x18 i = val_main_call0_v1 (F := F) x0 x1 x2 x3 x4 x5 x6 x7 x17 x18 (idx_main_call0_v2 i) := by
  unfold val_main_call0_v2
  generalize val_main_call0_v1 (F := F) x0 x1 x2 x3 x4 x5 x6 x7 x17 x18 = y
  exact broadcastInDim_apply _ bcast_S100000_S100000x1_0 y i (idx_main_call0_v2 i) (fun a => match a with
    | ⟨0, _⟩ => by show (i 0).val = if (100000 : Nat) = 1 then 0 else (i 0).val; rw [if_neg (by decide)])

def val_main_v18 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x17 x18 : (⟨S3200000, .i32⟩ : BufTy).Contents (Elt F)) : (⟨S100000x1, .f32⟩ : BufTy).Contents (Elt F) :=
  Host.sqrt (val_main_call0_v2 (F := F) x0 x1 x2 x3 x4 x5 x6 x7 x17 x18)

theorem val_main_v18_apply (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x17 x18 : (⟨S3200000, .i32⟩ : BufTy).Contents (Elt F)) (i : S100000x1.Idx) :
    val_main_v18 (F := F) x0 x1 x2 x3 x4 x5 x6 x7 x17 x18 i = FloatOps.hostUnary .sqrt (val_main_call0_v2 (F := F) x0 x1 x2 x3 x4 x5 x6 x7 x17 x18 i) := rfl

def val_main_cst_1 : (⟨S_, .f32⟩ : BufTy).Contents (Elt F) :=
  constant S_ .f32 0x2B8CBCCC#32

theorem val_main_cst_1_apply (i : S_.Idx) :
    val_main_cst_1 (F := F) i = FloatOps.ofBits .f32 0x2B8CBCCC#32 := rfl

def val_main_v19 : (⟨S100000x1, .f32⟩ : BufTy).Contents (Elt F) :=
  broadcastInDim S100000x1 ![] bcast_S_S100000x1 (val_main_cst_1 (F := F))

abbrev idx_main_v19 (i : S100000x1.Idx) : S_.Idx := fun a => a.elim0

theorem val_main_v19_apply (i : S100000x1.Idx) :
    val_main_v19 (F := F) i = val_main_cst_1 (F := F) (idx_main_v19 i) := by
  unfold val_main_v19
  generalize val_main_cst_1 (F := F) = y
  exact broadcastInDim_apply _ bcast_S_S100000x1 y i (idx_main_v19 i) (fun a => a.elim0)

def val_main_v20 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x17 x18 : (⟨S3200000, .i32⟩ : BufTy).Contents (Elt F)) : (⟨S100000x1, .f32⟩ : BufTy).Contents (Elt F) :=
  maximumf (val_main_v18 (F := F) x0 x1 x2 x3 x4 x5 x6 x7 x17 x18) (val_main_v19 (F := F))

theorem val_main_v20_apply (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x17 x18 : (⟨S3200000, .i32⟩ : BufTy).Contents (Elt F)) (i : S100000x1.Idx) :
    val_main_v20 (F := F) x0 x1 x2 x3 x4 x5 x6 x7 x17 x18 i = FloatOps.maximumf (val_main_v18 (F := F) x0 x1 x2 x3 x4 x5 x6 x7 x17 x18 i) (val_main_v19 (F := F) i) := rfl

def val_main_v21 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x17 x18 : (⟨S3200000, .i32⟩ : BufTy).Contents (Elt F)) : (⟨S100000x64, .f32⟩ : BufTy).Contents (Elt F) :=
  broadcastInDim S100000x64 ![0, 1] bcast_S100000x1_S100000x64_0_1 (val_main_v20 (F := F) x0 x1 x2 x3 x4 x5 x6 x7 x17 x18)

abbrev idx_main_v21 (i : S100000x64.Idx) : S100000x1.Idx := fun a => match a with
  | ⟨0, _⟩ => ⟨(i 0).val, (i 0).isLt⟩
  | ⟨1, _⟩ => ⟨0, Nat.one_pos⟩

theorem val_main_v21_apply (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x17 x18 : (⟨S3200000, .i32⟩ : BufTy).Contents (Elt F)) (i : S100000x64.Idx) :
    val_main_v21 (F := F) x0 x1 x2 x3 x4 x5 x6 x7 x17 x18 i = val_main_v20 (F := F) x0 x1 x2 x3 x4 x5 x6 x7 x17 x18 (idx_main_v21 i) := by
  unfold val_main_v21
  generalize val_main_v20 (F := F) x0 x1 x2 x3 x4 x5 x6 x7 x17 x18 = y
  exact broadcastInDim_apply _ bcast_S100000x1_S100000x64_0_1 y i (idx_main_v21 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

def val_main_v22 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x17 x18 : (⟨S3200000, .i32⟩ : BufTy).Contents (Elt F)) : (⟨S100000x64, .f32⟩ : BufTy).Contents (Elt F) :=
  Host.divf (val_main_v17 (F := F) x0 x1 x2 x3 x4 x5 x6 x7 x17 x18) (val_main_v21 (F := F) x0 x1 x2 x3 x4 x5 x6 x7 x17 x18)

theorem val_main_v22_apply (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x17 x18 : (⟨S3200000, .i32⟩ : BufTy).Contents (Elt F)) (i : S100000x64.Idx) :
    val_main_v22 (F := F) x0 x1 x2 x3 x4 x5 x6 x7 x17 x18 i = FloatOps.hostDivf (val_main_v17 (F := F) x0 x1 x2 x3 x4 x5 x6 x7 x17 x18 i) (val_main_v21 (F := F) x0 x1 x2 x3 x4 x5 x6 x7 x17 x18 i) := rfl

def val_main_v23 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x17 x18 : (⟨S3200000, .i32⟩ : BufTy).Contents (Elt F)) : (⟨S50000x64, .f32⟩ : BufTy).Contents (Elt F) :=
  extractStridedSlice S50000x64 ![0, 0] (val_main_v22 (F := F) x0 x1 x2 x3 x4 x5 x6 x7 x17 x18) slices_S100000x64_S50000x64_0_0

abbrev idx_main_v23 (i : S50000x64.Idx) : S100000x64.Idx := fun a => match a with
  | ⟨0, _⟩ => ⟨(i 0).val, by have h0 : (i 0).val < 50000 := (i 0).isLt; show (i 0).val < 100000; omega⟩
  | ⟨1, _⟩ => ⟨(i 1).val, (i 1).isLt⟩

theorem val_main_v23_apply (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x17 x18 : (⟨S3200000, .i32⟩ : BufTy).Contents (Elt F)) (i : S50000x64.Idx) :
    val_main_v23 (F := F) x0 x1 x2 x3 x4 x5 x6 x7 x17 x18 i = val_main_v22 (F := F) x0 x1 x2 x3 x4 x5 x6 x7 x17 x18 (idx_main_v23 i) := by
  unfold val_main_v23
  generalize val_main_v22 (F := F) x0 x1 x2 x3 x4 x5 x6 x7 x17 x18 = y
  exact extractStridedSlice_apply ![0, 0] y slices_S100000x64_S50000x64_0_0 i (idx_main_v23 i) (fun a => match a with
    | ⟨0, _⟩ => by show (i 0).val = 0 + (i 0).val; omega
    | ⟨1, _⟩ => by show (i 1).val = 0 + (i 1).val; omega)

def val_main_v24 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x17 x18 : (⟨S3200000, .i32⟩ : BufTy).Contents (Elt F)) : (⟨S30000x64, .f32⟩ : BufTy).Contents (Elt F) :=
  extractStridedSlice S30000x64 ![50000, 0] (val_main_v22 (F := F) x0 x1 x2 x3 x4 x5 x6 x7 x17 x18) slices_S100000x64_S30000x64_50000_0

abbrev idx_main_v24 (i : S30000x64.Idx) : S100000x64.Idx := fun a => match a with
  | ⟨0, _⟩ => ⟨50000 + (i 0).val, by have h0 : (i 0).val < 30000 := (i 0).isLt; show 50000 + (i 0).val < 100000; omega⟩
  | ⟨1, _⟩ => ⟨(i 1).val, (i 1).isLt⟩

theorem val_main_v24_apply (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x17 x18 : (⟨S3200000, .i32⟩ : BufTy).Contents (Elt F)) (i : S30000x64.Idx) :
    val_main_v24 (F := F) x0 x1 x2 x3 x4 x5 x6 x7 x17 x18 i = val_main_v22 (F := F) x0 x1 x2 x3 x4 x5 x6 x7 x17 x18 (idx_main_v24 i) := by
  unfold val_main_v24
  generalize val_main_v22 (F := F) x0 x1 x2 x3 x4 x5 x6 x7 x17 x18 = y
  exact extractStridedSlice_apply ![50000, 0] y slices_S100000x64_S30000x64_50000_0 i (idx_main_v24 i) (fun a => match a with
    | ⟨0, _⟩ => by show 50000 + (i 0).val = 50000 + (i 0).val; omega
    | ⟨1, _⟩ => by show (i 1).val = 0 + (i 1).val; omega)

def val_main_v25 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x17 x18 : (⟨S3200000, .i32⟩ : BufTy).Contents (Elt F)) : (⟨S20000x64, .f32⟩ : BufTy).Contents (Elt F) :=
  extractStridedSlice S20000x64 ![80000, 0] (val_main_v22 (F := F) x0 x1 x2 x3 x4 x5 x6 x7 x17 x18) slices_S100000x64_S20000x64_80000_0

abbrev idx_main_v25 (i : S20000x64.Idx) : S100000x64.Idx := fun a => match a with
  | ⟨0, _⟩ => ⟨80000 + (i 0).val, by have h0 : (i 0).val < 20000 := (i 0).isLt; show 80000 + (i 0).val < 100000; omega⟩
  | ⟨1, _⟩ => ⟨(i 1).val, (i 1).isLt⟩

theorem val_main_v25_apply (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x17 x18 : (⟨S3200000, .i32⟩ : BufTy).Contents (Elt F)) (i : S20000x64.Idx) :
    val_main_v25 (F := F) x0 x1 x2 x3 x4 x5 x6 x7 x17 x18 i = val_main_v22 (F := F) x0 x1 x2 x3 x4 x5 x6 x7 x17 x18 (idx_main_v25 i) := by
  unfold val_main_v25
  generalize val_main_v22 (F := F) x0 x1 x2 x3 x4 x5 x6 x7 x17 x18 = y
  exact extractStridedSlice_apply ![80000, 0] y slices_S100000x64_S20000x64_80000_0 i (idx_main_v25 i) (fun a => match a with
    | ⟨0, _⟩ => by show 80000 + (i 0).val = 80000 + (i 0).val; omega
    | ⟨1, _⟩ => by show (i 1).val = 0 + (i 1).val; omega)

def val_main_v26 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x8 : (⟨S64x32, .f32⟩ : BufTy).Contents (Elt F)) (x17 x18 : (⟨S3200000, .i32⟩ : BufTy).Contents (Elt F)) : (⟨S50000x32, .f32⟩ : BufTy).Contents (Elt F) :=
  Host.dotGeneral dot_S50000x64_S64x32_S50000x32_1_0_0_1_n_n none (val_main_v23 (F := F) x0 x1 x2 x3 x4 x5 x6 x7 x17 x18) (x8)

theorem lhs_main_v26_0 (i : S50000x32.Idx) (q : dot_S50000x64_S64x32_S50000x32_1_0_0_1_n_n.contr.Idx) :
    (dot_S50000x64_S64x32_S50000x32_1_0_0_1_n_n.lhsIdx i q 0).val = (i 0).val := by
  unfold DotDims.lhsIdx
  rw [dif_neg (show ¬(0 : Fin S50000x64.rank) ∈ dot_S50000x64_S64x32_S50000x32_1_0_0_1_n_n.lhsBatch by decide), dif_pos (show (0 : Fin S50000x64.rank) ∈ dot_S50000x64_S64x32_S50000x32_1_0_0_1_n_n.lhsNonContracting by decide)]
  rfl

theorem lhs_main_v26_1 (i : S50000x32.Idx) (q : dot_S50000x64_S64x32_S50000x32_1_0_0_1_n_n.contr.Idx) :
    (dot_S50000x64_S64x32_S50000x32_1_0_0_1_n_n.lhsIdx i q 1).val = (q ⟨0, by decide⟩).val :=
  dot_S50000x64_S64x32_S50000x32_1_0_0_1_n_n.lhsIdx_val_of_single rfl i q

theorem rhs_main_v26_0 (i : S50000x32.Idx) (q : dot_S50000x64_S64x32_S50000x32_1_0_0_1_n_n.contr.Idx) :
    (dot_S50000x64_S64x32_S50000x32_1_0_0_1_n_n.rhsIdx i q 0).val = (q ⟨0, by decide⟩).val :=
  dot_S50000x64_S64x32_S50000x32_1_0_0_1_n_n.rhsIdx_val_of_single rfl i q

theorem rhs_main_v26_1 (i : S50000x32.Idx) (q : dot_S50000x64_S64x32_S50000x32_1_0_0_1_n_n.contr.Idx) :
    (dot_S50000x64_S64x32_S50000x32_1_0_0_1_n_n.rhsIdx i q 1).val = (i 1).val := by
  unfold DotDims.rhsIdx
  rw [dif_neg (show ¬(1 : Fin S64x32.rank) ∈ dot_S50000x64_S64x32_S50000x32_1_0_0_1_n_n.rhsBatch by decide), dif_pos (show (1 : Fin S64x32.rank) ∈ dot_S50000x64_S64x32_S50000x32_1_0_0_1_n_n.rhsNonContracting by decide)]
  rfl

abbrev lidx_main_v26 (i : S50000x32.Idx) (k : Fin 64) : S50000x64.Idx := fun a => match a with
  | ⟨0, _⟩ => ⟨(i 0).val, (i 0).isLt⟩
  | ⟨1, _⟩ => ⟨k.val, k.isLt⟩

abbrev ridx_main_v26 (i : S50000x32.Idx) (k : Fin 64) : S64x32.Idx := fun a => match a with
  | ⟨0, _⟩ => ⟨k.val, k.isLt⟩
  | ⟨1, _⟩ => ⟨(i 1).val, (i 1).isLt⟩

theorem val_main_v26_apply (x0 : (⟨S50000x128, .f32⟩ : BufTy).Contents (Elt Ideal)) (x1 : (⟨S30000x128, .f32⟩ : BufTy).Contents (Elt Ideal)) (x2 : (⟨S20000x128, .f32⟩ : BufTy).Contents (Elt Ideal)) (x3 x4 x5 : (⟨S128x64, .f32⟩ : BufTy).Contents (Elt Ideal)) (x6 : (⟨S64x64, .f32⟩ : BufTy).Contents (Elt Ideal)) (x7 : (⟨S64, .f32⟩ : BufTy).Contents (Elt Ideal)) (x8 : (⟨S64x32, .f32⟩ : BufTy).Contents (Elt Ideal)) (x17 x18 : (⟨S3200000, .i32⟩ : BufTy).Contents (Elt Ideal)) (i : S50000x32.Idx) :
    val_main_v26 (F := Ideal) x0 x1 x2 x3 x4 x5 x6 x7 x8 x17 x18 i = ∑ k : Fin 64, (val_main_v23 (F := Ideal) x0 x1 x2 x3 x4 x5 x6 x7 x17 x18) (lidx_main_v26 i k) * x8 (ridx_main_v26 i k) := by
  unfold val_main_v26
  generalize val_main_v23 (F := Ideal) x0 x1 x2 x3 x4 x5 x6 x7 x17 x18 = y0
  simp only [Host.dotGeneral]
  rw [Ideal.dotGeneral_apply, ← Equiv.sum_comp (ValueIdx.contrEquiv1 dot_S50000x64_S64x32_S50000x32_1_0_0_1_n_n 64 rfl rfl).symm]
  refine Finset.sum_congr rfl fun k _ => ?_
  have hk := ValueIdx.contrEquiv1_symm_val dot_S50000x64_S64x32_S50000x32_1_0_0_1_n_n 64 rfl rfl k
  have el : dot_S50000x64_S64x32_S50000x32_1_0_0_1_n_n.lhsIdx i ((ValueIdx.contrEquiv1 dot_S50000x64_S64x32_S50000x32_1_0_0_1_n_n 64 rfl rfl).symm k) = lidx_main_v26 i k := funext fun a => Fin.ext (by
    match a with
    | ⟨0, _⟩ => exact lhs_main_v26_0 _ _
    | ⟨1, _⟩ => exact (lhs_main_v26_1 _ _).trans hk)
  have er : dot_S50000x64_S64x32_S50000x32_1_0_0_1_n_n.rhsIdx i ((ValueIdx.contrEquiv1 dot_S50000x64_S64x32_S50000x32_1_0_0_1_n_n 64 rfl rfl).symm k) = ridx_main_v26 i k := funext fun a => Fin.ext (by
    match a with
    | ⟨0, _⟩ => exact (rhs_main_v26_0 _ _).trans hk
    | ⟨1, _⟩ => exact rhs_main_v26_1 _ _)
  rw [el, er]

def val_main_v27 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x9 : (⟨S64x32, .f32⟩ : BufTy).Contents (Elt F)) (x17 x18 : (⟨S3200000, .i32⟩ : BufTy).Contents (Elt F)) : (⟨S30000x32, .f32⟩ : BufTy).Contents (Elt F) :=
  Host.dotGeneral dot_S30000x64_S64x32_S30000x32_1_0_0_1_n_n none (val_main_v24 (F := F) x0 x1 x2 x3 x4 x5 x6 x7 x17 x18) (x9)

theorem lhs_main_v27_0 (i : S30000x32.Idx) (q : dot_S30000x64_S64x32_S30000x32_1_0_0_1_n_n.contr.Idx) :
    (dot_S30000x64_S64x32_S30000x32_1_0_0_1_n_n.lhsIdx i q 0).val = (i 0).val := by
  unfold DotDims.lhsIdx
  rw [dif_neg (show ¬(0 : Fin S30000x64.rank) ∈ dot_S30000x64_S64x32_S30000x32_1_0_0_1_n_n.lhsBatch by decide), dif_pos (show (0 : Fin S30000x64.rank) ∈ dot_S30000x64_S64x32_S30000x32_1_0_0_1_n_n.lhsNonContracting by decide)]
  rfl

theorem lhs_main_v27_1 (i : S30000x32.Idx) (q : dot_S30000x64_S64x32_S30000x32_1_0_0_1_n_n.contr.Idx) :
    (dot_S30000x64_S64x32_S30000x32_1_0_0_1_n_n.lhsIdx i q 1).val = (q ⟨0, by decide⟩).val :=
  dot_S30000x64_S64x32_S30000x32_1_0_0_1_n_n.lhsIdx_val_of_single rfl i q

theorem rhs_main_v27_0 (i : S30000x32.Idx) (q : dot_S30000x64_S64x32_S30000x32_1_0_0_1_n_n.contr.Idx) :
    (dot_S30000x64_S64x32_S30000x32_1_0_0_1_n_n.rhsIdx i q 0).val = (q ⟨0, by decide⟩).val :=
  dot_S30000x64_S64x32_S30000x32_1_0_0_1_n_n.rhsIdx_val_of_single rfl i q

theorem rhs_main_v27_1 (i : S30000x32.Idx) (q : dot_S30000x64_S64x32_S30000x32_1_0_0_1_n_n.contr.Idx) :
    (dot_S30000x64_S64x32_S30000x32_1_0_0_1_n_n.rhsIdx i q 1).val = (i 1).val := by
  unfold DotDims.rhsIdx
  rw [dif_neg (show ¬(1 : Fin S64x32.rank) ∈ dot_S30000x64_S64x32_S30000x32_1_0_0_1_n_n.rhsBatch by decide), dif_pos (show (1 : Fin S64x32.rank) ∈ dot_S30000x64_S64x32_S30000x32_1_0_0_1_n_n.rhsNonContracting by decide)]
  rfl

abbrev lidx_main_v27 (i : S30000x32.Idx) (k : Fin 64) : S30000x64.Idx := fun a => match a with
  | ⟨0, _⟩ => ⟨(i 0).val, (i 0).isLt⟩
  | ⟨1, _⟩ => ⟨k.val, k.isLt⟩

abbrev ridx_main_v27 (i : S30000x32.Idx) (k : Fin 64) : S64x32.Idx := fun a => match a with
  | ⟨0, _⟩ => ⟨k.val, k.isLt⟩
  | ⟨1, _⟩ => ⟨(i 1).val, (i 1).isLt⟩

theorem val_main_v27_apply (x0 : (⟨S50000x128, .f32⟩ : BufTy).Contents (Elt Ideal)) (x1 : (⟨S30000x128, .f32⟩ : BufTy).Contents (Elt Ideal)) (x2 : (⟨S20000x128, .f32⟩ : BufTy).Contents (Elt Ideal)) (x3 x4 x5 : (⟨S128x64, .f32⟩ : BufTy).Contents (Elt Ideal)) (x6 : (⟨S64x64, .f32⟩ : BufTy).Contents (Elt Ideal)) (x7 : (⟨S64, .f32⟩ : BufTy).Contents (Elt Ideal)) (x9 : (⟨S64x32, .f32⟩ : BufTy).Contents (Elt Ideal)) (x17 x18 : (⟨S3200000, .i32⟩ : BufTy).Contents (Elt Ideal)) (i : S30000x32.Idx) :
    val_main_v27 (F := Ideal) x0 x1 x2 x3 x4 x5 x6 x7 x9 x17 x18 i = ∑ k : Fin 64, (val_main_v24 (F := Ideal) x0 x1 x2 x3 x4 x5 x6 x7 x17 x18) (lidx_main_v27 i k) * x9 (ridx_main_v27 i k) := by
  unfold val_main_v27
  generalize val_main_v24 (F := Ideal) x0 x1 x2 x3 x4 x5 x6 x7 x17 x18 = y0
  simp only [Host.dotGeneral]
  rw [Ideal.dotGeneral_apply, ← Equiv.sum_comp (ValueIdx.contrEquiv1 dot_S30000x64_S64x32_S30000x32_1_0_0_1_n_n 64 rfl rfl).symm]
  refine Finset.sum_congr rfl fun k _ => ?_
  have hk := ValueIdx.contrEquiv1_symm_val dot_S30000x64_S64x32_S30000x32_1_0_0_1_n_n 64 rfl rfl k
  have el : dot_S30000x64_S64x32_S30000x32_1_0_0_1_n_n.lhsIdx i ((ValueIdx.contrEquiv1 dot_S30000x64_S64x32_S30000x32_1_0_0_1_n_n 64 rfl rfl).symm k) = lidx_main_v27 i k := funext fun a => Fin.ext (by
    match a with
    | ⟨0, _⟩ => exact lhs_main_v27_0 _ _
    | ⟨1, _⟩ => exact (lhs_main_v27_1 _ _).trans hk)
  have er : dot_S30000x64_S64x32_S30000x32_1_0_0_1_n_n.rhsIdx i ((ValueIdx.contrEquiv1 dot_S30000x64_S64x32_S30000x32_1_0_0_1_n_n 64 rfl rfl).symm k) = ridx_main_v27 i k := funext fun a => Fin.ext (by
    match a with
    | ⟨0, _⟩ => exact (rhs_main_v27_0 _ _).trans hk
    | ⟨1, _⟩ => exact rhs_main_v27_1 _ _)
  rw [el, er]

def val_main_v28 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x10 : (⟨S64x32, .f32⟩ : BufTy).Contents (Elt F)) (x17 x18 : (⟨S3200000, .i32⟩ : BufTy).Contents (Elt F)) : (⟨S20000x32, .f32⟩ : BufTy).Contents (Elt F) :=
  Host.dotGeneral dot_S20000x64_S64x32_S20000x32_1_0_0_1_n_n none (val_main_v25 (F := F) x0 x1 x2 x3 x4 x5 x6 x7 x17 x18) (x10)

theorem lhs_main_v28_0 (i : S20000x32.Idx) (q : dot_S20000x64_S64x32_S20000x32_1_0_0_1_n_n.contr.Idx) :
    (dot_S20000x64_S64x32_S20000x32_1_0_0_1_n_n.lhsIdx i q 0).val = (i 0).val := by
  unfold DotDims.lhsIdx
  rw [dif_neg (show ¬(0 : Fin S20000x64.rank) ∈ dot_S20000x64_S64x32_S20000x32_1_0_0_1_n_n.lhsBatch by decide), dif_pos (show (0 : Fin S20000x64.rank) ∈ dot_S20000x64_S64x32_S20000x32_1_0_0_1_n_n.lhsNonContracting by decide)]
  rfl

theorem lhs_main_v28_1 (i : S20000x32.Idx) (q : dot_S20000x64_S64x32_S20000x32_1_0_0_1_n_n.contr.Idx) :
    (dot_S20000x64_S64x32_S20000x32_1_0_0_1_n_n.lhsIdx i q 1).val = (q ⟨0, by decide⟩).val :=
  dot_S20000x64_S64x32_S20000x32_1_0_0_1_n_n.lhsIdx_val_of_single rfl i q

theorem rhs_main_v28_0 (i : S20000x32.Idx) (q : dot_S20000x64_S64x32_S20000x32_1_0_0_1_n_n.contr.Idx) :
    (dot_S20000x64_S64x32_S20000x32_1_0_0_1_n_n.rhsIdx i q 0).val = (q ⟨0, by decide⟩).val :=
  dot_S20000x64_S64x32_S20000x32_1_0_0_1_n_n.rhsIdx_val_of_single rfl i q

theorem rhs_main_v28_1 (i : S20000x32.Idx) (q : dot_S20000x64_S64x32_S20000x32_1_0_0_1_n_n.contr.Idx) :
    (dot_S20000x64_S64x32_S20000x32_1_0_0_1_n_n.rhsIdx i q 1).val = (i 1).val := by
  unfold DotDims.rhsIdx
  rw [dif_neg (show ¬(1 : Fin S64x32.rank) ∈ dot_S20000x64_S64x32_S20000x32_1_0_0_1_n_n.rhsBatch by decide), dif_pos (show (1 : Fin S64x32.rank) ∈ dot_S20000x64_S64x32_S20000x32_1_0_0_1_n_n.rhsNonContracting by decide)]
  rfl

abbrev lidx_main_v28 (i : S20000x32.Idx) (k : Fin 64) : S20000x64.Idx := fun a => match a with
  | ⟨0, _⟩ => ⟨(i 0).val, (i 0).isLt⟩
  | ⟨1, _⟩ => ⟨k.val, k.isLt⟩

abbrev ridx_main_v28 (i : S20000x32.Idx) (k : Fin 64) : S64x32.Idx := fun a => match a with
  | ⟨0, _⟩ => ⟨k.val, k.isLt⟩
  | ⟨1, _⟩ => ⟨(i 1).val, (i 1).isLt⟩

theorem val_main_v28_apply (x0 : (⟨S50000x128, .f32⟩ : BufTy).Contents (Elt Ideal)) (x1 : (⟨S30000x128, .f32⟩ : BufTy).Contents (Elt Ideal)) (x2 : (⟨S20000x128, .f32⟩ : BufTy).Contents (Elt Ideal)) (x3 x4 x5 : (⟨S128x64, .f32⟩ : BufTy).Contents (Elt Ideal)) (x6 : (⟨S64x64, .f32⟩ : BufTy).Contents (Elt Ideal)) (x7 : (⟨S64, .f32⟩ : BufTy).Contents (Elt Ideal)) (x10 : (⟨S64x32, .f32⟩ : BufTy).Contents (Elt Ideal)) (x17 x18 : (⟨S3200000, .i32⟩ : BufTy).Contents (Elt Ideal)) (i : S20000x32.Idx) :
    val_main_v28 (F := Ideal) x0 x1 x2 x3 x4 x5 x6 x7 x10 x17 x18 i = ∑ k : Fin 64, (val_main_v25 (F := Ideal) x0 x1 x2 x3 x4 x5 x6 x7 x17 x18) (lidx_main_v28 i k) * x10 (ridx_main_v28 i k) := by
  unfold val_main_v28
  generalize val_main_v25 (F := Ideal) x0 x1 x2 x3 x4 x5 x6 x7 x17 x18 = y0
  simp only [Host.dotGeneral]
  rw [Ideal.dotGeneral_apply, ← Equiv.sum_comp (ValueIdx.contrEquiv1 dot_S20000x64_S64x32_S20000x32_1_0_0_1_n_n 64 rfl rfl).symm]
  refine Finset.sum_congr rfl fun k _ => ?_
  have hk := ValueIdx.contrEquiv1_symm_val dot_S20000x64_S64x32_S20000x32_1_0_0_1_n_n 64 rfl rfl k
  have el : dot_S20000x64_S64x32_S20000x32_1_0_0_1_n_n.lhsIdx i ((ValueIdx.contrEquiv1 dot_S20000x64_S64x32_S20000x32_1_0_0_1_n_n 64 rfl rfl).symm k) = lidx_main_v28 i k := funext fun a => Fin.ext (by
    match a with
    | ⟨0, _⟩ => exact lhs_main_v28_0 _ _
    | ⟨1, _⟩ => exact (lhs_main_v28_1 _ _).trans hk)
  have er : dot_S20000x64_S64x32_S20000x32_1_0_0_1_n_n.rhsIdx i ((ValueIdx.contrEquiv1 dot_S20000x64_S64x32_S20000x32_1_0_0_1_n_n 64 rfl rfl).symm k) = ridx_main_v28 i k := funext fun a => Fin.ext (by
    match a with
    | ⟨0, _⟩ => exact (rhs_main_v28_0 _ _).trans hk
    | ⟨1, _⟩ => exact rhs_main_v28_1 _ _)
  rw [el, er]

def val_main_c_2 : (⟨S_, .i32⟩ : BufTy).Contents (Elt F) :=
  constantI S_ 32 0#32

def val_main_v29 : (⟨S100000, .i32⟩ : BufTy).Contents (Elt F) :=
  broadcastInDim S100000 ![] bcast_S_S100000 (val_main_c_2 (F := F))

def val_main_v30 (x19 : (⟨S100000, .i32⟩ : BufTy).Contents (Elt F)) : (⟨S100000, .i1⟩ : BufTy).Contents (Elt F) :=
  cmpi .slt (x19) (val_main_v29 (F := F))

def val_main_c_3 : (⟨S_, .i32⟩ : BufTy).Contents (Elt F) :=
  constantI S_ 32 50000#32

def val_main_v31 : (⟨S100000, .i32⟩ : BufTy).Contents (Elt F) :=
  broadcastInDim S100000 ![] bcast_S_S100000 (val_main_c_3 (F := F))

def val_main_v32 (x19 : (⟨S100000, .i32⟩ : BufTy).Contents (Elt F)) : (⟨S100000, .i32⟩ : BufTy).Contents (Elt F) :=
  addi (x19) (val_main_v31 (F := F))

def val_main_v33 (x19 : (⟨S100000, .i32⟩ : BufTy).Contents (Elt F)) : (⟨S100000, .i32⟩ : BufTy).Contents (Elt F) :=
  select (val_main_v30 (F := F) x19) (val_main_v32 (F := F) x19) (x19)

def val_main_v34 (x19 : (⟨S100000, .i32⟩ : BufTy).Contents (Elt F)) : (⟨S100000x1, .i32⟩ : BufTy).Contents (Elt F) :=
  broadcastInDim S100000x1 ![0] bcast_S100000_S100000x1_0 (val_main_v33 (F := F) x19)

def val_main_v35 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x17 x18 : (⟨S3200000, .i32⟩ : BufTy).Contents (Elt F)) (x19 : (⟨S100000, .i32⟩ : BufTy).Contents (Elt F)) : (⟨S100000x64, .f32⟩ : BufTy).Contents (Elt F) :=
  Host.gather gather_S50000x64_S100000x1_S100000x64_1_0_n_n_0_1_164 (val_main_v23 (F := F) x0 x1 x2 x3 x4 x5 x6 x7 x17 x18) (val_main_v34 (F := F) x19)

def val_main_c_4 : (⟨S_, .i32⟩ : BufTy).Contents (Elt F) :=
  constantI S_ 32 0#32

def val_main_v36 : (⟨S100000, .i32⟩ : BufTy).Contents (Elt F) :=
  broadcastInDim S100000 ![] bcast_S_S100000 (val_main_c_4 (F := F))

def val_main_v37 (x20 : (⟨S100000, .i32⟩ : BufTy).Contents (Elt F)) : (⟨S100000, .i1⟩ : BufTy).Contents (Elt F) :=
  cmpi .slt (x20) (val_main_v36 (F := F))

def val_main_c_5 : (⟨S_, .i32⟩ : BufTy).Contents (Elt F) :=
  constantI S_ 32 30000#32

def val_main_v38 : (⟨S100000, .i32⟩ : BufTy).Contents (Elt F) :=
  broadcastInDim S100000 ![] bcast_S_S100000 (val_main_c_5 (F := F))

def val_main_v39 (x20 : (⟨S100000, .i32⟩ : BufTy).Contents (Elt F)) : (⟨S100000, .i32⟩ : BufTy).Contents (Elt F) :=
  addi (x20) (val_main_v38 (F := F))

def val_main_v40 (x20 : (⟨S100000, .i32⟩ : BufTy).Contents (Elt F)) : (⟨S100000, .i32⟩ : BufTy).Contents (Elt F) :=
  select (val_main_v37 (F := F) x20) (val_main_v39 (F := F) x20) (x20)

def val_main_v41 (x20 : (⟨S100000, .i32⟩ : BufTy).Contents (Elt F)) : (⟨S100000x1, .i32⟩ : BufTy).Contents (Elt F) :=
  broadcastInDim S100000x1 ![0] bcast_S100000_S100000x1_0 (val_main_v40 (F := F) x20)

def val_main_v42 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x9 : (⟨S64x32, .f32⟩ : BufTy).Contents (Elt F)) (x17 x18 : (⟨S3200000, .i32⟩ : BufTy).Contents (Elt F)) (x20 : (⟨S100000, .i32⟩ : BufTy).Contents (Elt F)) : (⟨S100000x32, .f32⟩ : BufTy).Contents (Elt F) :=
  Host.gather gather_S30000x32_S100000x1_S100000x32_1_0_n_n_0_1_132 (val_main_v27 (F := F) x0 x1 x2 x3 x4 x5 x6 x7 x9 x17 x18) (val_main_v41 (F := F) x20)

def val_main_c_6 : (⟨S_, .i32⟩ : BufTy).Contents (Elt F) :=
  constantI S_ 32 0#32

def val_main_v43 : (⟨S100000, .i32⟩ : BufTy).Contents (Elt F) :=
  broadcastInDim S100000 ![] bcast_S_S100000 (val_main_c_6 (F := F))

def val_main_v44 (x21 : (⟨S100000, .i32⟩ : BufTy).Contents (Elt F)) : (⟨S100000, .i1⟩ : BufTy).Contents (Elt F) :=
  cmpi .slt (x21) (val_main_v43 (F := F))

def val_main_c_7 : (⟨S_, .i32⟩ : BufTy).Contents (Elt F) :=
  constantI S_ 32 20000#32

def val_main_v45 : (⟨S100000, .i32⟩ : BufTy).Contents (Elt F) :=
  broadcastInDim S100000 ![] bcast_S_S100000 (val_main_c_7 (F := F))

def val_main_v46 (x21 : (⟨S100000, .i32⟩ : BufTy).Contents (Elt F)) : (⟨S100000, .i32⟩ : BufTy).Contents (Elt F) :=
  addi (x21) (val_main_v45 (F := F))

def val_main_v47 (x21 : (⟨S100000, .i32⟩ : BufTy).Contents (Elt F)) : (⟨S100000, .i32⟩ : BufTy).Contents (Elt F) :=
  select (val_main_v44 (F := F) x21) (val_main_v46 (F := F) x21) (x21)

def val_main_v48 (x21 : (⟨S100000, .i32⟩ : BufTy).Contents (Elt F)) : (⟨S100000x1, .i32⟩ : BufTy).Contents (Elt F) :=
  broadcastInDim S100000x1 ![0] bcast_S100000_S100000x1_0 (val_main_v47 (F := F) x21)

def val_main_v49 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x10 : (⟨S64x32, .f32⟩ : BufTy).Contents (Elt F)) (x17 x18 : (⟨S3200000, .i32⟩ : BufTy).Contents (Elt F)) (x21 : (⟨S100000, .i32⟩ : BufTy).Contents (Elt F)) : (⟨S100000x32, .f32⟩ : BufTy).Contents (Elt F) :=
  Host.gather gather_S20000x32_S100000x1_S100000x32_1_0_n_n_0_1_132 (val_main_v28 (F := F) x0 x1 x2 x3 x4 x5 x6 x7 x10 x17 x18) (val_main_v48 (F := F) x21)

def val_main_v50 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x9 x10 : (⟨S64x32, .f32⟩ : BufTy).Contents (Elt F)) (x17 x18 : (⟨S3200000, .i32⟩ : BufTy).Contents (Elt F)) (x19 x20 x21 : (⟨S100000, .i32⟩ : BufTy).Contents (Elt F)) : (⟨S100000x128, .f32⟩ : BufTy).Contents (Elt F) :=
  concatenate S100000x128 1 [⟨S100000x64, (val_main_v35 (F := F) x0 x1 x2 x3 x4 x5 x6 x7 x17 x18 x19)⟩, ⟨S100000x32, (val_main_v42 (F := F) x0 x1 x2 x3 x4 x5 x6 x7 x9 x17 x18 x20)⟩, ⟨S100000x32, (val_main_v49 (F := F) x0 x1 x2 x3 x4 x5 x6 x7 x10 x17 x18 x21)⟩] concatenates_S100000x64_S100000x32_S100000x32_S100000x128_d1

def val_main_v51 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x9 x10 : (⟨S64x32, .f32⟩ : BufTy).Contents (Elt F)) (x11 : (⟨S128x16, .f32⟩ : BufTy).Contents (Elt F)) (x17 x18 : (⟨S3200000, .i32⟩ : BufTy).Contents (Elt F)) (x19 x20 x21 : (⟨S100000, .i32⟩ : BufTy).Contents (Elt F)) : (⟨S100000x16, .f32⟩ : BufTy).Contents (Elt F) :=
  Host.dotGeneral dot_S100000x128_S128x16_S100000x16_1_0_0_1_n_n none (val_main_v50 (F := F) x0 x1 x2 x3 x4 x5 x6 x7 x9 x10 x17 x18 x19 x20 x21) (x11)

theorem lhs_main_v51_0 (i : S100000x16.Idx) (q : dot_S100000x128_S128x16_S100000x16_1_0_0_1_n_n.contr.Idx) :
    (dot_S100000x128_S128x16_S100000x16_1_0_0_1_n_n.lhsIdx i q 0).val = (i 0).val := by
  unfold DotDims.lhsIdx
  rw [dif_neg (show ¬(0 : Fin S100000x128.rank) ∈ dot_S100000x128_S128x16_S100000x16_1_0_0_1_n_n.lhsBatch by decide), dif_pos (show (0 : Fin S100000x128.rank) ∈ dot_S100000x128_S128x16_S100000x16_1_0_0_1_n_n.lhsNonContracting by decide)]
  rfl

theorem lhs_main_v51_1 (i : S100000x16.Idx) (q : dot_S100000x128_S128x16_S100000x16_1_0_0_1_n_n.contr.Idx) :
    (dot_S100000x128_S128x16_S100000x16_1_0_0_1_n_n.lhsIdx i q 1).val = (q ⟨0, by decide⟩).val :=
  dot_S100000x128_S128x16_S100000x16_1_0_0_1_n_n.lhsIdx_val_of_single rfl i q

theorem rhs_main_v51_0 (i : S100000x16.Idx) (q : dot_S100000x128_S128x16_S100000x16_1_0_0_1_n_n.contr.Idx) :
    (dot_S100000x128_S128x16_S100000x16_1_0_0_1_n_n.rhsIdx i q 0).val = (q ⟨0, by decide⟩).val :=
  dot_S100000x128_S128x16_S100000x16_1_0_0_1_n_n.rhsIdx_val_of_single rfl i q

theorem rhs_main_v51_1 (i : S100000x16.Idx) (q : dot_S100000x128_S128x16_S100000x16_1_0_0_1_n_n.contr.Idx) :
    (dot_S100000x128_S128x16_S100000x16_1_0_0_1_n_n.rhsIdx i q 1).val = (i 1).val := by
  unfold DotDims.rhsIdx
  rw [dif_neg (show ¬(1 : Fin S128x16.rank) ∈ dot_S100000x128_S128x16_S100000x16_1_0_0_1_n_n.rhsBatch by decide), dif_pos (show (1 : Fin S128x16.rank) ∈ dot_S100000x128_S128x16_S100000x16_1_0_0_1_n_n.rhsNonContracting by decide)]
  rfl

abbrev lidx_main_v51 (i : S100000x16.Idx) (k : Fin 128) : S100000x128.Idx := fun a => match a with
  | ⟨0, _⟩ => ⟨(i 0).val, (i 0).isLt⟩
  | ⟨1, _⟩ => ⟨k.val, k.isLt⟩

abbrev ridx_main_v51 (i : S100000x16.Idx) (k : Fin 128) : S128x16.Idx := fun a => match a with
  | ⟨0, _⟩ => ⟨k.val, k.isLt⟩
  | ⟨1, _⟩ => ⟨(i 1).val, (i 1).isLt⟩

theorem val_main_v51_apply (x0 : (⟨S50000x128, .f32⟩ : BufTy).Contents (Elt Ideal)) (x1 : (⟨S30000x128, .f32⟩ : BufTy).Contents (Elt Ideal)) (x2 : (⟨S20000x128, .f32⟩ : BufTy).Contents (Elt Ideal)) (x3 x4 x5 : (⟨S128x64, .f32⟩ : BufTy).Contents (Elt Ideal)) (x6 : (⟨S64x64, .f32⟩ : BufTy).Contents (Elt Ideal)) (x7 : (⟨S64, .f32⟩ : BufTy).Contents (Elt Ideal)) (x9 x10 : (⟨S64x32, .f32⟩ : BufTy).Contents (Elt Ideal)) (x11 : (⟨S128x16, .f32⟩ : BufTy).Contents (Elt Ideal)) (x17 x18 : (⟨S3200000, .i32⟩ : BufTy).Contents (Elt Ideal)) (x19 x20 x21 : (⟨S100000, .i32⟩ : BufTy).Contents (Elt Ideal)) (i : S100000x16.Idx) :
    val_main_v51 (F := Ideal) x0 x1 x2 x3 x4 x5 x6 x7 x9 x10 x11 x17 x18 x19 x20 x21 i = ∑ k : Fin 128, (val_main_v50 (F := Ideal) x0 x1 x2 x3 x4 x5 x6 x7 x9 x10 x17 x18 x19 x20 x21) (lidx_main_v51 i k) * x11 (ridx_main_v51 i k) := by
  unfold val_main_v51
  generalize val_main_v50 (F := Ideal) x0 x1 x2 x3 x4 x5 x6 x7 x9 x10 x17 x18 x19 x20 x21 = y0
  simp only [Host.dotGeneral]
  rw [Ideal.dotGeneral_apply, ← Equiv.sum_comp (ValueIdx.contrEquiv1 dot_S100000x128_S128x16_S100000x16_1_0_0_1_n_n 128 rfl rfl).symm]
  refine Finset.sum_congr rfl fun k _ => ?_
  have hk := ValueIdx.contrEquiv1_symm_val dot_S100000x128_S128x16_S100000x16_1_0_0_1_n_n 128 rfl rfl k
  have el : dot_S100000x128_S128x16_S100000x16_1_0_0_1_n_n.lhsIdx i ((ValueIdx.contrEquiv1 dot_S100000x128_S128x16_S100000x16_1_0_0_1_n_n 128 rfl rfl).symm k) = lidx_main_v51 i k := funext fun a => Fin.ext (by
    match a with
    | ⟨0, _⟩ => exact lhs_main_v51_0 _ _
    | ⟨1, _⟩ => exact (lhs_main_v51_1 _ _).trans hk)
  have er : dot_S100000x128_S128x16_S100000x16_1_0_0_1_n_n.rhsIdx i ((ValueIdx.contrEquiv1 dot_S100000x128_S128x16_S100000x16_1_0_0_1_n_n 128 rfl rfl).symm k) = ridx_main_v51 i k := funext fun a => Fin.ext (by
    match a with
    | ⟨0, _⟩ => exact (rhs_main_v51_0 _ _).trans hk
    | ⟨1, _⟩ => exact rhs_main_v51_1 _ _)
  rw [el, er]

def val_main_call1_cst : (⟨S_, .f32⟩ : BufTy).Contents (Elt F) :=
  constant S_ .f32 0x00000000#32

theorem val_main_call1_cst_apply (i : S_.Idx) :
    val_main_call1_cst (F := F) i = FloatOps.ofBits .f32 0x00000000#32 := rfl

def val_main_call1_v0 : (⟨S100000x16, .f32⟩ : BufTy).Contents (Elt F) :=
  broadcastInDim S100000x16 ![] bcast_S_S100000x16 (val_main_call1_cst (F := F))

abbrev idx_main_call1_v0 (i : S100000x16.Idx) : S_.Idx := fun a => a.elim0

theorem val_main_call1_v0_apply (i : S100000x16.Idx) :
    val_main_call1_v0 (F := F) i = val_main_call1_cst (F := F) (idx_main_call1_v0 i) := by
  unfold val_main_call1_v0
  generalize val_main_call1_cst (F := F) = y
  exact broadcastInDim_apply _ bcast_S_S100000x16 y i (idx_main_call1_v0 i) (fun a => a.elim0)

def val_main_v52 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x9 x10 : (⟨S64x32, .f32⟩ : BufTy).Contents (Elt F)) (x11 : (⟨S128x16, .f32⟩ : BufTy).Contents (Elt F)) (x17 x18 : (⟨S3200000, .i32⟩ : BufTy).Contents (Elt F)) (x19 x20 x21 : (⟨S100000, .i32⟩ : BufTy).Contents (Elt F)) : (⟨S100000x16, .f32⟩ : BufTy).Contents (Elt F) :=
  maximumf (val_main_v51 (F := F) x0 x1 x2 x3 x4 x5 x6 x7 x9 x10 x11 x17 x18 x19 x20 x21) (val_main_call1_v0 (F := F))

theorem val_main_v52_apply (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x9 x10 : (⟨S64x32, .f32⟩ : BufTy).Contents (Elt F)) (x11 : (⟨S128x16, .f32⟩ : BufTy).Contents (Elt F)) (x17 x18 : (⟨S3200000, .i32⟩ : BufTy).Contents (Elt F)) (x19 x20 x21 : (⟨S100000, .i32⟩ : BufTy).Contents (Elt F)) (i : S100000x16.Idx) :
    val_main_v52 (F := F) x0 x1 x2 x3 x4 x5 x6 x7 x9 x10 x11 x17 x18 x19 x20 x21 i = FloatOps.maximumf (val_main_v51 (F := F) x0 x1 x2 x3 x4 x5 x6 x7 x9 x10 x11 x17 x18 x19 x20 x21 i) (val_main_call1_v0 (F := F) i) := rfl

def val_main_v53 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x9 x10 : (⟨S64x32, .f32⟩ : BufTy).Contents (Elt F)) (x11 : (⟨S128x16, .f32⟩ : BufTy).Contents (Elt F)) (x14 : (⟨S16x1, .f32⟩ : BufTy).Contents (Elt F)) (x17 x18 : (⟨S3200000, .i32⟩ : BufTy).Contents (Elt F)) (x19 x20 x21 : (⟨S100000, .i32⟩ : BufTy).Contents (Elt F)) : (⟨S100000x1, .f32⟩ : BufTy).Contents (Elt F) :=
  Host.dotGeneral dot_S100000x16_S16x1_S100000x1_1_0_0_1_n_n none (val_main_v52 (F := F) x0 x1 x2 x3 x4 x5 x6 x7 x9 x10 x11 x17 x18 x19 x20 x21) (x14)

theorem lhs_main_v53_0 (i : S100000x1.Idx) (q : dot_S100000x16_S16x1_S100000x1_1_0_0_1_n_n.contr.Idx) :
    (dot_S100000x16_S16x1_S100000x1_1_0_0_1_n_n.lhsIdx i q 0).val = (i 0).val := by
  unfold DotDims.lhsIdx
  rw [dif_neg (show ¬(0 : Fin S100000x16.rank) ∈ dot_S100000x16_S16x1_S100000x1_1_0_0_1_n_n.lhsBatch by decide), dif_pos (show (0 : Fin S100000x16.rank) ∈ dot_S100000x16_S16x1_S100000x1_1_0_0_1_n_n.lhsNonContracting by decide)]
  rfl

theorem lhs_main_v53_1 (i : S100000x1.Idx) (q : dot_S100000x16_S16x1_S100000x1_1_0_0_1_n_n.contr.Idx) :
    (dot_S100000x16_S16x1_S100000x1_1_0_0_1_n_n.lhsIdx i q 1).val = (q ⟨0, by decide⟩).val :=
  dot_S100000x16_S16x1_S100000x1_1_0_0_1_n_n.lhsIdx_val_of_single rfl i q

theorem rhs_main_v53_0 (i : S100000x1.Idx) (q : dot_S100000x16_S16x1_S100000x1_1_0_0_1_n_n.contr.Idx) :
    (dot_S100000x16_S16x1_S100000x1_1_0_0_1_n_n.rhsIdx i q 0).val = (q ⟨0, by decide⟩).val :=
  dot_S100000x16_S16x1_S100000x1_1_0_0_1_n_n.rhsIdx_val_of_single rfl i q

theorem rhs_main_v53_1 (i : S100000x1.Idx) (q : dot_S100000x16_S16x1_S100000x1_1_0_0_1_n_n.contr.Idx) :
    (dot_S100000x16_S16x1_S100000x1_1_0_0_1_n_n.rhsIdx i q 1).val = (i 1).val := by
  unfold DotDims.rhsIdx
  rw [dif_neg (show ¬(1 : Fin S16x1.rank) ∈ dot_S100000x16_S16x1_S100000x1_1_0_0_1_n_n.rhsBatch by decide), dif_pos (show (1 : Fin S16x1.rank) ∈ dot_S100000x16_S16x1_S100000x1_1_0_0_1_n_n.rhsNonContracting by decide)]
  rfl

abbrev lidx_main_v53 (i : S100000x1.Idx) (k : Fin 16) : S100000x16.Idx := fun a => match a with
  | ⟨0, _⟩ => ⟨(i 0).val, (i 0).isLt⟩
  | ⟨1, _⟩ => ⟨k.val, k.isLt⟩

abbrev ridx_main_v53 (i : S100000x1.Idx) (k : Fin 16) : S16x1.Idx := fun a => match a with
  | ⟨0, _⟩ => ⟨k.val, k.isLt⟩
  | ⟨1, _⟩ => ⟨(i 1).val, (i 1).isLt⟩

theorem val_main_v53_apply (x0 : (⟨S50000x128, .f32⟩ : BufTy).Contents (Elt Ideal)) (x1 : (⟨S30000x128, .f32⟩ : BufTy).Contents (Elt Ideal)) (x2 : (⟨S20000x128, .f32⟩ : BufTy).Contents (Elt Ideal)) (x3 x4 x5 : (⟨S128x64, .f32⟩ : BufTy).Contents (Elt Ideal)) (x6 : (⟨S64x64, .f32⟩ : BufTy).Contents (Elt Ideal)) (x7 : (⟨S64, .f32⟩ : BufTy).Contents (Elt Ideal)) (x9 x10 : (⟨S64x32, .f32⟩ : BufTy).Contents (Elt Ideal)) (x11 : (⟨S128x16, .f32⟩ : BufTy).Contents (Elt Ideal)) (x14 : (⟨S16x1, .f32⟩ : BufTy).Contents (Elt Ideal)) (x17 x18 : (⟨S3200000, .i32⟩ : BufTy).Contents (Elt Ideal)) (x19 x20 x21 : (⟨S100000, .i32⟩ : BufTy).Contents (Elt Ideal)) (i : S100000x1.Idx) :
    val_main_v53 (F := Ideal) x0 x1 x2 x3 x4 x5 x6 x7 x9 x10 x11 x14 x17 x18 x19 x20 x21 i = ∑ k : Fin 16, (val_main_v52 (F := Ideal) x0 x1 x2 x3 x4 x5 x6 x7 x9 x10 x11 x17 x18 x19 x20 x21) (lidx_main_v53 i k) * x14 (ridx_main_v53 i k) := by
  unfold val_main_v53
  generalize val_main_v52 (F := Ideal) x0 x1 x2 x3 x4 x5 x6 x7 x9 x10 x11 x17 x18 x19 x20 x21 = y0
  simp only [Host.dotGeneral]
  rw [Ideal.dotGeneral_apply, ← Equiv.sum_comp (ValueIdx.contrEquiv1 dot_S100000x16_S16x1_S100000x1_1_0_0_1_n_n 16 rfl rfl).symm]
  refine Finset.sum_congr rfl fun k _ => ?_
  have hk := ValueIdx.contrEquiv1_symm_val dot_S100000x16_S16x1_S100000x1_1_0_0_1_n_n 16 rfl rfl k
  have el : dot_S100000x16_S16x1_S100000x1_1_0_0_1_n_n.lhsIdx i ((ValueIdx.contrEquiv1 dot_S100000x16_S16x1_S100000x1_1_0_0_1_n_n 16 rfl rfl).symm k) = lidx_main_v53 i k := funext fun a => Fin.ext (by
    match a with
    | ⟨0, _⟩ => exact lhs_main_v53_0 _ _
    | ⟨1, _⟩ => exact (lhs_main_v53_1 _ _).trans hk)
  have er : dot_S100000x16_S16x1_S100000x1_1_0_0_1_n_n.rhsIdx i ((ValueIdx.contrEquiv1 dot_S100000x16_S16x1_S100000x1_1_0_0_1_n_n 16 rfl rfl).symm k) = ridx_main_v53 i k := funext fun a => Fin.ext (by
    match a with
    | ⟨0, _⟩ => exact (rhs_main_v53_0 _ _).trans hk
    | ⟨1, _⟩ => exact rhs_main_v53_1 _ _)
  rw [el, er]

def val_main_c_8 : (⟨S_, .i32⟩ : BufTy).Contents (Elt F) :=
  constantI S_ 32 0#32

def val_main_v54 : (⟨S100000, .i32⟩ : BufTy).Contents (Elt F) :=
  broadcastInDim S100000 ![] bcast_S_S100000 (val_main_c_8 (F := F))

def val_main_v55 (x23 : (⟨S100000, .i32⟩ : BufTy).Contents (Elt F)) : (⟨S100000, .i1⟩ : BufTy).Contents (Elt F) :=
  cmpi .slt (x23) (val_main_v54 (F := F))

def val_main_c_9 : (⟨S_, .i32⟩ : BufTy).Contents (Elt F) :=
  constantI S_ 32 30000#32

def val_main_v56 : (⟨S100000, .i32⟩ : BufTy).Contents (Elt F) :=
  broadcastInDim S100000 ![] bcast_S_S100000 (val_main_c_9 (F := F))

def val_main_v57 (x23 : (⟨S100000, .i32⟩ : BufTy).Contents (Elt F)) : (⟨S100000, .i32⟩ : BufTy).Contents (Elt F) :=
  addi (x23) (val_main_v56 (F := F))

def val_main_v58 (x23 : (⟨S100000, .i32⟩ : BufTy).Contents (Elt F)) : (⟨S100000, .i32⟩ : BufTy).Contents (Elt F) :=
  select (val_main_v55 (F := F) x23) (val_main_v57 (F := F) x23) (x23)

def val_main_v59 (x23 : (⟨S100000, .i32⟩ : BufTy).Contents (Elt F)) : (⟨S100000x1, .i32⟩ : BufTy).Contents (Elt F) :=
  broadcastInDim S100000x1 ![0] bcast_S100000_S100000x1_0 (val_main_v58 (F := F) x23)

def val_main_v60 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x17 x18 : (⟨S3200000, .i32⟩ : BufTy).Contents (Elt F)) (x23 : (⟨S100000, .i32⟩ : BufTy).Contents (Elt F)) : (⟨S100000x64, .f32⟩ : BufTy).Contents (Elt F) :=
  Host.gather gather_S30000x64_S100000x1_S100000x64_1_0_n_n_0_1_164 (val_main_v24 (F := F) x0 x1 x2 x3 x4 x5 x6 x7 x17 x18) (val_main_v59 (F := F) x23)

def val_main_c_10 : (⟨S_, .i32⟩ : BufTy).Contents (Elt F) :=
  constantI S_ 32 0#32

def val_main_v61 : (⟨S100000, .i32⟩ : BufTy).Contents (Elt F) :=
  broadcastInDim S100000 ![] bcast_S_S100000 (val_main_c_10 (F := F))

def val_main_v62 (x22 : (⟨S100000, .i32⟩ : BufTy).Contents (Elt F)) : (⟨S100000, .i1⟩ : BufTy).Contents (Elt F) :=
  cmpi .slt (x22) (val_main_v61 (F := F))

def val_main_c_11 : (⟨S_, .i32⟩ : BufTy).Contents (Elt F) :=
  constantI S_ 32 50000#32

def val_main_v63 : (⟨S100000, .i32⟩ : BufTy).Contents (Elt F) :=
  broadcastInDim S100000 ![] bcast_S_S100000 (val_main_c_11 (F := F))

def val_main_v64 (x22 : (⟨S100000, .i32⟩ : BufTy).Contents (Elt F)) : (⟨S100000, .i32⟩ : BufTy).Contents (Elt F) :=
  addi (x22) (val_main_v63 (F := F))

def val_main_v65 (x22 : (⟨S100000, .i32⟩ : BufTy).Contents (Elt F)) : (⟨S100000, .i32⟩ : BufTy).Contents (Elt F) :=
  select (val_main_v62 (F := F) x22) (val_main_v64 (F := F) x22) (x22)

def val_main_v66 (x22 : (⟨S100000, .i32⟩ : BufTy).Contents (Elt F)) : (⟨S100000x1, .i32⟩ : BufTy).Contents (Elt F) :=
  broadcastInDim S100000x1 ![0] bcast_S100000_S100000x1_0 (val_main_v65 (F := F) x22)

def val_main_v67 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x8 : (⟨S64x32, .f32⟩ : BufTy).Contents (Elt F)) (x17 x18 : (⟨S3200000, .i32⟩ : BufTy).Contents (Elt F)) (x22 : (⟨S100000, .i32⟩ : BufTy).Contents (Elt F)) : (⟨S100000x32, .f32⟩ : BufTy).Contents (Elt F) :=
  Host.gather gather_S50000x32_S100000x1_S100000x32_1_0_n_n_0_1_132 (val_main_v26 (F := F) x0 x1 x2 x3 x4 x5 x6 x7 x8 x17 x18) (val_main_v66 (F := F) x22)

def val_main_c_12 : (⟨S_, .i32⟩ : BufTy).Contents (Elt F) :=
  constantI S_ 32 0#32

def val_main_v68 : (⟨S100000, .i32⟩ : BufTy).Contents (Elt F) :=
  broadcastInDim S100000 ![] bcast_S_S100000 (val_main_c_12 (F := F))

def val_main_v69 (x24 : (⟨S100000, .i32⟩ : BufTy).Contents (Elt F)) : (⟨S100000, .i1⟩ : BufTy).Contents (Elt F) :=
  cmpi .slt (x24) (val_main_v68 (F := F))

def val_main_c_13 : (⟨S_, .i32⟩ : BufTy).Contents (Elt F) :=
  constantI S_ 32 20000#32

def val_main_v70 : (⟨S100000, .i32⟩ : BufTy).Contents (Elt F) :=
  broadcastInDim S100000 ![] bcast_S_S100000 (val_main_c_13 (F := F))

def val_main_v71 (x24 : (⟨S100000, .i32⟩ : BufTy).Contents (Elt F)) : (⟨S100000, .i32⟩ : BufTy).Contents (Elt F) :=
  addi (x24) (val_main_v70 (F := F))

def val_main_v72 (x24 : (⟨S100000, .i32⟩ : BufTy).Contents (Elt F)) : (⟨S100000, .i32⟩ : BufTy).Contents (Elt F) :=
  select (val_main_v69 (F := F) x24) (val_main_v71 (F := F) x24) (x24)

def val_main_v73 (x24 : (⟨S100000, .i32⟩ : BufTy).Contents (Elt F)) : (⟨S100000x1, .i32⟩ : BufTy).Contents (Elt F) :=
  broadcastInDim S100000x1 ![0] bcast_S100000_S100000x1_0 (val_main_v72 (F := F) x24)

def val_main_v74 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x10 : (⟨S64x32, .f32⟩ : BufTy).Contents (Elt F)) (x17 x18 : (⟨S3200000, .i32⟩ : BufTy).Contents (Elt F)) (x24 : (⟨S100000, .i32⟩ : BufTy).Contents (Elt F)) : (⟨S100000x32, .f32⟩ : BufTy).Contents (Elt F) :=
  Host.gather gather_S20000x32_S100000x1_S100000x32_1_0_n_n_0_1_132 (val_main_v28 (F := F) x0 x1 x2 x3 x4 x5 x6 x7 x10 x17 x18) (val_main_v73 (F := F) x24)

def val_main_v75 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x8 x10 : (⟨S64x32, .f32⟩ : BufTy).Contents (Elt F)) (x17 x18 : (⟨S3200000, .i32⟩ : BufTy).Contents (Elt F)) (x22 x23 x24 : (⟨S100000, .i32⟩ : BufTy).Contents (Elt F)) : (⟨S100000x128, .f32⟩ : BufTy).Contents (Elt F) :=
  concatenate S100000x128 1 [⟨S100000x64, (val_main_v60 (F := F) x0 x1 x2 x3 x4 x5 x6 x7 x17 x18 x23)⟩, ⟨S100000x32, (val_main_v67 (F := F) x0 x1 x2 x3 x4 x5 x6 x7 x8 x17 x18 x22)⟩, ⟨S100000x32, (val_main_v74 (F := F) x0 x1 x2 x3 x4 x5 x6 x7 x10 x17 x18 x24)⟩] concatenates_S100000x64_S100000x32_S100000x32_S100000x128_d1

def val_main_v76 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x8 x10 : (⟨S64x32, .f32⟩ : BufTy).Contents (Elt F)) (x12 : (⟨S128x16, .f32⟩ : BufTy).Contents (Elt F)) (x17 x18 : (⟨S3200000, .i32⟩ : BufTy).Contents (Elt F)) (x22 x23 x24 : (⟨S100000, .i32⟩ : BufTy).Contents (Elt F)) : (⟨S100000x16, .f32⟩ : BufTy).Contents (Elt F) :=
  Host.dotGeneral dot_S100000x128_S128x16_S100000x16_1_0_0_1_n_n none (val_main_v75 (F := F) x0 x1 x2 x3 x4 x5 x6 x7 x8 x10 x17 x18 x22 x23 x24) (x12)

theorem lhs_main_v76_0 (i : S100000x16.Idx) (q : dot_S100000x128_S128x16_S100000x16_1_0_0_1_n_n.contr.Idx) :
    (dot_S100000x128_S128x16_S100000x16_1_0_0_1_n_n.lhsIdx i q 0).val = (i 0).val := by
  unfold DotDims.lhsIdx
  rw [dif_neg (show ¬(0 : Fin S100000x128.rank) ∈ dot_S100000x128_S128x16_S100000x16_1_0_0_1_n_n.lhsBatch by decide), dif_pos (show (0 : Fin S100000x128.rank) ∈ dot_S100000x128_S128x16_S100000x16_1_0_0_1_n_n.lhsNonContracting by decide)]
  rfl

theorem lhs_main_v76_1 (i : S100000x16.Idx) (q : dot_S100000x128_S128x16_S100000x16_1_0_0_1_n_n.contr.Idx) :
    (dot_S100000x128_S128x16_S100000x16_1_0_0_1_n_n.lhsIdx i q 1).val = (q ⟨0, by decide⟩).val :=
  dot_S100000x128_S128x16_S100000x16_1_0_0_1_n_n.lhsIdx_val_of_single rfl i q

theorem rhs_main_v76_0 (i : S100000x16.Idx) (q : dot_S100000x128_S128x16_S100000x16_1_0_0_1_n_n.contr.Idx) :
    (dot_S100000x128_S128x16_S100000x16_1_0_0_1_n_n.rhsIdx i q 0).val = (q ⟨0, by decide⟩).val :=
  dot_S100000x128_S128x16_S100000x16_1_0_0_1_n_n.rhsIdx_val_of_single rfl i q

theorem rhs_main_v76_1 (i : S100000x16.Idx) (q : dot_S100000x128_S128x16_S100000x16_1_0_0_1_n_n.contr.Idx) :
    (dot_S100000x128_S128x16_S100000x16_1_0_0_1_n_n.rhsIdx i q 1).val = (i 1).val := by
  unfold DotDims.rhsIdx
  rw [dif_neg (show ¬(1 : Fin S128x16.rank) ∈ dot_S100000x128_S128x16_S100000x16_1_0_0_1_n_n.rhsBatch by decide), dif_pos (show (1 : Fin S128x16.rank) ∈ dot_S100000x128_S128x16_S100000x16_1_0_0_1_n_n.rhsNonContracting by decide)]
  rfl

abbrev lidx_main_v76 (i : S100000x16.Idx) (k : Fin 128) : S100000x128.Idx := fun a => match a with
  | ⟨0, _⟩ => ⟨(i 0).val, (i 0).isLt⟩
  | ⟨1, _⟩ => ⟨k.val, k.isLt⟩

abbrev ridx_main_v76 (i : S100000x16.Idx) (k : Fin 128) : S128x16.Idx := fun a => match a with
  | ⟨0, _⟩ => ⟨k.val, k.isLt⟩
  | ⟨1, _⟩ => ⟨(i 1).val, (i 1).isLt⟩

theorem val_main_v76_apply (x0 : (⟨S50000x128, .f32⟩ : BufTy).Contents (Elt Ideal)) (x1 : (⟨S30000x128, .f32⟩ : BufTy).Contents (Elt Ideal)) (x2 : (⟨S20000x128, .f32⟩ : BufTy).Contents (Elt Ideal)) (x3 x4 x5 : (⟨S128x64, .f32⟩ : BufTy).Contents (Elt Ideal)) (x6 : (⟨S64x64, .f32⟩ : BufTy).Contents (Elt Ideal)) (x7 : (⟨S64, .f32⟩ : BufTy).Contents (Elt Ideal)) (x8 x10 : (⟨S64x32, .f32⟩ : BufTy).Contents (Elt Ideal)) (x12 : (⟨S128x16, .f32⟩ : BufTy).Contents (Elt Ideal)) (x17 x18 : (⟨S3200000, .i32⟩ : BufTy).Contents (Elt Ideal)) (x22 x23 x24 : (⟨S100000, .i32⟩ : BufTy).Contents (Elt Ideal)) (i : S100000x16.Idx) :
    val_main_v76 (F := Ideal) x0 x1 x2 x3 x4 x5 x6 x7 x8 x10 x12 x17 x18 x22 x23 x24 i = ∑ k : Fin 128, (val_main_v75 (F := Ideal) x0 x1 x2 x3 x4 x5 x6 x7 x8 x10 x17 x18 x22 x23 x24) (lidx_main_v76 i k) * x12 (ridx_main_v76 i k) := by
  unfold val_main_v76
  generalize val_main_v75 (F := Ideal) x0 x1 x2 x3 x4 x5 x6 x7 x8 x10 x17 x18 x22 x23 x24 = y0
  simp only [Host.dotGeneral]
  rw [Ideal.dotGeneral_apply, ← Equiv.sum_comp (ValueIdx.contrEquiv1 dot_S100000x128_S128x16_S100000x16_1_0_0_1_n_n 128 rfl rfl).symm]
  refine Finset.sum_congr rfl fun k _ => ?_
  have hk := ValueIdx.contrEquiv1_symm_val dot_S100000x128_S128x16_S100000x16_1_0_0_1_n_n 128 rfl rfl k
  have el : dot_S100000x128_S128x16_S100000x16_1_0_0_1_n_n.lhsIdx i ((ValueIdx.contrEquiv1 dot_S100000x128_S128x16_S100000x16_1_0_0_1_n_n 128 rfl rfl).symm k) = lidx_main_v76 i k := funext fun a => Fin.ext (by
    match a with
    | ⟨0, _⟩ => exact lhs_main_v76_0 _ _
    | ⟨1, _⟩ => exact (lhs_main_v76_1 _ _).trans hk)
  have er : dot_S100000x128_S128x16_S100000x16_1_0_0_1_n_n.rhsIdx i ((ValueIdx.contrEquiv1 dot_S100000x128_S128x16_S100000x16_1_0_0_1_n_n 128 rfl rfl).symm k) = ridx_main_v76 i k := funext fun a => Fin.ext (by
    match a with
    | ⟨0, _⟩ => exact (rhs_main_v76_0 _ _).trans hk
    | ⟨1, _⟩ => exact rhs_main_v76_1 _ _)
  rw [el, er]

def val_main_call2_cst : (⟨S_, .f32⟩ : BufTy).Contents (Elt F) :=
  constant S_ .f32 0x00000000#32

theorem val_main_call2_cst_apply (i : S_.Idx) :
    val_main_call2_cst (F := F) i = FloatOps.ofBits .f32 0x00000000#32 := rfl

def val_main_call2_v0 : (⟨S100000x16, .f32⟩ : BufTy).Contents (Elt F) :=
  broadcastInDim S100000x16 ![] bcast_S_S100000x16 (val_main_call2_cst (F := F))

abbrev idx_main_call2_v0 (i : S100000x16.Idx) : S_.Idx := fun a => a.elim0

theorem val_main_call2_v0_apply (i : S100000x16.Idx) :
    val_main_call2_v0 (F := F) i = val_main_call2_cst (F := F) (idx_main_call2_v0 i) := by
  unfold val_main_call2_v0
  generalize val_main_call2_cst (F := F) = y
  exact broadcastInDim_apply _ bcast_S_S100000x16 y i (idx_main_call2_v0 i) (fun a => a.elim0)

def val_main_v77 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x8 x10 : (⟨S64x32, .f32⟩ : BufTy).Contents (Elt F)) (x12 : (⟨S128x16, .f32⟩ : BufTy).Contents (Elt F)) (x17 x18 : (⟨S3200000, .i32⟩ : BufTy).Contents (Elt F)) (x22 x23 x24 : (⟨S100000, .i32⟩ : BufTy).Contents (Elt F)) : (⟨S100000x16, .f32⟩ : BufTy).Contents (Elt F) :=
  maximumf (val_main_v76 (F := F) x0 x1 x2 x3 x4 x5 x6 x7 x8 x10 x12 x17 x18 x22 x23 x24) (val_main_call2_v0 (F := F))

theorem val_main_v77_apply (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x8 x10 : (⟨S64x32, .f32⟩ : BufTy).Contents (Elt F)) (x12 : (⟨S128x16, .f32⟩ : BufTy).Contents (Elt F)) (x17 x18 : (⟨S3200000, .i32⟩ : BufTy).Contents (Elt F)) (x22 x23 x24 : (⟨S100000, .i32⟩ : BufTy).Contents (Elt F)) (i : S100000x16.Idx) :
    val_main_v77 (F := F) x0 x1 x2 x3 x4 x5 x6 x7 x8 x10 x12 x17 x18 x22 x23 x24 i = FloatOps.maximumf (val_main_v76 (F := F) x0 x1 x2 x3 x4 x5 x6 x7 x8 x10 x12 x17 x18 x22 x23 x24 i) (val_main_call2_v0 (F := F) i) := rfl

def val_main_v78 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x8 x10 : (⟨S64x32, .f32⟩ : BufTy).Contents (Elt F)) (x12 : (⟨S128x16, .f32⟩ : BufTy).Contents (Elt F)) (x15 : (⟨S16x1, .f32⟩ : BufTy).Contents (Elt F)) (x17 x18 : (⟨S3200000, .i32⟩ : BufTy).Contents (Elt F)) (x22 x23 x24 : (⟨S100000, .i32⟩ : BufTy).Contents (Elt F)) : (⟨S100000x1, .f32⟩ : BufTy).Contents (Elt F) :=
  Host.dotGeneral dot_S100000x16_S16x1_S100000x1_1_0_0_1_n_n none (val_main_v77 (F := F) x0 x1 x2 x3 x4 x5 x6 x7 x8 x10 x12 x17 x18 x22 x23 x24) (x15)

theorem lhs_main_v78_0 (i : S100000x1.Idx) (q : dot_S100000x16_S16x1_S100000x1_1_0_0_1_n_n.contr.Idx) :
    (dot_S100000x16_S16x1_S100000x1_1_0_0_1_n_n.lhsIdx i q 0).val = (i 0).val := by
  unfold DotDims.lhsIdx
  rw [dif_neg (show ¬(0 : Fin S100000x16.rank) ∈ dot_S100000x16_S16x1_S100000x1_1_0_0_1_n_n.lhsBatch by decide), dif_pos (show (0 : Fin S100000x16.rank) ∈ dot_S100000x16_S16x1_S100000x1_1_0_0_1_n_n.lhsNonContracting by decide)]
  rfl

theorem lhs_main_v78_1 (i : S100000x1.Idx) (q : dot_S100000x16_S16x1_S100000x1_1_0_0_1_n_n.contr.Idx) :
    (dot_S100000x16_S16x1_S100000x1_1_0_0_1_n_n.lhsIdx i q 1).val = (q ⟨0, by decide⟩).val :=
  dot_S100000x16_S16x1_S100000x1_1_0_0_1_n_n.lhsIdx_val_of_single rfl i q

theorem rhs_main_v78_0 (i : S100000x1.Idx) (q : dot_S100000x16_S16x1_S100000x1_1_0_0_1_n_n.contr.Idx) :
    (dot_S100000x16_S16x1_S100000x1_1_0_0_1_n_n.rhsIdx i q 0).val = (q ⟨0, by decide⟩).val :=
  dot_S100000x16_S16x1_S100000x1_1_0_0_1_n_n.rhsIdx_val_of_single rfl i q

theorem rhs_main_v78_1 (i : S100000x1.Idx) (q : dot_S100000x16_S16x1_S100000x1_1_0_0_1_n_n.contr.Idx) :
    (dot_S100000x16_S16x1_S100000x1_1_0_0_1_n_n.rhsIdx i q 1).val = (i 1).val := by
  unfold DotDims.rhsIdx
  rw [dif_neg (show ¬(1 : Fin S16x1.rank) ∈ dot_S100000x16_S16x1_S100000x1_1_0_0_1_n_n.rhsBatch by decide), dif_pos (show (1 : Fin S16x1.rank) ∈ dot_S100000x16_S16x1_S100000x1_1_0_0_1_n_n.rhsNonContracting by decide)]
  rfl

abbrev lidx_main_v78 (i : S100000x1.Idx) (k : Fin 16) : S100000x16.Idx := fun a => match a with
  | ⟨0, _⟩ => ⟨(i 0).val, (i 0).isLt⟩
  | ⟨1, _⟩ => ⟨k.val, k.isLt⟩

abbrev ridx_main_v78 (i : S100000x1.Idx) (k : Fin 16) : S16x1.Idx := fun a => match a with
  | ⟨0, _⟩ => ⟨k.val, k.isLt⟩
  | ⟨1, _⟩ => ⟨(i 1).val, (i 1).isLt⟩

theorem val_main_v78_apply (x0 : (⟨S50000x128, .f32⟩ : BufTy).Contents (Elt Ideal)) (x1 : (⟨S30000x128, .f32⟩ : BufTy).Contents (Elt Ideal)) (x2 : (⟨S20000x128, .f32⟩ : BufTy).Contents (Elt Ideal)) (x3 x4 x5 : (⟨S128x64, .f32⟩ : BufTy).Contents (Elt Ideal)) (x6 : (⟨S64x64, .f32⟩ : BufTy).Contents (Elt Ideal)) (x7 : (⟨S64, .f32⟩ : BufTy).Contents (Elt Ideal)) (x8 x10 : (⟨S64x32, .f32⟩ : BufTy).Contents (Elt Ideal)) (x12 : (⟨S128x16, .f32⟩ : BufTy).Contents (Elt Ideal)) (x15 : (⟨S16x1, .f32⟩ : BufTy).Contents (Elt Ideal)) (x17 x18 : (⟨S3200000, .i32⟩ : BufTy).Contents (Elt Ideal)) (x22 x23 x24 : (⟨S100000, .i32⟩ : BufTy).Contents (Elt Ideal)) (i : S100000x1.Idx) :
    val_main_v78 (F := Ideal) x0 x1 x2 x3 x4 x5 x6 x7 x8 x10 x12 x15 x17 x18 x22 x23 x24 i = ∑ k : Fin 16, (val_main_v77 (F := Ideal) x0 x1 x2 x3 x4 x5 x6 x7 x8 x10 x12 x17 x18 x22 x23 x24) (lidx_main_v78 i k) * x15 (ridx_main_v78 i k) := by
  unfold val_main_v78
  generalize val_main_v77 (F := Ideal) x0 x1 x2 x3 x4 x5 x6 x7 x8 x10 x12 x17 x18 x22 x23 x24 = y0
  simp only [Host.dotGeneral]
  rw [Ideal.dotGeneral_apply, ← Equiv.sum_comp (ValueIdx.contrEquiv1 dot_S100000x16_S16x1_S100000x1_1_0_0_1_n_n 16 rfl rfl).symm]
  refine Finset.sum_congr rfl fun k _ => ?_
  have hk := ValueIdx.contrEquiv1_symm_val dot_S100000x16_S16x1_S100000x1_1_0_0_1_n_n 16 rfl rfl k
  have el : dot_S100000x16_S16x1_S100000x1_1_0_0_1_n_n.lhsIdx i ((ValueIdx.contrEquiv1 dot_S100000x16_S16x1_S100000x1_1_0_0_1_n_n 16 rfl rfl).symm k) = lidx_main_v78 i k := funext fun a => Fin.ext (by
    match a with
    | ⟨0, _⟩ => exact lhs_main_v78_0 _ _
    | ⟨1, _⟩ => exact (lhs_main_v78_1 _ _).trans hk)
  have er : dot_S100000x16_S16x1_S100000x1_1_0_0_1_n_n.rhsIdx i ((ValueIdx.contrEquiv1 dot_S100000x16_S16x1_S100000x1_1_0_0_1_n_n 16 rfl rfl).symm k) = ridx_main_v78 i k := funext fun a => Fin.ext (by
    match a with
    | ⟨0, _⟩ => exact (rhs_main_v78_0 _ _).trans hk
    | ⟨1, _⟩ => exact rhs_main_v78_1 _ _)
  rw [el, er]

def val_main_c_14 : (⟨S_, .i32⟩ : BufTy).Contents (Elt F) :=
  constantI S_ 32 0#32

def val_main_v79 : (⟨S100000, .i32⟩ : BufTy).Contents (Elt F) :=
  broadcastInDim S100000 ![] bcast_S_S100000 (val_main_c_14 (F := F))

def val_main_v80 (x27 : (⟨S100000, .i32⟩ : BufTy).Contents (Elt F)) : (⟨S100000, .i1⟩ : BufTy).Contents (Elt F) :=
  cmpi .slt (x27) (val_main_v79 (F := F))

def val_main_c_15 : (⟨S_, .i32⟩ : BufTy).Contents (Elt F) :=
  constantI S_ 32 20000#32

def val_main_v81 : (⟨S100000, .i32⟩ : BufTy).Contents (Elt F) :=
  broadcastInDim S100000 ![] bcast_S_S100000 (val_main_c_15 (F := F))

def val_main_v82 (x27 : (⟨S100000, .i32⟩ : BufTy).Contents (Elt F)) : (⟨S100000, .i32⟩ : BufTy).Contents (Elt F) :=
  addi (x27) (val_main_v81 (F := F))

def val_main_v83 (x27 : (⟨S100000, .i32⟩ : BufTy).Contents (Elt F)) : (⟨S100000, .i32⟩ : BufTy).Contents (Elt F) :=
  select (val_main_v80 (F := F) x27) (val_main_v82 (F := F) x27) (x27)

def val_main_v84 (x27 : (⟨S100000, .i32⟩ : BufTy).Contents (Elt F)) : (⟨S100000x1, .i32⟩ : BufTy).Contents (Elt F) :=
  broadcastInDim S100000x1 ![0] bcast_S100000_S100000x1_0 (val_main_v83 (F := F) x27)

def val_main_v85 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x17 x18 : (⟨S3200000, .i32⟩ : BufTy).Contents (Elt F)) (x27 : (⟨S100000, .i32⟩ : BufTy).Contents (Elt F)) : (⟨S100000x64, .f32⟩ : BufTy).Contents (Elt F) :=
  Host.gather gather_S20000x64_S100000x1_S100000x64_1_0_n_n_0_1_164 (val_main_v25 (F := F) x0 x1 x2 x3 x4 x5 x6 x7 x17 x18) (val_main_v84 (F := F) x27)

def val_main_c_16 : (⟨S_, .i32⟩ : BufTy).Contents (Elt F) :=
  constantI S_ 32 0#32

def val_main_v86 : (⟨S100000, .i32⟩ : BufTy).Contents (Elt F) :=
  broadcastInDim S100000 ![] bcast_S_S100000 (val_main_c_16 (F := F))

def val_main_v87 (x25 : (⟨S100000, .i32⟩ : BufTy).Contents (Elt F)) : (⟨S100000, .i1⟩ : BufTy).Contents (Elt F) :=
  cmpi .slt (x25) (val_main_v86 (F := F))

def val_main_c_17 : (⟨S_, .i32⟩ : BufTy).Contents (Elt F) :=
  constantI S_ 32 50000#32

def val_main_v88 : (⟨S100000, .i32⟩ : BufTy).Contents (Elt F) :=
  broadcastInDim S100000 ![] bcast_S_S100000 (val_main_c_17 (F := F))

def val_main_v89 (x25 : (⟨S100000, .i32⟩ : BufTy).Contents (Elt F)) : (⟨S100000, .i32⟩ : BufTy).Contents (Elt F) :=
  addi (x25) (val_main_v88 (F := F))

def val_main_v90 (x25 : (⟨S100000, .i32⟩ : BufTy).Contents (Elt F)) : (⟨S100000, .i32⟩ : BufTy).Contents (Elt F) :=
  select (val_main_v87 (F := F) x25) (val_main_v89 (F := F) x25) (x25)

def val_main_v91 (x25 : (⟨S100000, .i32⟩ : BufTy).Contents (Elt F)) : (⟨S100000x1, .i32⟩ : BufTy).Contents (Elt F) :=
  broadcastInDim S100000x1 ![0] bcast_S100000_S100000x1_0 (val_main_v90 (F := F) x25)

def val_main_v92 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x8 : (⟨S64x32, .f32⟩ : BufTy).Contents (Elt F)) (x17 x18 : (⟨S3200000, .i32⟩ : BufTy).Contents (Elt F)) (x25 : (⟨S100000, .i32⟩ : BufTy).Contents (Elt F)) : (⟨S100000x32, .f32⟩ : BufTy).Contents (Elt F) :=
  Host.gather gather_S50000x32_S100000x1_S100000x32_1_0_n_n_0_1_132 (val_main_v26 (F := F) x0 x1 x2 x3 x4 x5 x6 x7 x8 x17 x18) (val_main_v91 (F := F) x25)

def val_main_c_18 : (⟨S_, .i32⟩ : BufTy).Contents (Elt F) :=
  constantI S_ 32 0#32

def val_main_v93 : (⟨S100000, .i32⟩ : BufTy).Contents (Elt F) :=
  broadcastInDim S100000 ![] bcast_S_S100000 (val_main_c_18 (F := F))

def val_main_v94 (x26 : (⟨S100000, .i32⟩ : BufTy).Contents (Elt F)) : (⟨S100000, .i1⟩ : BufTy).Contents (Elt F) :=
  cmpi .slt (x26) (val_main_v93 (F := F))

def val_main_c_19 : (⟨S_, .i32⟩ : BufTy).Contents (Elt F) :=
  constantI S_ 32 30000#32

def val_main_v95 : (⟨S100000, .i32⟩ : BufTy).Contents (Elt F) :=
  broadcastInDim S100000 ![] bcast_S_S100000 (val_main_c_19 (F := F))

def val_main_v96 (x26 : (⟨S100000, .i32⟩ : BufTy).Contents (Elt F)) : (⟨S100000, .i32⟩ : BufTy).Contents (Elt F) :=
  addi (x26) (val_main_v95 (F := F))

def val_main_v97 (x26 : (⟨S100000, .i32⟩ : BufTy).Contents (Elt F)) : (⟨S100000, .i32⟩ : BufTy).Contents (Elt F) :=
  select (val_main_v94 (F := F) x26) (val_main_v96 (F := F) x26) (x26)

def val_main_v98 (x26 : (⟨S100000, .i32⟩ : BufTy).Contents (Elt F)) : (⟨S100000x1, .i32⟩ : BufTy).Contents (Elt F) :=
  broadcastInDim S100000x1 ![0] bcast_S100000_S100000x1_0 (val_main_v97 (F := F) x26)

def val_main_v99 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x9 : (⟨S64x32, .f32⟩ : BufTy).Contents (Elt F)) (x17 x18 : (⟨S3200000, .i32⟩ : BufTy).Contents (Elt F)) (x26 : (⟨S100000, .i32⟩ : BufTy).Contents (Elt F)) : (⟨S100000x32, .f32⟩ : BufTy).Contents (Elt F) :=
  Host.gather gather_S30000x32_S100000x1_S100000x32_1_0_n_n_0_1_132 (val_main_v27 (F := F) x0 x1 x2 x3 x4 x5 x6 x7 x9 x17 x18) (val_main_v98 (F := F) x26)

def val_main_v100 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x8 x9 : (⟨S64x32, .f32⟩ : BufTy).Contents (Elt F)) (x17 x18 : (⟨S3200000, .i32⟩ : BufTy).Contents (Elt F)) (x25 x26 x27 : (⟨S100000, .i32⟩ : BufTy).Contents (Elt F)) : (⟨S100000x128, .f32⟩ : BufTy).Contents (Elt F) :=
  concatenate S100000x128 1 [⟨S100000x64, (val_main_v85 (F := F) x0 x1 x2 x3 x4 x5 x6 x7 x17 x18 x27)⟩, ⟨S100000x32, (val_main_v92 (F := F) x0 x1 x2 x3 x4 x5 x6 x7 x8 x17 x18 x25)⟩, ⟨S100000x32, (val_main_v99 (F := F) x0 x1 x2 x3 x4 x5 x6 x7 x9 x17 x18 x26)⟩] concatenates_S100000x64_S100000x32_S100000x32_S100000x128_d1

def val_main_v101 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x8 x9 : (⟨S64x32, .f32⟩ : BufTy).Contents (Elt F)) (x13 : (⟨S128x16, .f32⟩ : BufTy).Contents (Elt F)) (x17 x18 : (⟨S3200000, .i32⟩ : BufTy).Contents (Elt F)) (x25 x26 x27 : (⟨S100000, .i32⟩ : BufTy).Contents (Elt F)) : (⟨S100000x16, .f32⟩ : BufTy).Contents (Elt F) :=
  Host.dotGeneral dot_S100000x128_S128x16_S100000x16_1_0_0_1_n_n none (val_main_v100 (F := F) x0 x1 x2 x3 x4 x5 x6 x7 x8 x9 x17 x18 x25 x26 x27) (x13)

theorem lhs_main_v101_0 (i : S100000x16.Idx) (q : dot_S100000x128_S128x16_S100000x16_1_0_0_1_n_n.contr.Idx) :
    (dot_S100000x128_S128x16_S100000x16_1_0_0_1_n_n.lhsIdx i q 0).val = (i 0).val := by
  unfold DotDims.lhsIdx
  rw [dif_neg (show ¬(0 : Fin S100000x128.rank) ∈ dot_S100000x128_S128x16_S100000x16_1_0_0_1_n_n.lhsBatch by decide), dif_pos (show (0 : Fin S100000x128.rank) ∈ dot_S100000x128_S128x16_S100000x16_1_0_0_1_n_n.lhsNonContracting by decide)]
  rfl

theorem lhs_main_v101_1 (i : S100000x16.Idx) (q : dot_S100000x128_S128x16_S100000x16_1_0_0_1_n_n.contr.Idx) :
    (dot_S100000x128_S128x16_S100000x16_1_0_0_1_n_n.lhsIdx i q 1).val = (q ⟨0, by decide⟩).val :=
  dot_S100000x128_S128x16_S100000x16_1_0_0_1_n_n.lhsIdx_val_of_single rfl i q

theorem rhs_main_v101_0 (i : S100000x16.Idx) (q : dot_S100000x128_S128x16_S100000x16_1_0_0_1_n_n.contr.Idx) :
    (dot_S100000x128_S128x16_S100000x16_1_0_0_1_n_n.rhsIdx i q 0).val = (q ⟨0, by decide⟩).val :=
  dot_S100000x128_S128x16_S100000x16_1_0_0_1_n_n.rhsIdx_val_of_single rfl i q

theorem rhs_main_v101_1 (i : S100000x16.Idx) (q : dot_S100000x128_S128x16_S100000x16_1_0_0_1_n_n.contr.Idx) :
    (dot_S100000x128_S128x16_S100000x16_1_0_0_1_n_n.rhsIdx i q 1).val = (i 1).val := by
  unfold DotDims.rhsIdx
  rw [dif_neg (show ¬(1 : Fin S128x16.rank) ∈ dot_S100000x128_S128x16_S100000x16_1_0_0_1_n_n.rhsBatch by decide), dif_pos (show (1 : Fin S128x16.rank) ∈ dot_S100000x128_S128x16_S100000x16_1_0_0_1_n_n.rhsNonContracting by decide)]
  rfl

abbrev lidx_main_v101 (i : S100000x16.Idx) (k : Fin 128) : S100000x128.Idx := fun a => match a with
  | ⟨0, _⟩ => ⟨(i 0).val, (i 0).isLt⟩
  | ⟨1, _⟩ => ⟨k.val, k.isLt⟩

abbrev ridx_main_v101 (i : S100000x16.Idx) (k : Fin 128) : S128x16.Idx := fun a => match a with
  | ⟨0, _⟩ => ⟨k.val, k.isLt⟩
  | ⟨1, _⟩ => ⟨(i 1).val, (i 1).isLt⟩

theorem val_main_v101_apply (x0 : (⟨S50000x128, .f32⟩ : BufTy).Contents (Elt Ideal)) (x1 : (⟨S30000x128, .f32⟩ : BufTy).Contents (Elt Ideal)) (x2 : (⟨S20000x128, .f32⟩ : BufTy).Contents (Elt Ideal)) (x3 x4 x5 : (⟨S128x64, .f32⟩ : BufTy).Contents (Elt Ideal)) (x6 : (⟨S64x64, .f32⟩ : BufTy).Contents (Elt Ideal)) (x7 : (⟨S64, .f32⟩ : BufTy).Contents (Elt Ideal)) (x8 x9 : (⟨S64x32, .f32⟩ : BufTy).Contents (Elt Ideal)) (x13 : (⟨S128x16, .f32⟩ : BufTy).Contents (Elt Ideal)) (x17 x18 : (⟨S3200000, .i32⟩ : BufTy).Contents (Elt Ideal)) (x25 x26 x27 : (⟨S100000, .i32⟩ : BufTy).Contents (Elt Ideal)) (i : S100000x16.Idx) :
    val_main_v101 (F := Ideal) x0 x1 x2 x3 x4 x5 x6 x7 x8 x9 x13 x17 x18 x25 x26 x27 i = ∑ k : Fin 128, (val_main_v100 (F := Ideal) x0 x1 x2 x3 x4 x5 x6 x7 x8 x9 x17 x18 x25 x26 x27) (lidx_main_v101 i k) * x13 (ridx_main_v101 i k) := by
  unfold val_main_v101
  generalize val_main_v100 (F := Ideal) x0 x1 x2 x3 x4 x5 x6 x7 x8 x9 x17 x18 x25 x26 x27 = y0
  simp only [Host.dotGeneral]
  rw [Ideal.dotGeneral_apply, ← Equiv.sum_comp (ValueIdx.contrEquiv1 dot_S100000x128_S128x16_S100000x16_1_0_0_1_n_n 128 rfl rfl).symm]
  refine Finset.sum_congr rfl fun k _ => ?_
  have hk := ValueIdx.contrEquiv1_symm_val dot_S100000x128_S128x16_S100000x16_1_0_0_1_n_n 128 rfl rfl k
  have el : dot_S100000x128_S128x16_S100000x16_1_0_0_1_n_n.lhsIdx i ((ValueIdx.contrEquiv1 dot_S100000x128_S128x16_S100000x16_1_0_0_1_n_n 128 rfl rfl).symm k) = lidx_main_v101 i k := funext fun a => Fin.ext (by
    match a with
    | ⟨0, _⟩ => exact lhs_main_v101_0 _ _
    | ⟨1, _⟩ => exact (lhs_main_v101_1 _ _).trans hk)
  have er : dot_S100000x128_S128x16_S100000x16_1_0_0_1_n_n.rhsIdx i ((ValueIdx.contrEquiv1 dot_S100000x128_S128x16_S100000x16_1_0_0_1_n_n 128 rfl rfl).symm k) = ridx_main_v101 i k := funext fun a => Fin.ext (by
    match a with
    | ⟨0, _⟩ => exact (rhs_main_v101_0 _ _).trans hk
    | ⟨1, _⟩ => exact rhs_main_v101_1 _ _)
  rw [el, er]

def val_main_call3_cst : (⟨S_, .f32⟩ : BufTy).Contents (Elt F) :=
  constant S_ .f32 0x00000000#32

theorem val_main_call3_cst_apply (i : S_.Idx) :
    val_main_call3_cst (F := F) i = FloatOps.ofBits .f32 0x00000000#32 := rfl

def val_main_call3_v0 : (⟨S100000x16, .f32⟩ : BufTy).Contents (Elt F) :=
  broadcastInDim S100000x16 ![] bcast_S_S100000x16 (val_main_call3_cst (F := F))

abbrev idx_main_call3_v0 (i : S100000x16.Idx) : S_.Idx := fun a => a.elim0

theorem val_main_call3_v0_apply (i : S100000x16.Idx) :
    val_main_call3_v0 (F := F) i = val_main_call3_cst (F := F) (idx_main_call3_v0 i) := by
  unfold val_main_call3_v0
  generalize val_main_call3_cst (F := F) = y
  exact broadcastInDim_apply _ bcast_S_S100000x16 y i (idx_main_call3_v0 i) (fun a => a.elim0)

def val_main_v102 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x8 x9 : (⟨S64x32, .f32⟩ : BufTy).Contents (Elt F)) (x13 : (⟨S128x16, .f32⟩ : BufTy).Contents (Elt F)) (x17 x18 : (⟨S3200000, .i32⟩ : BufTy).Contents (Elt F)) (x25 x26 x27 : (⟨S100000, .i32⟩ : BufTy).Contents (Elt F)) : (⟨S100000x16, .f32⟩ : BufTy).Contents (Elt F) :=
  maximumf (val_main_v101 (F := F) x0 x1 x2 x3 x4 x5 x6 x7 x8 x9 x13 x17 x18 x25 x26 x27) (val_main_call3_v0 (F := F))

theorem val_main_v102_apply (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x8 x9 : (⟨S64x32, .f32⟩ : BufTy).Contents (Elt F)) (x13 : (⟨S128x16, .f32⟩ : BufTy).Contents (Elt F)) (x17 x18 : (⟨S3200000, .i32⟩ : BufTy).Contents (Elt F)) (x25 x26 x27 : (⟨S100000, .i32⟩ : BufTy).Contents (Elt F)) (i : S100000x16.Idx) :
    val_main_v102 (F := F) x0 x1 x2 x3 x4 x5 x6 x7 x8 x9 x13 x17 x18 x25 x26 x27 i = FloatOps.maximumf (val_main_v101 (F := F) x0 x1 x2 x3 x4 x5 x6 x7 x8 x9 x13 x17 x18 x25 x26 x27 i) (val_main_call3_v0 (F := F) i) := rfl

def val_main_v103 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x8 x9 : (⟨S64x32, .f32⟩ : BufTy).Contents (Elt F)) (x13 : (⟨S128x16, .f32⟩ : BufTy).Contents (Elt F)) (x16 : (⟨S16x1, .f32⟩ : BufTy).Contents (Elt F)) (x17 x18 : (⟨S3200000, .i32⟩ : BufTy).Contents (Elt F)) (x25 x26 x27 : (⟨S100000, .i32⟩ : BufTy).Contents (Elt F)) : (⟨S100000x1, .f32⟩ : BufTy).Contents (Elt F) :=
  Host.dotGeneral dot_S100000x16_S16x1_S100000x1_1_0_0_1_n_n none (val_main_v102 (F := F) x0 x1 x2 x3 x4 x5 x6 x7 x8 x9 x13 x17 x18 x25 x26 x27) (x16)

theorem lhs_main_v103_0 (i : S100000x1.Idx) (q : dot_S100000x16_S16x1_S100000x1_1_0_0_1_n_n.contr.Idx) :
    (dot_S100000x16_S16x1_S100000x1_1_0_0_1_n_n.lhsIdx i q 0).val = (i 0).val := by
  unfold DotDims.lhsIdx
  rw [dif_neg (show ¬(0 : Fin S100000x16.rank) ∈ dot_S100000x16_S16x1_S100000x1_1_0_0_1_n_n.lhsBatch by decide), dif_pos (show (0 : Fin S100000x16.rank) ∈ dot_S100000x16_S16x1_S100000x1_1_0_0_1_n_n.lhsNonContracting by decide)]
  rfl

theorem lhs_main_v103_1 (i : S100000x1.Idx) (q : dot_S100000x16_S16x1_S100000x1_1_0_0_1_n_n.contr.Idx) :
    (dot_S100000x16_S16x1_S100000x1_1_0_0_1_n_n.lhsIdx i q 1).val = (q ⟨0, by decide⟩).val :=
  dot_S100000x16_S16x1_S100000x1_1_0_0_1_n_n.lhsIdx_val_of_single rfl i q

theorem rhs_main_v103_0 (i : S100000x1.Idx) (q : dot_S100000x16_S16x1_S100000x1_1_0_0_1_n_n.contr.Idx) :
    (dot_S100000x16_S16x1_S100000x1_1_0_0_1_n_n.rhsIdx i q 0).val = (q ⟨0, by decide⟩).val :=
  dot_S100000x16_S16x1_S100000x1_1_0_0_1_n_n.rhsIdx_val_of_single rfl i q

theorem rhs_main_v103_1 (i : S100000x1.Idx) (q : dot_S100000x16_S16x1_S100000x1_1_0_0_1_n_n.contr.Idx) :
    (dot_S100000x16_S16x1_S100000x1_1_0_0_1_n_n.rhsIdx i q 1).val = (i 1).val := by
  unfold DotDims.rhsIdx
  rw [dif_neg (show ¬(1 : Fin S16x1.rank) ∈ dot_S100000x16_S16x1_S100000x1_1_0_0_1_n_n.rhsBatch by decide), dif_pos (show (1 : Fin S16x1.rank) ∈ dot_S100000x16_S16x1_S100000x1_1_0_0_1_n_n.rhsNonContracting by decide)]
  rfl

abbrev lidx_main_v103 (i : S100000x1.Idx) (k : Fin 16) : S100000x16.Idx := fun a => match a with
  | ⟨0, _⟩ => ⟨(i 0).val, (i 0).isLt⟩
  | ⟨1, _⟩ => ⟨k.val, k.isLt⟩

abbrev ridx_main_v103 (i : S100000x1.Idx) (k : Fin 16) : S16x1.Idx := fun a => match a with
  | ⟨0, _⟩ => ⟨k.val, k.isLt⟩
  | ⟨1, _⟩ => ⟨(i 1).val, (i 1).isLt⟩

theorem val_main_v103_apply (x0 : (⟨S50000x128, .f32⟩ : BufTy).Contents (Elt Ideal)) (x1 : (⟨S30000x128, .f32⟩ : BufTy).Contents (Elt Ideal)) (x2 : (⟨S20000x128, .f32⟩ : BufTy).Contents (Elt Ideal)) (x3 x4 x5 : (⟨S128x64, .f32⟩ : BufTy).Contents (Elt Ideal)) (x6 : (⟨S64x64, .f32⟩ : BufTy).Contents (Elt Ideal)) (x7 : (⟨S64, .f32⟩ : BufTy).Contents (Elt Ideal)) (x8 x9 : (⟨S64x32, .f32⟩ : BufTy).Contents (Elt Ideal)) (x13 : (⟨S128x16, .f32⟩ : BufTy).Contents (Elt Ideal)) (x16 : (⟨S16x1, .f32⟩ : BufTy).Contents (Elt Ideal)) (x17 x18 : (⟨S3200000, .i32⟩ : BufTy).Contents (Elt Ideal)) (x25 x26 x27 : (⟨S100000, .i32⟩ : BufTy).Contents (Elt Ideal)) (i : S100000x1.Idx) :
    val_main_v103 (F := Ideal) x0 x1 x2 x3 x4 x5 x6 x7 x8 x9 x13 x16 x17 x18 x25 x26 x27 i = ∑ k : Fin 16, (val_main_v102 (F := Ideal) x0 x1 x2 x3 x4 x5 x6 x7 x8 x9 x13 x17 x18 x25 x26 x27) (lidx_main_v103 i k) * x16 (ridx_main_v103 i k) := by
  unfold val_main_v103
  generalize val_main_v102 (F := Ideal) x0 x1 x2 x3 x4 x5 x6 x7 x8 x9 x13 x17 x18 x25 x26 x27 = y0
  simp only [Host.dotGeneral]
  rw [Ideal.dotGeneral_apply, ← Equiv.sum_comp (ValueIdx.contrEquiv1 dot_S100000x16_S16x1_S100000x1_1_0_0_1_n_n 16 rfl rfl).symm]
  refine Finset.sum_congr rfl fun k _ => ?_
  have hk := ValueIdx.contrEquiv1_symm_val dot_S100000x16_S16x1_S100000x1_1_0_0_1_n_n 16 rfl rfl k
  have el : dot_S100000x16_S16x1_S100000x1_1_0_0_1_n_n.lhsIdx i ((ValueIdx.contrEquiv1 dot_S100000x16_S16x1_S100000x1_1_0_0_1_n_n 16 rfl rfl).symm k) = lidx_main_v103 i k := funext fun a => Fin.ext (by
    match a with
    | ⟨0, _⟩ => exact lhs_main_v103_0 _ _
    | ⟨1, _⟩ => exact (lhs_main_v103_1 _ _).trans hk)
  have er : dot_S100000x16_S16x1_S100000x1_1_0_0_1_n_n.rhsIdx i ((ValueIdx.contrEquiv1 dot_S100000x16_S16x1_S100000x1_1_0_0_1_n_n 16 rfl rfl).symm k) = ridx_main_v103 i k := funext fun a => Fin.ext (by
    match a with
    | ⟨0, _⟩ => exact (rhs_main_v103_0 _ _).trans hk
    | ⟨1, _⟩ => exact rhs_main_v103_1 _ _)
  rw [el, er]

def val_main_v104 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x8 x9 x10 : (⟨S64x32, .f32⟩ : BufTy).Contents (Elt F)) (x11 x12 x13 : (⟨S128x16, .f32⟩ : BufTy).Contents (Elt F)) (x14 x15 x16 : (⟨S16x1, .f32⟩ : BufTy).Contents (Elt F)) (x17 x18 : (⟨S3200000, .i32⟩ : BufTy).Contents (Elt F)) (x19 x20 x21 x22 x23 x24 x25 x26 x27 : (⟨S100000, .i32⟩ : BufTy).Contents (Elt F)) : (⟨S300000x1, .f32⟩ : BufTy).Contents (Elt F) :=
  concatenate S300000x1 0 [⟨S100000x1, (val_main_v53 (F := F) x0 x1 x2 x3 x4 x5 x6 x7 x9 x10 x11 x14 x17 x18 x19 x20 x21)⟩, ⟨S100000x1, (val_main_v78 (F := F) x0 x1 x2 x3 x4 x5 x6 x7 x8 x10 x12 x15 x17 x18 x22 x23 x24)⟩, ⟨S100000x1, (val_main_v103 (F := F) x0 x1 x2 x3 x4 x5 x6 x7 x8 x9 x13 x16 x17 x18 x25 x26 x27)⟩] concatenates_S100000x1_S100000x1_S100000x1_S300000x1_d0

def val_main_v105 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x8 x9 x10 : (⟨S64x32, .f32⟩ : BufTy).Contents (Elt F)) (x11 x12 x13 : (⟨S128x16, .f32⟩ : BufTy).Contents (Elt F)) (x14 x15 x16 : (⟨S16x1, .f32⟩ : BufTy).Contents (Elt F)) (x17 x18 : (⟨S3200000, .i32⟩ : BufTy).Contents (Elt F)) (x19 x20 x21 x22 x23 x24 x25 x26 x27 : (⟨S100000, .i32⟩ : BufTy).Contents (Elt F)) : (⟨S300000x1, .f32⟩ : BufTy).Contents (Elt F) :=
  Host.negf (val_main_v104 (F := F) x0 x1 x2 x3 x4 x5 x6 x7 x8 x9 x10 x11 x12 x13 x14 x15 x16 x17 x18 x19 x20 x21 x22 x23 x24 x25 x26 x27)

theorem val_main_v105_apply (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x8 x9 x10 : (⟨S64x32, .f32⟩ : BufTy).Contents (Elt F)) (x11 x12 x13 : (⟨S128x16, .f32⟩ : BufTy).Contents (Elt F)) (x14 x15 x16 : (⟨S16x1, .f32⟩ : BufTy).Contents (Elt F)) (x17 x18 : (⟨S3200000, .i32⟩ : BufTy).Contents (Elt F)) (x19 x20 x21 x22 x23 x24 x25 x26 x27 : (⟨S100000, .i32⟩ : BufTy).Contents (Elt F)) (i : S300000x1.Idx) :
    val_main_v105 (F := F) x0 x1 x2 x3 x4 x5 x6 x7 x8 x9 x10 x11 x12 x13 x14 x15 x16 x17 x18 x19 x20 x21 x22 x23 x24 x25 x26 x27 i = FloatOps.hostNegf (val_main_v104 (F := F) x0 x1 x2 x3 x4 x5 x6 x7 x8 x9 x10 x11 x12 x13 x14 x15 x16 x17 x18 x19 x20 x21 x22 x23 x24 x25 x26 x27 i) := rfl

def val_main_v106 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x8 x9 x10 : (⟨S64x32, .f32⟩ : BufTy).Contents (Elt F)) (x11 x12 x13 : (⟨S128x16, .f32⟩ : BufTy).Contents (Elt F)) (x14 x15 x16 : (⟨S16x1, .f32⟩ : BufTy).Contents (Elt F)) (x17 x18 : (⟨S3200000, .i32⟩ : BufTy).Contents (Elt F)) (x19 x20 x21 x22 x23 x24 x25 x26 x27 : (⟨S100000, .i32⟩ : BufTy).Contents (Elt F)) : (⟨S300000x1, .f32⟩ : BufTy).Contents (Elt F) :=
  Host.exp (val_main_v105 (F := F) x0 x1 x2 x3 x4 x5 x6 x7 x8 x9 x10 x11 x12 x13 x14 x15 x16 x17 x18 x19 x20 x21 x22 x23 x24 x25 x26 x27)

theorem val_main_v106_apply (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x8 x9 x10 : (⟨S64x32, .f32⟩ : BufTy).Contents (Elt F)) (x11 x12 x13 : (⟨S128x16, .f32⟩ : BufTy).Contents (Elt F)) (x14 x15 x16 : (⟨S16x1, .f32⟩ : BufTy).Contents (Elt F)) (x17 x18 : (⟨S3200000, .i32⟩ : BufTy).Contents (Elt F)) (x19 x20 x21 x22 x23 x24 x25 x26 x27 : (⟨S100000, .i32⟩ : BufTy).Contents (Elt F)) (i : S300000x1.Idx) :
    val_main_v106 (F := F) x0 x1 x2 x3 x4 x5 x6 x7 x8 x9 x10 x11 x12 x13 x14 x15 x16 x17 x18 x19 x20 x21 x22 x23 x24 x25 x26 x27 i = FloatOps.hostUnary .exp (val_main_v105 (F := F) x0 x1 x2 x3 x4 x5 x6 x7 x8 x9 x10 x11 x12 x13 x14 x15 x16 x17 x18 x19 x20 x21 x22 x23 x24 x25 x26 x27 i) := rfl

def val_main_cst_20 : (⟨S_, .f32⟩ : BufTy).Contents (Elt F) :=
  constant S_ .f32 0x3F800000#32

theorem val_main_cst_20_apply (i : S_.Idx) :
    val_main_cst_20 (F := F) i = FloatOps.ofBits .f32 0x3F800000#32 := rfl

def val_main_v107 : (⟨S300000x1, .f32⟩ : BufTy).Contents (Elt F) :=
  broadcastInDim S300000x1 ![] bcast_S_S300000x1 (val_main_cst_20 (F := F))

abbrev idx_main_v107 (i : S300000x1.Idx) : S_.Idx := fun a => a.elim0

theorem val_main_v107_apply (i : S300000x1.Idx) :
    val_main_v107 (F := F) i = val_main_cst_20 (F := F) (idx_main_v107 i) := by
  unfold val_main_v107
  generalize val_main_cst_20 (F := F) = y
  exact broadcastInDim_apply _ bcast_S_S300000x1 y i (idx_main_v107 i) (fun a => a.elim0)

def val_main_v108 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x8 x9 x10 : (⟨S64x32, .f32⟩ : BufTy).Contents (Elt F)) (x11 x12 x13 : (⟨S128x16, .f32⟩ : BufTy).Contents (Elt F)) (x14 x15 x16 : (⟨S16x1, .f32⟩ : BufTy).Contents (Elt F)) (x17 x18 : (⟨S3200000, .i32⟩ : BufTy).Contents (Elt F)) (x19 x20 x21 x22 x23 x24 x25 x26 x27 : (⟨S100000, .i32⟩ : BufTy).Contents (Elt F)) : (⟨S300000x1, .f32⟩ : BufTy).Contents (Elt F) :=
  addf (val_main_v107 (F := F)) (val_main_v106 (F := F) x0 x1 x2 x3 x4 x5 x6 x7 x8 x9 x10 x11 x12 x13 x14 x15 x16 x17 x18 x19 x20 x21 x22 x23 x24 x25 x26 x27)

theorem val_main_v108_apply (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x8 x9 x10 : (⟨S64x32, .f32⟩ : BufTy).Contents (Elt F)) (x11 x12 x13 : (⟨S128x16, .f32⟩ : BufTy).Contents (Elt F)) (x14 x15 x16 : (⟨S16x1, .f32⟩ : BufTy).Contents (Elt F)) (x17 x18 : (⟨S3200000, .i32⟩ : BufTy).Contents (Elt F)) (x19 x20 x21 x22 x23 x24 x25 x26 x27 : (⟨S100000, .i32⟩ : BufTy).Contents (Elt F)) (i : S300000x1.Idx) :
    val_main_v108 (F := F) x0 x1 x2 x3 x4 x5 x6 x7 x8 x9 x10 x11 x12 x13 x14 x15 x16 x17 x18 x19 x20 x21 x22 x23 x24 x25 x26 x27 i = FloatOps.addf (val_main_v107 (F := F) i) (val_main_v106 (F := F) x0 x1 x2 x3 x4 x5 x6 x7 x8 x9 x10 x11 x12 x13 x14 x15 x16 x17 x18 x19 x20 x21 x22 x23 x24 x25 x26 x27 i) := rfl

def val_main_cst_21 : (⟨S_, .f32⟩ : BufTy).Contents (Elt F) :=
  constant S_ .f32 0x3F800000#32

theorem val_main_cst_21_apply (i : S_.Idx) :
    val_main_cst_21 (F := F) i = FloatOps.ofBits .f32 0x3F800000#32 := rfl

def val_main_v109 : (⟨S300000x1, .f32⟩ : BufTy).Contents (Elt F) :=
  broadcastInDim S300000x1 ![] bcast_S_S300000x1 (val_main_cst_21 (F := F))

abbrev idx_main_v109 (i : S300000x1.Idx) : S_.Idx := fun a => a.elim0

theorem val_main_v109_apply (i : S300000x1.Idx) :
    val_main_v109 (F := F) i = val_main_cst_21 (F := F) (idx_main_v109 i) := by
  unfold val_main_v109
  generalize val_main_cst_21 (F := F) = y
  exact broadcastInDim_apply _ bcast_S_S300000x1 y i (idx_main_v109 i) (fun a => a.elim0)

def val_main_v110 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x8 x9 x10 : (⟨S64x32, .f32⟩ : BufTy).Contents (Elt F)) (x11 x12 x13 : (⟨S128x16, .f32⟩ : BufTy).Contents (Elt F)) (x14 x15 x16 : (⟨S16x1, .f32⟩ : BufTy).Contents (Elt F)) (x17 x18 : (⟨S3200000, .i32⟩ : BufTy).Contents (Elt F)) (x19 x20 x21 x22 x23 x24 x25 x26 x27 : (⟨S100000, .i32⟩ : BufTy).Contents (Elt F)) : (⟨S300000x1, .f32⟩ : BufTy).Contents (Elt F) :=
  Host.divf (val_main_v109 (F := F)) (val_main_v108 (F := F) x0 x1 x2 x3 x4 x5 x6 x7 x8 x9 x10 x11 x12 x13 x14 x15 x16 x17 x18 x19 x20 x21 x22 x23 x24 x25 x26 x27)

theorem val_main_v110_apply (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x8 x9 x10 : (⟨S64x32, .f32⟩ : BufTy).Contents (Elt F)) (x11 x12 x13 : (⟨S128x16, .f32⟩ : BufTy).Contents (Elt F)) (x14 x15 x16 : (⟨S16x1, .f32⟩ : BufTy).Contents (Elt F)) (x17 x18 : (⟨S3200000, .i32⟩ : BufTy).Contents (Elt F)) (x19 x20 x21 x22 x23 x24 x25 x26 x27 : (⟨S100000, .i32⟩ : BufTy).Contents (Elt F)) (i : S300000x1.Idx) :
    val_main_v110 (F := F) x0 x1 x2 x3 x4 x5 x6 x7 x8 x9 x10 x11 x12 x13 x14 x15 x16 x17 x18 x19 x20 x21 x22 x23 x24 x25 x26 x27 i = FloatOps.hostDivf (val_main_v109 (F := F) i) (val_main_v108 (F := F) x0 x1 x2 x3 x4 x5 x6 x7 x8 x9 x10 x11 x12 x13 x14 x15 x16 x17 x18 x19 x20 x21 x22 x23 x24 x25 x26 x27 i) := rfl

def val_main_v111 (x0 : (⟨S50000x128, .f32⟩ : BufTy).Contents (Elt F)) (x1 : (⟨S30000x128, .f32⟩ : BufTy).Contents (Elt F)) (x2 : (⟨S20000x128, .f32⟩ : BufTy).Contents (Elt F)) (x3 x4 x5 : (⟨S128x64, .f32⟩ : BufTy).Contents (Elt F)) (x6 : (⟨S64x64, .f32⟩ : BufTy).Contents (Elt F)) (x7 : (⟨S64, .f32⟩ : BufTy).Contents (Elt F)) (x8 x9 x10 : (⟨S64x32, .f32⟩ : BufTy).Contents (Elt F)) (x11 x12 x13 : (⟨S128x16, .f32⟩ : BufTy).Contents (Elt F)) (x14 x15 x16 : (⟨S16x1, .f32⟩ : BufTy).Contents (Elt F)) (x17 x18 : (⟨S3200000, .i32⟩ : BufTy).Contents (Elt F)) (x19 x20 x21 x22 x23 x24 x25 x26 x27 : (⟨S100000, .i32⟩ : BufTy).Contents (Elt F)) : (⟨S300000, .f32⟩ : BufTy).Contents (Elt F) :=
  shapeCast _ (val_main_v110 (F := F) x0 x1 x2 x3 x4 x5 x6 x7 x8 x9 x10 x11 x12 x13 x14 x15 x16 x17 x18 x19 x20 x21 x22 x23 x24 x25 x26 x27) shapeCasts_S300000x1_S300000

end Cert.ReferenceIdeal.Read

end
-- ==== Proof.Val.Proj.lean ====
import proofs.«418426_j87943750353447_3_alg».proof.Proof.KernelIdeal.Reg0
import proofs.«418426_j87943750353447_3_alg».proof.Proof.KernelIdeal.Reg1
import proofs.«418426_j87943750353447_3_alg».proof.Proof.KernelIdeal.Reg2
import proofs.«418426_j87943750353447_3_alg».proof.Proof.RefStages
import Idealize.ShloMosaic.Lib.Pipeline.Value
import Idealize.ShloMosaic.Lib.ValueIdx
import Idealize.ShloMosaic.PureOps.Ideal.Laws

noncomputable section

namespace Cert.KernelIdeal.Hand.Proj

open Cert.KernelIdeal Cert.KernelIdeal.Gen Idealize.ShloMosaic Idealize.ShloMosaic.TcCoe Idealize.SL.Sem
open Idealize.ShloMosaic.Pipeline (Dat)

theorem zero_offsets : (![0, 0] : Fin 2 → Nat) = fun _ => 0 := funext fun a => by fin_cases a <;> rfl

theorem tile_lhs_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem tile_lhs_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem tile_rhs_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem tile_rhs_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

abbrev tileRow (i : S10000x64.Idx) (k : Fin 128) : S10000x128.Idx := fun a => match a with
  | ⟨0, _⟩ => ⟨(i 0).val, (i 0).isLt⟩
  | ⟨1, _⟩ => ⟨k.val, k.isLt⟩

abbrev matCol (i : S10000x64.Idx) (k : Fin 128) : S128x64.Idx := fun a => match a with
  | ⟨0, _⟩ => ⟨k.val, k.isLt⟩
  | ⟨1, _⟩ => ⟨(i 1).val, (i 1).isLt⟩

theorem tile_matmul_apply (x0 : FVec Ideal S10000x128 .bf16) (x1 : FVec Ideal S128x64 .bf16) (j : S10000x64.Idx) :
    matmul dot_S10000x128_S128x64_S10000x64_1_0_0_1_n_n none x0 x1 (constant (F := Ideal) S10000x64 .f32 0x00000000#32) j
      = ∑ k : Fin 128, x0 (tileRow j k) * x1 (matCol j k) := by
  refine (Ideal.matmul_constant_zero_apply dot_S10000x128_S128x64_S10000x64_1_0_0_1_n_n none x0 x1 j).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = tileRow j k := funext fun a => Fin.ext (by
    match a with
    | ⟨0, _⟩ => exact tile_lhs_0 _ _
    | ⟨1, _⟩ => exact (tile_lhs_1 _ _).trans hk)
  have er : dot_S10000x128_S128x64_S10000x64_1_0_0_1_n_n.rhsIdx j ((ValueIdx.contrEquiv1 dot_S10000x128_S128x64_S10000x64_1_0_0_1_n_n 128 rfl rfl).symm k) = matCol j k := funext fun a => Fin.ext (by
    match a with
    | ⟨0, _⟩ => exact (tile_rhs_0 _ _).trans hk
    | ⟨1, _⟩ => exact tile_rhs_1 _ _)
  rw [el, er]

theorem k0_pay1_apply (x0 : Vec Ideal S10000x128 .f32) (x1 : Vec Ideal S128x64 .f32) (j : S10000x64.Idx) :
    k0_pay1 (F := Ideal) x0 x1 j = ∑ k : Fin 128, x0 (tileRow j k) * x1 (matCol j k) := by
  unfold k0_pay1
  exact tile_matmul_apply _ _ j

abbrev arrRow0 (i : S50000x64.Idx) (k : Fin 128) : S50000x128.Idx := fun a => match a with
  | ⟨0, _⟩ => ⟨(i 0).val, (i 0).isLt⟩
  | ⟨1, _⟩ => ⟨k.val, k.isLt⟩
abbrev arrCol0 (i : S50000x64.Idx) (k : Fin 128) : S128x64.Idx := fun a => match a with
  | ⟨0, _⟩ => ⟨k.val, k.isLt⟩
  | ⟨1, _⟩ => ⟨(i 1).val, (i 1).isLt⟩

def rows0 (X : Vec Ideal S50000x128 .f32) (W : Vec Ideal S128x64 .f32) : Vec Ideal S50000x64 .bf16 :=
  fun i => ∑ k : Fin 128, X (arrRow0 i k) * W (arrCol0 i k)

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushed0_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (rows0 (V c main_arg0) (V c main_arg3)) := by
  show (cfg0.win 2).cut (grid0.coords t) ((dat0 (F := Ideal) V c).after 2 t) = _
  rw [after0_2]
  unfold out0_2
  rw [View.canon_unit_zero zero_offsets]
  simp only [View.ld_unit_zero (S := S10000x128) zero_offsets, View.ld_unit_zero (S := S128x64) zero_offsets]
  obtain ⟨e0, e1, e2, e3, e4, e5⟩ := idx_facts0 t
  funext j
  show k0_pay1 (F := Ideal) (iblk0 V c 0 t) (iblk0 V c 1 t) j = rows0 (V c main_arg0) (V c main_arg3) (((cfg0.win 2).blk t).view.emb j)
  refine (k0_pay1_apply (iblk0 V c 0 t) (iblk0 V c 1 t) j).trans ?_
  unfold rows0
  refine Finset.sum_congr rfl fun k _ => ?_
  refine congrArg₂ (· * ·) ?_ ?_
  · show V c main_arg0 (((cfg0.win 0).blk t).view.emb (tileRow j k)) = V c main_arg0 (arrRow0 (((cfg0.win 2).blk t).view.emb j) k)
    congr 1; funext a; apply Fin.ext
    match a with
    | ⟨0, _⟩ => show win0_0.index t (0 : Fin 2) * 10000 + 1 * (j 0).val = win0_2.index t (0 : Fin 2) * 10000 + 1 * (j 0).val; rw [e0, e4]
    | ⟨1, _⟩ => show win0_0.index t (1 : Fin 2) * 128 + 1 * k.val = k.val; rw [e1]; omega
  · show V c main_arg3 (((cfg0.win 1).blk t).view.emb (matCol j k)) = V c main_arg3 (arrCol0 (((cfg0.win 2).blk t).view.emb j) k)
    congr 1; funext a; apply Fin.ext
    match a with
    | ⟨0, _⟩ => show win0_1.index t (0 : Fin 2) * 128 + 1 * k.val = k.val; rw [e2]; omega
    | ⟨1, _⟩ => show win0_1.index t (1 : Fin 2) * 64 + 1 * (j 1).val = win0_2.index t (1 : Fin 2) * 64 + 1 * (j 1).val; rw [e3, e5]

theorem mem_blk0 (t : Fin cfg0.N) (i : S50000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ : ∃ t : Fin cfg0.N, t.val = (i 0).val / 10000 := ⟨⟨(i 0).val / 10000, by rw [show cfg0.N = 5 from N_0]; omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; rw [e4, ht]; omega
  | ⟨1, _⟩ => show win0_2.index t (1 : Fin 2) * 64 ≤ (i 1).val ∧ (i 1).val < win0_2.index t (1 : Fin 2) * 64 + 64; rw [e5]; omega

theorem rows0_final (V : (c : Dev nD) → (b : Ref sig .tc) → Buf (Elt Ideal) ((c : Thread nD τ).loc b)) (c : Dev nD) :
    (dat0 (F := Ideal) V c).arrAt 2 cfg0.N = rows0 (V c main_arg0) (V c main_arg3) :=
  (dat0 (F := Ideal) V c).arrAt_eq_of_cover 2 (rows0 (V c main_arg0) (V c main_arg3)) (fun t _ => flushed0_eq V c t) cover0

theorem k1_pay1_apply (x0 : Vec Ideal S10000x128 .f32) (x1 : Vec Ideal S128x64 .f32) (j : S10000x64.Idx) :
    k1_pay1 (F := Ideal) x0 x1 j = ∑ k : Fin 128, x0 (tileRow j k) * x1 (matCol j k) := by
  unfold k1_pay1
  exact tile_matmul_apply _ _ j

abbrev arrRow1 (i : S30000x64.Idx) (k : Fin 128) : S30000x128.Idx := fun a => match a with
  | ⟨0, _⟩ => ⟨(i 0).val, (i 0).isLt⟩
  | ⟨1, _⟩ => ⟨k.val, k.isLt⟩
abbrev arrCol1 (i : S30000x64.Idx) (k : Fin 128) : S128x64.Idx := fun a => match a with
  | ⟨0, _⟩ => ⟨k.val, k.isLt⟩
  | ⟨1, _⟩ => ⟨(i 1).val, (i 1).isLt⟩

def rows1 (X : Vec Ideal S30000x128 .f32) (W : Vec Ideal S128x64 .f32) : Vec Ideal S30000x64 .bf16 :=
  fun i => ∑ k : Fin 128, X (arrRow1 i k) * W (arrCol1 i k)

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem flushed1_eq (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal) (rows1 (V c main_arg1) (V c main_arg4)) := by
  show (cfg1.win 2).cut (grid1.coords t) ((dat1 (F := Ideal) V c).after 2 t) = _
  rw [after1_2]
  unfold out1_2
  rw [View.canon_unit_zero zero_offsets]
  simp only [View.ld_unit_zero (S := S10000x128) zero_offsets, View.ld_unit_zero (S := S128x64) zero_offsets]
  obtain ⟨e0, e1, e2, e3, e4, e5⟩ := idx_facts1 t
  funext j
  show k1_pay1 (F := Ideal) (iblk1 V c 0 t) (iblk1 V c 1 t) j = rows1 (V c main_arg1) (V c main_arg4) (((cfg1.win 2).blk t).view.emb j)
  refine (k1_pay1_apply (iblk1 V c 0 t) (iblk1 V c 1 t) j).trans ?_
  unfold rows1
  refine Finset.sum_congr rfl fun k _ => ?_
  refine congrArg₂ (· * ·) ?_ ?_
  · show V c main_arg1 (((cfg1.win 0).blk t).view.emb (tileRow j k)) = V c main_arg1 (arrRow1 (((cfg1.win 2).blk t).view.emb j) k)
    congr 1; funext a; apply Fin.ext
    match a with
    | ⟨0, _⟩ => show win1_0.index t (0 : Fin 2) * 10000 + 1 * (j 0).val = win1_2.index t (0 : Fin 2) * 10000 + 1 * (j 0).val; rw [e0, e4]
    | ⟨1, _⟩ => show win1_0.index t (1 : Fin 2) * 128 + 1 * k.val = k.val; rw [e1]; omega
  · show V c main_arg4 (((cfg1.win 1).blk t).view.emb (matCol j k)) = V c main_arg4 (arrCol1 (((cfg1.win 2).blk t).view.emb j) k)
    congr 1; funext a; apply Fin.ext
    match a with
    | ⟨0, _⟩ => show win1_1.index t (0 : Fin 2) * 128 + 1 * k.val = k.val; rw [e2]; omega
    | ⟨1, _⟩ => show win1_1.index t (1 : Fin 2) * 64 + 1 * (j 1).val = win1_2.index t (1 : Fin 2) * 64 + 1 * (j 1).val; rw [e3, e5]

theorem mem_blk1 (t : Fin cfg1.N) (i : S30000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v1).slice (win1_2.rect t)).set ↔ _
  rw [View.set_slice_whole, Rect.mem_set_unit]
  exact Iff.rfl

theorem cover1 (i : S30000x64.Idx) : ∃ t : Fin cfg1.N, (cfg1.win 2).flush t = true ∧ i ∈ ((cfg1.win 2).blk t).view.set := by
  have hi0 : (i 0).val < 30000 := (i 0).isLt
  have hi1 : (i 1).val < 64 := (i 1).isLt
  obtain ⟨t, ht⟩ : ∃ t : Fin cfg1.N, t.val = (i 0).val / 10000 := ⟨⟨(i 0).val / 10000, by rw [show cfg1.N = 3 from N_1]; omega⟩, rfl⟩
  obtain ⟨-, -, -, -, e4, e5⟩ := idx_facts1 t
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; rw [e4, ht]; omega
  | ⟨1, _⟩ => show win1_2.index t (1 : Fin 2) * 64 ≤ (i 1).val ∧ (i 1).val < win1_2.index t (1 : Fin 2) * 64 + 64; rw [e5]; omega

theorem rows1_final (V : (c : Dev nD) → (b : Ref sig .tc) → Buf (Elt Ideal) ((c : Thread nD τ).loc b)) (c : Dev nD) :
    (dat1 (F := Ideal) V c).arrAt 2 cfg1.N = rows1 (V c main_arg1) (V c main_arg4) :=
  (dat1 (F := Ideal) V c).arrAt_eq_of_cover 2 (rows1 (V c main_arg1) (V c main_arg4)) (fun t _ => flushed1_eq V c t) cover1

theorem k2_pay1_apply (x0 : Vec Ideal S10000x128 .f32) (x1 : Vec Ideal S128x64 .f32) (j : S10000x64.Idx) :
    k2_pay1 (F := Ideal) x0 x1 j = ∑ k : Fin 128, x0 (tileRow j k) * x1 (matCol j k) := by
  unfold k2_pay1
  exact tile_matmul_apply _ _ j

abbrev arrRow2 (i : S20000x64.Idx) (k : Fin 128) : S20000x128.Idx := fun a => match a with
  | ⟨0, _⟩ => ⟨(i 0).val, (i 0).isLt⟩
  | ⟨1, _⟩ => ⟨k.val, k.isLt⟩
abbrev arrCol2 (i : S20000x64.Idx) (k : Fin 128) : S128x64.Idx := fun a => match a with
  | ⟨0, _⟩ => ⟨k.val, k.isLt⟩
  | ⟨1, _⟩ => ⟨(i 1).val, (i 1).isLt⟩

def rows2 (X : Vec Ideal S20000x128 .f32) (W : Vec Ideal S128x64 .f32) : Vec Ideal S20000x64 .bf16 :=
  fun i => ∑ k : Fin 128, X (arrRow2 i k) * W (arrCol2 i k)

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem flushed2_eq (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal) (rows2 (V c main_arg2) (V c main_arg5)) := by
  show (cfg2.win 2).cut (grid2.coords t) ((dat2 (F := Ideal) V c).after 2 t) = _
  rw [after2_2]
  unfold out2_2
  rw [View.canon_unit_zero zero_offsets]
  simp only [View.ld_unit_zero (S := S10000x128) zero_offsets, View.ld_unit_zero (S := S128x64) zero_offsets]
  obtain ⟨e0, e1, e2, e3, e4, e5⟩ := idx_facts2 t
  funext j
  show k2_pay1 (F := Ideal) (iblk2 V c 0 t) (iblk2 V c 1 t) j = rows2 (V c main_arg2) (V c main_arg5) (((cfg2.win 2).blk t).view.emb j)
  refine (k2_pay1_apply (iblk2 V c 0 t) (iblk2 V c 1 t) j).trans ?_
  unfold rows2
  refine Finset.sum_congr rfl fun k _ => ?_
  refine congrArg₂ (· * ·) ?_ ?_
  · show V c main_arg2 (((cfg2.win 0).blk t).view.emb (tileRow j k)) = V c main_arg2 (arrRow2 (((cfg2.win 2).blk t).view.emb j) k)
    congr 1; funext a; apply Fin.ext
    match a with
    | ⟨0, _⟩ => show win2_0.index t (0 : Fin 2) * 10000 + 1 * (j 0).val = win2_2.index t (0 : Fin 2) * 10000 + 1 * (j 0).val; rw [e0, e4]
    | ⟨1, _⟩ => show win2_0.index t (1 : Fin 2) * 128 + 1 * k.val = k.val; rw [e1]; omega
  · show V c main_arg5 (((cfg2.win 1).blk t).view.emb (matCol j k)) = V c main_arg5 (arrCol2 (((cfg2.win 2).blk t).view.emb j) k)
    congr 1; funext a; apply Fin.ext
    match a with
    | ⟨0, _⟩ => show win2_1.index t (0 : Fin 2) * 128 + 1 * k.val = k.val; rw [e2]; omega
    | ⟨1, _⟩ => show win2_1.index t (1 : Fin 2) * 64 + 1 * (j 1).val = win2_2.index t (1 : Fin 2) * 64 + 1 * (j 1).val; rw [e3, e5]

theorem mem_blk2 (t : Fin cfg2.N) (i : S20000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v2).slice (win2_2.rect t)).set ↔ _
  rw [View.set_slice_whole, Rect.mem_set_unit]
  exact Iff.rfl

theorem cover2 (i : S20000x64.Idx) : ∃ t : Fin cfg2.N, (cfg2.win 2).flush t = true ∧ i ∈ ((cfg2.win 2).blk t).view.set := by
  have hi0 : (i 0).val < 20000 := (i 0).isLt
  have hi1 : (i 1).val < 64 := (i 1).isLt
  obtain ⟨t, ht⟩ : ∃ t : Fin cfg2.N, t.val = (i 0).val / 10000 := ⟨⟨(i 0).val / 10000, by rw [show cfg2.N = 2 from N_2]; omega⟩, rfl⟩
  obtain ⟨-, -, -, -, e4, e5⟩ := idx_facts2 t
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; rw [e4, ht]; omega
  | ⟨1, _⟩ => show win2_2.index t (1 : Fin 2) * 64 ≤ (i 1).val ∧ (i 1).val < win2_2.index t (1 : Fin 2) * 64 + 64; rw [e5]; omega

theorem rows2_final (V : (c : Dev nD) → (b : Ref sig .tc) → Buf (Elt Ideal) ((c : Thread nD τ).loc b)) (c : Dev nD) :
    (dat2 (F := Ideal) V c).arrAt 2 cfg2.N = rows2 (V c main_arg2) (V c main_arg5) :=
  (dat2 (F := Ideal) V c).arrAt_eq_of_cover 2 (rows2 (V c main_arg2) (V c main_arg5)) (fun t _ => flushed2_eq V c t) cover2

end Cert.KernelIdeal.Hand.Proj

namespace Cert.KernelIdeal.Hand

open Cert.KernelIdeal Cert.KernelIdeal.Gen Idealize.ShloMosaic Idealize.ShloMosaic.TcCoe Idealize.SL.Sem
open Idealize.ShloMosaic.Pipeline (Dat)
open Cert.KernelIdeal.Hand.Proj

theorem proj0_value (V : (c : Dev nD) → (b : Ref sig .tc) → Buf (Elt Ideal) ((c : Thread nD τ).loc b)) (c : Dev nD) :
    (dat0 (F := Ideal) V c).arrAt 2 cfg0.N = Cert.ReferenceIdeal.Read.val_main_v0 (F := Ideal) (V c main_arg0) (V c main_arg3) := by
  refine (rows0_final V c).trans ?_
  funext i
  refine Eq.trans ?_ (Cert.ReferenceIdeal.Read.val_main_v0_apply (V c main_arg0) (V c main_arg3) i).symm
  unfold rows0
  refine Finset.sum_congr rfl fun k _ => ?_
  have el : arrRow0 i k = Cert.ReferenceIdeal.Read.lidx_main_v0 i k := funext fun a => Fin.ext (by
    match a with
    | ⟨0, _⟩ => rfl
    | ⟨1, _⟩ => rfl)
  have er : arrCol0 i k = Cert.ReferenceIdeal.Read.ridx_main_v0 i k := funext fun a => Fin.ext (by
    match a with
    | ⟨0, _⟩ => rfl
    | ⟨1, _⟩ => rfl)
  rw [el, er]

theorem proj1_value (V : (c : Dev nD) → (b : Ref sig .tc) → Buf (Elt Ideal) ((c : Thread nD τ).loc b)) (c : Dev nD) :
    (dat1 (F := Ideal) V c).arrAt 2 cfg1.N = Cert.ReferenceIdeal.Read.val_main_v1 (F := Ideal) (V c main_arg1) (V c main_arg4) := by
  refine (rows1_final V c).trans ?_
  funext i
  refine Eq.trans ?_ (Cert.ReferenceIdeal.Read.val_main_v1_apply (V c main_arg1) (V c main_arg4) i).symm
  unfold rows1
  refine Finset.sum_congr rfl fun k _ => ?_
  have el : arrRow1 i k = Cert.ReferenceIdeal.Read.lidx_main_v1 i k := funext fun a => Fin.ext (by
    match a with
    | ⟨0, _⟩ => rfl
    | ⟨1, _⟩ => rfl)
  have er : arrCol1 i k = Cert.ReferenceIdeal.Read.ridx_main_v1 i k := funext fun a => Fin.ext (by
    match a with
    | ⟨0, _⟩ => rfl
    | ⟨1, _⟩ => rfl)
  rw [el, er]

theorem proj2_value (V : (c : Dev nD) → (b : Ref sig .tc) → Buf (Elt Ideal) ((c : Thread nD τ).loc b)) (c : Dev nD) :
    (dat2 (F := Ideal) V c).arrAt 2 cfg2.N = Cert.ReferenceIdeal.Read.val_main_v2 (F := Ideal) (V c main_arg2) (V c main_arg5) := by
  refine (rows2_final V c).trans ?_
  funext i
  refine Eq.trans ?_ (Cert.ReferenceIdeal.Read.val_main_v2_apply (V c main_arg2) (V c main_arg5) i).symm
  unfold rows2
  refine Finset.sum_congr rfl fun k _ => ?_
  have el : arrRow2 i k = Cert.ReferenceIdeal.Read.lidx_main_v2 i k := funext fun a => Fin.ext (by
    match a with
    | ⟨0, _⟩ => rfl
    | ⟨1, _⟩ => rfl)
  have er : arrCol2 i k = Cert.ReferenceIdeal.Read.ridx_main_v2 i k := funext fun a => Fin.ext (by
    match a with
    | ⟨0, _⟩ => rfl
    | ⟨1, _⟩ => rfl)
  rw [el, er]

end Cert.KernelIdeal.Hand

end
-- ==== Proof.Val.TakeDefs.lean ====
import proofs.«418426_j87943750353447_3_alg».proof.Proof.Gen.KernelIdeal
import Idealize.ShloMosaic.PureOps.Ideal.Laws

noncomputable section

namespace Cert.KernelIdeal.Hand

open Cert.KernelIdeal Cert.KernelIdeal.Gen Idealize.ShloMosaic Idealize.ShloMosaic.TcCoe Idealize.SL.Sem

def wrapCol_50000 (idx : (⟨S100000, .i32⟩ : BufTy).Contents (Elt Ideal)) : (⟨S100000x1, .i32⟩ : BufTy).Contents (Elt Ideal) :=
  broadcastInDim S100000x1 ![0] bcast_S100000_S100000x1_0
    (select (cmpi .slt idx (broadcastInDim S100000 ![] bcast_S_S100000 (constantI S_ 32 0#32)))
      (addi idx (broadcastInDim S100000 ![] bcast_S_S100000 (constantI S_ 32 50000#32))) idx)

def wrapCol_30000 (idx : (⟨S100000, .i32⟩ : BufTy).Contents (Elt Ideal)) : (⟨S100000x1, .i32⟩ : BufTy).Contents (Elt Ideal) :=
  broadcastInDim S100000x1 ![0] bcast_S100000_S100000x1_0
    (select (cmpi .slt idx (broadcastInDim S100000 ![] bcast_S_S100000 (constantI S_ 32 0#32)))
      (addi idx (broadcastInDim S100000 ![] bcast_S_S100000 (constantI S_ 32 30000#32))) idx)

def wrapCol_20000 (idx : (⟨S100000, .i32⟩ : BufTy).Contents (Elt Ideal)) : (⟨S100000x1, .i32⟩ : BufTy).Contents (Elt Ideal) :=
  broadcastInDim S100000x1 ![0] bcast_S100000_S100000x1_0
    (select (cmpi .slt idx (broadcastInDim S100000 ![] bcast_S_S100000 (constantI S_ 32 0#32)))
      (addi idx (broadcastInDim S100000 ![] bcast_S_S100000 (constantI S_ 32 20000#32))) idx)

def takeTerm_50000x64 (x : (⟨S50000x64, .f32⟩ : BufTy).Contents (Elt Ideal)) (idx : (⟨S100000, .i32⟩ : BufTy).Contents (Elt Ideal)) :
    (⟨S100000x64, .f32⟩ : BufTy).Contents (Elt Ideal) :=
  select
    (broadcastInDim S100000x64 ![0] bcast_S100000_S100000x64_0
      (Host.reduce IntOp.andi
        (andi
          (cmpi .sge (wrapCol_50000 idx) (broadcastInDim S100000x1 ![] bcast_S_S100000x1 (constantI S_ 32 0#32)))
          (cmpi .sle (wrapCol_50000 idx)
            (broadcastInDim S100000x1 ![0, 1] bcast_S1x1_S100000x1_0_1 (broadcastInDim S1x1 ![1] bcast_S1_S1x1_1 (constantI S1 32 49999#32)))))
        (constantI S_ 1 1#1) reducesTo_S100000x1_S100000_d1 h_S_))
    (Host.gather gather_S50000x64_S100000x1_S100000x64_1_0_n_n_0_1_164 x (wrapCol_50000 idx))
    (broadcastInDim S100000x64 ![] bcast_S_S100000x64 (constant (F := Ideal) S_ .f32 0x7FC00000#32))

def takeTerm_30000x32 (x : (⟨S30000x32, .f32⟩ : BufTy).Contents (Elt Ideal)) (idx : (⟨S100000, .i32⟩ : BufTy).Contents (Elt Ideal)) :
    (⟨S100000x32, .f32⟩ : BufTy).Contents (Elt Ideal) :=
  select
    (broadcastInDim S100000x32 ![0] bcast_S100000_S100000x32_0
      (Host.reduce IntOp.andi
        (andi
          (cmpi .sge (wrapCol_30000 idx) (broadcastInDim S100000x1 ![] bcast_S_S100000x1 (constantI S_ 32 0#32)))
          (cmpi .sle (wrapCol_30000 idx)
            (broadcastInDim S100000x1 ![0, 1] bcast_S1x1_S100000x1_0_1 (broadcastInDim S1x1 ![1] bcast_S1_S1x1_1 (constantI S1 32 29999#32)))))
        (constantI S_ 1 1#1) reducesTo_S100000x1_S100000_d1 h_S_))
    (Host.gather gather_S30000x32_S100000x1_S100000x32_1_0_n_n_0_1_132 x (wrapCol_30000 idx))
    (broadcastInDim S100000x32 ![] bcast_S_S100000x32 (constant (F := Ideal) S_ .f32 0x7FC00000#32))

def takeTerm_20000x32 (x : (⟨S20000x32, .f32⟩ : BufTy).Contents (Elt Ideal)) (idx : (⟨S100000, .i32⟩ : BufTy).Contents (Elt Ideal)) :
    (⟨S100000x32, .f32⟩ : BufTy).Contents (Elt Ideal) :=
  select
    (broadcastInDim S100000x32 ![0] bcast_S100000_S100000x32_0
      (Host.reduce IntOp.andi
        (andi
          (cmpi .sge (wrapCol_20000 idx) (broadcastInDim S100000x1 ![] bcast_S_S100000x1 (constantI S_ 32 0#32)))
          (cmpi .sle (wrapCol_20000 idx)
            (broadcastInDim S100000x1 ![0, 1] bcast_S1x1_S100000x1_0_1 (broadcastInDim S1x1 ![1] bcast_S1_S1x1_1 (constantI S1 32 19999#32)))))
        (constantI S_ 1 1#1) reducesTo_S100000x1_S100000_d1 h_S_))
    (Host.gather gather_S20000x32_S100000x1_S100000x32_1_0_n_n_0_1_132 x (wrapCol_20000 idx))
    (broadcastInDim S100000x32 ![] bcast_S_S100000x32 (constant (F := Ideal) S_ .f32 0x7FC00000#32))

def takeTerm_30000x64 (x : (⟨S30000x64, .f32⟩ : BufTy).Contents (Elt Ideal)) (idx : (⟨S100000, .i32⟩ : BufTy).Contents (Elt Ideal)) :
    (⟨S100000x64, .f32⟩ : BufTy).Contents (Elt Ideal) :=
  select
    (broadcastInDim S100000x64 ![0] bcast_S100000_S100000x64_0
      (Host.reduce IntOp.andi
        (andi
          (cmpi .sge (wrapCol_30000 idx) (broadcastInDim S100000x1 ![] bcast_S_S100000x1 (constantI S_ 32 0#32)))
          (cmpi .sle (wrapCol_30000 idx)
            (broadcastInDim S100000x1 ![0, 1] bcast_S1x1_S100000x1_0_1 (broadcastInDim S1x1 ![1] bcast_S1_S1x1_1 (constantI S1 32 29999#32)))))
        (constantI S_ 1 1#1) reducesTo_S100000x1_S100000_d1 h_S_))
    (Host.gather gather_S30000x64_S100000x1_S100000x64_1_0_n_n_0_1_164 x (wrapCol_30000 idx))
    (broadcastInDim S100000x64 ![] bcast_S_S100000x64 (constant (F := Ideal) S_ .f32 0x7FC00000#32))

def takeTerm_50000x32 (x : (⟨S50000x32, .f32⟩ : BufTy).Contents (Elt Ideal)) (idx : (⟨S100000, .i32⟩ : BufTy).Contents (Elt Ideal)) :
    (⟨S100000x32, .f32⟩ : BufTy).Contents (Elt Ideal) :=
  select
    (broadcastInDim S100000x32 ![0] bcast_S100000_S100000x32_0
      (Host.reduce IntOp.andi
        (andi
          (cmpi .sge (wrapCol_50000 idx) (broadcastInDim S100000x1 ![] bcast_S_S100000x1 (constantI S_ 32 0#32)))
          (cmpi .sle (wrapCol_50000 idx)
            (broadcastInDim S100000x1 ![0, 1] bcast_S1x1_S100000x1_0_1 (broadcastInDim S1x1 ![1] bcast_S1_S1x1_1 (constantI S1 32 49999#32)))))
        (constantI S_ 1 1#1) reducesTo_S100000x1_S100000_d1 h_S_))
    (Host.gather gather_S50000x32_S100000x1_S100000x32_1_0_n_n_0_1_132 x (wrapCol_50000 idx))
    (broadcastInDim S100000x32 ![] bcast_S_S100000x32 (constant (F := Ideal) S_ .f32 0x7FC00000#32))

def takeTerm_20000x64 (x : (⟨S20000x64, .f32⟩ : BufTy).Contents (Elt Ideal)) (idx : (⟨S100000, .i32⟩ : BufTy).Contents (Elt Ideal)) :
    (⟨S100000x64, .f32⟩ : BufTy).Contents (Elt Ideal) :=
  select
    (broadcastInDim S100000x64 ![0] bcast_S100000_S100000x64_0
      (Host.reduce IntOp.andi
        (andi
          (cmpi .sge (wrapCol_20000 idx) (broadcastInDim S100000x1 ![] bcast_S_S100000x1 (constantI S_ 32 0#32)))
          (cmpi .sle (wrapCol_20000 idx)
            (broadcastInDim S100000x1 ![0, 1] bcast_S1x1_S100000x1_0_1 (broadcastInDim S1x1 ![1] bcast_S1_S1x1_1 (constantI S1 32 19999#32)))))
        (constantI S_ 1 1#1) reducesTo_S100000x1_S100000_d1 h_S_))
    (Host.gather gather_S20000x64_S100000x1_S100000x64_1_0_n_n_0_1_164 x (wrapCol_20000 idx))
    (broadcastInDim S100000x64 ![] bcast_S_S100000x64 (constant (F := Ideal) S_ .f32 0x7FC00000#32))

end Cert.KernelIdeal.Hand

end
-- ==== Proof.Val.Host.lean ====
import proofs.«418426_j87943750353447_3_alg».proof.Proof.Gen.KernelIdeal.Launch
import proofs.«418426_j87943750353447_3_alg».proof.Proof.RefStages
import proofs.«418426_j87943750353447_3_alg».proof.Proof.Val.TakeDefs
import Idealize.ShloMosaic.PureOps.Ideal.Laws
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem Idealize.ShloMosaic.StableHlo

def aggTerm (p0 : (⟨S50000x64, .bf16⟩ : BufTy).Contents (Elt Ideal)) (p1 : (⟨S30000x64, .bf16⟩ : BufTy).Contents (Elt Ideal))
    (p2 : (⟨S20000x64, .bf16⟩ : BufTy).Contents (Elt Ideal)) (src dst : (⟨S3200000, .i32⟩ : BufTy).Contents (Elt Ideal)) :
    (⟨S100000x64, .f32⟩ : BufTy).Contents (Elt Ideal) :=
  Host.scatterAdd scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 dst)
    (extf .f32
      (Host.gather gather_S100000x64_S3200000x1_S3200000x64_1_0_n_n_0_1_164
        (concatenate S100000x64 0 [⟨S50000x64, p0⟩, ⟨S30000x64, p1⟩, ⟨S20000x64, p2⟩]
          concatenates_S50000x64_S30000x64_S20000x64_S100000x64_d0)
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src)))
      bitsLt_bf16_f32)

def biasRow (x7 : (⟨S64, .f32⟩ : BufTy).Contents (Elt Ideal)) : (⟨S1x64, .f32⟩ : BufTy).Contents (Elt Ideal) :=
  fun i => shapeCast S1x64 x7 shapeCasts_S64_S1x64 i

theorem host3_v15 (W : Valuation τ sig (Elt Ideal)) :
    StableHlo.after (hostOps3 (F := Ideal)) W main_v15
      = extractStridedSlice S50000x64 ![0, 0]
          (aggTerm (W main_v0) (W main_v1) (W main_v2) (W main_arg17) (W main_arg18)) slices_S100000x64_S50000x64_0_0 := by
  after_results_simp
  rfl

theorem host3_v16 (W : Valuation τ sig (Elt Ideal)) :
    StableHlo.after (hostOps3 (F := Ideal)) W main_v16
      = extractStridedSlice S30000x64 ![50000, 0]
          (aggTerm (W main_v0) (W main_v1) (W main_v2) (W main_arg17) (W main_arg18)) slices_S100000x64_S30000x64_50000_0 := by
  after_results_simp
  rfl

theorem host3_v17 (W : Valuation τ sig (Elt Ideal)) :
    StableHlo.after (hostOps3 (F := Ideal)) W main_v17
      = extractStridedSlice S20000x64 ![80000, 0]
          (aggTerm (W main_v0) (W main_v1) (W main_v2) (W main_arg17) (W main_arg18)) slices_S100000x64_S20000x64_80000_0 := by
  after_results_simp
  rfl

theorem host3_v18 (W : Valuation τ sig (Elt Ideal)) :
    StableHlo.after (hostOps3 (F := Ideal)) W main_v18 = biasRow (W main_arg7) := by
  after_results_simp
  rfl

theorem widen_id {s : Shape} (y : FVec Ideal s .bf16) (h : FTy.bits .bf16 < FTy.bits .f32) : extf .f32 y h = y := rfl

theorem aggTerm_eq (x0 : (⟨S50000x128, .f32⟩ : BufTy).Contents (Elt Ideal)) (x1 : (⟨S30000x128, .f32⟩ : BufTy).Contents (Elt Ideal))
    (x2 : (⟨S20000x128, .f32⟩ : BufTy).Contents (Elt Ideal)) (x3 x4 x5 : (⟨S128x64, .f32⟩ : BufTy).Contents (Elt Ideal))
    (x17 x18 : (⟨S3200000, .i32⟩ : BufTy).Contents (Elt Ideal)) :
    aggTerm (Cert.ReferenceIdeal.Read.val_main_v0 (F := Ideal) x0 x3) (Cert.ReferenceIdeal.Read.val_main_v1 (F := Ideal) x1 x4)
        (Cert.ReferenceIdeal.Read.val_main_v2 (F := Ideal) x2 x5) x17 x18
      = Cert.ReferenceIdeal.Read.val_main_v13 (F := Ideal) x0 x1 x2 x3 x4 x5 x17 x18 := by
  unfold aggTerm
  rw [widen_id]
  rfl

theorem host3 (W : Valuation τ sig (Elt Ideal))
    (x0 : (⟨S50000x128, .f32⟩ : BufTy).Contents (Elt Ideal)) (x1 : (⟨S30000x128, .f32⟩ : BufTy).Contents (Elt Ideal))
    (x2 : (⟨S20000x128, .f32⟩ : BufTy).Contents (Elt Ideal)) (x3 x4 x5 : (⟨S128x64, .f32⟩ : BufTy).Contents (Elt Ideal))
    (x7 : (⟨S64, .f32⟩ : BufTy).Contents (Elt Ideal)) (x17 x18 : (⟨S3200000, .i32⟩ : BufTy).Contents (Elt Ideal))
    (h0 : W main_v0 = Cert.ReferenceIdeal.Read.val_main_v0 (F := Ideal) x0 x3)
    (h1 : W main_v1 = Cert.ReferenceIdeal.Read.val_main_v1 (F := Ideal) x1 x4)
    (h2 : W main_v2 = Cert.ReferenceIdeal.Read.val_main_v2 (F := Ideal) x2 x5)
    (h17 : W main_arg17 = x17) (h18 : W main_arg18 = x18) (h7 : W main_arg7 = x7) :
    StableHlo.after (hostOps3 (F := Ideal)) W main_v15
        = extractStridedSlice S50000x64 ![0, 0] (Cert.ReferenceIdeal.Read.val_main_v13 (F := Ideal) x0 x1 x2 x3 x4 x5 x17 x18)
            slices_S100000x64_S50000x64_0_0
    ∧ StableHlo.after (hostOps3 (F := Ideal)) W main_v16
        = extractStridedSlice S30000x64 ![50000, 0] (Cert.ReferenceIdeal.Read.val_main_v13 (F := Ideal) x0 x1 x2 x3 x4 x5 x17 x18)
            slices_S100000x64_S30000x64_50000_0
    ∧ StableHlo.after (hostOps3 (F := Ideal)) W main_v17
        = extractStridedSlice S20000x64 ![80000, 0] (Cert.ReferenceIdeal.Read.val_main_v13 (F := Ideal) x0 x1 x2 x3 x4 x5 x17 x18)
            slices_S100000x64_S20000x64_80000_0
    ∧ StableHlo.after (hostOps3 (F := Ideal)) W main_v18 = biasRow x7 := by
  have e := aggTerm_eq x0 x1 x2 x3 x4 x5 x17 x18
  refine ⟨?_, ?_, ?_, ?_⟩
  · rw [host3_v15, h0, h1, h2, h17, h18, e]
  · rw [host3_v16, h0, h1, h2, h17, h18, e]
  · rw [host3_v17, h0, h1, h2, h17, h18, e]
  · rw [host3_v18, h7]

theorem host6 (W : Valuation τ sig (Elt Ideal)) :
    StableHlo.after (hostOps6 (F := Ideal)) W main_v22
      = concatenate S100000x64 0 [⟨S50000x64, W main_v19_0⟩, ⟨S30000x64, W main_v20_0⟩, ⟨S20000x64, W main_v21_0⟩]
          concatenates_S50000x64_S30000x64_S20000x64_S100000x64_d0 := by
  after_results
  rfl

theorem concat_slices (a : (⟨S100000x64, .f32⟩ : BufTy).Contents (Elt Ideal)) :
    concatenate S100000x64 0
        [⟨S50000x64, extractStridedSlice S50000x64 ![0, 0] a slices_S100000x64_S50000x64_0_0⟩,
         ⟨S30000x64, extractStridedSlice S30000x64 ![50000, 0] a slices_S100000x64_S30000x64_50000_0⟩,
         ⟨S20000x64, extractStridedSlice S20000x64 ![80000, 0] a slices_S100000x64_S20000x64_80000_0⟩]
        concatenates_S50000x64_S30000x64_S20000x64_S100000x64_d0 = a := by
  funext j
  have hj0 : (j 0).val < 100000 := ValueIdx.idx2_lt0 j
  have hj1 : (j 1).val < 64 := ValueIdx.idx2_lt1 j
  by_cases h1 : (j 0).val < 50000
  · refine (concatenate_apply_piece (0 : Fin S100000x64.rank) _ _ j 0 (by show 0 < 3; omega) S50000x64 _ rfl rfl 0 rfl
      (ValueIdx.ix2 ⟨(j 0).val, h1⟩ ⟨(j 1).val, hj1⟩) ?_ ?_).trans ?_
    · intro b hb
      match b with
      | ⟨0, _⟩ => exact absurd (Fin.ext rfl) hb
      | ⟨1, _⟩ => rfl
    · show 0 + (j 0).val = (j 0).val
      omega
    · refine extractStridedSlice_apply _ _ _ _ j (fun ax => ?_)
      match ax with
      | ⟨0, _⟩ => show (j 0).val = 0 + (j 0).val; omega
      | ⟨1, _⟩ => show (j 1).val = 0 + (j 1).val; omega
  · by_cases h2 : (j 0).val < 80000
    · refine (concatenate_apply_piece (0 : Fin S100000x64.rank) _ _ j 1 (by show 1 < 3; omega) S30000x64 _ rfl rfl 50000 rfl
        (ValueIdx.ix2 ⟨(j 0).val - 50000, by omega⟩ ⟨(j 1).val, hj1⟩) ?_ ?_).trans ?_
      · intro b hb
        match b with
        | ⟨0, _⟩ => exact absurd (Fin.ext rfl) hb
        | ⟨1, _⟩ => rfl
      · show 50000 + ((j 0).val - 50000) = (j 0).val
        omega
      · refine extractStridedSlice_apply _ _ _ _ j (fun ax => ?_)
        match ax with
        | ⟨0, _⟩ => show (j 0).val = 50000 + ((j 0).val - 50000); omega
        | ⟨1, _⟩ => show (j 1).val = 0 + (j 1).val; omega
    · refine (concatenate_apply_piece (0 : Fin S100000x64.rank) _ _ j 2 (by show 2 < 3; omega) S20000x64 _ rfl rfl 80000 rfl
        (ValueIdx.ix2 ⟨(j 0).val - 80000, by omega⟩ ⟨(j 1).val, hj1⟩) ?_ ?_).trans ?_
      · intro b hb
        match b with
        | ⟨0, _⟩ => exact absurd (Fin.ext rfl) hb
        | ⟨1, _⟩ => rfl
      · show 80000 + ((j 0).val - 80000) = (j 0).val
        omega
      · refine extractStridedSlice_apply _ _ _ _ j (fun ax => ?_)
        match ax with
        | ⟨0, _⟩ => show (j 0).val = 80000 + ((j 0).val - 80000); omega
        | ⟨1, _⟩ => show (j 1).val = 0 + (j 1).val; omega

theorem host6_1 (W : Valuation τ sig (Elt Ideal)) :
    StableHlo.after (hostOps6_1 (F := Ideal)) W main_v23 = takeTerm_50000x64 (W main_v19_0) (W main_arg19) := by
  after_results_simp
  simp only [TRef.ofBuf, TRef.toBuf, cast_eq]
  rfl

theorem host6_2 (W : Valuation τ sig (Elt Ideal)) :
    StableHlo.after (hostOps6_2 (F := Ideal)) W main_v24 = takeTerm_30000x32 (W main_v20_1) (W main_arg20) := by
  after_results_simp
  simp only [TRef.ofBuf, TRef.toBuf, cast_eq]
  rfl

theorem host6_3 (W : Valuation τ sig (Elt Ideal)) :
    StableHlo.after (hostOps6_3 (F := Ideal)) W main_v25 = takeTerm_20000x32 (W main_v21_1) (W main_arg21) := by
  after_results_simp
  simp only [TRef.ofBuf, TRef.toBuf, cast_eq]
  rfl

theorem host7 (W : Valuation τ sig (Elt Ideal)) :
    StableHlo.after (hostOps7 (F := Ideal)) W main_v28 = takeTerm_30000x64 (W main_v20_0) (W main_arg23) := by
  after_results_simp
  simp only [TRef.ofBuf, TRef.toBuf, cast_eq]
  rfl

theorem host7_1 (W : Valuation τ sig (Elt Ideal)) :
    StableHlo.after (hostOps7_1 (F := Ideal)) W main_v29 = takeTerm_50000x32 (W main_v19_1) (W main_arg22) := by
  after_results_simp
  simp only [TRef.ofBuf, TRef.toBuf, cast_eq]
  rfl

theorem host7_2 (W : Valuation τ sig (Elt Ideal)) :
    StableHlo.after (hostOps7_2 (F := Ideal)) W main_v30 = takeTerm_20000x32 (W main_v21_1) (W main_arg24) := by
  after_results_simp
  simp only [TRef.ofBuf, TRef.toBuf, cast_eq]
  rfl

theorem host8 (W : Valuation τ sig (Elt Ideal)) :
    StableHlo.after (hostOps8 (F := Ideal)) W main_v33 = takeTerm_20000x64 (W main_v21_0) (W main_arg27) := by
  after_results_simp
  simp only [TRef.ofBuf, TRef.toBuf, cast_eq]
  rfl

theorem host8_1 (W : Valuation τ sig (Elt Ideal)) :
    StableHlo.after (hostOps8_1 (F := Ideal)) W main_v34 = takeTerm_50000x32 (W main_v19_1) (W main_arg25) := by
  after_results_simp
  simp only [TRef.ofBuf, TRef.toBuf, cast_eq]
  rfl

theorem host8_2 (W : Valuation τ sig (Elt Ideal)) :
    StableHlo.after (hostOps8_2 (F := Ideal)) W main_v35 = takeTerm_30000x32 (W main_v20_1) (W main_arg26) := by
  after_results_simp
  simp only [TRef.ofBuf, TRef.toBuf, cast_eq]
  rfl

theorem host6_4 (W : Valuation τ sig (Elt Ideal)) :
    StableHlo.after (hostOps6_4 (F := Ideal)) W main_v26
      = concatenate S100000x128 1 [⟨S100000x64, W main_v23⟩, ⟨S100000x32, W main_v24⟩, ⟨S100000x32, W main_v25⟩]
          concatenates_S100000x64_S100000x32_S100000x32_S100000x128_d1 := by
  after_results
  rfl

theorem host7_3 (W : Valuation τ sig (Elt Ideal)) :
    StableHlo.after (hostOps7_3 (F := Ideal)) W main_v31
      = concatenate S100000x128 1 [⟨S100000x64, W main_v28⟩, ⟨S100000x32, W main_v29⟩, ⟨S100000x32, W main_v30⟩]
          concatenates_S100000x64_S100000x32_S100000x32_S100000x128_d1 := by
  after_results
  rfl

theorem host8_3 (W : Valuation τ sig (Elt Ideal)) :
    StableHlo.after (hostOps8_3 (F := Ideal)) W main_v36
      = concatenate S100000x128 1 [⟨S100000x64, W main_v33⟩, ⟨S100000x32, W main_v34⟩, ⟨S100000x32, W main_v35⟩]
          concatenates_S100000x64_S100000x32_S100000x32_S100000x128_d1 := by
  after_results
  rfl

def flatten300000 (x : (⟨S300000x1, .f32⟩ : BufTy).Contents (Elt Ideal)) : (⟨S300000, .f32⟩ : BufTy).Contents (Elt Ideal) :=
  fun i => shapeCast S300000 x shapeCasts_S300000x1_S300000 i

def scores300000 (W : Valuation τ sig (Elt Ideal)) : (⟨S300000x1, .f32⟩ : BufTy).Contents (Elt Ideal) :=
  concatenate S300000x1 0 [⟨S100000x1, W main_v27⟩, ⟨S100000x1, W main_v32⟩, ⟨S100000x1, W main_v37⟩]
    concatenates_S100000x1_S100000x1_S100000x1_S300000x1_d0

theorem host9 (W : Valuation τ sig (Elt Ideal)) :
    StableHlo.after (hostOps9 (F := Ideal)) W main_v38 = scores300000 W
    ∧ StableHlo.after (hostOps9 (F := Ideal)) W main_v39 = flatten300000 (scores300000 W) := by
  constructor
  · after_results
    rfl
  · after_results
    rfl

section
variable (m : (ℓ : Loc nD τ sig) → Buf (Elt Ideal) ℓ) (c : Dev nD)

/-- What buffer `r` holds on core `c` when the program is launched. -/
abbrev at0 (r : Ref sig .tc) : Buf (Elt Ideal) ((c.tc : Thread nD τ).loc r) := m ((c.tc : Thread nD τ).loc r)

abbrev ref_v0 := Cert.ReferenceIdeal.Read.val_main_v0 (F := Ideal) (at0 m c main_arg0) (at0 m c main_arg3)
abbrev ref_v1 := Cert.ReferenceIdeal.Read.val_main_v1 (F := Ideal) (at0 m c main_arg1) (at0 m c main_arg4)
abbrev ref_v2 := Cert.ReferenceIdeal.Read.val_main_v2 (F := Ideal) (at0 m c main_arg2) (at0 m c main_arg5)
abbrev ref_v13 := Cert.ReferenceIdeal.Read.val_main_v13 (F := Ideal) (at0 m c main_arg0) (at0 m c main_arg1) (at0 m c main_arg2) (at0 m c main_arg3) (at0 m c main_arg4) (at0 m c main_arg5) (at0 m c main_arg17) (at0 m c main_arg18)
abbrev ref_v22 := Cert.ReferenceIdeal.Read.val_main_v22 (F := Ideal) (at0 m c main_arg0) (at0 m c main_arg1) (at0 m c main_arg2) (at0 m c main_arg3) (at0 m c main_arg4) (at0 m c main_arg5) (at0 m c main_arg6) (at0 m c main_arg7) (at0 m c main_arg17) (at0 m c main_arg18)
abbrev ref_v23 := Cert.ReferenceIdeal.Read.val_main_v23 (F := Ideal) (at0 m c main_arg0) (at0 m c main_arg1) (at0 m c main_arg2) (at0 m c main_arg3) (at0 m c main_arg4) (at0 m c main_arg5) (at0 m c main_arg6) (at0 m c main_arg7) (at0 m c main_arg17) (at0 m c main_arg18)
abbrev ref_v24 := Cert.ReferenceIdeal.Read.val_main_v24 (F := Ideal) (at0 m c main_arg0) (at0 m c main_arg1) (at0 m c main_arg2) (at0 m c main_arg3) (at0 m c main_arg4) (at0 m c main_arg5) (at0 m c main_arg6) (at0 m c main_arg7) (at0 m c main_arg17) (at0 m c main_arg18)
abbrev ref_v25 := Cert.ReferenceIdeal.Read.val_main_v25 (F := Ideal) (at0 m c main_arg0) (at0 m c main_arg1) (at0 m c main_arg2) (at0 m c main_arg3) (at0 m c main_arg4) (at0 m c main_arg5) (at0 m c main_arg6) (at0 m c main_arg7) (at0 m c main_arg17) (at0 m c main_arg18)
abbrev ref_v26 := Cert.ReferenceIdeal.Read.val_main_v26 (F := Ideal) (at0 m c main_arg0) (at0 m c main_arg1) (at0 m c main_arg2) (at0 m c main_arg3) (at0 m c main_arg4) (at0 m c main_arg5) (at0 m c main_arg6) (at0 m c main_arg7) (at0 m c main_arg8) (at0 m c main_arg17) (at0 m c main_arg18)
abbrev ref_v27 := Cert.ReferenceIdeal.Read.val_main_v27 (F := Ideal) (at0 m c main_arg0) (at0 m c main_arg1) (at0 m c main_arg2) (at0 m c main_arg3) (at0 m c main_arg4) (at0 m c main_arg5) (at0 m c main_arg6) (at0 m c main_arg7) (at0 m c main_arg9) (at0 m c main_arg17) (at0 m c main_arg18)
abbrev ref_v28 := Cert.ReferenceIdeal.Read.val_main_v28 (F := Ideal) (at0 m c main_arg0) (at0 m c main_arg1) (at0 m c main_arg2) (at0 m c main_arg3) (at0 m c main_arg4) (at0 m c main_arg5) (at0 m c main_arg6) (at0 m c main_arg7) (at0 m c main_arg10) (at0 m c main_arg17) (at0 m c main_arg18)
abbrev ref_v35 := Cert.ReferenceIdeal.Read.val_main_v35 (F := Ideal) (at0 m c main_arg0) (at0 m c main_arg1) (at0 m c main_arg2) (at0 m c main_arg3) (at0 m c main_arg4) (at0 m c main_arg5) (at0 m c main_arg6) (at0 m c main_arg7) (at0 m c main_arg17) (at0 m c main_arg18) (at0 m c main_arg19)
abbrev ref_v42 := Cert.ReferenceIdeal.Read.val_main_v42 (F := Ideal) (at0 m c main_arg0) (at0 m c main_arg1) (at0 m c main_arg2) (at0 m c main_arg3) (at0 m c main_arg4) (at0 m c main_arg5) (at0 m c main_arg6) (at0 m c main_arg7) (at0 m c main_arg9) (at0 m c main_arg17) (at0 m c main_arg18) (at0 m c main_arg20)
abbrev ref_v49 := Cert.ReferenceIdeal.Read.val_main_v49 (F := Ideal) (at0 m c main_arg0) (at0 m c main_arg1) (at0 m c main_arg2) (at0 m c main_arg3) (at0 m c main_arg4) (at0 m c main_arg5) (at0 m c main_arg6) (at0 m c main_arg7) (at0 m c main_arg10) (at0 m c main_arg17) (at0 m c main_arg18) (at0 m c main_arg21)
abbrev ref_v50 := Cert.ReferenceIdeal.Read.val_main_v50 (F := Ideal) (at0 m c main_arg0) (at0 m c main_arg1) (at0 m c main_arg2) (at0 m c main_arg3) (at0 m c main_arg4) (at0 m c main_arg5) (at0 m c main_arg6) (at0 m c main_arg7) (at0 m c main_arg9) (at0 m c main_arg10) (at0 m c main_arg17) (at0 m c main_arg18) (at0 m c main_arg19) (at0 m c main_arg20) (at0 m c main_arg21)
abbrev ref_v53 := Cert.ReferenceIdeal.Read.val_main_v53 (F := Ideal) (at0 m c main_arg0) (at0 m c main_arg1) (at0 m c main_arg2) (at0 m c main_arg3) (at0 m c main_arg4) (at0 m c main_arg5) (at0 m c main_arg6) (at0 m c main_arg7) (at0 m c main_arg9) (at0 m c main_arg10) (at0 m c main_arg11) (at0 m c main_arg14) (at0 m c main_arg17) (at0 m c main_arg18) (at0 m c main_arg19) (at0 m c main_arg20) (at0 m c main_arg21)
abbrev ref_v60 := Cert.ReferenceIdeal.Read.val_main_v60 (F := Ideal) (at0 m c main_arg0) (at0 m c main_arg1) (at0 m c main_arg2) (at0 m c main_arg3) (at0 m c main_arg4) (at0 m c main_arg5) (at0 m c main_arg6) (at0 m c main_arg7) (at0 m c main_arg17) (at0 m c main_arg18) (at0 m c main_arg23)
abbrev ref_v67 := Cert.ReferenceIdeal.Read.val_main_v67 (F := Ideal) (at0 m c main_arg0) (at0 m c main_arg1) (at0 m c main_arg2) (at0 m c main_arg3) (at0 m c main_arg4) (at0 m c main_arg5) (at0 m c main_arg6) (at0 m c main_arg7) (at0 m c main_arg8) (at0 m c main_arg17) (at0 m c main_arg18) (at0 m c main_arg22)
abbrev ref_v74 := Cert.ReferenceIdeal.Read.val_main_v74 (F := Ideal) (at0 m c main_arg0) (at0 m c main_arg1) (at0 m c main_arg2) (at0 m c main_arg3) (at0 m c main_arg4) (at0 m c main_arg5) (at0 m c main_arg6) (at0 m c main_arg7) (at0 m c main_arg10) (at0 m c main_arg17) (at0 m c main_arg18) (at0 m c main_arg24)
abbrev ref_v75 := Cert.ReferenceIdeal.Read.val_main_v75 (F := Ideal) (at0 m c main_arg0) (at0 m c main_arg1) (at0 m c main_arg2) (at0 m c main_arg3) (at0 m c main_arg4) (at0 m c main_arg5) (at0 m c main_arg6) (at0 m c main_arg7) (at0 m c main_arg8) (at0 m c main_arg10) (at0 m c main_arg17) (at0 m c main_arg18) (at0 m c main_arg22) (at0 m c main_arg23) (at0 m c main_arg24)
abbrev ref_v78 := Cert.ReferenceIdeal.Read.val_main_v78 (F := Ideal) (at0 m c main_arg0) (at0 m c main_arg1) (at0 m c main_arg2) (at0 m c main_arg3) (at0 m c main_arg4) (at0 m c main_arg5) (at0 m c main_arg6) (at0 m c main_arg7) (at0 m c main_arg8) (at0 m c main_arg10) (at0 m c main_arg12) (at0 m c main_arg15) (at0 m c main_arg17) (at0 m c main_arg18) (at0 m c main_arg22) (at0 m c main_arg23) (at0 m c main_arg24)
abbrev ref_v85 := Cert.ReferenceIdeal.Read.val_main_v85 (F := Ideal) (at0 m c main_arg0) (at0 m c main_arg1) (at0 m c main_arg2) (at0 m c main_arg3) (at0 m c main_arg4) (at0 m c main_arg5) (at0 m c main_arg6) (at0 m c main_arg7) (at0 m c main_arg17) (at0 m c main_arg18) (at0 m c main_arg27)
abbrev ref_v92 := Cert.ReferenceIdeal.Read.val_main_v92 (F := Ideal) (at0 m c main_arg0) (at0 m c main_arg1) (at0 m c main_arg2) (at0 m c main_arg3) (at0 m c main_arg4) (at0 m c main_arg5) (at0 m c main_arg6) (at0 m c main_arg7) (at0 m c main_arg8) (at0 m c main_arg17) (at0 m c main_arg18) (at0 m c main_arg25)
abbrev ref_v99 := Cert.ReferenceIdeal.Read.val_main_v99 (F := Ideal) (at0 m c main_arg0) (at0 m c main_arg1) (at0 m c main_arg2) (at0 m c main_arg3) (at0 m c main_arg4) (at0 m c main_arg5) (at0 m c main_arg6) (at0 m c main_arg7) (at0 m c main_arg9) (at0 m c main_arg17) (at0 m c main_arg18) (at0 m c main_arg26)
abbrev ref_v100 := Cert.ReferenceIdeal.Read.val_main_v100 (F := Ideal) (at0 m c main_arg0) (at0 m c main_arg1) (at0 m c main_arg2) (at0 m c main_arg3) (at0 m c main_arg4) (at0 m c main_arg5) (at0 m c main_arg6) (at0 m c main_arg7) (at0 m c main_arg8) (at0 m c main_arg9) (at0 m c main_arg17) (at0 m c main_arg18) (at0 m c main_arg25) (at0 m c main_arg26) (at0 m c main_arg27)
abbrev ref_v103 := Cert.ReferenceIdeal.Read.val_main_v103 (F := Ideal) (at0 m c main_arg0) (at0 m c main_arg1) (at0 m c main_arg2) (at0 m c main_arg3) (at0 m c main_arg4) (at0 m c main_arg5) (at0 m c main_arg6) (at0 m c main_arg7) (at0 m c main_arg8) (at0 m c main_arg9) (at0 m c main_arg13) (at0 m c main_arg16) (at0 m c main_arg17) (at0 m c main_arg18) (at0 m c main_arg25) (at0 m c main_arg26) (at0 m c main_arg27)
abbrev ref_v111 := Cert.ReferenceIdeal.Read.val_main_v111 (F := Ideal) (at0 m c main_arg0) (at0 m c main_arg1) (at0 m c main_arg2) (at0 m c main_arg3) (at0 m c main_arg4) (at0 m c main_arg5) (at0 m c main_arg6) (at0 m c main_arg7) (at0 m c main_arg8) (at0 m c main_arg9) (at0 m c main_arg10) (at0 m c main_arg11) (at0 m c main_arg12) (at0 m c main_arg13) (at0 m c main_arg14) (at0 m c main_arg15) (at0 m c main_arg16) (at0 m c main_arg17) (at0 m c main_arg18) (at0 m c main_arg19) (at0 m c main_arg20) (at0 m c main_arg21) (at0 m c main_arg22) (at0 m c main_arg23) (at0 m c main_arg24) (at0 m c main_arg25) (at0 m c main_arg26) (at0 m c main_arg27)

end

end Cert.KernelIdeal.Hand

end
-- ==== Proof.Val.Postagg.lean ====
import proofs.«418426_j87943750353447_3_alg».proof.Proof.KernelIdeal.Reg3
import proofs.«418426_j87943750353447_3_alg».proof.Proof.KernelIdeal.Reg4
import proofs.«418426_j87943750353447_3_alg».proof.Proof.KernelIdeal.Reg5
import proofs.«418426_j87943750353447_3_alg».proof.Proof.RefStages
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.ValueIdx
open scoped BigOperators

namespace Postagg

def rawRow (a : Fin 64 → EReal) (W : (⟨2, ![64, 64]⟩ : Shape).Idx → EReal) (b : Fin 64 → EReal) (j : Fin 64) : EReal :=
  (∑ k : Fin 64, a k * W (ix2 k j)) + b j

def nrmRow (a : Fin 64 → EReal) (W : (⟨2, ![64, 64]⟩ : Shape).Idx → EReal) (b : Fin 64 → EReal) : EReal :=
  max (Ideal.sqrt (∑ j : Fin 64, rawRow a W b j * rawRow a W b j)) (Ideal.ofBits .f32 0x2B8CBCCC#32)

def normedRow (a : Fin 64 → EReal) (W : (⟨2, ![64, 64]⟩ : Shape).Idx → EReal) (b : Fin 64 → EReal) (j : Fin 64) : EReal :=
  Ideal.div (rawRow a W b j) (nrmRow a W b)

def ctxRow (a : Fin 64 → EReal) (W : (⟨2, ![64, 64]⟩ : Shape).Idx → EReal) (b : Fin 64 → EReal)
    (Wc : (⟨2, ![64, 32]⟩ : Shape).Idx → EReal) (q : Fin 32) : EReal :=
  ∑ j : Fin 64, normedRow a W b j * Wc (ix2 j q)

theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

def rawVec (x0 : Vec Ideal S5000x64 .f32) (x1 : Vec Ideal S64x64 .f32) (x2 : Vec Ideal S1x64 .f32) : FVec Ideal S5000x64 .f32 :=
  addf (matmul dot_S5000x64_S64x64_S5000x64_1_0_0_1_n_n none
      (truncf .bf16 (shapeCast S5000x64 x0 shapeCasts_S5000x64_S5000x64) bitsLt_bf16_f32)
      (truncf .bf16 x1 bitsLt_bf16_f32) (constant S5000x64 .f32 0x00000000#32))
    (broadcastTo S5000x64 (shapeCast S1x64 x2 shapeCasts_S1x64_S1x64) broadcasts_S1x64_S5000x64)

def normedVec (r : FVec Ideal S5000x64 .f32) : FVec Ideal S5000x64 .f32 :=
  divf r (broadcastTo S5000x64
    (maximumf
      (sqrt (shapeCast S5000x1
        (multiReduction .add [1] S5000 (mulf r r) 0x00000000#32 reduces_S5000x64_S5000 (.inl rfl) rfl)
        shapeCasts_S5000_S5000x1))
      (broadcast S5000x1 (Scalar.ofBits .f32 0x2B8CBCCC#32)))
    broadcasts_S5000x1_S5000x64)

def ctxVec (n : FVec Ideal S5000x64 .f32) (x3 : Vec Ideal S64x32 .f32) : FVec Ideal S5000x32 .f32 :=
  matmul dot_S5000x64_S64x32_S5000x32_1_0_0_1_n_n none (truncf .bf16 n bitsLt_bf16_f32) (truncf .bf16 x3 bitsLt_bf16_f32)
    (constant S5000x32 .f32 0x00000000#32)

theorem k3_pay1_eq (x0 : Vec Ideal S5000x64 .f32) (x1 : Vec Ideal S64x64 .f32) (x2 : Vec Ideal S1x64 .f32) :
    k3_pay1 (F := Ideal) x0 x1 x2 = normedVec (rawVec x0 x1 x2) := rfl
theorem k3_pay2_eq (x0 : Vec Ideal S5000x64 .f32) (x1 : Vec Ideal S64x64 .f32) (x2 : Vec Ideal S1x64 .f32) (x3 : Vec Ideal S64x32 .f32) :
    k3_pay2 (F := Ideal) x0 x1 x2 x3 = ctxVec (normedVec (rawVec x0 x1 x2)) x3 := rfl
theorem k4_pay1_eq (x0 : Vec Ideal S5000x64 .f32) (x1 : Vec Ideal S64x64 .f32) (x2 : Vec Ideal S1x64 .f32) :
    k4_pay1 (F := Ideal) x0 x1 x2 = normedVec (rawVec x0 x1 x2) := rfl
theorem k4_pay2_eq (x0 : Vec Ideal S5000x64 .f32) (x1 : Vec Ideal S64x64 .f32) (x2 : Vec Ideal S1x64 .f32) (x3 : Vec Ideal S64x32 .f32) :
    k4_pay2 (F := Ideal) x0 x1 x2 x3 = ctxVec (normedVec (rawVec x0 x1 x2)) x3 := rfl
theorem k5_pay1_eq (x0 : Vec Ideal S5000x64 .f32) (x1 : Vec Ideal S64x64 .f32) (x2 : Vec Ideal S1x64 .f32) :
    k5_pay1 (F := Ideal) x0 x1 x2 = normedVec (rawVec x0 x1 x2) := rfl
theorem k5_pay2_eq (x0 : Vec Ideal S5000x64 .f32) (x1 : Vec Ideal S64x64 .f32) (x2 : Vec Ideal S1x64 .f32) (x3 : Vec Ideal S64x32 .f32) :
    k5_pay2 (F := Ideal) x0 x1 x2 x3 = ctxVec (normedVec (rawVec x0 x1 x2)) x3 := rfl

theorem lhs_dotW_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_dotW_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_dotW_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_dotW_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem lhs_dotC_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs_dotC_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem rhs_dotC_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem rhs_dotC_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

theorem rawVec_apply (x0 : Vec Ideal S5000x64 .f32) (x1 : Vec Ideal S64x64 .f32) (x2 : Vec Ideal S1x64 .f32) (p : Fin 5000) (j : Fin 64) :
    rawVec x0 x1 x2 (ix2 p j) = rawRow (fun k => x0 (ix2 p k)) x1 (fun j => x2 (ix2 (0 : Fin 1) j)) j := by
  unfold rawVec rawRow
  simp only [shapeCast_self]
  refine congrArg₂ (· + ·) ?_ (broadcastTo_1b_ab_apply x2 broadcasts_S1x64_S5000x64 p j)
  refine (Ideal.matmul_constant_zero_apply dot_S5000x64_S64x64_S5000x64_1_0_0_1_n_n none _ _ (ix2 p j)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p j) ((contrEquiv1 dot_S5000x64_S64x64_S5000x64_1_0_0_1_n_n 64 rfl rfl).symm k) = ix2 p k := funext fun a => Fin.ext (by
    match a with
    | ⟨0, _⟩ => exact lhs_dotW_0 _ _
    | ⟨1, _⟩ => exact (lhs_dotW_1 _ _).trans hk)
  have er : dot_S5000x64_S64x64_S5000x64_1_0_0_1_n_n.rhsIdx (ix2 p j) ((contrEquiv1 dot_S5000x64_S64x64_S5000x64_1_0_0_1_n_n 64 rfl rfl).symm k) = ix2 k j := funext fun a => Fin.ext (by
    match a with
    | ⟨0, _⟩ => exact (rhs_dotW_0 _ _).trans hk
    | ⟨1, _⟩ => exact rhs_dotW_1 _ _)
  rw [el, er]
  rfl

theorem normedVec_apply (r : FVec Ideal S5000x64 .f32) (p : Fin 5000) (j : Fin 64) :
    normedVec r (ix2 p j)
      = Ideal.div (r (ix2 p j)) (max (Ideal.sqrt (∑ k : Fin 64, r (ix2 p k) * r (ix2 p k))) (Ideal.ofBits .f32 0x2B8CBCCC#32)) := by
  unfold normedVec
  refine congrArg (Ideal.div (r (ix2 p j))) ?_
  refine (broadcastTo_a1_ab_apply _ broadcasts_S5000x1_S5000x64 p j).trans ?_
  refine congrArg (fun z => max (Ideal.sqrt z) (Ideal.ofBits .f32 0x2B8CBCCC#32)) ?_
  refine (shapeCast_a_a1_apply _ shapeCasts_S5000_S5000x1 p 0).trans ?_
  refine (Ideal.multiReduction_add_single (mulf r r) 0x00000000#32 reduces_S5000x64_S5000 (.inl rfl) rfl (ix1 p)).trans ?_
  show ∑ k : Fin 64, (mulf r r) (reduces_S5000x64_S5000.lift (ix1 p) k) = _
  refine Finset.sum_congr rfl fun k _ => ?_
  have e : reduces_S5000x64_S5000.lift (ix1 p) k = ix2 p k :=
    funext fun a => Fin.ext (by match a with | ⟨0, _⟩ => rfl | ⟨1, _⟩ => rfl)
  rw [e]
  rfl

theorem ctxVec_apply (n : FVec Ideal S5000x64 .f32) (x3 : Vec Ideal S64x32 .f32) (p : Fin 5000) (q : Fin 32) :
    ctxVec n x3 (ix2 p q) = ∑ j : Fin 64, n (ix2 p j) * x3 (ix2 j q) := by
  unfold ctxVec
  refine (Ideal.matmul_constant_zero_apply dot_S5000x64_S64x32_S5000x32_1_0_0_1_n_n none _ _ (ix2 p q)).trans ?_
  rw [← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p q) ((contrEquiv1 dot_S5000x64_S64x32_S5000x32_1_0_0_1_n_n 64 rfl rfl).symm k) = ix2 p k := funext fun a => Fin.ext (by
    match a with
    | ⟨0, _⟩ => exact lhs_dotC_0 _ _
    | ⟨1, _⟩ => exact (lhs_dotC_1 _ _).trans hk)
  have er : dot_S5000x64_S64x32_S5000x32_1_0_0_1_n_n.rhsIdx (ix2 p q) ((contrEquiv1 dot_S5000x64_S64x32_S5000x32_1_0_0_1_n_n 64 rfl rfl).symm k) = ix2 k q := funext fun a => Fin.ext (by
    match a with
    | ⟨0, _⟩ => exact (rhs_dotC_0 _ _).trans hk
    | ⟨1, _⟩ => exact rhs_dotC_1 _ _)
  rw [el, er]
  rfl

theorem embVec_apply (x0 : Vec Ideal S5000x64 .f32) (x1 : Vec Ideal S64x64 .f32) (x2 : Vec Ideal S1x64 .f32) (p : Fin 5000) (j : Fin 64) :
    normedVec (rawVec x0 x1 x2) (ix2 p j) = normedRow (fun k => x0 (ix2 p k)) x1 (fun j => x2 (ix2 (0 : Fin 1) j)) j := by
  rw [normedVec_apply]
  simp only [rawVec_apply]
  rfl

theorem ctxOfVec_apply (x0 : Vec Ideal S5000x64 .f32) (x1 : Vec Ideal S64x64 .f32) (x2 : Vec Ideal S1x64 .f32) (x3 : Vec Ideal S64x32 .f32)
    (p : Fin 5000) (q : Fin 32) :
    ctxVec (normedVec (rawVec x0 x1 x2)) x3 (ix2 p q) = ctxRow (fun k => x0 (ix2 p k)) x1 (fun j => x2 (ix2 (0 : Fin 1) j)) x3 q := by
  rw [ctxVec_apply]
  simp only [embVec_apply]
  rfl

def rowOf (agg : (⟨2, ![100000, 64]⟩ : Shape).Idx → EReal) (r : Fin 100000) : Fin 64 → EReal := fun k => agg (ix2 r k)

def biasOf (b : (⟨1, ![64]⟩ : Shape).Idx → EReal) : Fin 64 → EReal := fun j => b (ix1 j)

def embArr {n : ℕ} (off : ℕ) (h : off + n ≤ 100000) (agg : (⟨2, ![100000, 64]⟩ : Shape).Idx → EReal)
    (W : (⟨2, ![64, 64]⟩ : Shape).Idx → EReal) (b : (⟨1, ![64]⟩ : Shape).Idx → EReal) : (⟨2, ![n, 64]⟩ : Shape).Idx → EReal :=
  fun i => normedRow (rowOf agg ⟨off + (i 0).val, by have := idx2_lt0 i; omega⟩) W (biasOf b) (i 1)

def ctxArr {n : ℕ} (off : ℕ) (h : off + n ≤ 100000) (agg : (⟨2, ![100000, 64]⟩ : Shape).Idx → EReal)
    (W : (⟨2, ![64, 64]⟩ : Shape).Idx → EReal) (b : (⟨1, ![64]⟩ : Shape).Idx → EReal)
    (Wc : (⟨2, ![64, 32]⟩ : Shape).Idx → EReal) : (⟨2, ![n, 32]⟩ : Shape).Idx → EReal :=
  fun i => ctxRow (rowOf agg ⟨off + (i 0).val, by have := idx2_lt0 i; omega⟩) W (biasOf b) Wc (i 1)

theorem hz : (![0, 0] : Fin 2 → Nat) = fun _ => 0 := funext fun a => by fin_cases a <;> rfl

theorem embArr_at {n : ℕ} (off : ℕ) (h : off + n ≤ 100000) (agg : (⟨2, ![100000, 64]⟩ : Shape).Idx → EReal)
    (W : (⟨2, ![64, 64]⟩ : Shape).Idx → EReal) (b : (⟨1, ![64]⟩ : Shape).Idx → EReal) (i : (⟨2, ![n, 64]⟩ : Shape).Idx)
    (r : Fin 100000) (j : Fin 64) (h0 : r.val = off + (i 0).val) (h1 : (i 1).val = j.val) :
    embArr off h agg W b i = normedRow (rowOf agg r) W (biasOf b) j := by
  have e0 : (⟨off + (i 0).val, by have := idx2_lt0 i; omega⟩ : Fin 100000) = r := Fin.ext h0.symm
  have e1 : (i 1 : Fin 64) = j := Fin.ext h1
  show normedRow (rowOf agg ⟨off + (i 0).val, _⟩) W (biasOf b) (i 1) = _
  rw [e0, e1]

theorem ctxArr_at {n : ℕ} (off : ℕ) (h : off + n ≤ 100000) (agg : (⟨2, ![100000, 64]⟩ : Shape).Idx → EReal)
    (W : (⟨2, ![64, 64]⟩ : Shape).Idx → EReal) (b : (⟨1, ![64]⟩ : Shape).Idx → EReal) (Wc : (⟨2, ![64, 32]⟩ : Shape).Idx → EReal)
    (i : (⟨2, ![n, 32]⟩ : Shape).Idx) (r : Fin 100000) (q : Fin 32) (h0 : r.val = off + (i 0).val) (h1 : (i 1).val = q.val) :
    ctxArr off h agg W b Wc i = ctxRow (rowOf agg r) W (biasOf b) Wc q := by
  have e0 : (⟨off + (i 0).val, by have := idx2_lt0 i; omega⟩ : Fin 100000) = r := Fin.ext h0.symm
  have e1 : (i 1 : Fin 32) = q := Fin.ext h1
  show ctxRow (rowOf agg ⟨off + (i 0).val, _⟩) W (biasOf b) Wc (i 1) = _
  rw [e0, e1]

section Region3

variable (V : (c : Dev nD) → (b : Ref sig .tc) → Buf (Elt Ideal) ((c : Thread nD τ).loc b))

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

theorem iblk3_0_apply (c : Dev nD) (t : Fin cfg3.N) (p : Fin 5000) (k : Fin 64) (i : S50000x64.Idx)
    (h0 : (i 0).val = 5000 * t.val + p.val) (h1 : (i 1).val = k.val) :
    (iblk3 V c 0 t : Vec Ideal S5000x64 .f32) (ix2 p k) = (V c main_v15 : S50000x64.Idx → EReal) i := by
  obtain ⟨e0, e1, -⟩ := idx_facts3 t
  unfold iblk3
  rw [View.read_apply]
  show V c main_v15 _ = V c main_v15 _
  congr 1
  funext a
  apply Fin.ext
  match a with
  | ⟨0, _⟩ => show win3_0.index t 0 * 5000 + 1 * p.val = (i 0).val; rw [e0, h0]; omega
  | ⟨1, _⟩ => show win3_0.index t 1 * 64 + 1 * k.val = (i 1).val; rw [e1, h1]; omega

theorem iblk3_1_eq (c : Dev nD) (t : Fin cfg3.N) : (iblk3 V c 1 t : Vec Ideal S64x64 .f32) = (V c main_arg6 : S64x64.Idx → EReal) := by
  obtain ⟨-, -, e0, e1, -⟩ := idx_facts3 t
  funext j
  unfold iblk3
  rw [View.read_apply]
  show V c main_arg6 _ = V c main_arg6 _
  congr 1
  funext a
  apply Fin.ext
  match a with
  | ⟨0, _⟩ => show win3_1.index t 0 * 64 + 1 * (j 0).val = (j 0).val; rw [e0]; omega
  | ⟨1, _⟩ => show win3_1.index t 1 * 64 + 1 * (j 1).val = (j 1).val; rw [e1]; omega

theorem iblk3_2_eq (c : Dev nD) (t : Fin cfg3.N) : (iblk3 V c 2 t : Vec Ideal S1x64 .f32) = (V c main_v18 : S1x64.Idx → EReal) := by
  obtain ⟨-, -, -, -, e0, e1, -⟩ := idx_facts3 t
  funext j
  unfold iblk3
  rw [View.read_apply]
  show V c main_v18 _ = V c main_v18 _
  congr 1
  funext a
  apply Fin.ext
  match a with
  | ⟨0, _⟩ => show win3_2.index t 0 * 1 + 1 * (j 0).val = (j 0).val; rw [e0]; omega
  | ⟨1, _⟩ => show win3_2.index t 1 * 64 + 1 * (j 1).val = (j 1).val; rw [e1]; omega

theorem iblk3_3_eq (c : Dev nD) (t : Fin cfg3.N) : (iblk3 V c 3 t : Vec Ideal S64x32 .f32) = (V c main_arg8 : S64x32.Idx → EReal) := by
  obtain ⟨-, -, -, -, -, -, e0, e1, -⟩ := idx_facts3 t
  funext j
  unfold iblk3
  rw [View.read_apply]
  show V c main_arg8 _ = V c main_arg8 _
  congr 1
  funext a
  apply Fin.ext
  match a with
  | ⟨0, _⟩ => show win3_3.index t 0 * 64 + 1 * (j 0).val = (j 0).val; rw [e0]; omega
  | ⟨1, _⟩ => show win3_3.index t 1 * 32 + 1 * (j 1).val = (j 1).val; rw [e1]; omega

end Region3

section Region3b

variable (V : (c : Dev nD) → (b : Ref sig .tc) → Buf (Elt Ideal) ((c : Thread nD τ).loc b))

theorem iblk3_0_row (c : Dev nD) (agg : (⟨2, ![100000, 64]⟩ : Shape).Idx → EReal)
    (hagg : V c main_v15 = extractStridedSlice S50000x64 ![0, 0] agg slices_S100000x64_S50000x64_0_0)
    (t : Fin cfg3.N) (p : Fin 5000) (hr : 0 + (5000 * t.val + p.val) < 100000) :
    (fun k => (iblk3 V c 0 t : Vec Ideal S5000x64 .f32) (ix2 p k)) = rowOf agg ⟨0 + (5000 * t.val + p.val), hr⟩ := by
  have ht : t.val < 10 := lt_of_lt_of_eq t.isLt N_3
  funext k
  rw [iblk3_0_apply V c t p k (ix2 ⟨5000 * t.val + p.val, by have := p.isLt; omega⟩ k) rfl rfl, hagg]
  exact extractStridedSlice_apply ![0, 0] agg slices_S100000x64_S50000x64_0_0 _ (ix2 ⟨0 + (5000 * t.val + p.val), hr⟩ k)
    (fun a => match a with
      | ⟨0, _⟩ => rfl
      | ⟨1, _⟩ => by show k.val = 0 + k.val; omega)

theorem flushed3_4_eq (c : Dev nD) (agg : (⟨2, ![100000, 64]⟩ : Shape).Idx → EReal) (W : (⟨2, ![64, 64]⟩ : Shape).Idx → EReal)
    (b : (⟨1, ![64]⟩ : Shape).Idx → EReal)
    (hagg : V c main_v15 = extractStridedSlice S50000x64 ![0, 0] agg slices_S100000x64_S50000x64_0_0)
    (hW2 : V c main_arg6 = W) (hb2 : V c main_v18 = shapeCast S1x64 b shapeCasts_S64_S1x64) (t : Fin cfg3.N) :
    (dat3 V c).flushed 4 t = ((cfg3.win 4).blk t).view.read (Elt Ideal) (embArr (n := 50000) 0 (by decide) agg W b) := by
  show (cfg3.win 4).cut (grid3.coords t) ((dat3 V c).after 4 t) = _
  rw [after3_4]
  unfold out3_4
  rw [View.canon_unit_zero hz]
  simp only [View.ld_unit_zero (S := S5000x64) hz, View.ld_unit_zero (S := S64x64) hz, View.ld_unit_zero (S := S1x64) hz]
  rw [k3_pay1_eq, iblk3_1_eq, iblk3_2_eq, hW2, hb2]
  obtain ⟨-, -, -, -, -, -, -, -, e0, e1, -⟩ := idx_facts3 t
  have ht : t.val < 10 := lt_of_lt_of_eq t.isLt N_3
  funext y
  obtain ⟨p, j, rfl⟩ : ∃ (p : Fin 5000) (j : Fin 64), y = ix2 p j := ⟨y 0, y 1, eq_ix2 y⟩
  have hr : 0 + (5000 * t.val + p.val) < 100000 := by have := p.isLt; omega
  rw [View.read_apply]
  refine (embVec_apply (iblk3 V c 0 t) W (shapeCast S1x64 b shapeCasts_S64_S1x64) p j).trans ?_
  refine ((embArr_at 0 (by decide) agg W b _ ⟨0 + (5000 * t.val + p.val), hr⟩ j ?_ ?_).trans ?_).symm
  · show 0 + (5000 * t.val + p.val) = 0 + (win3_4.index t 0 * 5000 + 1 * p.val); rw [e0]; omega
  · show win3_4.index t 1 * 64 + 1 * j.val = j.val; rw [e1]; omega
  · rw [iblk3_0_row V c agg hagg t p hr]
    refine congrArg (fun f => normedRow _ W f j) ?_
    exact (funext fun j => shapeCast_a_1a_apply b shapeCasts_S64_S1x64 0 j).symm

end Region3b

section Region3c

variable (V : (c : Dev nD) → (b : Ref sig .tc) → Buf (Elt Ideal) ((c : Thread nD τ).loc b))

theorem flushed3_5_eq (c : Dev nD) (agg : (⟨2, ![100000, 64]⟩ : Shape).Idx → EReal) (W : (⟨2, ![64, 64]⟩ : Shape).Idx → EReal)
    (b : (⟨1, ![64]⟩ : Shape).Idx → EReal) (Wc : (⟨2, ![64, 32]⟩ : Shape).Idx → EReal)
    (hagg : V c main_v15 = extractStridedSlice S50000x64 ![0, 0] agg slices_S100000x64_S50000x64_0_0)
    (hW2 : V c main_arg6 = W) (hb2 : V c main_v18 = shapeCast S1x64 b shapeCasts_S64_S1x64) (hWc : V c main_arg8 = Wc) (t : Fin cfg3.N) :
    (dat3 V c).flushed 5 t = ((cfg3.win 5).blk t).view.read (Elt Ideal) (ctxArr (n := 50000) 0 (by decide) agg W b Wc) := by
  show (cfg3.win 5).cut (grid3.coords t) ((dat3 V c).after 5 t) = _
  rw [after3_5]
  unfold out3_5
  rw [View.canon_unit_zero hz]
  simp only [View.ld_unit_zero (S := S5000x64) hz, View.ld_unit_zero (S := S64x64) hz, View.ld_unit_zero (S := S1x64) hz,
    View.ld_unit_zero (S := S64x32) hz]
  rw [k3_pay2_eq, iblk3_1_eq, iblk3_2_eq, iblk3_3_eq, hW2, hb2, hWc]
  obtain ⟨-, -, -, -, -, -, -, -, -, -, e0, e1⟩ := idx_facts3 t
  have ht : t.val < 10 := lt_of_lt_of_eq t.isLt N_3
  funext y
  obtain ⟨p, q, rfl⟩ : ∃ (p : Fin 5000) (q : Fin 32), y = ix2 p q := ⟨y 0, y 1, eq_ix2 y⟩
  have hr : 0 + (5000 * t.val + p.val) < 100000 := by have := p.isLt; omega
  rw [View.read_apply]
  refine (ctxOfVec_apply (iblk3 V c 0 t) W (shapeCast S1x64 b shapeCasts_S64_S1x64) Wc p q).trans ?_
  refine ((ctxArr_at 0 (by decide) agg W b Wc _ ⟨0 + (5000 * t.val + p.val), hr⟩ q ?_ ?_).trans ?_).symm
  · show 0 + (5000 * t.val + p.val) = 0 + (win3_5.index t 0 * 5000 + 1 * p.val); rw [e0]; omega
  · show win3_5.index t 1 * 32 + 1 * q.val = q.val; rw [e1]; omega
  · rw [iblk3_0_row V c agg hagg t p hr]
    refine congrArg (fun f => ctxRow _ W f Wc q) ?_
    exact (funext fun j => shapeCast_a_1a_apply b shapeCasts_S64_S1x64 0 j).symm

theorem covered3_4 (i : S50000x64.Idx) : ∃ t : Fin cfg3.N, (cfg3.win 4).flush t = true ∧ i ∈ ((cfg3.win 4).blk t).view.set := by
  have h0 : (i 0).val < 50000 := idx2_lt0 i
  have h1 : (i 1).val < 64 := idx2_lt1 i
  have hN : grid3.N = 10 := N_3
  obtain ⟨t, ht⟩ : ∃ t : Fin cfg3.N, t.val = (i 0).val / 5000 := ⟨⟨(i 0).val / 5000, by show _ < grid3.N; rw [hN]; omega⟩, rfl⟩
  refine ⟨t, flush3_4 t, ?_⟩
  obtain ⟨-, -, -, -, -, -, -, -, e0, e1, -⟩ := idx_facts3 t
  show i ∈ ((View.whole main_v19_0).slice (win3_4.rect t)).set
  rw [View.set_slice_whole, Rect.mem_set_unit]
  intro a
  match a with
  | ⟨0, _⟩ =>
    show win3_4.index t 0 * 5000 ≤ (i 0).val ∧ (i 0).val < win3_4.index t 0 * 5000 + 5000
    rw [e0, ht]; omega
  | ⟨1, _⟩ =>
    show win3_4.index t 1 * 64 ≤ (i 1).val ∧ (i 1).val < win3_4.index t 1 * 64 + 64
    rw [e1]; omega

theorem covered3_5 (i : S50000x32.Idx) : ∃ t : Fin cfg3.N, (cfg3.win 5).flush t = true ∧ i ∈ ((cfg3.win 5).blk t).view.set := by
  have h0 : (i 0).val < 50000 := idx2_lt0 i
  have h1 : (i 1).val < 32 := idx2_lt1 i
  have hN : grid3.N = 10 := N_3
  obtain ⟨t, ht⟩ : ∃ t : Fin cfg3.N, t.val = (i 0).val / 5000 := ⟨⟨(i 0).val / 5000, by show _ < grid3.N; rw [hN]; omega⟩, rfl⟩
  refine ⟨t, flush3_5 t, ?_⟩
  obtain ⟨-, -, -, -, -, -, -, -, -, -, e0, e1⟩ := idx_facts3 t
  show i ∈ ((View.whole main_v19_1).slice (win3_5.rect t)).set
  rw [View.set_slice_whole, Rect.mem_set_unit]
  intro a
  match a with
  | ⟨0, _⟩ =>
    show win3_5.index t 0 * 5000 ≤ (i 0).val ∧ (i 0).val < win3_5.index t 0 * 5000 + 5000
    rw [e0, ht]; omega
  | ⟨1, _⟩ =>
    show win3_5.index t 1 * 32 ≤ (i 1).val ∧ (i 1).val < win3_5.index t 1 * 32 + 32
    rw [e1]; omega

theorem postagg3_kernel (c : Dev nD) (agg : (⟨2, ![100000, 64]⟩ : Shape).Idx → EReal) (W : (⟨2, ![64, 64]⟩ : Shape).Idx → EReal)
    (b : (⟨1, ![64]⟩ : Shape).Idx → EReal) (Wc : (⟨2, ![64, 32]⟩ : Shape).Idx → EReal)
    (hagg : V c main_v15 = extractStridedSlice S50000x64 ![0, 0] agg slices_S100000x64_S50000x64_0_0)
    (hW2 : V c main_arg6 = W) (hb2 : V c main_v18 = shapeCast S1x64 b shapeCasts_S64_S1x64) (hWc : V c main_arg8 = Wc) :
    (dat3 V c).arrAt 4 cfg3.N = embArr (n := 50000) 0 (by decide) agg W b
      ∧ (dat3 V c).arrAt 5 cfg3.N = ctxArr (n := 50000) 0 (by decide) agg W b Wc :=
  ⟨(dat3 V c).arrAt_eq_of_cover 4 (embArr (n := 50000) 0 (by decide) agg W b)
      (fun t _ => flushed3_4_eq V c agg W b hagg hW2 hb2 t) covered3_4,
    (dat3 V c).arrAt_eq_of_cover 5 (ctxArr (n := 50000) 0 (by decide) agg W b Wc)
      (fun t _ => flushed3_5_eq V c agg W b Wc hagg hW2 hb2 hWc t) covered3_5⟩

end Region3c

section Region4

variable (V : (c : Dev nD) → (b : Ref sig .tc) → Buf (Elt Ideal) ((c : Thread nD τ).loc b))

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

theorem iblk4_0_apply (c : Dev nD) (t : Fin cfg4.N) (p : Fin 5000) (k : Fin 64) (i : S30000x64.Idx)
    (h0 : (i 0).val = 5000 * t.val + p.val) (h1 : (i 1).val = k.val) :
    (iblk4 V c 0 t : Vec Ideal S5000x64 .f32) (ix2 p k) = (V c main_v16 : S30000x64.Idx → EReal) i := by
  obtain ⟨e0, e1, -⟩ := idx_facts4 t
  unfold iblk4
  rw [View.read_apply]
  show V c main_v16 _ = V c main_v16 _
  congr 1
  funext a
  apply Fin.ext
  match a with
  | ⟨0, _⟩ => show win4_0.index t 0 * 5000 + 1 * p.val = (i 0).val; rw [e0, h0]; omega
  | ⟨1, _⟩ => show win4_0.index t 1 * 64 + 1 * k.val = (i 1).val; rw [e1, h1]; omega

theorem iblk4_1_eq (c : Dev nD) (t : Fin cfg4.N) : (iblk4 V c 1 t : Vec Ideal S64x64 .f32) = (V c main_arg6 : S64x64.Idx → EReal) := by
  obtain ⟨-, -, e0, e1, -⟩ := idx_facts4 t
  funext j
  unfold iblk4
  rw [View.read_apply]
  show V c main_arg6 _ = V c main_arg6 _
  congr 1
  funext a
  apply Fin.ext
  match a with
  | ⟨0, _⟩ => show win4_1.index t 0 * 64 + 1 * (j 0).val = (j 0).val; rw [e0]; omega
  | ⟨1, _⟩ => show win4_1.index t 1 * 64 + 1 * (j 1).val = (j 1).val; rw [e1]; omega

theorem iblk4_2_eq (c : Dev nD) (t : Fin cfg4.N) : (iblk4 V c 2 t : Vec Ideal S1x64 .f32) = (V c main_v18 : S1x64.Idx → EReal) := by
  obtain ⟨-, -, -, -, e0, e1, -⟩ := idx_facts4 t
  funext j
  unfold iblk4
  rw [View.read_apply]
  show V c main_v18 _ = V c main_v18 _
  congr 1
  funext a
  apply Fin.ext
  match a with
  | ⟨0, _⟩ => show win4_2.index t 0 * 1 + 1 * (j 0).val = (j 0).val; rw [e0]; omega
  | ⟨1, _⟩ => show win4_2.index t 1 * 64 + 1 * (j 1).val = (j 1).val; rw [e1]; omega

theorem iblk4_3_eq (c : Dev nD) (t : Fin cfg4.N) : (iblk4 V c 3 t : Vec Ideal S64x32 .f32) = (V c main_arg9 : S64x32.Idx → EReal) := by
  obtain ⟨-, -, -, -, -, -, e0, e1, -⟩ := idx_facts4 t
  funext j
  unfold iblk4
  rw [View.read_apply]
  show V c main_arg9 _ = V c main_arg9 _
  congr 1
  funext a
  apply Fin.ext
  match a with
  | ⟨0, _⟩ => show win4_3.index t 0 * 64 + 1 * (j 0).val = (j 0).val; rw [e0]; omega
  | ⟨1, _⟩ => show win4_3.index t 1 * 32 + 1 * (j 1).val = (j 1).val; rw [e1]; omega

end Region4

section Region4b

variable (V : (c : Dev nD) → (b : Ref sig .tc) → Buf (Elt Ideal) ((c : Thread nD τ).loc b))

theorem iblk4_0_row (c : Dev nD) (agg : (⟨2, ![100000, 64]⟩ : Shape).Idx → EReal)
    (hagg : V c main_v16 = extractStridedSlice S30000x64 ![50000, 0] agg slices_S100000x64_S30000x64_50000_0)
    (t : Fin cfg4.N) (p : Fin 5000) (hr : 50000 + (5000 * t.val + p.val) < 100000) :
    (fun k => (iblk4 V c 0 t : Vec Ideal S5000x64 .f32) (ix2 p k)) = rowOf agg ⟨50000 + (5000 * t.val + p.val), hr⟩ := by
  have ht : t.val < 6 := lt_of_lt_of_eq t.isLt N_4
  funext k
  rw [iblk4_0_apply V c t p k (ix2 ⟨5000 * t.val + p.val, by have := p.isLt; omega⟩ k) rfl rfl, hagg]
  exact extractStridedSlice_apply ![50000, 0] agg slices_S100000x64_S30000x64_50000_0 _ (ix2 ⟨50000 + (5000 * t.val + p.val), hr⟩ k)
    (fun a => match a with
      | ⟨0, _⟩ => rfl
      | ⟨1, _⟩ => by show k.val = 0 + k.val; omega)

theorem flushed4_4_eq (c : Dev nD) (agg : (⟨2, ![100000, 64]⟩ : Shape).Idx → EReal) (W : (⟨2, ![64, 64]⟩ : Shape).Idx → EReal)
    (b : (⟨1, ![64]⟩ : Shape).Idx → EReal)
    (hagg : V c main_v16 = extractStridedSlice S30000x64 ![50000, 0] agg slices_S100000x64_S30000x64_50000_0)
    (hW2 : V c main_arg6 = W) (hb2 : V c main_v18 = shapeCast S1x64 b shapeCasts_S64_S1x64) (t : Fin cfg4.N) :
    (dat4 V c).flushed 4 t = ((cfg4.win 4).blk t).view.read (Elt Ideal) (embArr (n := 30000) 50000 (by decide) agg W b) := by
  show (cfg4.win 4).cut (grid4.coords t) ((dat4 V c).after 4 t) = _
  rw [after4_4]
  unfold out4_4
  rw [View.canon_unit_zero hz]
  simp only [View.ld_unit_zero (S := S5000x64) hz, View.ld_unit_zero (S := S64x64) hz, View.ld_unit_zero (S := S1x64) hz]
  rw [k4_pay1_eq, iblk4_1_eq, iblk4_2_eq, hW2, hb2]
  obtain ⟨-, -, -, -, -, -, -, -, e0, e1, -⟩ := idx_facts4 t
  have ht : t.val < 6 := lt_of_lt_of_eq t.isLt N_4
  funext y
  obtain ⟨p, j, rfl⟩ : ∃ (p : Fin 5000) (j : Fin 64), y = ix2 p j := ⟨y 0, y 1, eq_ix2 y⟩
  have hr : 50000 + (5000 * t.val + p.val) < 100000 := by have := p.isLt; omega
  rw [View.read_apply]
  refine (embVec_apply (iblk4 V c 0 t) W (shapeCast S1x64 b shapeCasts_S64_S1x64) p j).trans ?_
  refine ((embArr_at 50000 (by decide) agg W b _ ⟨50000 + (5000 * t.val + p.val), hr⟩ j ?_ ?_).trans ?_).symm
  · show 50000 + (5000 * t.val + p.val) = 50000 + (win4_4.index t 0 * 5000 + 1 * p.val); rw [e0]; omega
  · show win4_4.index t 1 * 64 + 1 * j.val = j.val; rw [e1]; omega
  · rw [iblk4_0_row V c agg hagg t p hr]
    refine congrArg (fun f => normedRow _ W f j) ?_
    exact (funext fun j => shapeCast_a_1a_apply b shapeCasts_S64_S1x64 0 j).symm

end Region4b

section Region4c

variable (V : (c : Dev nD) → (b : Ref sig .tc) → Buf (Elt Ideal) ((c : Thread nD τ).loc b))

theorem flushed4_5_eq (c : Dev nD) (agg : (⟨2, ![100000, 64]⟩ : Shape).Idx → EReal) (W : (⟨2, ![64, 64]⟩ : Shape).Idx → EReal)
    (b : (⟨1, ![64]⟩ : Shape).Idx → EReal) (Wc : (⟨2, ![64, 32]⟩ : Shape).Idx → EReal)
    (hagg : V c main_v16 = extractStridedSlice S30000x64 ![50000, 0] agg slices_S100000x64_S30000x64_50000_0)
    (hW2 : V c main_arg6 = W) (hb2 : V c main_v18 = shapeCast S1x64 b shapeCasts_S64_S1x64) (hWc : V c main_arg9 = Wc) (t : Fin cfg4.N) :
    (dat4 V c).flushed 5 t = ((cfg4.win 5).blk t).view.read (Elt Ideal) (ctxArr (n := 30000) 50000 (by decide) agg W b Wc) := by
  show (cfg4.win 5).cut (grid4.coords t) ((dat4 V c).after 5 t) = _
  rw [after4_5]
  unfold out4_5
  rw [View.canon_unit_zero hz]
  simp only [View.ld_unit_zero (S := S5000x64) hz, View.ld_unit_zero (S := S64x64) hz, View.ld_unit_zero (S := S1x64) hz,
    View.ld_unit_zero (S := S64x32) hz]
  rw [k4_pay2_eq, iblk4_1_eq, iblk4_2_eq, iblk4_3_eq, hW2, hb2, hWc]
  obtain ⟨-, -, -, -, -, -, -, -, -, -, e0, e1⟩ := idx_facts4 t
  have ht : t.val < 6 := lt_of_lt_of_eq t.isLt N_4
  funext y
  obtain ⟨p, q, rfl⟩ : ∃ (p : Fin 5000) (q : Fin 32), y = ix2 p q := ⟨y 0, y 1, eq_ix2 y⟩
  have hr : 50000 + (5000 * t.val + p.val) < 100000 := by have := p.isLt; omega
  rw [View.read_apply]
  refine (ctxOfVec_apply (iblk4 V c 0 t) W (shapeCast S1x64 b shapeCasts_S64_S1x64) Wc p q).trans ?_
  refine ((ctxArr_at 50000 (by decide) agg W b Wc _ ⟨50000 + (5000 * t.val + p.val), hr⟩ q ?_ ?_).trans ?_).symm
  · show 50000 + (5000 * t.val + p.val) = 50000 + (win4_5.index t 0 * 5000 + 1 * p.val); rw [e0]; omega
  · show win4_5.index t 1 * 32 + 1 * q.val = q.val; rw [e1]; omega
  · rw [iblk4_0_row V c agg hagg t p hr]
    refine congrArg (fun f => ctxRow _ W f Wc q) ?_
    exact (funext fun j => shapeCast_a_1a_apply b shapeCasts_S64_S1x64 0 j).symm

theorem covered4_4 (i : S30000x64.Idx) : ∃ t : Fin cfg4.N, (cfg4.win 4).flush t = true ∧ i ∈ ((cfg4.win 4).blk t).view.set := by
  have h0 : (i 0).val < 30000 := idx2_lt0 i
  have h1 : (i 1).val < 64 := idx2_lt1 i
  have hN : grid4.N = 6 := N_4
  obtain ⟨t, ht⟩ : ∃ t : Fin cfg4.N, t.val = (i 0).val / 5000 := ⟨⟨(i 0).val / 5000, by show _ < grid4.N; rw [hN]; omega⟩, rfl⟩
  refine ⟨t, flush4_4 t, ?_⟩
  obtain ⟨-, -, -, -, -, -, -, -, e0, e1, -⟩ := idx_facts4 t
  show i ∈ ((View.whole main_v20_0).slice (win4_4.rect t)).set
  rw [View.set_slice_whole, Rect.mem_set_unit]
  intro a
  match a with
  | ⟨0, _⟩ =>
    show win4_4.index t 0 * 5000 ≤ (i 0).val ∧ (i 0).val < win4_4.index t 0 * 5000 + 5000
    rw [e0, ht]; omega
  | ⟨1, _⟩ =>
    show win4_4.index t 1 * 64 ≤ (i 1).val ∧ (i 1).val < win4_4.index t 1 * 64 + 64
    rw [e1]; omega

theorem covered4_5 (i : S30000x32.Idx) : ∃ t : Fin cfg4.N, (cfg4.win 5).flush t = true ∧ i ∈ ((cfg4.win 5).blk t).view.set := by
  have h0 : (i 0).val < 30000 := idx2_lt0 i
  have h1 : (i 1).val < 32 := idx2_lt1 i
  have hN : grid4.N = 6 := N_4
  obtain ⟨t, ht⟩ : ∃ t : Fin cfg4.N, t.val = (i 0).val / 5000 := ⟨⟨(i 0).val / 5000, by show _ < grid4.N; rw [hN]; omega⟩, rfl⟩
  refine ⟨t, flush4_5 t, ?_⟩
  obtain ⟨-, -, -, -, -, -, -, -, -, -, e0, e1⟩ := idx_facts4 t
  show i ∈ ((View.whole main_v20_1).slice (win4_5.rect t)).set
  rw [View.set_slice_whole, Rect.mem_set_unit]
  intro a
  match a with
  | ⟨0, _⟩ =>
    show win4_5.index t 0 * 5000 ≤ (i 0).val ∧ (i 0).val < win4_5.index t 0 * 5000 + 5000
    rw [e0, ht]; omega
  | ⟨1, _⟩ =>
    show win4_5.index t 1 * 32 ≤ (i 1).val ∧ (i 1).val < win4_5.index t 1 * 32 + 32
    rw [e1]; omega

theorem postagg4_kernel (c : Dev nD) (agg : (⟨2, ![100000, 64]⟩ : Shape).Idx → EReal) (W : (⟨2, ![64, 64]⟩ : Shape).Idx → EReal)
    (b : (⟨1, ![64]⟩ : Shape).Idx → EReal) (Wc : (⟨2, ![64, 32]⟩ : Shape).Idx → EReal)
    (hagg : V c main_v16 = extractStridedSlice S30000x64 ![50000, 0] agg slices_S100000x64_S30000x64_50000_0)
    (hW2 : V c main_arg6 = W) (hb2 : V c main_v18 = shapeCast S1x64 b shapeCasts_S64_S1x64) (hWc : V c main_arg9 = Wc) :
    (dat4 V c).arrAt 4 cfg4.N = embArr (n := 30000) 50000 (by decide) agg W b
      ∧ (dat4 V c).arrAt 5 cfg4.N = ctxArr (n := 30000) 50000 (by decide) agg W b Wc :=
  ⟨(dat4 V c).arrAt_eq_of_cover 4 (embArr (n := 30000) 50000 (by decide) agg W b)
      (fun t _ => flushed4_4_eq V c agg W b hagg hW2 hb2 t) covered4_4,
    (dat4 V c).arrAt_eq_of_cover 5 (ctxArr (n := 30000) 50000 (by decide) agg W b Wc)
      (fun t _ => flushed4_5_eq V c agg W b Wc hagg hW2 hb2 hWc t) covered4_5⟩

end Region4c

section Region5

variable (V : (c : Dev nD) → (b : Ref sig .tc) → Buf (Elt Ideal) ((c : Thread nD τ).loc b))

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

theorem iblk5_0_apply (c : Dev nD) (t : Fin cfg5.N) (p : Fin 5000) (k : Fin 64) (i : S20000x64.Idx)
    (h0 : (i 0).val = 5000 * t.val + p.val) (h1 : (i 1).val = k.val) :
    (iblk5 V c 0 t : Vec Ideal S5000x64 .f32) (ix2 p k) = (V c main_v17 : S20000x64.Idx → EReal) i := by
  obtain ⟨e0, e1, -⟩ := idx_facts5 t
  unfold iblk5
  rw [View.read_apply]
  show V c main_v17 _ = V c main_v17 _
  congr 1
  funext a
  apply Fin.ext
  match a with
  | ⟨0, _⟩ => show win5_0.index t 0 * 5000 + 1 * p.val = (i 0).val; rw [e0, h0]; omega
  | ⟨1, _⟩ => show win5_0.index t 1 * 64 + 1 * k.val = (i 1).val; rw [e1, h1]; omega

theorem iblk5_1_eq (c : Dev nD) (t : Fin cfg5.N) : (iblk5 V c 1 t : Vec Ideal S64x64 .f32) = (V c main_arg6 : S64x64.Idx → EReal) := by
  obtain ⟨-, -, e0, e1, -⟩ := idx_facts5 t
  funext j
  unfold iblk5
  rw [View.read_apply]
  show V c main_arg6 _ = V c main_arg6 _
  congr 1
  funext a
  apply Fin.ext
  match a with
  | ⟨0, _⟩ => show win5_1.index t 0 * 64 + 1 * (j 0).val = (j 0).val; rw [e0]; omega
  | ⟨1, _⟩ => show win5_1.index t 1 * 64 + 1 * (j 1).val = (j 1).val; rw [e1]; omega

theorem iblk5_2_eq (c : Dev nD) (t : Fin cfg5.N) : (iblk5 V c 2 t : Vec Ideal S1x64 .f32) = (V c main_v18 : S1x64.Idx → EReal) := by
  obtain ⟨-, -, -, -, e0, e1, -⟩ := idx_facts5 t
  funext j
  unfold iblk5
  rw [View.read_apply]
  show V c main_v18 _ = V c main_v18 _
  congr 1
  funext a
  apply Fin.ext
  match a with
  | ⟨0, _⟩ => show win5_2.index t 0 * 1 + 1 * (j 0).val = (j 0).val; rw [e0]; omega
  | ⟨1, _⟩ => show win5_2.index t 1 * 64 + 1 * (j 1).val = (j 1).val; rw [e1]; omega

theorem iblk5_3_eq (c : Dev nD) (t : Fin cfg5.N) : (iblk5 V c 3 t : Vec Ideal S64x32 .f32) = (V c main_arg10 : S64x32.Idx → EReal) := by
  obtain ⟨-, -, -, -, -, -, e0, e1, -⟩ := idx_facts5 t
  funext j
  unfold iblk5
  rw [View.read_apply]
  show V c main_arg10 _ = V c main_arg10 _
  congr 1
  funext a
  apply Fin.ext
  match a with
  | ⟨0, _⟩ => show win5_3.index t 0 * 64 + 1 * (j 0).val = (j 0).val; rw [e0]; omega
  | ⟨1, _⟩ => show win5_3.index t 1 * 32 + 1 * (j 1).val = (j 1).val; rw [e1]; omega

end Region5

section Region5b

variable (V : (c : Dev nD) → (b : Ref sig .tc) → Buf (Elt Ideal) ((c : Thread nD τ).loc b))

theorem iblk5_0_row (c : Dev nD) (agg : (⟨2, ![100000, 64]⟩ : Shape).Idx → EReal)
    (hagg : V c main_v17 = extractStridedSlice S20000x64 ![80000, 0] agg slices_S100000x64_S20000x64_80000_0)
    (t : Fin cfg5.N) (p : Fin 5000) (hr : 80000 + (5000 * t.val + p.val) < 100000) :
    (fun k => (iblk5 V c 0 t : Vec Ideal S5000x64 .f32) (ix2 p k)) = rowOf agg ⟨80000 + (5000 * t.val + p.val), hr⟩ := by
  have ht : t.val < 4 := lt_of_lt_of_eq t.isLt N_5
  funext k
  rw [iblk5_0_apply V c t p k (ix2 ⟨5000 * t.val + p.val, by have := p.isLt; omega⟩ k) rfl rfl, hagg]
  exact extractStridedSlice_apply ![80000, 0] agg slices_S100000x64_S20000x64_80000_0 _ (ix2 ⟨80000 + (5000 * t.val + p.val), hr⟩ k)
    (fun a => match a with
      | ⟨0, _⟩ => rfl
      | ⟨1, _⟩ => by show k.val = 0 + k.val; omega)

theorem flushed5_4_eq (c : Dev nD) (agg : (⟨2, ![100000, 64]⟩ : Shape).Idx → EReal) (W : (⟨2, ![64, 64]⟩ : Shape).Idx → EReal)
    (b : (⟨1, ![64]⟩ : Shape).Idx → EReal)
    (hagg : V c main_v17 = extractStridedSlice S20000x64 ![80000, 0] agg slices_S100000x64_S20000x64_80000_0)
    (hW2 : V c main_arg6 = W) (hb2 : V c main_v18 = shapeCast S1x64 b shapeCasts_S64_S1x64) (t : Fin cfg5.N) :
    (dat5 V c).flushed 4 t = ((cfg5.win 4).blk t).view.read (Elt Ideal) (embArr (n := 20000) 80000 (by decide) agg W b) := by
  show (cfg5.win 4).cut (grid5.coords t) ((dat5 V c).after 4 t) = _
  rw [after5_4]
  unfold out5_4
  rw [View.canon_unit_zero hz]
  simp only [View.ld_unit_zero (S := S5000x64) hz, View.ld_unit_zero (S := S64x64) hz, View.ld_unit_zero (S := S1x64) hz]
  rw [k5_pay1_eq, iblk5_1_eq, iblk5_2_eq, hW2, hb2]
  obtain ⟨-, -, -, -, -, -, -, -, e0, e1, -⟩ := idx_facts5 t
  have ht : t.val < 4 := lt_of_lt_of_eq t.isLt N_5
  funext y
  obtain ⟨p, j, rfl⟩ : ∃ (p : Fin 5000) (j : Fin 64), y = ix2 p j := ⟨y 0, y 1, eq_ix2 y⟩
  have hr : 80000 + (5000 * t.val + p.val) < 100000 := by have := p.isLt; omega
  rw [View.read_apply]
  refine (embVec_apply (iblk5 V c 0 t) W (shapeCast S1x64 b shapeCasts_S64_S1x64) p j).trans ?_
  refine ((embArr_at 80000 (by decide) agg W b _ ⟨80000 + (5000 * t.val + p.val), hr⟩ j ?_ ?_).trans ?_).symm
  · show 80000 + (5000 * t.val + p.val) = 80000 + (win5_4.index t 0 * 5000 + 1 * p.val); rw [e0]; omega
  · show win5_4.index t 1 * 64 + 1 * j.val = j.val; rw [e1]; omega
  · rw [iblk5_0_row V c agg hagg t p hr]
    refine congrArg (fun f => normedRow _ W f j) ?_
    exact (funext fun j => shapeCast_a_1a_apply b shapeCasts_S64_S1x64 0 j).symm

end Region5b

section Region5c

variable (V : (c : Dev nD) → (b : Ref sig .tc) → Buf (Elt Ideal) ((c : Thread nD τ).loc b))

theorem flushed5_5_eq (c : Dev nD) (agg : (⟨2, ![100000, 64]⟩ : Shape).Idx → EReal) (W : (⟨2, ![64, 64]⟩ : Shape).Idx → EReal)
    (b : (⟨1, ![64]⟩ : Shape).Idx → EReal) (Wc : (⟨2, ![64, 32]⟩ : Shape).Idx → EReal)
    (hagg : V c main_v17 = extractStridedSlice S20000x64 ![80000, 0] agg slices_S100000x64_S20000x64_80000_0)
    (hW2 : V c main_arg6 = W) (hb2 : V c main_v18 = shapeCast S1x64 b shapeCasts_S64_S1x64) (hWc : V c main_arg10 = Wc) (t : Fin cfg5.N) :
    (dat5 V c).flushed 5 t = ((cfg5.win 5).blk t).view.read (Elt Ideal) (ctxArr (n := 20000) 80000 (by decide) agg W b Wc) := by
  show (cfg5.win 5).cut (grid5.coords t) ((dat5 V c).after 5 t) = _
  rw [after5_5]
  unfold out5_5
  rw [View.canon_unit_zero hz]
  simp only [View.ld_unit_zero (S := S5000x64) hz, View.ld_unit_zero (S := S64x64) hz, View.ld_unit_zero (S := S1x64) hz,
    View.ld_unit_zero (S := S64x32) hz]
  rw [k5_pay2_eq, iblk5_1_eq, iblk5_2_eq, iblk5_3_eq, hW2, hb2, hWc]
  obtain ⟨-, -, -, -, -, -, -, -, -, -, e0, e1⟩ := idx_facts5 t
  have ht : t.val < 4 := lt_of_lt_of_eq t.isLt N_5
  funext y
  obtain ⟨p, q, rfl⟩ : ∃ (p : Fin 5000) (q : Fin 32), y = ix2 p q := ⟨y 0, y 1, eq_ix2 y⟩
  have hr : 80000 + (5000 * t.val + p.val) < 100000 := by have := p.isLt; omega
  rw [View.read_apply]
  refine (ctxOfVec_apply (iblk5 V c 0 t) W (shapeCast S1x64 b shapeCasts_S64_S1x64) Wc p q).trans ?_
  refine ((ctxArr_at 80000 (by decide) agg W b Wc _ ⟨80000 + (5000 * t.val + p.val), hr⟩ q ?_ ?_).trans ?_).symm
  · show 80000 + (5000 * t.val + p.val) = 80000 + (win5_5.index t 0 * 5000 + 1 * p.val); rw [e0]; omega
  · show win5_5.index t 1 * 32 + 1 * q.val = q.val; rw [e1]; omega
  · rw [iblk5_0_row V c agg hagg t p hr]
    refine congrArg (fun f => ctxRow _ W f Wc q) ?_
    exact (funext fun j => shapeCast_a_1a_apply b shapeCasts_S64_S1x64 0 j).symm

theorem covered5_4 (i : S20000x64.Idx) : ∃ t : Fin cfg5.N, (cfg5.win 4).flush t = true ∧ i ∈ ((cfg5.win 4).blk t).view.set := by
  have h0 : (i 0).val < 20000 := idx2_lt0 i
  have h1 : (i 1).val < 64 := idx2_lt1 i
  have hN : grid5.N = 4 := N_5
  obtain ⟨t, ht⟩ : ∃ t : Fin cfg5.N, t.val = (i 0).val / 5000 := ⟨⟨(i 0).val / 5000, by show _ < grid5.N; rw [hN]; omega⟩, rfl⟩
  refine ⟨t, flush5_4 t, ?_⟩
  obtain ⟨-, -, -, -, -, -, -, -, e0, e1, -⟩ := idx_facts5 t
  show i ∈ ((View.whole main_v21_0).slice (win5_4.rect t)).set
  rw [View.set_slice_whole, Rect.mem_set_unit]
  intro a
  match a with
  | ⟨0, _⟩ =>
    show win5_4.index t 0 * 5000 ≤ (i 0).val ∧ (i 0).val < win5_4.index t 0 * 5000 + 5000
    rw [e0, ht]; omega
  | ⟨1, _⟩ =>
    show win5_4.index t 1 * 64 ≤ (i 1).val ∧ (i 1).val < win5_4.index t 1 * 64 + 64
    rw [e1]; omega

theorem covered5_5 (i : S20000x32.Idx) : ∃ t : Fin cfg5.N, (cfg5.win 5).flush t = true ∧ i ∈ ((cfg5.win 5).blk t).view.set := by
  have h0 : (i 0).val < 20000 := idx2_lt0 i
  have h1 : (i 1).val < 32 := idx2_lt1 i
  have hN : grid5.N = 4 := N_5
  obtain ⟨t, ht⟩ : ∃ t : Fin cfg5.N, t.val = (i 0).val / 5000 := ⟨⟨(i 0).val / 5000, by show _ < grid5.N; rw [hN]; omega⟩, rfl⟩
  refine ⟨t, flush5_5 t, ?_⟩
  obtain ⟨-, -, -, -, -, -, -, -, -, -, e0, e1⟩ := idx_facts5 t
  show i ∈ ((View.whole main_v21_1).slice (win5_5.rect t)).set
  rw [View.set_slice_whole, Rect.mem_set_unit]
  intro a
  match a with
  | ⟨0, _⟩ =>
    show win5_5.index t 0 * 5000 ≤ (i 0).val ∧ (i 0).val < win5_5.index t 0 * 5000 + 5000
    rw [e0, ht]; omega
  | ⟨1, _⟩ =>
    show win5_5.index t 1 * 32 ≤ (i 1).val ∧ (i 1).val < win5_5.index t 1 * 32 + 32
    rw [e1]; omega

theorem postagg5_kernel (c : Dev nD) (agg : (⟨2, ![100000, 64]⟩ : Shape).Idx → EReal) (W : (⟨2, ![64, 64]⟩ : Shape).Idx → EReal)
    (b : (⟨1, ![64]⟩ : Shape).Idx → EReal) (Wc : (⟨2, ![64, 32]⟩ : Shape).Idx → EReal)
    (hagg : V c main_v17 = extractStridedSlice S20000x64 ![80000, 0] agg slices_S100000x64_S20000x64_80000_0)
    (hW2 : V c main_arg6 = W) (hb2 : V c main_v18 = shapeCast S1x64 b shapeCasts_S64_S1x64) (hWc : V c main_arg10 = Wc) :
    (dat5 V c).arrAt 4 cfg5.N = embArr (n := 20000) 80000 (by decide) agg W b
      ∧ (dat5 V c).arrAt 5 cfg5.N = ctxArr (n := 20000) 80000 (by decide) agg W b Wc :=
  ⟨(dat5 V c).arrAt_eq_of_cover 4 (embArr (n := 20000) 80000 (by decide) agg W b)
      (fun t _ => flushed5_4_eq V c agg W b hagg hW2 hb2 t) covered5_4,
    (dat5 V c).arrAt_eq_of_cover 5 (ctxArr (n := 20000) 80000 (by decide) agg W b Wc)
      (fun t _ => flushed5_5_eq V c agg W b Wc hagg hW2 hb2 hWc t) covered5_5⟩

end Region5c

section Reference

open Cert.ReferenceIdeal.Read

variable (x0 : (⟨Cert.ReferenceIdeal.S50000x128, .f32⟩ : BufTy).Contents (Elt Ideal))
  (x1 : (⟨Cert.ReferenceIdeal.S30000x128, .f32⟩ : BufTy).Contents (Elt Ideal))
  (x2 : (⟨Cert.ReferenceIdeal.S20000x128, .f32⟩ : BufTy).Contents (Elt Ideal))
  (x3 x4 x5 : (⟨Cert.ReferenceIdeal.S128x64, .f32⟩ : BufTy).Contents (Elt Ideal))
  (x6 : (⟨Cert.ReferenceIdeal.S64x64, .f32⟩ : BufTy).Contents (Elt Ideal))
  (x7 : (⟨Cert.ReferenceIdeal.S64, .f32⟩ : BufTy).Contents (Elt Ideal))
  (x17 x18 : (⟨Cert.ReferenceIdeal.S3200000, .i32⟩ : BufTy).Contents (Elt Ideal))

theorem ref_raw_at (r : Fin 100000) (j : Fin 64) :
    val_main_v17 (F := Ideal) x0 x1 x2 x3 x4 x5 x6 x7 x17 x18 (ix2 r j)
      = rawRow (rowOf (val_main_v13 (F := Ideal) x0 x1 x2 x3 x4 x5 x17 x18) r) x6 (biasOf x7) j := by
  rw [val_main_v17_apply, val_main_v14_apply, val_main_v16_apply, val_main_v15_apply]
  unfold rawRow rowOf biasOf
  refine congrArg₂ (· + ·) (Finset.sum_congr rfl fun k _ => ?_) ?_
  · have el : lidx_main_v14 (ix2 r j) k = ix2 r k :=
      funext fun a => Fin.ext (by match a with | ⟨0, _⟩ => rfl | ⟨1, _⟩ => rfl)
    have er : ridx_main_v14 (ix2 r j) k = ix2 k j :=
      funext fun a => Fin.ext (by match a with | ⟨0, _⟩ => rfl | ⟨1, _⟩ => rfl)
    rw [el, er]
  · exact congrArg x7 (funext fun a => Fin.ext (by match a with | ⟨0, _⟩ => rfl))

theorem ref_sumsq_at (r : Fin 100000) :
    val_main_call0_v1 (F := Ideal) x0 x1 x2 x3 x4 x5 x6 x7 x17 x18 (ix1 r)
      = ∑ j : Fin 64, rawRow (rowOf (val_main_v13 (F := Ideal) x0 x1 x2 x3 x4 x5 x17 x18) r) x6 (biasOf x7) j
          * rawRow (rowOf (val_main_v13 (F := Ideal) x0 x1 x2 x3 x4 x5 x17 x18) r) x6 (biasOf x7) j := by
  rw [val_main_call0_v1_apply, val_main_call0_cst_apply]
  show Ideal.ofBits .f32 0x00000000#32 + _ = _
  rw [Ideal.ofBits_zero_f32, zero_add]
  refine Finset.sum_congr rfl fun k _ => ?_
  have e : idx_main_call0_v1 (ix1 r) k = ix2 r k :=
    funext fun a => Fin.ext (by match a with | ⟨0, _⟩ => rfl | ⟨1, _⟩ => rfl)
  rw [e, val_main_call0_v0_apply, ref_raw_at]
  rfl

theorem ref_nrm_at (r : Fin 100000) :
    val_main_v20 (F := Ideal) x0 x1 x2 x3 x4 x5 x6 x7 x17 x18 (ix2 r (0 : Fin 1))
      = nrmRow (rowOf (val_main_v13 (F := Ideal) x0 x1 x2 x3 x4 x5 x17 x18) r) x6 (biasOf x7) := by
  rw [val_main_v20_apply, val_main_v18_apply, val_main_call0_v2_apply, val_main_v19_apply]
  have e : idx_main_call0_v2 (ix2 r (0 : Fin 1)) = ix1 r :=
    funext fun a => Fin.ext (by match a with | ⟨0, _⟩ => rfl)
  rw [e, ref_sumsq_at, val_main_cst_1_apply]
  unfold nrmRow
  simp only [Ideal.maximumf_def, Ideal.hostUnary_sqrt_def, Ideal.ofBits_def]

theorem ref_normed_at (r : Fin 100000) (j : Fin 64) :
    val_main_v22 (F := Ideal) x0 x1 x2 x3 x4 x5 x6 x7 x17 x18 (ix2 r j)
      = normedRow (rowOf (val_main_v13 (F := Ideal) x0 x1 x2 x3 x4 x5 x17 x18) r) x6 (biasOf x7) j := by
  rw [val_main_v22_apply, val_main_v21_apply, ref_raw_at]
  have e : idx_main_v21 (ix2 r j) = ix2 r (0 : Fin 1) :=
    funext fun a => Fin.ext (by match a with | ⟨0, _⟩ => rfl | ⟨1, _⟩ => rfl)
  rw [e, ref_nrm_at]
  rfl

theorem ref_emb3 : val_main_v23 (F := Ideal) x0 x1 x2 x3 x4 x5 x6 x7 x17 x18
    = embArr (n := 50000) 0 (by decide) (val_main_v13 (F := Ideal) x0 x1 x2 x3 x4 x5 x17 x18) x6 x7 := by
  funext i
  obtain ⟨p, j, rfl⟩ : ∃ (p : Fin 50000) (j : Fin 64), i = ix2 p j := ⟨i 0, i 1, eq_ix2 i⟩
  have hr : 0 + p.val < 100000 := by have := p.isLt; omega
  rw [val_main_v23_apply]
  have e : idx_main_v23 (ix2 p j) = ix2 (⟨0 + p.val, hr⟩ : Fin 100000) j :=
    funext fun a => Fin.ext (by
      match a with
      | ⟨0, _⟩ => show p.val = 0 + p.val; omega
      | ⟨1, _⟩ => rfl)
  rw [e, ref_normed_at]
  exact (embArr_at 0 (by decide) _ x6 x7 (ix2 p j) ⟨0 + p.val, hr⟩ j rfl rfl).symm

theorem ref_ctx3 (x8 : (⟨Cert.ReferenceIdeal.S64x32, .f32⟩ : BufTy).Contents (Elt Ideal)) :
    val_main_v26 (F := Ideal) x0 x1 x2 x3 x4 x5 x6 x7 x8 x17 x18
      = ctxArr (n := 50000) 0 (by decide) (val_main_v13 (F := Ideal) x0 x1 x2 x3 x4 x5 x17 x18) x6 x7 x8 := by
  funext i
  obtain ⟨p, q, rfl⟩ : ∃ (p : Fin 50000) (q : Fin 32), i = ix2 p q := ⟨i 0, i 1, eq_ix2 i⟩
  have hr : 0 + p.val < 100000 := by have := p.isLt; omega
  rw [val_main_v26_apply]
  refine ((ctxArr_at 0 (by decide) _ x6 x7 x8 (ix2 p q) ⟨0 + p.val, hr⟩ q rfl rfl).trans ?_).symm
  unfold ctxRow
  refine Finset.sum_congr rfl fun k _ => ?_
  have el : lidx_main_v26 (ix2 p q) k = ix2 p k :=
    funext fun a => Fin.ext (by match a with | ⟨0, _⟩ => rfl | ⟨1, _⟩ => rfl)
  have er : ridx_main_v26 (ix2 p q) k = ix2 k q :=
    funext fun a => Fin.ext (by match a with | ⟨0, _⟩ => rfl | ⟨1, _⟩ => rfl)
  rw [el, er, ref_emb3]
  exact congrArg (· * x8 (ix2 k q)) (embArr_at 0 (by decide) _ x6 x7 (ix2 p k) ⟨0 + p.val, hr⟩ k rfl rfl).symm

theorem ref_emb4 : val_main_v24 (F := Ideal) x0 x1 x2 x3 x4 x5 x6 x7 x17 x18
    = embArr (n := 30000) 50000 (by decide) (val_main_v13 (F := Ideal) x0 x1 x2 x3 x4 x5 x17 x18) x6 x7 := by
  funext i
  obtain ⟨p, j, rfl⟩ : ∃ (p : Fin 30000) (j : Fin 64), i = ix2 p j := ⟨i 0, i 1, eq_ix2 i⟩
  have hr : 50000 + p.val < 100000 := by have := p.isLt; omega
  rw [val_main_v24_apply]
  have e : idx_main_v24 (ix2 p j) = ix2 (⟨50000 + p.val, hr⟩ : Fin 100000) j :=
    funext fun a => Fin.ext (by match a with | ⟨0, _⟩ => rfl | ⟨1, _⟩ => rfl)
  rw [e, ref_normed_at]
  exact (embArr_at 50000 (by decide) _ x6 x7 (ix2 p j) ⟨50000 + p.val, hr⟩ j rfl rfl).symm

theorem ref_ctx4 (x9 : (⟨Cert.ReferenceIdeal.S64x32, .f32⟩ : BufTy).Contents (Elt Ideal)) :
    val_main_v27 (F := Ideal) x0 x1 x2 x3 x4 x5 x6 x7 x9 x17 x18
      = ctxArr (n := 30000) 50000 (by decide) (val_main_v13 (F := Ideal) x0 x1 x2 x3 x4 x5 x17 x18) x6 x7 x9 := by
  funext i
  obtain ⟨p, q, rfl⟩ : ∃ (p : Fin 30000) (q : Fin 32), i = ix2 p q := ⟨i 0, i 1, eq_ix2 i⟩
  have hr : 50000 + p.val < 100000 := by have := p.isLt; omega
  rw [val_main_v27_apply]
  refine ((ctxArr_at 50000 (by decide) _ x6 x7 x9 (ix2 p q) ⟨50000 + p.val, hr⟩ q rfl rfl).trans ?_).symm
  unfold ctxRow
  refine Finset.sum_congr rfl fun k _ => ?_
  have el : lidx_main_v27 (ix2 p q) k = ix2 p k :=
    funext fun a => Fin.ext (by match a with | ⟨0, _⟩ => rfl | ⟨1, _⟩ => rfl)
  have er : ridx_main_v27 (ix2 p q) k = ix2 k q :=
    funext fun a => Fin.ext (by match a with | ⟨0, _⟩ => rfl | ⟨1, _⟩ => rfl)
  rw [el, er, ref_emb4]
  exact congrArg (· * x9 (ix2 k q)) (embArr_at 50000 (by decide) _ x6 x7 (ix2 p k) ⟨50000 + p.val, hr⟩ k rfl rfl).symm

theorem ref_emb5 : val_main_v25 (F := Ideal) x0 x1 x2 x3 x4 x5 x6 x7 x17 x18
    = embArr (n := 20000) 80000 (by decide) (val_main_v13 (F := Ideal) x0 x1 x2 x3 x4 x5 x17 x18) x6 x7 := by
  funext i
  obtain ⟨p, j, rfl⟩ : ∃ (p : Fin 20000) (j : Fin 64), i = ix2 p j := ⟨i 0, i 1, eq_ix2 i⟩
  have hr : 80000 + p.val < 100000 := by have := p.isLt; omega
  rw [val_main_v25_apply]
  have e : idx_main_v25 (ix2 p j) = ix2 (⟨80000 + p.val, hr⟩ : Fin 100000) j :=
    funext fun a => Fin.ext (by match a with | ⟨0, _⟩ => rfl | ⟨1, _⟩ => rfl)
  rw [e, ref_normed_at]
  exact (embArr_at 80000 (by decide) _ x6 x7 (ix2 p j) ⟨80000 + p.val, hr⟩ j rfl rfl).symm

theorem ref_ctx5 (x10 : (⟨Cert.ReferenceIdeal.S64x32, .f32⟩ : BufTy).Contents (Elt Ideal)) :
    val_main_v28 (F := Ideal) x0 x1 x2 x3 x4 x5 x6 x7 x10 x17 x18
      = ctxArr (n := 20000) 80000 (by decide) (val_main_v13 (F := Ideal) x0 x1 x2 x3 x4 x5 x17 x18) x6 x7 x10 := by
  funext i
  obtain ⟨p, q, rfl⟩ : ∃ (p : Fin 20000) (q : Fin 32), i = ix2 p q := ⟨i 0, i 1, eq_ix2 i⟩
  have hr : 80000 + p.val < 100000 := by have := p.isLt; omega
  rw [val_main_v28_apply]
  refine ((ctxArr_at 80000 (by decide) _ x6 x7 x10 (ix2 p q) ⟨80000 + p.val, hr⟩ q rfl rfl).trans ?_).symm
  unfold ctxRow
  refine Finset.sum_congr rfl fun k _ => ?_
  have el : lidx_main_v28 (ix2 p q) k = ix2 p k :=
    funext fun a => Fin.ext (by match a with | ⟨0, _⟩ => rfl | ⟨1, _⟩ => rfl)
  have er : ridx_main_v28 (ix2 p q) k = ix2 k q :=
    funext fun a => Fin.ext (by match a with | ⟨0, _⟩ => rfl | ⟨1, _⟩ => rfl)
  rw [el, er, ref_emb5]
  exact congrArg (· * x10 (ix2 k q)) (embArr_at 80000 (by decide) _ x6 x7 (ix2 p k) ⟨80000 + p.val, hr⟩ k rfl rfl).symm

end Reference

end Postagg

theorem postagg3_value (V : (c : Dev nD) → (b : Ref sig .tc) → Buf (Elt Ideal) ((c : Thread nD τ).loc b)) (c : Dev nD)
    (x0 : (⟨Cert.ReferenceIdeal.S50000x128, .f32⟩ : BufTy).Contents (Elt Ideal))
    (x1 : (⟨Cert.ReferenceIdeal.S30000x128, .f32⟩ : BufTy).Contents (Elt Ideal))
    (x2 : (⟨Cert.ReferenceIdeal.S20000x128, .f32⟩ : BufTy).Contents (Elt Ideal))
    (x3 x4 x5 : (⟨Cert.ReferenceIdeal.S128x64, .f32⟩ : BufTy).Contents (Elt Ideal))
    (x6 : (⟨Cert.ReferenceIdeal.S64x64, .f32⟩ : BufTy).Contents (Elt Ideal))
    (x7 : (⟨Cert.ReferenceIdeal.S64, .f32⟩ : BufTy).Contents (Elt Ideal))
    (x8 : (⟨Cert.ReferenceIdeal.S64x32, .f32⟩ : BufTy).Contents (Elt Ideal))
    (x17 x18 : (⟨Cert.ReferenceIdeal.S3200000, .i32⟩ : BufTy).Contents (Elt Ideal))
    (hagg : V c main_v15 = extractStridedSlice S50000x64 ![0, 0]
      (Cert.ReferenceIdeal.Read.val_main_v13 (F := Ideal) x0 x1 x2 x3 x4 x5 x17 x18) slices_S100000x64_S50000x64_0_0)
    (hW2 : V c main_arg6 = x6) (hb2 : V c main_v18 = shapeCast S1x64 x7 shapeCasts_S64_S1x64) (hWc : V c main_arg8 = x8) :
    (dat3 (F := Ideal) V c).arrAt 4 cfg3.N = Cert.ReferenceIdeal.Read.val_main_v23 (F := Ideal) x0 x1 x2 x3 x4 x5 x6 x7 x17 x18
      ∧ (dat3 (F := Ideal) V c).arrAt 5 cfg3.N
          = Cert.ReferenceIdeal.Read.val_main_v26 (F := Ideal) x0 x1 x2 x3 x4 x5 x6 x7 x8 x17 x18 := by
  obtain ⟨h4, h5⟩ := Postagg.postagg3_kernel V c
    (Cert.ReferenceIdeal.Read.val_main_v13 (F := Ideal) x0 x1 x2 x3 x4 x5 x17 x18) x6 x7 x8 hagg hW2 hb2 hWc
  exact ⟨h4.trans (Postagg.ref_emb3 x0 x1 x2 x3 x4 x5 x6 x7 x17 x18).symm,
    h5.trans (Postagg.ref_ctx3 x0 x1 x2 x3 x4 x5 x6 x7 x17 x18 x8).symm⟩

theorem postagg4_value (V : (c : Dev nD) → (b : Ref sig .tc) → Buf (Elt Ideal) ((c : Thread nD τ).loc b)) (c : Dev nD)
    (x0 : (⟨Cert.ReferenceIdeal.S50000x128, .f32⟩ : BufTy).Contents (Elt Ideal))
    (x1 : (⟨Cert.ReferenceIdeal.S30000x128, .f32⟩ : BufTy).Contents (Elt Ideal))
    (x2 : (⟨Cert.ReferenceIdeal.S20000x128, .f32⟩ : BufTy).Contents (Elt Ideal))
    (x3 x4 x5 : (⟨Cert.ReferenceIdeal.S128x64, .f32⟩ : BufTy).Contents (Elt Ideal))
    (x6 : (⟨Cert.ReferenceIdeal.S64x64, .f32⟩ : BufTy).Contents (Elt Ideal))
    (x7 : (⟨Cert.ReferenceIdeal.S64, .f32⟩ : BufTy).Contents (Elt Ideal))
    (x9 : (⟨Cert.ReferenceIdeal.S64x32, .f32⟩ : BufTy).Contents (Elt Ideal))
    (x17 x18 : (⟨Cert.ReferenceIdeal.S3200000, .i32⟩ : BufTy).Contents (Elt Ideal))
    (hagg : V c main_v16 = extractStridedSlice S30000x64 ![50000, 0]
      (Cert.ReferenceIdeal.Read.val_main_v13 (F := Ideal) x0 x1 x2 x3 x4 x5 x17 x18) slices_S100000x64_S30000x64_50000_0)
    (hW2 : V c main_arg6 = x6) (hb2 : V c main_v18 = shapeCast S1x64 x7 shapeCasts_S64_S1x64) (hWc : V c main_arg9 = x9) :
    (dat4 (F := Ideal) V c).arrAt 4 cfg4.N = Cert.ReferenceIdeal.Read.val_main_v24 (F := Ideal) x0 x1 x2 x3 x4 x5 x6 x7 x17 x18
      ∧ (dat4 (F := Ideal) V c).arrAt 5 cfg4.N
          = Cert.ReferenceIdeal.Read.val_main_v27 (F := Ideal) x0 x1 x2 x3 x4 x5 x6 x7 x9 x17 x18 := by
  obtain ⟨h4, h5⟩ := Postagg.postagg4_kernel V c
    (Cert.ReferenceIdeal.Read.val_main_v13 (F := Ideal) x0 x1 x2 x3 x4 x5 x17 x18) x6 x7 x9 hagg hW2 hb2 hWc
  exact ⟨h4.trans (Postagg.ref_emb4 x0 x1 x2 x3 x4 x5 x6 x7 x17 x18).symm,
    h5.trans (Postagg.ref_ctx4 x0 x1 x2 x3 x4 x5 x6 x7 x17 x18 x9).symm⟩

theorem postagg5_value (V : (c : Dev nD) → (b : Ref sig .tc) → Buf (Elt Ideal) ((c : Thread nD τ).loc b)) (c : Dev nD)
    (x0 : (⟨Cert.ReferenceIdeal.S50000x128, .f32⟩ : BufTy).Contents (Elt Ideal))
    (x1 : (⟨Cert.ReferenceIdeal.S30000x128, .f32⟩ : BufTy).Contents (Elt Ideal))
    (x2 : (⟨Cert.ReferenceIdeal.S20000x128, .f32⟩ : BufTy).Contents (Elt Ideal))
    (x3 x4 x5 : (⟨Cert.ReferenceIdeal.S128x64, .f32⟩ : BufTy).Contents (Elt Ideal))
    (x6 : (⟨Cert.ReferenceIdeal.S64x64, .f32⟩ : BufTy).Contents (Elt Ideal))
    (x7 : (⟨Cert.ReferenceIdeal.S64, .f32⟩ : BufTy).Contents (Elt Ideal))
    (x10 : (⟨Cert.ReferenceIdeal.S64x32, .f32⟩ : BufTy).Contents (Elt Ideal))
    (x17 x18 : (⟨Cert.ReferenceIdeal.S3200000, .i32⟩ : BufTy).Contents (Elt Ideal))
    (hagg : V c main_v17 = extractStridedSlice S20000x64 ![80000, 0]
      (Cert.ReferenceIdeal.Read.val_main_v13 (F := Ideal) x0 x1 x2 x3 x4 x5 x17 x18) slices_S100000x64_S20000x64_80000_0)
    (hW2 : V c main_arg6 = x6) (hb2 : V c main_v18 = shapeCast S1x64 x7 shapeCasts_S64_S1x64) (hWc : V c main_arg10 = x10) :
    (dat5 (F := Ideal) V c).arrAt 4 cfg5.N = Cert.ReferenceIdeal.Read.val_main_v25 (F := Ideal) x0 x1 x2 x3 x4 x5 x6 x7 x17 x18
      ∧ (dat5 (F := Ideal) V c).arrAt 5 cfg5.N
          = Cert.ReferenceIdeal.Read.val_main_v28 (F := Ideal) x0 x1 x2 x3 x4 x5 x6 x7 x10 x17 x18 := by
  obtain ⟨h4, h5⟩ := Postagg.postagg5_kernel V c
    (Cert.ReferenceIdeal.Read.val_main_v13 (F := Ideal) x0 x1 x2 x3 x4 x5 x17 x18) x6 x7 x10 hagg hW2 hb2 hWc
  exact ⟨h4.trans (Postagg.ref_emb5 x0 x1 x2 x3 x4 x5 x6 x7 x17 x18).symm,
    h5.trans (Postagg.ref_ctx5 x0 x1 x2 x3 x4 x5 x6 x7 x17 x18 x10).symm⟩

end Cert.KernelIdeal.Hand

end
-- ==== Proof.Val.Chain1.lean ====
import proofs.«418426_j87943750353447_3_alg».proof.Proof.KernelIdeal.Carry
import proofs.«418426_j87943750353447_3_alg».proof.Proof.Val.Proj
import proofs.«418426_j87943750353447_3_alg».proof.Proof.Val.Host
import proofs.«418426_j87943750353447_3_alg».proof.Proof.Val.Postagg

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ)

theorem c1_U2_U0 (c : Dev nD) (r : Ref sig .tc) (h1 : r ∉ ([main_v0] : List (Ref sig .tc))) (h2 : r ∉ ([main_v1] : List (Ref sig .tc))) :
    U2 m c r = U0 m c r := (U2_of m c r h2).trans (U1_of m c r h1)
theorem c1_U3_U0 (c : Dev nD) (r : Ref sig .tc) (h1 : r ∉ ([main_v0] : List (Ref sig .tc))) (h2 : r ∉ ([main_v1] : List (Ref sig .tc)))
    (h3 : r ∉ ([main_v2] : List (Ref sig .tc))) : U3 m c r = U0 m c r := (U3_of m c r h3).trans (c1_U2_U0 m c r h1 h2)
theorem c1_U4_U0 (c : Dev nD) (r : Ref sig .tc) (h1 : r ∉ ([main_v0] : List (Ref sig .tc))) (h2 : r ∉ ([main_v1] : List (Ref sig .tc)))
    (h3 : r ∉ ([main_v2] : List (Ref sig .tc))) (h4 : r ∉ hostOps3_W) : U4 m c r = U0 m c r :=
  (U4_of m c r h4).trans (c1_U3_U0 m c r h1 h2 h3)
theorem c1_U5_U0 (c : Dev nD) (r : Ref sig .tc) (h1 : r ∉ ([main_v0] : List (Ref sig .tc))) (h2 : r ∉ ([main_v1] : List (Ref sig .tc)))
    (h3 : r ∉ ([main_v2] : List (Ref sig .tc))) (h4 : r ∉ hostOps3_W) (h5 : r ∉ ([main_v19_0, main_v19_1] : List (Ref sig .tc))) :
    U5 m c r = U0 m c r := (U5_of m c r h5).trans (c1_U4_U0 m c r h1 h2 h3 h4)
theorem c1_U6_U0 (c : Dev nD) (r : Ref sig .tc) (h1 : r ∉ ([main_v0] : List (Ref sig .tc))) (h2 : r ∉ ([main_v1] : List (Ref sig .tc)))
    (h3 : r ∉ ([main_v2] : List (Ref sig .tc))) (h4 : r ∉ hostOps3_W) (h5 : r ∉ ([main_v19_0, main_v19_1] : List (Ref sig .tc)))
    (h6 : r ∉ ([main_v20_0, main_v20_1] : List (Ref sig .tc))) : U6 m c r = U0 m c r :=
  (U6_of m c r h6).trans (c1_U5_U0 m c r h1 h2 h3 h4 h5)

theorem c1_v0 (c : Dev nD) : U1 m c main_v0 = ref_v0 m c := by
  have e : U1 m c main_v0 = o1_0 m c := by unfold U1; exact Function.update_self _ _ _
  exact e.trans (proj0_value (rd (U0 m)) c)

theorem c1_v1 (c : Dev nD) : U2 m c main_v1 = ref_v1 m c := by
  have e : U2 m c main_v1 = o2_0 m c := by unfold U2; exact Function.update_self _ _ _
  have h := proj1_value (rd (U1 m)) c
  have a1 : rd (U1 m) c main_arg1 = (at0 m c main_arg1) := U1_of m c main_arg1 (by decide)
  have a4 : rd (U1 m) c main_arg4 = (at0 m c main_arg4) := U1_of m c main_arg4 (by decide)
  rw [a1, a4] at h
  exact e.trans h

theorem c1_v2 (c : Dev nD) : U3 m c main_v2 = ref_v2 m c := by
  have e : U3 m c main_v2 = o3_0 m c := by unfold U3; exact Function.update_self _ _ _
  have h := proj2_value (rd (U2 m)) c
  have a2 : rd (U2 m) c main_arg2 = (at0 m c main_arg2) := c1_U2_U0 m c main_arg2 (by decide) (by decide)
  have a5 : rd (U2 m) c main_arg5 = (at0 m c main_arg5) := c1_U2_U0 m c main_arg5 (by decide) (by decide)
  rw [a2, a5] at h
  exact e.trans h

theorem c1_host3 (c : Dev nD) :
    U4 m c main_v15 = extractStridedSlice S50000x64 ![0, 0] (ref_v13 m c) slices_S100000x64_S50000x64_0_0
    ∧ U4 m c main_v16 = extractStridedSlice S30000x64 ![50000, 0] (ref_v13 m c) slices_S100000x64_S30000x64_50000_0
    ∧ U4 m c main_v17 = extractStridedSlice S20000x64 ![80000, 0] (ref_v13 m c) slices_S100000x64_S20000x64_80000_0
    ∧ U4 m c main_v18 = biasRow (at0 m c main_arg7) :=
  host3 (U3 m c) (at0 m c main_arg0) (at0 m c main_arg1) (at0 m c main_arg2) (at0 m c main_arg3) (at0 m c main_arg4) (at0 m c main_arg5) (at0 m c main_arg7) (at0 m c main_arg17) (at0 m c main_arg18)
    (((U3_of m c main_v0 (by decide)).trans (U2_of m c main_v0 (by decide))).trans (c1_v0 m c))
    ((U3_of m c main_v1 (by decide)).trans (c1_v1 m c))
    (c1_v2 m c)
    (c1_U3_U0 m c main_arg17 (by decide) (by decide) (by decide))
    (c1_U3_U0 m c main_arg18 (by decide) (by decide) (by decide))
    (c1_U3_U0 m c main_arg7 (by decide) (by decide) (by decide))

theorem c1_r3 (c : Dev nD) : U5 m c main_v19_0 = ref_v23 m c ∧ U5 m c main_v19_1 = ref_v26 m c := by
  obtain ⟨h15, -, -, h18⟩ := c1_host3 m c
  obtain ⟨e0, e1⟩ := postagg3_value (rd (U4 m)) c (at0 m c main_arg0) (at0 m c main_arg1) (at0 m c main_arg2) (at0 m c main_arg3) (at0 m c main_arg4) (at0 m c main_arg5) (at0 m c main_arg6) (at0 m c main_arg7) (at0 m c main_arg8) (at0 m c main_arg17) (at0 m c main_arg18) h15
    (c1_U4_U0 m c main_arg6 (by decide) (by decide) (by decide) (by decide)) h18
    (c1_U4_U0 m c main_arg8 (by decide) (by decide) (by decide) (by decide))
  have u0 : U5 m c main_v19_0 = o5_0 m c := by
    unfold U5; rw [Function.update_of_ne (StableHlo.devRef_ne_of_ne (by decide)), Function.update_self]
  have u1 : U5 m c main_v19_1 = o5_1 m c := by unfold U5; exact Function.update_self _ _ _
  exact ⟨u0.trans e0, u1.trans e1⟩

theorem c1_r4 (c : Dev nD) : U6 m c main_v20_0 = ref_v24 m c ∧ U6 m c main_v20_1 = ref_v27 m c := by
  obtain ⟨-, h16, -, h18⟩ := c1_host3 m c
  obtain ⟨e0, e1⟩ := postagg4_value (rd (U5 m)) c (at0 m c main_arg0) (at0 m c main_arg1) (at0 m c main_arg2) (at0 m c main_arg3) (at0 m c main_arg4) (at0 m c main_arg5) (at0 m c main_arg6) (at0 m c main_arg7) (at0 m c main_arg9) (at0 m c main_arg17) (at0 m c main_arg18)
    ((U5_of m c main_v16 (by decide)).trans h16)
    (c1_U5_U0 m c main_arg6 (by decide) (by decide) (by decide) (by decide) (by decide))
    ((U5_of m c main_v18 (by decide)).trans h18)
    (c1_U5_U0 m c main_arg9 (by decide) (by decide) (by decide) (by decide) (by decide))
  have u0 : U6 m c main_v20_0 = o6_0 m c := by
    unfold U6; rw [Function.update_of_ne (StableHlo.devRef_ne_of_ne (by decide)), Function.update_self]
  have u1 : U6 m c main_v20_1 = o6_1 m c := by unfold U6; exact Function.update_self _ _ _
  exact ⟨u0.trans e0, u1.trans e1⟩

theorem c1_r5 (c : Dev nD) : U7 m c main_v21_0 = ref_v25 m c ∧ U7 m c main_v21_1 = ref_v28 m c := by
  obtain ⟨-, -, h17, h18⟩ := c1_host3 m c
  obtain ⟨e0, e1⟩ := postagg5_value (rd (U6 m)) c (at0 m c main_arg0) (at0 m c main_arg1) (at0 m c main_arg2) (at0 m c main_arg3) (at0 m c main_arg4) (at0 m c main_arg5) (at0 m c main_arg6) (at0 m c main_arg7) (at0 m c main_arg10) (at0 m c main_arg17) (at0 m c main_arg18)
    (((U6_of m c main_v17 (by decide)).trans (U5_of m c main_v17 (by decide))).trans h17)
    (c1_U6_U0 m c main_arg6 (by decide) (by decide) (by decide) (by decide) (by decide) (by decide))
    (((U6_of m c main_v18 (by decide)).trans (U5_of m c main_v18 (by decide))).trans h18)
    (c1_U6_U0 m c main_arg10 (by decide) (by decide) (by decide) (by decide) (by decide) (by decide))
  have u0 : U7 m c main_v21_0 = o7_0 m c := by
    unfold U7; rw [Function.update_of_ne (StableHlo.devRef_ne_of_ne (by decide)), Function.update_self]
  have u1 : U7 m c main_v21_1 = o7_1 m c := by unfold U7; exact Function.update_self _ _ _
  exact ⟨u0.trans e0, u1.trans e1⟩

theorem c1_v22 (c : Dev nD) : U8 m c main_v22 = ref_v22 m c := by
  have h := host6 (U7 m c)
  have e19 : U7 m c main_v19_0 = ref_v23 m c :=
    ((U7_of m c main_v19_0 (by decide)).trans (U6_of m c main_v19_0 (by decide))).trans (c1_r3 m c).1
  have e20 : U7 m c main_v20_0 = ref_v24 m c := (U7_of m c main_v20_0 (by decide)).trans (c1_r4 m c).1
  have e21 : U7 m c main_v21_0 = ref_v25 m c := (c1_r5 m c).1
  rw [e19, e20, e21] at h
  exact h.trans (concat_slices (ref_v22 m c))

theorem c1_v22_carry (c : Dev nD) : U24 m c main_v22 = U8 m c main_v22 :=
  (U24_of m c main_v22 (by decide)).trans (
    (U23_of m c main_v22 (by decide)).trans (
    (U22_of m c main_v22 (by decide)).trans (
    (U21_of m c main_v22 (by decide)).trans (
    (U20_of m c main_v22 (by decide)).trans (
    (U19_of m c main_v22 (by decide)).trans (
    (U18_of m c main_v22 (by decide)).trans (
    (U17_of m c main_v22 (by decide)).trans (
    (U16_of m c main_v22 (by decide)).trans (
    (U15_of m c main_v22 (by decide)).trans (
    (U14_of m c main_v22 (by decide)).trans (
    (U13_of m c main_v22 (by decide)).trans (
    (U12_of m c main_v22 (by decide)).trans (
    (U11_of m c main_v22 (by decide)).trans (
    (U10_of m c main_v22 (by decide)).trans (U9_of m c main_v22 (by decide))))))))))))))))

theorem chain1 (m : (ℓ : Loc nD τ sig) → Buf (Elt Ideal) ℓ) (c : Dev nD) :
    U5 m c main_v19_0 = ref_v23 m c
    ∧ U5 m c main_v19_1 = ref_v26 m c
    ∧ U6 m c main_v20_0 = ref_v24 m c
    ∧ U6 m c main_v20_1 = ref_v27 m c
    ∧ U7 m c main_v21_0 = ref_v25 m c
    ∧ U7 m c main_v21_1 = ref_v28 m c
    ∧ U24 m c main_v22 = ref_v22 m c :=
  ⟨(c1_r3 m c).1, (c1_r3 m c).2, (c1_r4 m c).1, (c1_r4 m c).2, (c1_r5 m c).1, (c1_r5 m c).2,
    (c1_v22_carry m c).trans (c1_v22 m c)⟩

end Cert.KernelIdeal.Hand

end
-- ==== Proof.Val.Take.lean ====
import proofs.«418426_j87943750353447_3_alg».proof.Proof.Val.TakeDefs
import Idealize.ShloMosaic.Lib.ReduceAll
import Idealize.ShloMosaic.Lib.StableHlo.Predicate

noncomputable section

namespace Cert.KernelIdeal.Hand

open Cert.KernelIdeal Cert.KernelIdeal.Gen Idealize.ShloMosaic Idealize.ShloMosaic.TcCoe Idealize.SL.Sem

theorem foldl_andi_of_all_one {ι : Type} (f : ι → BitVec 1) (l : List ι) (hf : ∀ n ∈ l, f n = 1#1) :
    l.foldl (fun r n => IntOp.andi r (f n)) 1#1 = 1#1 := by
  induction l with
  | nil => rfl
  | cons a l ih =>
    rw [List.foldl_cons, hf a List.mem_cons_self, show IntOp.andi (1#1 : BitVec 1) 1#1 = 1#1 from by decide]
    exact ih fun n hn => hf n (List.mem_cons_of_mem _ hn)

theorem reduce_andi_of_all {s t u : Shape} {axes : List (Fin s.rank)} (x : s.Idx → BitVec 1) (h : s.ReducesTo axes t)
    (hu : 0 < u.numel) (hx : ∀ i, x i = 1#1) (j : t.Idx) :
    Host.reduce IntOp.andi x (constantI u 1 1#1) h hu j = 1#1 := by
  rw [Host.reduce_eq_foldl]
  exact foldl_andi_of_all_one x _ fun n _ => hx n

theorem wrap_word (v N M : BitVec 32) (k : Int) (hk0 : 0 < k) (hk : k < 2 ^ 30) (hN : N.toInt = k) (hM : M.toInt = k - 1)
    (hv : -k ≤ v.toInt ∧ v.toInt < k) :
    IntOp.andi (IntOp.cmpi .sge (Scalar.select (IntOp.cmpi .slt v 0#32) (IntOp.addi v N) v) 0#32)
      (IntOp.cmpi .sle (Scalar.select (IntOp.cmpi .slt v 0#32) (IntOp.addi v N) v) M) = 1#1 := by
  rw [IntOp.andi_eq_one]
  simp only [IntOp.cmpi, Scalar.select, IntOp.addi, StableHlo.Predicate.ofBool_eq_one_iff, BitVec.slt, BitVec.sle,
    decide_eq_true_eq, show (0#32 : BitVec 32).toInt = 0 from by decide]
  by_cases hneg : v.toInt < 0
  · have hc : BitVec.ofBool (decide (v.toInt < 0)) = 1 := by simp [hneg]
    rw [if_pos hc]
    have : (v + N).toInt = v.toInt + k := by
      rw [BitVec.toInt_add, hN]
      exact Int.bmod_eq_of_le (by omega) (by omega)
    rw [this, hM]; omega
  · have hc : ¬ BitVec.ofBool (decide (v.toInt < 0)) = 1 := by simp [hneg]
    rw [if_neg hc, hM]; omega

theorem wrapCol_50000_inRange (idx : (⟨S100000, .i32⟩ : BufTy).Contents (Elt Ideal))
    (h : ∀ j, -50000 ≤ (idx j).toInt ∧ (idx j).toInt < 50000) (i : S100000x1.Idx) :
    andi
      (cmpi .sge (wrapCol_50000 idx) (broadcastInDim S100000x1 ![] bcast_S_S100000x1 (constantI S_ 32 0#32)))
      (cmpi .sle (wrapCol_50000 idx)
        (broadcastInDim S100000x1 ![0, 1] bcast_S1x1_S100000x1_0_1 (broadcastInDim S1x1 ![1] bcast_S1_S1x1_1 (constantI S1 32 49999#32)))) i = 1#1 :=
  wrap_word _ 50000#32 49999#32 50000 (by norm_num) (by norm_num) (by decide) (by decide) (h _)

theorem wrapCol_30000_inRange (idx : (⟨S100000, .i32⟩ : BufTy).Contents (Elt Ideal))
    (h : ∀ j, -30000 ≤ (idx j).toInt ∧ (idx j).toInt < 30000) (i : S100000x1.Idx) :
    andi
      (cmpi .sge (wrapCol_30000 idx) (broadcastInDim S100000x1 ![] bcast_S_S100000x1 (constantI S_ 32 0#32)))
      (cmpi .sle (wrapCol_30000 idx)
        (broadcastInDim S100000x1 ![0, 1] bcast_S1x1_S100000x1_0_1 (broadcastInDim S1x1 ![1] bcast_S1_S1x1_1 (constantI S1 32 29999#32)))) i = 1#1 :=
  wrap_word _ 30000#32 29999#32 30000 (by norm_num) (by norm_num) (by decide) (by decide) (h _)

theorem wrapCol_20000_inRange (idx : (⟨S100000, .i32⟩ : BufTy).Contents (Elt Ideal))
    (h : ∀ j, -20000 ≤ (idx j).toInt ∧ (idx j).toInt < 20000) (i : S100000x1.Idx) :
    andi
      (cmpi .sge (wrapCol_20000 idx) (broadcastInDim S100000x1 ![] bcast_S_S100000x1 (constantI S_ 32 0#32)))
      (cmpi .sle (wrapCol_20000 idx)
        (broadcastInDim S100000x1 ![0, 1] bcast_S1x1_S100000x1_0_1 (broadcastInDim S1x1 ![1] bcast_S1_S1x1_1 (constantI S1 32 19999#32)))) i = 1#1 :=
  wrap_word _ 20000#32 19999#32 20000 (by norm_num) (by norm_num) (by decide) (by decide) (h _)

theorem take_50000x64 (x : (⟨S50000x64, .f32⟩ : BufTy).Contents (Elt Ideal)) (idx : (⟨S100000, .i32⟩ : BufTy).Contents (Elt Ideal))
    (h : ∀ j, -50000 ≤ (idx j).toInt ∧ (idx j).toInt < 50000) :
    takeTerm_50000x64 x idx = Host.gather gather_S50000x64_S100000x1_S100000x64_1_0_n_n_0_1_164 x (wrapCol_50000 idx) := by
  unfold takeTerm_50000x64
  funext p
  simp only [select, Scalar.select]
  rw [if_pos]
  exact reduce_andi_of_all _ _ _ (wrapCol_50000_inRange idx h) _

theorem take_30000x32 (x : (⟨S30000x32, .f32⟩ : BufTy).Contents (Elt Ideal)) (idx : (⟨S100000, .i32⟩ : BufTy).Contents (Elt Ideal))
    (h : ∀ j, -30000 ≤ (idx j).toInt ∧ (idx j).toInt < 30000) :
    takeTerm_30000x32 x idx = Host.gather gather_S30000x32_S100000x1_S100000x32_1_0_n_n_0_1_132 x (wrapCol_30000 idx) := by
  unfold takeTerm_30000x32
  funext p
  simp only [select, Scalar.select]
  rw [if_pos]
  exact reduce_andi_of_all _ _ _ (wrapCol_30000_inRange idx h) _

theorem take_20000x32 (x : (⟨S20000x32, .f32⟩ : BufTy).Contents (Elt Ideal)) (idx : (⟨S100000, .i32⟩ : BufTy).Contents (Elt Ideal))
    (h : ∀ j, -20000 ≤ (idx j).toInt ∧ (idx j).toInt < 20000) :
    takeTerm_20000x32 x idx = Host.gather gather_S20000x32_S100000x1_S100000x32_1_0_n_n_0_1_132 x (wrapCol_20000 idx) := by
  unfold takeTerm_20000x32
  funext p
  simp only [select, Scalar.select]
  rw [if_pos]
  exact reduce_andi_of_all _ _ _ (wrapCol_20000_inRange idx h) _

theorem take_30000x64 (x : (⟨S30000x64, .f32⟩ : BufTy).Contents (Elt Ideal)) (idx : (⟨S100000, .i32⟩ : BufTy).Contents (Elt Ideal))
    (h : ∀ j, -30000 ≤ (idx j).toInt ∧ (idx j).toInt < 30000) :
    takeTerm_30000x64 x idx = Host.gather gather_S30000x64_S100000x1_S100000x64_1_0_n_n_0_1_164 x (wrapCol_30000 idx) := by
  unfold takeTerm_30000x64
  funext p
  simp only [select, Scalar.select]
  rw [if_pos]
  exact reduce_andi_of_all _ _ _ (wrapCol_30000_inRange idx h) _

theorem take_50000x32 (x : (⟨S50000x32, .f32⟩ : BufTy).Contents (Elt Ideal)) (idx : (⟨S100000, .i32⟩ : BufTy).Contents (Elt Ideal))
    (h : ∀ j, -50000 ≤ (idx j).toInt ∧ (idx j).toInt < 50000) :
    takeTerm_50000x32 x idx = Host.gather gather_S50000x32_S100000x1_S100000x32_1_0_n_n_0_1_132 x (wrapCol_50000 idx) := by
  unfold takeTerm_50000x32
  funext p
  simp only [select, Scalar.select]
  rw [if_pos]
  exact reduce_andi_of_all _ _ _ (wrapCol_50000_inRange idx h) _

theorem take_20000x64 (x : (⟨S20000x64, .f32⟩ : BufTy).Contents (Elt Ideal)) (idx : (⟨S100000, .i32⟩ : BufTy).Contents (Elt Ideal))
    (h : ∀ j, -20000 ≤ (idx j).toInt ∧ (idx j).toInt < 20000) :
    takeTerm_20000x64 x idx = Host.gather gather_S20000x64_S100000x1_S100000x64_1_0_n_n_0_1_164 x (wrapCol_20000 idx) := by
  unfold takeTerm_20000x64
  funext p
  simp only [select, Scalar.select]
  rw [if_pos]
  exact reduce_andi_of_all _ _ _ (wrapCol_20000_inRange idx h) _

end Cert.KernelIdeal.Hand

end
-- ==== Proof.Val.WrapEq.lean ====
import proofs.«418426_j87943750353447_3_alg».proof.Proof.Val.TakeDefs
import proofs.«418426_j87943750353447_3_alg».proof.Proof.RefStages

noncomputable section

namespace Cert.KernelIdeal.Hand

open Cert.KernelIdeal Idealize.ShloMosaic Idealize.ShloMosaic.TcCoe Idealize.SL.Sem

theorem wrapCol_eq_v34 (idx : (⟨S100000, .i32⟩ : BufTy).Contents (Elt Ideal)) :
    wrapCol_50000 idx = Cert.ReferenceIdeal.Read.val_main_v34 (F := Ideal) idx := rfl

theorem wrapCol_eq_v41 (idx : (⟨S100000, .i32⟩ : BufTy).Contents (Elt Ideal)) :
    wrapCol_30000 idx = Cert.ReferenceIdeal.Read.val_main_v41 (F := Ideal) idx := rfl

theorem wrapCol_eq_v48 (idx : (⟨S100000, .i32⟩ : BufTy).Contents (Elt Ideal)) :
    wrapCol_20000 idx = Cert.ReferenceIdeal.Read.val_main_v48 (F := Ideal) idx := rfl

theorem wrapCol_eq_v59 (idx : (⟨S100000, .i32⟩ : BufTy).Contents (Elt Ideal)) :
    wrapCol_30000 idx = Cert.ReferenceIdeal.Read.val_main_v59 (F := Ideal) idx := rfl

theorem wrapCol_eq_v66 (idx : (⟨S100000, .i32⟩ : BufTy).Contents (Elt Ideal)) :
    wrapCol_50000 idx = Cert.ReferenceIdeal.Read.val_main_v66 (F := Ideal) idx := rfl

theorem wrapCol_eq_v73 (idx : (⟨S100000, .i32⟩ : BufTy).Contents (Elt Ideal)) :
    wrapCol_20000 idx = Cert.ReferenceIdeal.Read.val_main_v73 (F := Ideal) idx := rfl

theorem wrapCol_eq_v84 (idx : (⟨S100000, .i32⟩ : BufTy).Contents (Elt Ideal)) :
    wrapCol_20000 idx = Cert.ReferenceIdeal.Read.val_main_v84 (F := Ideal) idx := rfl

theorem wrapCol_eq_v91 (idx : (⟨S100000, .i32⟩ : BufTy).Contents (Elt Ideal)) :
    wrapCol_50000 idx = Cert.ReferenceIdeal.Read.val_main_v91 (F := Ideal) idx := rfl

theorem wrapCol_eq_v98 (idx : (⟨S100000, .i32⟩ : BufTy).Contents (Elt Ideal)) :
    wrapCol_30000 idx = Cert.ReferenceIdeal.Read.val_main_v98 (F := Ideal) idx := rfl

end Cert.KernelIdeal.Hand

end
-- ==== Proof.Val.Cls.lean ====
import proofs.«418426_j87943750353447_3_alg».proof.Proof.KernelIdeal.Reg6
import proofs.«418426_j87943750353447_3_alg».proof.Proof.KernelIdeal.Reg7
import proofs.«418426_j87943750353447_3_alg».proof.Proof.KernelIdeal.Reg8
import proofs.«418426_j87943750353447_3_alg».proof.Proof.RefStages
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

def sig1 (p : EReal) : EReal := Ideal.logistic p

theorem cls_hid_lhs_0 (j : S5000x16.Idx) (q : dot_S5000x128_S128x16_S5000x16_1_0_0_1_n_n.contr.Idx) :
    (dot_S5000x128_S128x16_S5000x16_1_0_0_1_n_n.lhsIdx j q 0).val = (j 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
theorem cls_hid_lhs_1 (j : S5000x16.Idx) (q : dot_S5000x128_S128x16_S5000x16_1_0_0_1_n_n.contr.Idx) :
    (dot_S5000x128_S128x16_S5000x16_1_0_0_1_n_n.lhsIdx j q 1).val = (q ⟨0, by decide⟩).val :=
  dot_S5000x128_S128x16_S5000x16_1_0_0_1_n_n.lhsIdx_val_of_single rfl j q
theorem cls_hid_rhs_0 (j : S5000x16.Idx) (q : dot_S5000x128_S128x16_S5000x16_1_0_0_1_n_n.contr.Idx) :
    (dot_S5000x128_S128x16_S5000x16_1_0_0_1_n_n.rhsIdx j q 0).val = (q ⟨0, by decide⟩).val :=
  dot_S5000x128_S128x16_S5000x16_1_0_0_1_n_n.rhsIdx_val_of_single rfl j q
theorem cls_hid_rhs_1 (j : S5000x16.Idx) (q : dot_S5000x128_S128x16_S5000x16_1_0_0_1_n_n.contr.Idx) :
    (dot_S5000x128_S128x16_S5000x16_1_0_0_1_n_n.rhsIdx j q 1).val = (j 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

theorem cls_hid_apply (l : FVec Ideal S5000x128 .bf16) (w : FVec Ideal S128x16 .bf16) (j : S5000x16.Idx) :
    matmul dot_S5000x128_S128x16_S5000x16_1_0_0_1_n_n none l w (constant S5000x16 .f32 0x00000000#32) j
      = ∑ f : Fin 128, l (ix2 (j 0) f) * w (ix2 f (j 1)) := by
  simp only [matmul]
  rw [Ideal.matmul_constant_zero_apply, ← Equiv.sum_comp (contrEquiv1 dot_S5000x128_S128x16_S5000x16_1_0_0_1_n_n 128 rfl rfl).symm]
  refine Finset.sum_congr rfl fun f _ => ?_
  have hf := contrEquiv1_symm_val dot_S5000x128_S128x16_S5000x16_1_0_0_1_n_n 128 rfl rfl f
  have el : dot_S5000x128_S128x16_S5000x16_1_0_0_1_n_n.lhsIdx j ((contrEquiv1 dot_S5000x128_S128x16_S5000x16_1_0_0_1_n_n 128 rfl rfl).symm f) = ix2 (j 0) f := funext fun a => Fin.ext (by
    match a with
    | ⟨0, _⟩ => exact cls_hid_lhs_0 _ _
    | ⟨1, _⟩ => exact (cls_hid_lhs_1 _ _).trans hf)
  have er : dot_S5000x128_S128x16_S5000x16_1_0_0_1_n_n.rhsIdx j ((contrEquiv1 dot_S5000x128_S128x16_S5000x16_1_0_0_1_n_n 128 rfl rfl).symm f) = ix2 f (j 1) := funext fun a => Fin.ext (by
    match a with
    | ⟨0, _⟩ => exact (cls_hid_rhs_0 _ _).trans hf
    | ⟨1, _⟩ => exact cls_hid_rhs_1 _ _)
  rw [el, er] <;> rfl

theorem cls_out_lhs_0 (j : S5000x1.Idx) (q : dot_S5000x16_S16x1_S5000x1_1_0_0_1_n_n.contr.Idx) :
    (dot_S5000x16_S16x1_S5000x1_1_0_0_1_n_n.lhsIdx j q 0).val = (j 0).val := by
  unfold DotDims.lhsIdx
  rw [dif_neg (show ¬(0 : Fin S5000x16.rank) ∈ dot_S5000x16_S16x1_S5000x1_1_0_0_1_n_n.lhsBatch by decide), dif_pos (show (0 : Fin S5000x16.rank) ∈ dot_S5000x16_S16x1_S5000x1_1_0_0_1_n_n.lhsNonContracting by decide)]
  rfl
theorem cls_out_lhs_1 (j : S5000x1.Idx) (q : dot_S5000x16_S16x1_S5000x1_1_0_0_1_n_n.contr.Idx) :
    (dot_S5000x16_S16x1_S5000x1_1_0_0_1_n_n.lhsIdx j q 1).val = (q ⟨0, by decide⟩).val :=
  dot_S5000x16_S16x1_S5000x1_1_0_0_1_n_n.lhsIdx_val_of_single rfl j q
theorem cls_out_rhs_0 (j : S5000x1.Idx) (q : dot_S5000x16_S16x1_S5000x1_1_0_0_1_n_n.contr.Idx) :
    (dot_S5000x16_S16x1_S5000x1_1_0_0_1_n_n.rhsIdx j q 0).val = (q ⟨0, by decide⟩).val :=
  dot_S5000x16_S16x1_S5000x1_1_0_0_1_n_n.rhsIdx_val_of_single rfl j q
theorem cls_out_rhs_1 (j : S5000x1.Idx) (q : dot_S5000x16_S16x1_S5000x1_1_0_0_1_n_n.contr.Idx) :
    (dot_S5000x16_S16x1_S5000x1_1_0_0_1_n_n.rhsIdx j q 1).val = (j 1).val := by
  unfold DotDims.rhsIdx
  rw [dif_neg (show ¬(1 : Fin S16x1.rank) ∈ dot_S5000x16_S16x1_S5000x1_1_0_0_1_n_n.rhsBatch by decide), dif_pos (show (1 : Fin S16x1.rank) ∈ dot_S5000x16_S16x1_S5000x1_1_0_0_1_n_n.rhsNonContracting by decide)]
  rfl

theorem cls_out_apply (l : FVec Ideal S5000x16 .bf16) (w : FVec Ideal S16x1 .bf16) (j : S5000x1.Idx) :
    matmul dot_S5000x16_S16x1_S5000x1_1_0_0_1_n_n none l w (constant S5000x1 .f32 0x00000000#32) j
      = ∑ k : Fin 16, l (ix2 (j 0) k) * w (ix2 k (j 1)) := by
  simp only [matmul]
  rw [Ideal.matmul_constant_zero_apply, ← Equiv.sum_comp (contrEquiv1 dot_S5000x16_S16x1_S5000x1_1_0_0_1_n_n 16 rfl rfl).symm]
  refine Finset.sum_congr rfl fun k _ => ?_
  have hk := contrEquiv1_symm_val dot_S5000x16_S16x1_S5000x1_1_0_0_1_n_n 16 rfl rfl k
  have el : dot_S5000x16_S16x1_S5000x1_1_0_0_1_n_n.lhsIdx j ((contrEquiv1 dot_S5000x16_S16x1_S5000x1_1_0_0_1_n_n 16 rfl rfl).symm k) = ix2 (j 0) k := funext fun a => Fin.ext (by
    match a with
    | ⟨0, _⟩ => exact cls_out_lhs_0 _ _
    | ⟨1, _⟩ => exact (cls_out_lhs_1 _ _).trans hk)
  have er : dot_S5000x16_S16x1_S5000x1_1_0_0_1_n_n.rhsIdx j ((contrEquiv1 dot_S5000x16_S16x1_S5000x1_1_0_0_1_n_n 16 rfl rfl).symm k) = ix2 k (j 1) := funext fun a => Fin.ext (by
    match a with
    | ⟨0, _⟩ => exact (cls_out_rhs_0 _ _).trans hk
    | ⟨1, _⟩ => exact cls_out_rhs_1 _ _)
  rw [el, er] <;> rfl

def clsTileRow (x0 : S5000x128.Idx → EReal) (x1 : S128x16.Idx → EReal) (x2 : S16x1.Idx → EReal) (j : S5000x1.Idx) : EReal :=
  sig1 (∑ k : Fin 16, max (∑ f : Fin 128, x0 (ix2 (j 0) f) * x1 (ix2 f k)) 0 * x2 (ix2 k (j 1)))

theorem cls_pay6_apply (x0 : Vec Ideal S5000x128 .f32) (x1 : Vec Ideal S128x16 .f32) (x2 : Vec Ideal S16x1 .f32) (j : S5000x1.Idx) :
    k6_pay1 x0 x1 x2 j = clsTileRow x0 x1 x2 j := by
  unfold k6_pay1
  simp only [shapeCast_self]
  refine (congrArg Ideal.logistic (cls_out_apply _ _ j)).trans ?_
  unfold clsTileRow sig1
  refine congrArg Ideal.logistic (Finset.sum_congr rfl fun k _ => ?_)
  refine congrArg (· * _) ?_
  refine (congrArg (fun z => max z _) (cls_hid_apply _ _ (ix2 (j 0) k))).trans ?_
  exact congrArg (max _) Ideal.ofBits_zero_f32

theorem cls_pay7_apply (x0 : Vec Ideal S5000x128 .f32) (x1 : Vec Ideal S128x16 .f32) (x2 : Vec Ideal S16x1 .f32) (j : S5000x1.Idx) :
    k7_pay1 x0 x1 x2 j = clsTileRow x0 x1 x2 j := by
  unfold k7_pay1
  simp only [shapeCast_self]
  refine (congrArg Ideal.logistic (cls_out_apply _ _ j)).trans ?_
  unfold clsTileRow sig1
  refine congrArg Ideal.logistic (Finset.sum_congr rfl fun k _ => ?_)
  refine congrArg (· * _) ?_
  refine (congrArg (fun z => max z _) (cls_hid_apply _ _ (ix2 (j 0) k))).trans ?_
  exact congrArg (max _) Ideal.ofBits_zero_f32

theorem cls_pay8_apply (x0 : Vec Ideal S5000x128 .f32) (x1 : Vec Ideal S128x16 .f32) (x2 : Vec Ideal S16x1 .f32) (j : S5000x1.Idx) :
    k8_pay1 x0 x1 x2 j = clsTileRow x0 x1 x2 j := by
  unfold k8_pay1
  simp only [shapeCast_self]
  refine (congrArg Ideal.logistic (cls_out_apply _ _ j)).trans ?_
  unfold clsTileRow sig1
  refine congrArg Ideal.logistic (Finset.sum_congr rfl fun k _ => ?_)
  refine congrArg (· * _) ?_
  refine (congrArg (fun z => max z _) (cls_hid_apply _ _ (ix2 (j 0) k))).trans ?_
  exact congrArg (max _) Ideal.ofBits_zero_f32

def clsRow (X : S100000x128.Idx → EReal) (Wh : S128x16.Idx → EReal) (Wo : S16x1.Idx → EReal) (i : S100000x1.Idx) : EReal :=
  sig1 (∑ k : Fin 16, max (∑ f : Fin 128, X (ix2 (i 0) f) * Wh (ix2 f k)) 0 * Wo (ix2 k (i 1)))

theorem clsTileRow_eq_clsRow (X : S100000x128.Idx → EReal) (Wh : S128x16.Idx → EReal) (Wo : S16x1.Idx → EReal)
    (x0 : S5000x128.Idx → EReal) (x1 : S128x16.Idx → EReal) (x2 : S16x1.Idx → EReal) (o : Nat) (j : S5000x1.Idx) (i : S100000x1.Idx)
    (h0 : ∀ (y : S5000x128.Idx) (z : S100000x128.Idx), (z 0).val = o + (y 0).val → (z 1).val = (y 1).val → x0 y = X z)
    (h1 : x1 = Wh) (h2 : x2 = Wo) (hi0 : (i 0).val = o + (j 0).val) (hi1 : (i 1).val = (j 1).val) :
    clsTileRow x0 x1 x2 j = clsRow X Wh Wo i := by
  subst h1 h2
  unfold clsTileRow clsRow
  have e1 : j 1 = i 1 := Fin.ext hi1.symm
  refine congrArg sig1 (Finset.sum_congr rfl fun k _ => ?_)
  rw [e1]
  refine congrArg (· * _) (congrArg (fun z => max z 0) (Finset.sum_congr rfl fun f _ => ?_))
  exact congrArg (· * _) (h0 _ _ hi0 rfl)

theorem cls_hz2 : (![0, 0] : Fin 2 → Nat) = fun _ => 0 := funext fun a => by fin_cases a <;> rfl

section Region6
variable (V : (c : Dev nD) → (b : Ref sig .tc) → Buf (Elt Ideal) ((c : Thread nD τ).loc b))

theorem cls_idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

theorem cls_flushed6_eq (c : Dev nD) (t : Fin cfg6.N) :
    (dat6 (F := Ideal) V c).flushed 3 t
      = ((cfg6.win 3).blk t).view.read (Elt Ideal) (clsRow (V c main_v26) (V c main_arg11) (V c main_arg14)) := by
  show (cfg6.win 3).cut (grid6.coords t) ((dat6 V c).after 3 t) = _
  rw [after6_3]
  unfold out6_3
  rw [View.canon_unit_zero cls_hz2]
  simp only [View.ld_unit_zero (S := S5000x128) cls_hz2, View.ld_unit_zero (S := S128x16) cls_hz2, View.ld_unit_zero (S := S16x1) cls_hz2]
  obtain ⟨e00, e01, e10, e11, e20, e21, e30, e31⟩ := cls_idx_facts6 t
  funext j
  refine (cls_pay6_apply _ _ _ j).trans ?_
  rw [View.read_apply]
  refine clsTileRow_eq_clsRow _ _ _ _ _ _ (5000 * t.val) j _ ?_ ?_ ?_ ?_ ?_
  · intro y z hz0 hz1
    show V c main_v26 (((cfg6.win 0).blk t).view.emb y) = V c main_v26 z
    refine congrArg _ (funext fun a => Fin.ext ?_)
    match a with
    | ⟨0, _⟩ => show win6_0.index t (0 : Fin 2) * 5000 + 1 * (y 0).val = (z 0).val; omega
    | ⟨1, _⟩ => show win6_0.index t (1 : Fin 2) * 128 + 1 * (y 1).val = (z 1).val; omega
  · funext y
    show V c main_arg11 (((cfg6.win 1).blk t).view.emb y) = V c main_arg11 y
    refine congrArg _ (funext fun a => Fin.ext ?_)
    match a with
    | ⟨0, _⟩ => show win6_1.index t (0 : Fin 2) * 128 + 1 * (y 0).val = (y 0).val; omega
    | ⟨1, _⟩ => show win6_1.index t (1 : Fin 2) * 16 + 1 * (y 1).val = (y 1).val; omega
  · funext y
    show V c main_arg14 (((cfg6.win 2).blk t).view.emb y) = V c main_arg14 y
    refine congrArg _ (funext fun a => Fin.ext ?_)
    match a with
    | ⟨0, _⟩ => show win6_2.index t (0 : Fin 2) * 16 + 1 * (y 0).val = (y 0).val; omega
    | ⟨1, _⟩ => show win6_2.index t (1 : Fin 2) * 1 + 1 * (y 1).val = (y 1).val; omega
  · show win6_3.index t (0 : Fin 2) * 5000 + 1 * (j 0).val = 5000 * t.val + (j 0).val; omega
  · show win6_3.index t (1 : Fin 2) * 1 + 1 * (j 1).val = (j 1).val; omega

theorem cls_mem_blk6 (t : Fin cfg6.N) (i : S100000x1.Idx) :
    i ∈ ((cfg6.win 3).blk t).view.set ↔ ∀ a : Fin 2, win6_3.index t a * S5000x1.size a ≤ (i a).val ∧ (i a).val < win6_3.index t a * S5000x1.size a + S5000x1.size a := by
  show i ∈ ((View.whole main_v27).slice (win6_3.rect t)).set ↔ _
  rw [View.set_slice_whole, Rect.mem_set_unit]
  exact Iff.rfl

theorem cls_cover6 (i : S100000x1.Idx) : ∃ t : Fin cfg6.N, (cfg6.win 3).flush t = true ∧ i ∈ ((cfg6.win 3).blk t).view.set := by
  have hi0 : (i 0).val < 100000 := (i 0).isLt
  have hi1 : (i 1).val < 1 := (i 1).isLt
  have hN : cfg6.N = 20 := N_6
  refine ⟨⟨(i 0).val / 5000, by rw [hN]; omega⟩, flush6_3 _, ?_⟩
  rw [cls_mem_blk6]
  obtain ⟨e00, e01, e10, e11, e20, e21, e30, e31⟩ := cls_idx_facts6 ⟨(i 0).val / 5000, by rw [hN]; omega⟩
  intro a
  match a with
  | ⟨0, _⟩ => show win6_3.index _ (0 : Fin 2) * 5000 ≤ (i 0).val ∧ (i 0).val < win6_3.index _ (0 : Fin 2) * 5000 + 5000; rw [e30]; show (i 0).val / 5000 * 5000 ≤ (i 0).val ∧ (i 0).val < (i 0).val / 5000 * 5000 + 5000; omega
  | ⟨1, _⟩ => show win6_3.index _ (1 : Fin 2) * 1 ≤ (i 1).val ∧ (i 1).val < win6_3.index _ (1 : Fin 2) * 1 + 1; rw [e31]; omega

theorem cls_final6 (c : Dev nD) :
    (dat6 (F := Ideal) V c).arrAt 3 cfg6.N = clsRow (V c main_v26) (V c main_arg11) (V c main_arg14) :=
  (dat6 (F := Ideal) V c).arrAt_eq_of_cover 3 (clsRow (V c main_v26) (V c main_arg11) (V c main_arg14))
    (fun t _ => cls_flushed6_eq V c t) cls_cover6

end Region6

set_option backward.isDefEq.respectTransparency.types false in
theorem cls_ref6_row (x0 : (⟨Cert.ReferenceIdeal.S50000x128, .f32⟩ : BufTy).Contents (Elt Ideal)) (x1 : (⟨Cert.ReferenceIdeal.S30000x128, .f32⟩ : BufTy).Contents (Elt Ideal)) (x2 : (⟨Cert.ReferenceIdeal.S20000x128, .f32⟩ : BufTy).Contents (Elt Ideal)) (x3 : (⟨Cert.ReferenceIdeal.S128x64, .f32⟩ : BufTy).Contents (Elt Ideal)) (x4 : (⟨Cert.ReferenceIdeal.S128x64, .f32⟩ : BufTy).Contents (Elt Ideal)) (x5 : (⟨Cert.ReferenceIdeal.S128x64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x9 : (⟨Cert.ReferenceIdeal.S64x32, .f32⟩ : BufTy).Contents (Elt Ideal)) (x10 : (⟨Cert.ReferenceIdeal.S64x32, .f32⟩ : BufTy).Contents (Elt Ideal)) (x11 : (⟨Cert.ReferenceIdeal.S128x16, .f32⟩ : BufTy).Contents (Elt Ideal)) (x14 : (⟨Cert.ReferenceIdeal.S16x1, .f32⟩ : BufTy).Contents (Elt Ideal)) (x17 : (⟨Cert.ReferenceIdeal.S3200000, .i32⟩ : BufTy).Contents (Elt Ideal)) (x18 : (⟨Cert.ReferenceIdeal.S3200000, .i32⟩ : BufTy).Contents (Elt Ideal)) (x19 : (⟨Cert.ReferenceIdeal.S100000, .i32⟩ : BufTy).Contents (Elt Ideal)) (x20 : (⟨Cert.ReferenceIdeal.S100000, .i32⟩ : BufTy).Contents (Elt Ideal)) (x21 : (⟨Cert.ReferenceIdeal.S100000, .i32⟩ : BufTy).Contents (Elt Ideal)) (i : S100000x1.Idx) :
    clsRow (Cert.ReferenceIdeal.Read.val_main_v50 (F := Ideal) x0 x1 x2 x3 x4 x5 x6 x7 x9 x10 x17 x18 x19 x20 x21) x11 x14 i
      = sig1 (Cert.ReferenceIdeal.Read.val_main_v53 (F := Ideal) x0 x1 x2 x3 x4 x5 x6 x7 x9 x10 x11 x14 x17 x18 x19 x20 x21 i) := by
  unfold clsRow
  refine congrArg sig1 ?_
  rw [Cert.ReferenceIdeal.Read.val_main_v53_apply]
  refine Finset.sum_congr rfl fun k _ => ?_
  have e2 : Cert.ReferenceIdeal.Read.lidx_main_v53 i k = ix2 (i 0) k := funext fun a => Fin.ext (by match a with | ⟨0, _⟩ => rfl | ⟨1, _⟩ => rfl)
  have e3 : Cert.ReferenceIdeal.Read.ridx_main_v53 i k = ix2 k (i 1) := funext fun a => Fin.ext (by match a with | ⟨0, _⟩ => rfl | ⟨1, _⟩ => rfl)
  rw [e2, e3, Cert.ReferenceIdeal.Read.val_main_v52_apply, Cert.ReferenceIdeal.Read.val_main_v51_apply, Cert.ReferenceIdeal.Read.val_main_call1_v0_apply, Cert.ReferenceIdeal.Read.val_main_call1_cst_apply]
  have es : ∀ f : Fin 128, (Cert.ReferenceIdeal.Read.val_main_v50 (F := Ideal) x0 x1 x2 x3 x4 x5 x6 x7 x9 x10 x17 x18 x19 x20 x21) (Cert.ReferenceIdeal.Read.lidx_main_v51 (ix2 (i 0) k) f) * x11 (Cert.ReferenceIdeal.Read.ridx_main_v51 (ix2 (i 0) k) f)
      = (Cert.ReferenceIdeal.Read.val_main_v50 (F := Ideal) x0 x1 x2 x3 x4 x5 x6 x7 x9 x10 x17 x18 x19 x20 x21) (ix2 (i 0) f) * x11 (ix2 f k) := fun f => by
    have e0 : Cert.ReferenceIdeal.Read.lidx_main_v51 (ix2 (i 0) k) f = ix2 (i 0) f := funext fun a => Fin.ext (by match a with | ⟨0, _⟩ => rfl | ⟨1, _⟩ => rfl)
    have e1 : Cert.ReferenceIdeal.Read.ridx_main_v51 (ix2 (i 0) k) f = ix2 f k := funext fun a => Fin.ext (by match a with | ⟨0, _⟩ => rfl | ⟨1, _⟩ => rfl)
    rw [e0, e1] <;> rfl
  rw [Finset.sum_congr rfl fun f _ => es f]
  exact congrArg (fun z => max _ z * _) Ideal.ofBits_zero_f32.symm

theorem cls6_value (V : (c : Dev nD) → (b : Ref sig .tc) → Buf (Elt Ideal) ((c : Thread nD τ).loc b)) (c : Dev nD)
    (x0 : (⟨Cert.ReferenceIdeal.S50000x128, .f32⟩ : BufTy).Contents (Elt Ideal)) (x1 : (⟨Cert.ReferenceIdeal.S30000x128, .f32⟩ : BufTy).Contents (Elt Ideal)) (x2 : (⟨Cert.ReferenceIdeal.S20000x128, .f32⟩ : BufTy).Contents (Elt Ideal)) (x3 : (⟨Cert.ReferenceIdeal.S128x64, .f32⟩ : BufTy).Contents (Elt Ideal)) (x4 : (⟨Cert.ReferenceIdeal.S128x64, .f32⟩ : BufTy).Contents (Elt Ideal)) (x5 : (⟨Cert.ReferenceIdeal.S128x64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x9 : (⟨Cert.ReferenceIdeal.S64x32, .f32⟩ : BufTy).Contents (Elt Ideal)) (x10 : (⟨Cert.ReferenceIdeal.S64x32, .f32⟩ : BufTy).Contents (Elt Ideal)) (x11 : (⟨Cert.ReferenceIdeal.S128x16, .f32⟩ : BufTy).Contents (Elt Ideal)) (x14 : (⟨Cert.ReferenceIdeal.S16x1, .f32⟩ : BufTy).Contents (Elt Ideal)) (x17 : (⟨Cert.ReferenceIdeal.S3200000, .i32⟩ : BufTy).Contents (Elt Ideal)) (x18 : (⟨Cert.ReferenceIdeal.S3200000, .i32⟩ : BufTy).Contents (Elt Ideal)) (x19 : (⟨Cert.ReferenceIdeal.S100000, .i32⟩ : BufTy).Contents (Elt Ideal)) (x20 : (⟨Cert.ReferenceIdeal.S100000, .i32⟩ : BufTy).Contents (Elt Ideal)) (x21 : (⟨Cert.ReferenceIdeal.S100000, .i32⟩ : BufTy).Contents (Elt Ideal))
    (hx : V c main_v26 = Cert.ReferenceIdeal.Read.val_main_v50 (F := Ideal) x0 x1 x2 x3 x4 x5 x6 x7 x9 x10 x17 x18 x19 x20 x21) (hWh : V c main_arg11 = x11) (hWo : V c main_arg14 = x14) :
    ∀ i : S100000x1.Idx, (dat6 (F := Ideal) V c).arrAt 3 cfg6.N i = sig1 (Cert.ReferenceIdeal.Read.val_main_v53 (F := Ideal) x0 x1 x2 x3 x4 x5 x6 x7 x9 x10 x11 x14 x17 x18 x19 x20 x21 i) := by
  intro i
  rw [cls_final6 V c, hx, hWh, hWo]
  exact cls_ref6_row x0 x1 x2 x3 x4 x5 x6 x7 x9 x10 x11 x14 x17 x18 x19 x20 x21 i

section Region7
variable (V : (c : Dev nD) → (b : Ref sig .tc) → Buf (Elt Ideal) ((c : Thread nD τ).loc b))

theorem cls_idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

theorem cls_flushed7_eq (c : Dev nD) (t : Fin cfg7.N) :
    (dat7 (F := Ideal) V c).flushed 3 t
      = ((cfg7.win 3).blk t).view.read (Elt Ideal) (clsRow (V c main_v31) (V c main_arg12) (V c main_arg15)) := by
  show (cfg7.win 3).cut (grid7.coords t) ((dat7 V c).after 3 t) = _
  rw [after7_3]
  unfold out7_3
  rw [View.canon_unit_zero cls_hz2]
  simp only [View.ld_unit_zero (S := S5000x128) cls_hz2, View.ld_unit_zero (S := S128x16) cls_hz2, View.ld_unit_zero (S := S16x1) cls_hz2]
  obtain ⟨e00, e01, e10, e11, e20, e21, e30, e31⟩ := cls_idx_facts7 t
  funext j
  refine (cls_pay7_apply _ _ _ j).trans ?_
  rw [View.read_apply]
  refine clsTileRow_eq_clsRow _ _ _ _ _ _ (5000 * t.val) j _ ?_ ?_ ?_ ?_ ?_
  · intro y z hz0 hz1
    show V c main_v31 (((cfg7.win 0).blk t).view.emb y) = V c main_v31 z
    refine congrArg _ (funext fun a => Fin.ext ?_)
    match a with
    | ⟨0, _⟩ => show win7_0.index t (0 : Fin 2) * 5000 + 1 * (y 0).val = (z 0).val; omega
    | ⟨1, _⟩ => show win7_0.index t (1 : Fin 2) * 128 + 1 * (y 1).val = (z 1).val; omega
  · funext y
    show V c main_arg12 (((cfg7.win 1).blk t).view.emb y) = V c main_arg12 y
    refine congrArg _ (funext fun a => Fin.ext ?_)
    match a with
    | ⟨0, _⟩ => show win7_1.index t (0 : Fin 2) * 128 + 1 * (y 0).val = (y 0).val; omega
    | ⟨1, _⟩ => show win7_1.index t (1 : Fin 2) * 16 + 1 * (y 1).val = (y 1).val; omega
  · funext y
    show V c main_arg15 (((cfg7.win 2).blk t).view.emb y) = V c main_arg15 y
    refine congrArg _ (funext fun a => Fin.ext ?_)
    match a with
    | ⟨0, _⟩ => show win7_2.index t (0 : Fin 2) * 16 + 1 * (y 0).val = (y 0).val; omega
    | ⟨1, _⟩ => show win7_2.index t (1 : Fin 2) * 1 + 1 * (y 1).val = (y 1).val; omega
  · show win7_3.index t (0 : Fin 2) * 5000 + 1 * (j 0).val = 5000 * t.val + (j 0).val; omega
  · show win7_3.index t (1 : Fin 2) * 1 + 1 * (j 1).val = (j 1).val; omega

theorem cls_mem_blk7 (t : Fin cfg7.N) (i : S100000x1.Idx) :
    i ∈ ((cfg7.win 3).blk t).view.set ↔ ∀ a : Fin 2, win7_3.index t a * S5000x1.size a ≤ (i a).val ∧ (i a).val < win7_3.index t a * S5000x1.size a + S5000x1.size a := by
  show i ∈ ((View.whole main_v32).slice (win7_3.rect t)).set ↔ _
  rw [View.set_slice_whole, Rect.mem_set_unit]
  exact Iff.rfl

theorem cls_cover7 (i : S100000x1.Idx) : ∃ t : Fin cfg7.N, (cfg7.win 3).flush t = true ∧ i ∈ ((cfg7.win 3).blk t).view.set := by
  have hi0 : (i 0).val < 100000 := (i 0).isLt
  have hi1 : (i 1).val < 1 := (i 1).isLt
  have hN : cfg7.N = 20 := N_7
  refine ⟨⟨(i 0).val / 5000, by rw [hN]; omega⟩, flush7_3 _, ?_⟩
  rw [cls_mem_blk7]
  obtain ⟨e00, e01, e10, e11, e20, e21, e30, e31⟩ := cls_idx_facts7 ⟨(i 0).val / 5000, by rw [hN]; omega⟩
  intro a
  match a with
  | ⟨0, _⟩ => show win7_3.index _ (0 : Fin 2) * 5000 ≤ (i 0).val ∧ (i 0).val < win7_3.index _ (0 : Fin 2) * 5000 + 5000; rw [e30]; show (i 0).val / 5000 * 5000 ≤ (i 0).val ∧ (i 0).val < (i 0).val / 5000 * 5000 + 5000; omega
  | ⟨1, _⟩ => show win7_3.index _ (1 : Fin 2) * 1 ≤ (i 1).val ∧ (i 1).val < win7_3.index _ (1 : Fin 2) * 1 + 1; rw [e31]; omega

theorem cls_final7 (c : Dev nD) :
    (dat7 (F := Ideal) V c).arrAt 3 cfg7.N = clsRow (V c main_v31) (V c main_arg12) (V c main_arg15) :=
  (dat7 (F := Ideal) V c).arrAt_eq_of_cover 3 (clsRow (V c main_v31) (V c main_arg12) (V c main_arg15))
    (fun t _ => cls_flushed7_eq V c t) cls_cover7

end Region7

set_option backward.isDefEq.respectTransparency.types false in
theorem cls_ref7_row (x0 : (⟨Cert.ReferenceIdeal.S50000x128, .f32⟩ : BufTy).Contents (Elt Ideal)) (x1 : (⟨Cert.ReferenceIdeal.S30000x128, .f32⟩ : BufTy).Contents (Elt Ideal)) (x2 : (⟨Cert.ReferenceIdeal.S20000x128, .f32⟩ : BufTy).Contents (Elt Ideal)) (x3 : (⟨Cert.ReferenceIdeal.S128x64, .f32⟩ : BufTy).Contents (Elt Ideal)) (x4 : (⟨Cert.ReferenceIdeal.S128x64, .f32⟩ : BufTy).Contents (Elt Ideal)) (x5 : (⟨Cert.ReferenceIdeal.S128x64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x32, .f32⟩ : BufTy).Contents (Elt Ideal)) (x10 : (⟨Cert.ReferenceIdeal.S64x32, .f32⟩ : BufTy).Contents (Elt Ideal)) (x12 : (⟨Cert.ReferenceIdeal.S128x16, .f32⟩ : BufTy).Contents (Elt Ideal)) (x15 : (⟨Cert.ReferenceIdeal.S16x1, .f32⟩ : BufTy).Contents (Elt Ideal)) (x17 : (⟨Cert.ReferenceIdeal.S3200000, .i32⟩ : BufTy).Contents (Elt Ideal)) (x18 : (⟨Cert.ReferenceIdeal.S3200000, .i32⟩ : BufTy).Contents (Elt Ideal)) (x22 : (⟨Cert.ReferenceIdeal.S100000, .i32⟩ : BufTy).Contents (Elt Ideal)) (x23 : (⟨Cert.ReferenceIdeal.S100000, .i32⟩ : BufTy).Contents (Elt Ideal)) (x24 : (⟨Cert.ReferenceIdeal.S100000, .i32⟩ : BufTy).Contents (Elt Ideal)) (i : S100000x1.Idx) :
    clsRow (Cert.ReferenceIdeal.Read.val_main_v75 (F := Ideal) x0 x1 x2 x3 x4 x5 x6 x7 x8 x10 x17 x18 x22 x23 x24) x12 x15 i
      = sig1 (Cert.ReferenceIdeal.Read.val_main_v78 (F := Ideal) x0 x1 x2 x3 x4 x5 x6 x7 x8 x10 x12 x15 x17 x18 x22 x23 x24 i) := by
  unfold clsRow
  refine congrArg sig1 ?_
  rw [Cert.ReferenceIdeal.Read.val_main_v78_apply]
  refine Finset.sum_congr rfl fun k _ => ?_
  have e2 : Cert.ReferenceIdeal.Read.lidx_main_v78 i k = ix2 (i 0) k := funext fun a => Fin.ext (by match a with | ⟨0, _⟩ => rfl | ⟨1, _⟩ => rfl)
  have e3 : Cert.ReferenceIdeal.Read.ridx_main_v78 i k = ix2 k (i 1) := funext fun a => Fin.ext (by match a with | ⟨0, _⟩ => rfl | ⟨1, _⟩ => rfl)
  rw [e2, e3, Cert.ReferenceIdeal.Read.val_main_v77_apply, Cert.ReferenceIdeal.Read.val_main_v76_apply, Cert.ReferenceIdeal.Read.val_main_call2_v0_apply, Cert.ReferenceIdeal.Read.val_main_call2_cst_apply]
  have es : ∀ f : Fin 128, (Cert.ReferenceIdeal.Read.val_main_v75 (F := Ideal) x0 x1 x2 x3 x4 x5 x6 x7 x8 x10 x17 x18 x22 x23 x24) (Cert.ReferenceIdeal.Read.lidx_main_v76 (ix2 (i 0) k) f) * x12 (Cert.ReferenceIdeal.Read.ridx_main_v76 (ix2 (i 0) k) f)
      = (Cert.ReferenceIdeal.Read.val_main_v75 (F := Ideal) x0 x1 x2 x3 x4 x5 x6 x7 x8 x10 x17 x18 x22 x23 x24) (ix2 (i 0) f) * x12 (ix2 f k) := fun f => by
    have e0 : Cert.ReferenceIdeal.Read.lidx_main_v76 (ix2 (i 0) k) f = ix2 (i 0) f := funext fun a => Fin.ext (by match a with | ⟨0, _⟩ => rfl | ⟨1, _⟩ => rfl)
    have e1 : Cert.ReferenceIdeal.Read.ridx_main_v76 (ix2 (i 0) k) f = ix2 f k := funext fun a => Fin.ext (by match a with | ⟨0, _⟩ => rfl | ⟨1, _⟩ => rfl)
    rw [e0, e1] <;> rfl
  rw [Finset.sum_congr rfl fun f _ => es f]
  exact congrArg (fun z => max _ z * _) Ideal.ofBits_zero_f32.symm

theorem cls7_value (V : (c : Dev nD) → (b : Ref sig .tc) → Buf (Elt Ideal) ((c : Thread nD τ).loc b)) (c : Dev nD)
    (x0 : (⟨Cert.ReferenceIdeal.S50000x128, .f32⟩ : BufTy).Contents (Elt Ideal)) (x1 : (⟨Cert.ReferenceIdeal.S30000x128, .f32⟩ : BufTy).Contents (Elt Ideal)) (x2 : (⟨Cert.ReferenceIdeal.S20000x128, .f32⟩ : BufTy).Contents (Elt Ideal)) (x3 : (⟨Cert.ReferenceIdeal.S128x64, .f32⟩ : BufTy).Contents (Elt Ideal)) (x4 : (⟨Cert.ReferenceIdeal.S128x64, .f32⟩ : BufTy).Contents (Elt Ideal)) (x5 : (⟨Cert.ReferenceIdeal.S128x64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x32, .f32⟩ : BufTy).Contents (Elt Ideal)) (x10 : (⟨Cert.ReferenceIdeal.S64x32, .f32⟩ : BufTy).Contents (Elt Ideal)) (x12 : (⟨Cert.ReferenceIdeal.S128x16, .f32⟩ : BufTy).Contents (Elt Ideal)) (x15 : (⟨Cert.ReferenceIdeal.S16x1, .f32⟩ : BufTy).Contents (Elt Ideal)) (x17 : (⟨Cert.ReferenceIdeal.S3200000, .i32⟩ : BufTy).Contents (Elt Ideal)) (x18 : (⟨Cert.ReferenceIdeal.S3200000, .i32⟩ : BufTy).Contents (Elt Ideal)) (x22 : (⟨Cert.ReferenceIdeal.S100000, .i32⟩ : BufTy).Contents (Elt Ideal)) (x23 : (⟨Cert.ReferenceIdeal.S100000, .i32⟩ : BufTy).Contents (Elt Ideal)) (x24 : (⟨Cert.ReferenceIdeal.S100000, .i32⟩ : BufTy).Contents (Elt Ideal))
    (hx : V c main_v31 = Cert.ReferenceIdeal.Read.val_main_v75 (F := Ideal) x0 x1 x2 x3 x4 x5 x6 x7 x8 x10 x17 x18 x22 x23 x24) (hWh : V c main_arg12 = x12) (hWo : V c main_arg15 = x15) :
    ∀ i : S100000x1.Idx, (dat7 (F := Ideal) V c).arrAt 3 cfg7.N i = sig1 (Cert.ReferenceIdeal.Read.val_main_v78 (F := Ideal) x0 x1 x2 x3 x4 x5 x6 x7 x8 x10 x12 x15 x17 x18 x22 x23 x24 i) := by
  intro i
  rw [cls_final7 V c, hx, hWh, hWo]
  exact cls_ref7_row x0 x1 x2 x3 x4 x5 x6 x7 x8 x10 x12 x15 x17 x18 x22 x23 x24 i

section Region8
variable (V : (c : Dev nD) → (b : Ref sig .tc) → Buf (Elt Ideal) ((c : Thread nD τ).loc b))

theorem cls_idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

theorem cls_flushed8_eq (c : Dev nD) (t : Fin cfg8.N) :
    (dat8 (F := Ideal) V c).flushed 3 t
      = ((cfg8.win 3).blk t).view.read (Elt Ideal) (clsRow (V c main_v36) (V c main_arg13) (V c main_arg16)) := by
  show (cfg8.win 3).cut (grid8.coords t) ((dat8 V c).after 3 t) = _
  rw [after8_3]
  unfold out8_3
  rw [View.canon_unit_zero cls_hz2]
  simp only [View.ld_unit_zero (S := S5000x128) cls_hz2, View.ld_unit_zero (S := S128x16) cls_hz2, View.ld_unit_zero (S := S16x1) cls_hz2]
  obtain ⟨e00, e01, e10, e11, e20, e21, e30, e31⟩ := cls_idx_facts8 t
  funext j
  refine (cls_pay8_apply _ _ _ j).trans ?_
  rw [View.read_apply]
  refine clsTileRow_eq_clsRow _ _ _ _ _ _ (5000 * t.val) j _ ?_ ?_ ?_ ?_ ?_
  · intro y z hz0 hz1
    show V c main_v36 (((cfg8.win 0).blk t).view.emb y) = V c main_v36 z
    refine congrArg _ (funext fun a => Fin.ext ?_)
    match a with
    | ⟨0, _⟩ => show win8_0.index t (0 : Fin 2) * 5000 + 1 * (y 0).val = (z 0).val; omega
    | ⟨1, _⟩ => show win8_0.index t (1 : Fin 2) * 128 + 1 * (y 1).val = (z 1).val; omega
  · funext y
    show V c main_arg13 (((cfg8.win 1).blk t).view.emb y) = V c main_arg13 y
    refine congrArg _ (funext fun a => Fin.ext ?_)
    match a with
    | ⟨0, _⟩ => show win8_1.index t (0 : Fin 2) * 128 + 1 * (y 0).val = (y 0).val; omega
    | ⟨1, _⟩ => show win8_1.index t (1 : Fin 2) * 16 + 1 * (y 1).val = (y 1).val; omega
  · funext y
    show V c main_arg16 (((cfg8.win 2).blk t).view.emb y) = V c main_arg16 y
    refine congrArg _ (funext fun a => Fin.ext ?_)
    match a with
    | ⟨0, _⟩ => show win8_2.index t (0 : Fin 2) * 16 + 1 * (y 0).val = (y 0).val; omega
    | ⟨1, _⟩ => show win8_2.index t (1 : Fin 2) * 1 + 1 * (y 1).val = (y 1).val; omega
  · show win8_3.index t (0 : Fin 2) * 5000 + 1 * (j 0).val = 5000 * t.val + (j 0).val; omega
  · show win8_3.index t (1 : Fin 2) * 1 + 1 * (j 1).val = (j 1).val; omega

theorem cls_mem_blk8 (t : Fin cfg8.N) (i : S100000x1.Idx) :
    i ∈ ((cfg8.win 3).blk t).view.set ↔ ∀ a : Fin 2, win8_3.index t a * S5000x1.size a ≤ (i a).val ∧ (i a).val < win8_3.index t a * S5000x1.size a + S5000x1.size a := by
  show i ∈ ((View.whole main_v37).slice (win8_3.rect t)).set ↔ _
  rw [View.set_slice_whole, Rect.mem_set_unit]
  exact Iff.rfl

theorem cls_cover8 (i : S100000x1.Idx) : ∃ t : Fin cfg8.N, (cfg8.win 3).flush t = true ∧ i ∈ ((cfg8.win 3).blk t).view.set := by
  have hi0 : (i 0).val < 100000 := (i 0).isLt
  have hi1 : (i 1).val < 1 := (i 1).isLt
  have hN : cfg8.N = 20 := N_8
  refine ⟨⟨(i 0).val / 5000, by rw [hN]; omega⟩, flush8_3 _, ?_⟩
  rw [cls_mem_blk8]
  obtain ⟨e00, e01, e10, e11, e20, e21, e30, e31⟩ := cls_idx_facts8 ⟨(i 0).val / 5000, by rw [hN]; omega⟩
  intro a
  match a with
  | ⟨0, _⟩ => show win8_3.index _ (0 : Fin 2) * 5000 ≤ (i 0).val ∧ (i 0).val < win8_3.index _ (0 : Fin 2) * 5000 + 5000; rw [e30]; show (i 0).val / 5000 * 5000 ≤ (i 0).val ∧ (i 0).val < (i 0).val / 5000 * 5000 + 5000; omega
  | ⟨1, _⟩ => show win8_3.index _ (1 : Fin 2) * 1 ≤ (i 1).val ∧ (i 1).val < win8_3.index _ (1 : Fin 2) * 1 + 1; rw [e31]; omega

theorem cls_final8 (c : Dev nD) :
    (dat8 (F := Ideal) V c).arrAt 3 cfg8.N = clsRow (V c main_v36) (V c main_arg13) (V c main_arg16) :=
  (dat8 (F := Ideal) V c).arrAt_eq_of_cover 3 (clsRow (V c main_v36) (V c main_arg13) (V c main_arg16))
    (fun t _ => cls_flushed8_eq V c t) cls_cover8

end Region8

set_option backward.isDefEq.respectTransparency.types false in
theorem cls_ref8_row (x0 : (⟨Cert.ReferenceIdeal.S50000x128, .f32⟩ : BufTy).Contents (Elt Ideal)) (x1 : (⟨Cert.ReferenceIdeal.S30000x128, .f32⟩ : BufTy).Contents (Elt Ideal)) (x2 : (⟨Cert.ReferenceIdeal.S20000x128, .f32⟩ : BufTy).Contents (Elt Ideal)) (x3 : (⟨Cert.ReferenceIdeal.S128x64, .f32⟩ : BufTy).Contents (Elt Ideal)) (x4 : (⟨Cert.ReferenceIdeal.S128x64, .f32⟩ : BufTy).Contents (Elt Ideal)) (x5 : (⟨Cert.ReferenceIdeal.S128x64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x32, .f32⟩ : BufTy).Contents (Elt Ideal)) (x9 : (⟨Cert.ReferenceIdeal.S64x32, .f32⟩ : BufTy).Contents (Elt Ideal)) (x13 : (⟨Cert.ReferenceIdeal.S128x16, .f32⟩ : BufTy).Contents (Elt Ideal)) (x16 : (⟨Cert.ReferenceIdeal.S16x1, .f32⟩ : BufTy).Contents (Elt Ideal)) (x17 : (⟨Cert.ReferenceIdeal.S3200000, .i32⟩ : BufTy).Contents (Elt Ideal)) (x18 : (⟨Cert.ReferenceIdeal.S3200000, .i32⟩ : BufTy).Contents (Elt Ideal)) (x25 : (⟨Cert.ReferenceIdeal.S100000, .i32⟩ : BufTy).Contents (Elt Ideal)) (x26 : (⟨Cert.ReferenceIdeal.S100000, .i32⟩ : BufTy).Contents (Elt Ideal)) (x27 : (⟨Cert.ReferenceIdeal.S100000, .i32⟩ : BufTy).Contents (Elt Ideal)) (i : S100000x1.Idx) :
    clsRow (Cert.ReferenceIdeal.Read.val_main_v100 (F := Ideal) x0 x1 x2 x3 x4 x5 x6 x7 x8 x9 x17 x18 x25 x26 x27) x13 x16 i
      = sig1 (Cert.ReferenceIdeal.Read.val_main_v103 (F := Ideal) x0 x1 x2 x3 x4 x5 x6 x7 x8 x9 x13 x16 x17 x18 x25 x26 x27 i) := by
  unfold clsRow
  refine congrArg sig1 ?_
  rw [Cert.ReferenceIdeal.Read.val_main_v103_apply]
  refine Finset.sum_congr rfl fun k _ => ?_
  have e2 : Cert.ReferenceIdeal.Read.lidx_main_v103 i k = ix2 (i 0) k := funext fun a => Fin.ext (by match a with | ⟨0, _⟩ => rfl | ⟨1, _⟩ => rfl)
  have e3 : Cert.ReferenceIdeal.Read.ridx_main_v103 i k = ix2 k (i 1) := funext fun a => Fin.ext (by match a with | ⟨0, _⟩ => rfl | ⟨1, _⟩ => rfl)
  rw [e2, e3, Cert.ReferenceIdeal.Read.val_main_v102_apply, Cert.ReferenceIdeal.Read.val_main_v101_apply, Cert.ReferenceIdeal.Read.val_main_call3_v0_apply, Cert.ReferenceIdeal.Read.val_main_call3_cst_apply]
  have es : ∀ f : Fin 128, (Cert.ReferenceIdeal.Read.val_main_v100 (F := Ideal) x0 x1 x2 x3 x4 x5 x6 x7 x8 x9 x17 x18 x25 x26 x27) (Cert.ReferenceIdeal.Read.lidx_main_v101 (ix2 (i 0) k) f) * x13 (Cert.ReferenceIdeal.Read.ridx_main_v101 (ix2 (i 0) k) f)
      = (Cert.ReferenceIdeal.Read.val_main_v100 (F := Ideal) x0 x1 x2 x3 x4 x5 x6 x7 x8 x9 x17 x18 x25 x26 x27) (ix2 (i 0) f) * x13 (ix2 f k) := fun f => by
    have e0 : Cert.ReferenceIdeal.Read.lidx_main_v101 (ix2 (i 0) k) f = ix2 (i 0) f := funext fun a => Fin.ext (by match a with | ⟨0, _⟩ => rfl | ⟨1, _⟩ => rfl)
    have e1 : Cert.ReferenceIdeal.Read.ridx_main_v101 (ix2 (i 0) k) f = ix2 f k := funext fun a => Fin.ext (by match a with | ⟨0, _⟩ => rfl | ⟨1, _⟩ => rfl)
    rw [e0, e1] <;> rfl
  rw [Finset.sum_congr rfl fun f _ => es f]
  exact congrArg (fun z => max _ z * _) Ideal.ofBits_zero_f32.symm

theorem cls8_value (V : (c : Dev nD) → (b : Ref sig .tc) → Buf (Elt Ideal) ((c : Thread nD τ).loc b)) (c : Dev nD)
    (x0 : (⟨Cert.ReferenceIdeal.S50000x128, .f32⟩ : BufTy).Contents (Elt Ideal)) (x1 : (⟨Cert.ReferenceIdeal.S30000x128, .f32⟩ : BufTy).Contents (Elt Ideal)) (x2 : (⟨Cert.ReferenceIdeal.S20000x128, .f32⟩ : BufTy).Contents (Elt Ideal)) (x3 : (⟨Cert.ReferenceIdeal.S128x64, .f32⟩ : BufTy).Contents (Elt Ideal)) (x4 : (⟨Cert.ReferenceIdeal.S128x64, .f32⟩ : BufTy).Contents (Elt Ideal)) (x5 : (⟨Cert.ReferenceIdeal.S128x64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x32, .f32⟩ : BufTy).Contents (Elt Ideal)) (x9 : (⟨Cert.ReferenceIdeal.S64x32, .f32⟩ : BufTy).Contents (Elt Ideal)) (x13 : (⟨Cert.ReferenceIdeal.S128x16, .f32⟩ : BufTy).Contents (Elt Ideal)) (x16 : (⟨Cert.ReferenceIdeal.S16x1, .f32⟩ : BufTy).Contents (Elt Ideal)) (x17 : (⟨Cert.ReferenceIdeal.S3200000, .i32⟩ : BufTy).Contents (Elt Ideal)) (x18 : (⟨Cert.ReferenceIdeal.S3200000, .i32⟩ : BufTy).Contents (Elt Ideal)) (x25 : (⟨Cert.ReferenceIdeal.S100000, .i32⟩ : BufTy).Contents (Elt Ideal)) (x26 : (⟨Cert.ReferenceIdeal.S100000, .i32⟩ : BufTy).Contents (Elt Ideal)) (x27 : (⟨Cert.ReferenceIdeal.S100000, .i32⟩ : BufTy).Contents (Elt Ideal))
    (hx : V c main_v36 = Cert.ReferenceIdeal.Read.val_main_v100 (F := Ideal) x0 x1 x2 x3 x4 x5 x6 x7 x8 x9 x17 x18 x25 x26 x27) (hWh : V c main_arg13 = x13) (hWo : V c main_arg16 = x16) :
    ∀ i : S100000x1.Idx, (dat8 (F := Ideal) V c).arrAt 3 cfg8.N i = sig1 (Cert.ReferenceIdeal.Read.val_main_v103 (F := Ideal) x0 x1 x2 x3 x4 x5 x6 x7 x8 x9 x13 x16 x17 x18 x25 x26 x27 i) := by
  intro i
  rw [cls_final8 V c, hx, hWh, hWo]
  exact cls_ref8_row x0 x1 x2 x3 x4 x5 x6 x7 x8 x9 x13 x16 x17 x18 x25 x26 x27 i

theorem cls_ofBits_one_f32 : Ideal.ofBits .f32 0x3F800000#32 = 1 := by
  simp [Ideal.ofBits, Ideal.ieee, -EReal.coe_mul]; norm_num

theorem cls_concat3_map (f : EReal → EReal) (p q r a b c' : S100000x1.Idx → EReal)
    (ha : ∀ i, a i = f (p i)) (hb : ∀ i, b i = f (q i)) (hc : ∀ i, c' i = f (r i))
    (H : Shape.Concatenates [S100000x1, S100000x1, S100000x1] S300000x1 0) (j : S300000x1.Idx) :
    concatenate S300000x1 0 [⟨S100000x1, a⟩, ⟨S100000x1, b⟩, ⟨S100000x1, c'⟩] H j
      = f (concatenate S300000x1 0 [⟨S100000x1, p⟩, ⟨S100000x1, q⟩, ⟨S100000x1, r⟩] H j) := by
  have hj : (j 0).val < 300000 := (j 0).isLt
  have hoff : ∀ (i : S100000x1.Idx), (i 1).val = (j 1).val → ∀ b : Fin S100000x1.rank, b.cast (rfl : S100000x1.rank = S300000x1.rank) ≠ (0 : Fin S300000x1.rank) → (i b).val = (j (b.cast (rfl : S100000x1.rank = S300000x1.rank))).val := by
    intro i hi b hb
    match b with
    | ⟨0, _⟩ => exact absurd rfl hb
    | ⟨1, _⟩ => exact hi
  by_cases h1 : (j 0).val < 100000
  · let i : S100000x1.Idx := ix2 ⟨(j 0).val, h1⟩ (j 1)
    rw [concatenate_apply_piece (t := S300000x1) 0 [⟨S100000x1, a⟩, ⟨S100000x1, b⟩, ⟨S100000x1, c'⟩] H j 0 (show (0 : Nat) < 3 by omega) S100000x1 a rfl rfl 0 rfl i (hoff i rfl) (by show 0 + (j 0).val = (j 0).val; omega),
      concatenate_apply_piece (t := S300000x1) 0 [⟨S100000x1, p⟩, ⟨S100000x1, q⟩, ⟨S100000x1, r⟩] H j 0 (show (0 : Nat) < 3 by omega) S100000x1 p rfl rfl 0 rfl i (hoff i rfl) (by show 0 + (j 0).val = (j 0).val; omega)]
    exact ha i
  · by_cases h2 : (j 0).val < 200000
    · let i : S100000x1.Idx := ix2 ⟨(j 0).val - 100000, by omega⟩ (j 1)
      rw [concatenate_apply_piece (t := S300000x1) 0 [⟨S100000x1, a⟩, ⟨S100000x1, b⟩, ⟨S100000x1, c'⟩] H j 1 (show (1 : Nat) < 3 by omega) S100000x1 b rfl rfl 100000 rfl i (hoff i rfl) (by show 100000 + ((j 0).val - 100000) = (j 0).val; omega),
        concatenate_apply_piece (t := S300000x1) 0 [⟨S100000x1, p⟩, ⟨S100000x1, q⟩, ⟨S100000x1, r⟩] H j 1 (show (1 : Nat) < 3 by omega) S100000x1 q rfl rfl 100000 rfl i (hoff i rfl) (by show 100000 + ((j 0).val - 100000) = (j 0).val; omega)]
      exact hb i
    · let i : S100000x1.Idx := ix2 ⟨(j 0).val - 200000, by omega⟩ (j 1)
      rw [concatenate_apply_piece (t := S300000x1) 0 [⟨S100000x1, a⟩, ⟨S100000x1, b⟩, ⟨S100000x1, c'⟩] H j 2 (show (2 : Nat) < 3 by omega) S100000x1 c' rfl rfl 200000 rfl i (hoff i rfl) (by show 200000 + ((j 0).val - 200000) = (j 0).val; omega),
        concatenate_apply_piece (t := S300000x1) 0 [⟨S100000x1, p⟩, ⟨S100000x1, q⟩, ⟨S100000x1, r⟩] H j 2 (show (2 : Nat) < 3 by omega) S100000x1 r rfl rfl 200000 rfl i (hoff i rfl) (by show 200000 + ((j 0).val - 200000) = (j 0).val; omega)]
      exact hc i

theorem sigmoid_tail (x0 : (⟨Cert.ReferenceIdeal.S50000x128, .f32⟩ : BufTy).Contents (Elt Ideal)) (x1 : (⟨Cert.ReferenceIdeal.S30000x128, .f32⟩ : BufTy).Contents (Elt Ideal)) (x2 : (⟨Cert.ReferenceIdeal.S20000x128, .f32⟩ : BufTy).Contents (Elt Ideal)) (x3 : (⟨Cert.ReferenceIdeal.S128x64, .f32⟩ : BufTy).Contents (Elt Ideal)) (x4 : (⟨Cert.ReferenceIdeal.S128x64, .f32⟩ : BufTy).Contents (Elt Ideal)) (x5 : (⟨Cert.ReferenceIdeal.S128x64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x32, .f32⟩ : BufTy).Contents (Elt Ideal)) (x9 : (⟨Cert.ReferenceIdeal.S64x32, .f32⟩ : BufTy).Contents (Elt Ideal)) (x10 : (⟨Cert.ReferenceIdeal.S64x32, .f32⟩ : BufTy).Contents (Elt Ideal)) (x11 : (⟨Cert.ReferenceIdeal.S128x16, .f32⟩ : BufTy).Contents (Elt Ideal)) (x12 : (⟨Cert.ReferenceIdeal.S128x16, .f32⟩ : BufTy).Contents (Elt Ideal)) (x13 : (⟨Cert.ReferenceIdeal.S128x16, .f32⟩ : BufTy).Contents (Elt Ideal)) (x14 : (⟨Cert.ReferenceIdeal.S16x1, .f32⟩ : BufTy).Contents (Elt Ideal)) (x15 : (⟨Cert.ReferenceIdeal.S16x1, .f32⟩ : BufTy).Contents (Elt Ideal)) (x16 : (⟨Cert.ReferenceIdeal.S16x1, .f32⟩ : BufTy).Contents (Elt Ideal)) (x17 : (⟨Cert.ReferenceIdeal.S3200000, .i32⟩ : BufTy).Contents (Elt Ideal)) (x18 : (⟨Cert.ReferenceIdeal.S3200000, .i32⟩ : BufTy).Contents (Elt Ideal)) (x19 : (⟨Cert.ReferenceIdeal.S100000, .i32⟩ : BufTy).Contents (Elt Ideal)) (x20 : (⟨Cert.ReferenceIdeal.S100000, .i32⟩ : BufTy).Contents (Elt Ideal)) (x21 : (⟨Cert.ReferenceIdeal.S100000, .i32⟩ : BufTy).Contents (Elt Ideal)) (x22 : (⟨Cert.ReferenceIdeal.S100000, .i32⟩ : BufTy).Contents (Elt Ideal)) (x23 : (⟨Cert.ReferenceIdeal.S100000, .i32⟩ : BufTy).Contents (Elt Ideal)) (x24 : (⟨Cert.ReferenceIdeal.S100000, .i32⟩ : BufTy).Contents (Elt Ideal)) (x25 : (⟨Cert.ReferenceIdeal.S100000, .i32⟩ : BufTy).Contents (Elt Ideal)) (x26 : (⟨Cert.ReferenceIdeal.S100000, .i32⟩ : BufTy).Contents (Elt Ideal)) (x27 : (⟨Cert.ReferenceIdeal.S100000, .i32⟩ : BufTy).Contents (Elt Ideal))
    (a b c' : (⟨S100000x1, .f32⟩ : BufTy).Contents (Elt Ideal))
    (ha : ∀ i, a i = sig1 (Cert.ReferenceIdeal.Read.val_main_v53 (F := Ideal) x0 x1 x2 x3 x4 x5 x6 x7 x9 x10 x11 x14 x17 x18 x19 x20 x21 i))
    (hb : ∀ i, b i = sig1 (Cert.ReferenceIdeal.Read.val_main_v78 (F := Ideal) x0 x1 x2 x3 x4 x5 x6 x7 x8 x10 x12 x15 x17 x18 x22 x23 x24 i))
    (hc : ∀ i, c' i = sig1 (Cert.ReferenceIdeal.Read.val_main_v103 (F := Ideal) x0 x1 x2 x3 x4 x5 x6 x7 x8 x9 x13 x16 x17 x18 x25 x26 x27 i)) :
    shapeCast S300000 (concatenate S300000x1 0 [⟨S100000x1, a⟩, ⟨S100000x1, b⟩, ⟨S100000x1, c'⟩] concatenates_S100000x1_S100000x1_S100000x1_S300000x1_d0) shapeCasts_S300000x1_S300000
      = Cert.ReferenceIdeal.Read.val_main_v111 (F := Ideal) x0 x1 x2 x3 x4 x5 x6 x7 x8 x9 x10 x11 x12 x13 x14 x15 x16 x17 x18 x19 x20 x21 x22 x23 x24 x25 x26 x27 := by
  unfold Cert.ReferenceIdeal.Read.val_main_v111
  refine congrArg (fun v => shapeCast S300000 v shapeCasts_S300000x1_S300000) ?_
  funext j
  rw [Cert.ReferenceIdeal.Read.val_main_v110_apply, Cert.ReferenceIdeal.Read.val_main_v109_apply, Cert.ReferenceIdeal.Read.val_main_cst_21_apply, Cert.ReferenceIdeal.Read.val_main_v108_apply,
    Cert.ReferenceIdeal.Read.val_main_v107_apply, Cert.ReferenceIdeal.Read.val_main_cst_20_apply, Cert.ReferenceIdeal.Read.val_main_v106_apply, Cert.ReferenceIdeal.Read.val_main_v105_apply]
  unfold Cert.ReferenceIdeal.Read.val_main_v104
  refine (cls_concat3_map sig1 _ _ _ a b c' ha hb hc _ j).trans ?_
  show Ideal.logistic _ = Ideal.div (Ideal.ofBits .f32 0x3F800000#32) (Ideal.ofBits .f32 0x3F800000#32 + Ideal.exp (-_))
  rw [cls_ofBits_one_f32]
  rfl

end Cert.KernelIdeal.Hand

end
-- ==== Proof.Val.Chain2.lean ====
import proofs.«418426_j87943750353447_3_alg».proof.Proof.KernelIdeal.Carry
import proofs.«418426_j87943750353447_3_alg».proof.Proof.Val.Host
import proofs.«418426_j87943750353447_3_alg».proof.Proof.Val.Take
import proofs.«418426_j87943750353447_3_alg».proof.Proof.Val.WrapEq
import proofs.«418426_j87943750353447_3_alg».proof.Proof.Val.Cls

noncomputable section

namespace Cert.KernelIdeal.Hand.Chain2

open Cert.KernelIdeal Cert.KernelIdeal.Gen Idealize.ShloMosaic Idealize.ShloMosaic.TcCoe Idealize.SL.Sem

variable (m : (ℓ : Loc nD τ sig) → Buf (Elt Ideal) ℓ)

theorem arg_launch (c : Dev nD) (r : Ref sig .tc) : U0 m c r = at0 m c r := rfl

theorem carry_main_v19_0_8_7 (c : Dev nD) : U8 m c main_v19_0 = U7 m c main_v19_0 :=
  (U8_of m c main_v19_0 (by decide))
theorem carry_main_arg19_8_0 (c : Dev nD) : U8 m c main_arg19 = U0 m c main_arg19 :=
  ((U8_of m c main_arg19 (by decide)).trans ((U7_of m c main_arg19 (by decide)).trans ((U6_of m c main_arg19 (by decide)).trans ((U5_of m c main_arg19 (by decide)).trans ((U4_of m c main_arg19 (by decide)).trans ((U3_of m c main_arg19 (by decide)).trans ((U2_of m c main_arg19 (by decide)).trans (U1_of m c main_arg19 (by decide)))))))))
theorem carry_main_v20_1_9_7 (c : Dev nD) : U9 m c main_v20_1 = U7 m c main_v20_1 :=
  ((U9_of m c main_v20_1 (by decide)).trans (U8_of m c main_v20_1 (by decide)))
theorem carry_main_arg20_9_0 (c : Dev nD) : U9 m c main_arg20 = U0 m c main_arg20 :=
  ((U9_of m c main_arg20 (by decide)).trans ((U8_of m c main_arg20 (by decide)).trans ((U7_of m c main_arg20 (by decide)).trans ((U6_of m c main_arg20 (by decide)).trans ((U5_of m c main_arg20 (by decide)).trans ((U4_of m c main_arg20 (by decide)).trans ((U3_of m c main_arg20 (by decide)).trans ((U2_of m c main_arg20 (by decide)).trans (U1_of m c main_arg20 (by decide))))))))))
theorem carry_main_v21_1_10_7 (c : Dev nD) : U10 m c main_v21_1 = U7 m c main_v21_1 :=
  ((U10_of m c main_v21_1 (by decide)).trans ((U9_of m c main_v21_1 (by decide)).trans (U8_of m c main_v21_1 (by decide))))
theorem carry_main_arg21_10_0 (c : Dev nD) : U10 m c main_arg21 = U0 m c main_arg21 :=
  ((U10_of m c main_arg21 (by decide)).trans ((U9_of m c main_arg21 (by decide)).trans ((U8_of m c main_arg21 (by decide)).trans ((U7_of m c main_arg21 (by decide)).trans ((U6_of m c main_arg21 (by decide)).trans ((U5_of m c main_arg21 (by decide)).trans ((U4_of m c main_arg21 (by decide)).trans ((U3_of m c main_arg21 (by decide)).trans ((U2_of m c main_arg21 (by decide)).trans (U1_of m c main_arg21 (by decide)))))))))))
theorem carry_main_v20_0_13_7 (c : Dev nD) : U13 m c main_v20_0 = U7 m c main_v20_0 :=
  ((U13_of m c main_v20_0 (by decide)).trans ((U12_of m c main_v20_0 (by decide)).trans ((U11_of m c main_v20_0 (by decide)).trans ((U10_of m c main_v20_0 (by decide)).trans ((U9_of m c main_v20_0 (by decide)).trans (U8_of m c main_v20_0 (by decide)))))))
theorem carry_main_arg23_13_0 (c : Dev nD) : U13 m c main_arg23 = U0 m c main_arg23 :=
  ((U13_of m c main_arg23 (by decide)).trans ((U12_of m c main_arg23 (by decide)).trans ((U11_of m c main_arg23 (by decide)).trans ((U10_of m c main_arg23 (by decide)).trans ((U9_of m c main_arg23 (by decide)).trans ((U8_of m c main_arg23 (by decide)).trans ((U7_of m c main_arg23 (by decide)).trans ((U6_of m c main_arg23 (by decide)).trans ((U5_of m c main_arg23 (by decide)).trans ((U4_of m c main_arg23 (by decide)).trans ((U3_of m c main_arg23 (by decide)).trans ((U2_of m c main_arg23 (by decide)).trans (U1_of m c main_arg23 (by decide))))))))))))))
theorem carry_main_v19_1_14_7 (c : Dev nD) : U14 m c main_v19_1 = U7 m c main_v19_1 :=
  ((U14_of m c main_v19_1 (by decide)).trans ((U13_of m c main_v19_1 (by decide)).trans ((U12_of m c main_v19_1 (by decide)).trans ((U11_of m c main_v19_1 (by decide)).trans ((U10_of m c main_v19_1 (by decide)).trans ((U9_of m c main_v19_1 (by decide)).trans (U8_of m c main_v19_1 (by decide))))))))
theorem carry_main_arg22_14_0 (c : Dev nD) : U14 m c main_arg22 = U0 m c main_arg22 :=
  ((U14_of m c main_arg22 (by decide)).trans ((U13_of m c main_arg22 (by decide)).trans ((U12_of m c main_arg22 (by decide)).trans ((U11_of m c main_arg22 (by decide)).trans ((U10_of m c main_arg22 (by decide)).trans ((U9_of m c main_arg22 (by decide)).trans ((U8_of m c main_arg22 (by decide)).trans ((U7_of m c main_arg22 (by decide)).trans ((U6_of m c main_arg22 (by decide)).trans ((U5_of m c main_arg22 (by decide)).trans ((U4_of m c main_arg22 (by decide)).trans ((U3_of m c main_arg22 (by decide)).trans ((U2_of m c main_arg22 (by decide)).trans (U1_of m c main_arg22 (by decide)))))))))))))))
theorem carry_main_v21_1_15_7 (c : Dev nD) : U15 m c main_v21_1 = U7 m c main_v21_1 :=
  ((U15_of m c main_v21_1 (by decide)).trans ((U14_of m c main_v21_1 (by decide)).trans ((U13_of m c main_v21_1 (by decide)).trans ((U12_of m c main_v21_1 (by decide)).trans ((U11_of m c main_v21_1 (by decide)).trans ((U10_of m c main_v21_1 (by decide)).trans ((U9_of m c main_v21_1 (by decide)).trans (U8_of m c main_v21_1 (by decide)))))))))
theorem carry_main_arg24_15_0 (c : Dev nD) : U15 m c main_arg24 = U0 m c main_arg24 :=
  ((U15_of m c main_arg24 (by decide)).trans ((U14_of m c main_arg24 (by decide)).trans ((U13_of m c main_arg24 (by decide)).trans ((U12_of m c main_arg24 (by decide)).trans ((U11_of m c main_arg24 (by decide)).trans ((U10_of m c main_arg24 (by decide)).trans ((U9_of m c main_arg24 (by decide)).trans ((U8_of m c main_arg24 (by decide)).trans ((U7_of m c main_arg24 (by decide)).trans ((U6_of m c main_arg24 (by decide)).trans ((U5_of m c main_arg24 (by decide)).trans ((U4_of m c main_arg24 (by decide)).trans ((U3_of m c main_arg24 (by decide)).trans ((U2_of m c main_arg24 (by decide)).trans (U1_of m c main_arg24 (by decide))))))))))))))))
theorem carry_main_v21_0_18_7 (c : Dev nD) : U18 m c main_v21_0 = U7 m c main_v21_0 :=
  ((U18_of m c main_v21_0 (by decide)).trans ((U17_of m c main_v21_0 (by decide)).trans ((U16_of m c main_v21_0 (by decide)).trans ((U15_of m c main_v21_0 (by decide)).trans ((U14_of m c main_v21_0 (by decide)).trans ((U13_of m c main_v21_0 (by decide)).trans ((U12_of m c main_v21_0 (by decide)).trans ((U11_of m c main_v21_0 (by decide)).trans ((U10_of m c main_v21_0 (by decide)).trans ((U9_of m c main_v21_0 (by decide)).trans (U8_of m c main_v21_0 (by decide))))))))))))
theorem carry_main_arg27_18_0 (c : Dev nD) : U18 m c main_arg27 = U0 m c main_arg27 :=
  ((U18_of m c main_arg27 (by decide)).trans ((U17_of m c main_arg27 (by decide)).trans ((U16_of m c main_arg27 (by decide)).trans ((U15_of m c main_arg27 (by decide)).trans ((U14_of m c main_arg27 (by decide)).trans ((U13_of m c main_arg27 (by decide)).trans ((U12_of m c main_arg27 (by decide)).trans ((U11_of m c main_arg27 (by decide)).trans ((U10_of m c main_arg27 (by decide)).trans ((U9_of m c main_arg27 (by decide)).trans ((U8_of m c main_arg27 (by decide)).trans ((U7_of m c main_arg27 (by decide)).trans ((U6_of m c main_arg27 (by decide)).trans ((U5_of m c main_arg27 (by decide)).trans ((U4_of m c main_arg27 (by decide)).trans ((U3_of m c main_arg27 (by decide)).trans ((U2_of m c main_arg27 (by decide)).trans (U1_of m c main_arg27 (by decide)))))))))))))))))))
theorem carry_main_v19_1_19_7 (c : Dev nD) : U19 m c main_v19_1 = U7 m c main_v19_1 :=
  ((U19_of m c main_v19_1 (by decide)).trans ((U18_of m c main_v19_1 (by decide)).trans ((U17_of m c main_v19_1 (by decide)).trans ((U16_of m c main_v19_1 (by decide)).trans ((U15_of m c main_v19_1 (by decide)).trans ((U14_of m c main_v19_1 (by decide)).trans ((U13_of m c main_v19_1 (by decide)).trans ((U12_of m c main_v19_1 (by decide)).trans ((U11_of m c main_v19_1 (by decide)).trans ((U10_of m c main_v19_1 (by decide)).trans ((U9_of m c main_v19_1 (by decide)).trans (U8_of m c main_v19_1 (by decide)))))))))))))
theorem carry_main_arg25_19_0 (c : Dev nD) : U19 m c main_arg25 = U0 m c main_arg25 :=
  ((U19_of m c main_arg25 (by decide)).trans ((U18_of m c main_arg25 (by decide)).trans ((U17_of m c main_arg25 (by decide)).trans ((U16_of m c main_arg25 (by decide)).trans ((U15_of m c main_arg25 (by decide)).trans ((U14_of m c main_arg25 (by decide)).trans ((U13_of m c main_arg25 (by decide)).trans ((U12_of m c main_arg25 (by decide)).trans ((U11_of m c main_arg25 (by decide)).trans ((U10_of m c main_arg25 (by decide)).trans ((U9_of m c main_arg25 (by decide)).trans ((U8_of m c main_arg25 (by decide)).trans ((U7_of m c main_arg25 (by decide)).trans ((U6_of m c main_arg25 (by decide)).trans ((U5_of m c main_arg25 (by decide)).trans ((U4_of m c main_arg25 (by decide)).trans ((U3_of m c main_arg25 (by decide)).trans ((U2_of m c main_arg25 (by decide)).trans (U1_of m c main_arg25 (by decide))))))))))))))))))))
theorem carry_main_v20_1_20_7 (c : Dev nD) : U20 m c main_v20_1 = U7 m c main_v20_1 :=
  ((U20_of m c main_v20_1 (by decide)).trans ((U19_of m c main_v20_1 (by decide)).trans ((U18_of m c main_v20_1 (by decide)).trans ((U17_of m c main_v20_1 (by decide)).trans ((U16_of m c main_v20_1 (by decide)).trans ((U15_of m c main_v20_1 (by decide)).trans ((U14_of m c main_v20_1 (by decide)).trans ((U13_of m c main_v20_1 (by decide)).trans ((U12_of m c main_v20_1 (by decide)).trans ((U11_of m c main_v20_1 (by decide)).trans ((U10_of m c main_v20_1 (by decide)).trans ((U9_of m c main_v20_1 (by decide)).trans (U8_of m c main_v20_1 (by decide))))))))))))))
theorem carry_main_arg26_20_0 (c : Dev nD) : U20 m c main_arg26 = U0 m c main_arg26 :=
  ((U20_of m c main_arg26 (by decide)).trans ((U19_of m c main_arg26 (by decide)).trans ((U18_of m c main_arg26 (by decide)).trans ((U17_of m c main_arg26 (by decide)).trans ((U16_of m c main_arg26 (by decide)).trans ((U15_of m c main_arg26 (by decide)).trans ((U14_of m c main_arg26 (by decide)).trans ((U13_of m c main_arg26 (by decide)).trans ((U12_of m c main_arg26 (by decide)).trans ((U11_of m c main_arg26 (by decide)).trans ((U10_of m c main_arg26 (by decide)).trans ((U9_of m c main_arg26 (by decide)).trans ((U8_of m c main_arg26 (by decide)).trans ((U7_of m c main_arg26 (by decide)).trans ((U6_of m c main_arg26 (by decide)).trans ((U5_of m c main_arg26 (by decide)).trans ((U4_of m c main_arg26 (by decide)).trans ((U3_of m c main_arg26 (by decide)).trans ((U2_of m c main_arg26 (by decide)).trans (U1_of m c main_arg26 (by decide)))))))))))))))))))))
theorem carry_main_v23_11_9 (c : Dev nD) : U11 m c main_v23 = U9 m c main_v23 :=
  ((U11_of m c main_v23 (by decide)).trans (U10_of m c main_v23 (by decide)))
theorem carry_main_v24_11_10 (c : Dev nD) : U11 m c main_v24 = U10 m c main_v24 :=
  (U11_of m c main_v24 (by decide))
theorem carry_main_v28_16_14 (c : Dev nD) : U16 m c main_v28 = U14 m c main_v28 :=
  ((U16_of m c main_v28 (by decide)).trans (U15_of m c main_v28 (by decide)))
theorem carry_main_v29_16_15 (c : Dev nD) : U16 m c main_v29 = U15 m c main_v29 :=
  (U16_of m c main_v29 (by decide))
theorem carry_main_v33_21_19 (c : Dev nD) : U21 m c main_v33 = U19 m c main_v33 :=
  ((U21_of m c main_v33 (by decide)).trans (U20_of m c main_v33 (by decide)))
theorem carry_main_v34_21_20 (c : Dev nD) : U21 m c main_v34 = U20 m c main_v34 :=
  (U21_of m c main_v34 (by decide))
theorem carry_main_arg11_12_0 (c : Dev nD) : U12 m c main_arg11 = U0 m c main_arg11 :=
  ((U12_of m c main_arg11 (by decide)).trans ((U11_of m c main_arg11 (by decide)).trans ((U10_of m c main_arg11 (by decide)).trans ((U9_of m c main_arg11 (by decide)).trans ((U8_of m c main_arg11 (by decide)).trans ((U7_of m c main_arg11 (by decide)).trans ((U6_of m c main_arg11 (by decide)).trans ((U5_of m c main_arg11 (by decide)).trans ((U4_of m c main_arg11 (by decide)).trans ((U3_of m c main_arg11 (by decide)).trans ((U2_of m c main_arg11 (by decide)).trans (U1_of m c main_arg11 (by decide)))))))))))))
theorem carry_main_arg14_12_0 (c : Dev nD) : U12 m c main_arg14 = U0 m c main_arg14 :=
  ((U12_of m c main_arg14 (by decide)).trans ((U11_of m c main_arg14 (by decide)).trans ((U10_of m c main_arg14 (by decide)).trans ((U9_of m c main_arg14 (by decide)).trans ((U8_of m c main_arg14 (by decide)).trans ((U7_of m c main_arg14 (by decide)).trans ((U6_of m c main_arg14 (by decide)).trans ((U5_of m c main_arg14 (by decide)).trans ((U4_of m c main_arg14 (by decide)).trans ((U3_of m c main_arg14 (by decide)).trans ((U2_of m c main_arg14 (by decide)).trans (U1_of m c main_arg14 (by decide)))))))))))))
theorem carry_main_arg12_17_0 (c : Dev nD) : U17 m c main_arg12 = U0 m c main_arg12 :=
  ((U17_of m c main_arg12 (by decide)).trans ((U16_of m c main_arg12 (by decide)).trans ((U15_of m c main_arg12 (by decide)).trans ((U14_of m c main_arg12 (by decide)).trans ((U13_of m c main_arg12 (by decide)).trans ((U12_of m c main_arg12 (by decide)).trans ((U11_of m c main_arg12 (by decide)).trans ((U10_of m c main_arg12 (by decide)).trans ((U9_of m c main_arg12 (by decide)).trans ((U8_of m c main_arg12 (by decide)).trans ((U7_of m c main_arg12 (by decide)).trans ((U6_of m c main_arg12 (by decide)).trans ((U5_of m c main_arg12 (by decide)).trans ((U4_of m c main_arg12 (by decide)).trans ((U3_of m c main_arg12 (by decide)).trans ((U2_of m c main_arg12 (by decide)).trans (U1_of m c main_arg12 (by decide))))))))))))))))))
theorem carry_main_arg15_17_0 (c : Dev nD) : U17 m c main_arg15 = U0 m c main_arg15 :=
  ((U17_of m c main_arg15 (by decide)).trans ((U16_of m c main_arg15 (by decide)).trans ((U15_of m c main_arg15 (by decide)).trans ((U14_of m c main_arg15 (by decide)).trans ((U13_of m c main_arg15 (by decide)).trans ((U12_of m c main_arg15 (by decide)).trans ((U11_of m c main_arg15 (by decide)).trans ((U10_of m c main_arg15 (by decide)).trans ((U9_of m c main_arg15 (by decide)).trans ((U8_of m c main_arg15 (by decide)).trans ((U7_of m c main_arg15 (by decide)).trans ((U6_of m c main_arg15 (by decide)).trans ((U5_of m c main_arg15 (by decide)).trans ((U4_of m c main_arg15 (by decide)).trans ((U3_of m c main_arg15 (by decide)).trans ((U2_of m c main_arg15 (by decide)).trans (U1_of m c main_arg15 (by decide))))))))))))))))))
theorem carry_main_arg13_22_0 (c : Dev nD) : U22 m c main_arg13 = U0 m c main_arg13 :=
  ((U22_of m c main_arg13 (by decide)).trans ((U21_of m c main_arg13 (by decide)).trans ((U20_of m c main_arg13 (by decide)).trans ((U19_of m c main_arg13 (by decide)).trans ((U18_of m c main_arg13 (by decide)).trans ((U17_of m c main_arg13 (by decide)).trans ((U16_of m c main_arg13 (by decide)).trans ((U15_of m c main_arg13 (by decide)).trans ((U14_of m c main_arg13 (by decide)).trans ((U13_of m c main_arg13 (by decide)).trans ((U12_of m c main_arg13 (by decide)).trans ((U11_of m c main_arg13 (by decide)).trans ((U10_of m c main_arg13 (by decide)).trans ((U9_of m c main_arg13 (by decide)).trans ((U8_of m c main_arg13 (by decide)).trans ((U7_of m c main_arg13 (by decide)).trans ((U6_of m c main_arg13 (by decide)).trans ((U5_of m c main_arg13 (by decide)).trans ((U4_of m c main_arg13 (by decide)).trans ((U3_of m c main_arg13 (by decide)).trans ((U2_of m c main_arg13 (by decide)).trans (U1_of m c main_arg13 (by decide)))))))))))))))))))))))
theorem carry_main_arg16_22_0 (c : Dev nD) : U22 m c main_arg16 = U0 m c main_arg16 :=
  ((U22_of m c main_arg16 (by decide)).trans ((U21_of m c main_arg16 (by decide)).trans ((U20_of m c main_arg16 (by decide)).trans ((U19_of m c main_arg16 (by decide)).trans ((U18_of m c main_arg16 (by decide)).trans ((U17_of m c main_arg16 (by decide)).trans ((U16_of m c main_arg16 (by decide)).trans ((U15_of m c main_arg16 (by decide)).trans ((U14_of m c main_arg16 (by decide)).trans ((U13_of m c main_arg16 (by decide)).trans ((U12_of m c main_arg16 (by decide)).trans ((U11_of m c main_arg16 (by decide)).trans ((U10_of m c main_arg16 (by decide)).trans ((U9_of m c main_arg16 (by decide)).trans ((U8_of m c main_arg16 (by decide)).trans ((U7_of m c main_arg16 (by decide)).trans ((U6_of m c main_arg16 (by decide)).trans ((U5_of m c main_arg16 (by decide)).trans ((U4_of m c main_arg16 (by decide)).trans ((U3_of m c main_arg16 (by decide)).trans ((U2_of m c main_arg16 (by decide)).trans (U1_of m c main_arg16 (by decide)))))))))))))))))))))))
theorem carry_main_v27_23_13 (c : Dev nD) : U23 m c main_v27 = U13 m c main_v27 :=
  ((U23_of m c main_v27 (by decide)).trans ((U22_of m c main_v27 (by decide)).trans ((U21_of m c main_v27 (by decide)).trans ((U20_of m c main_v27 (by decide)).trans ((U19_of m c main_v27 (by decide)).trans ((U18_of m c main_v27 (by decide)).trans ((U17_of m c main_v27 (by decide)).trans ((U16_of m c main_v27 (by decide)).trans ((U15_of m c main_v27 (by decide)).trans (U14_of m c main_v27 (by decide)))))))))))
theorem carry_main_v32_23_18 (c : Dev nD) : U23 m c main_v32 = U18 m c main_v32 :=
  ((U23_of m c main_v32 (by decide)).trans ((U22_of m c main_v32 (by decide)).trans ((U21_of m c main_v32 (by decide)).trans ((U20_of m c main_v32 (by decide)).trans (U19_of m c main_v32 (by decide))))))
theorem carry_main_v19_0_7_5 (c : Dev nD) : U7 m c main_v19_0 = U5 m c main_v19_0 :=
  ((U7_of m c main_v19_0 (by decide)).trans (U6_of m c main_v19_0 (by decide)))
theorem carry_main_v19_1_7_5 (c : Dev nD) : U7 m c main_v19_1 = U5 m c main_v19_1 :=
  ((U7_of m c main_v19_1 (by decide)).trans (U6_of m c main_v19_1 (by decide)))
theorem carry_main_v20_0_7_6 (c : Dev nD) : U7 m c main_v20_0 = U6 m c main_v20_0 :=
  (U7_of m c main_v20_0 (by decide))
theorem carry_main_v20_1_7_6 (c : Dev nD) : U7 m c main_v20_1 = U6 m c main_v20_1 :=
  (U7_of m c main_v20_1 (by decide))

theorem take_main_v23 (m : (ℓ : Loc nD τ sig) → Buf (Elt Ideal) ℓ) (c : Dev nD)
    (b19 : ∀ j, -50000 ≤ ((at0 m c main_arg19) j).toInt ∧ ((at0 m c main_arg19) j).toInt < 50000)
    (tEa : U7 m c main_v19_0 = ref_v23 m c) :
    U9 m c main_v23 = ref_v35 m c := by
  show StableHlo.after (hostOps6_1 (F := Ideal)) (U8 m c) main_v23 = _
  rw [host6_1, ((carry_main_v19_0_8_7 m c).trans tEa), ((carry_main_arg19_8_0 m c).trans (arg_launch m c main_arg19)),
    take_50000x64 _ _ b19, wrapCol_eq_v34]
  rfl

theorem take_main_v24 (m : (ℓ : Loc nD τ sig) → Buf (Elt Ideal) ℓ) (c : Dev nD)
    (b20 : ∀ j, -30000 ≤ ((at0 m c main_arg20) j).toInt ∧ ((at0 m c main_arg20) j).toInt < 30000)
    (tCp : U7 m c main_v20_1 = ref_v27 m c) :
    U10 m c main_v24 = ref_v42 m c := by
  show StableHlo.after (hostOps6_2 (F := Ideal)) (U9 m c) main_v24 = _
  rw [host6_2, ((carry_main_v20_1_9_7 m c).trans tCp), ((carry_main_arg20_9_0 m c).trans (arg_launch m c main_arg20)),
    take_30000x32 _ _ b20, wrapCol_eq_v41]
  rfl

theorem take_main_v25 (m : (ℓ : Loc nD τ sig) → Buf (Elt Ideal) ℓ) (c : Dev nD)
    (b21 : ∀ j, -20000 ≤ ((at0 m c main_arg21) j).toInt ∧ ((at0 m c main_arg21) j).toInt < 20000)
    (hCs : U7 m c main_v21_1 = ref_v28 m c) :
    U11 m c main_v25 = ref_v49 m c := by
  show StableHlo.after (hostOps6_3 (F := Ideal)) (U10 m c) main_v25 = _
  rw [host6_3, ((carry_main_v21_1_10_7 m c).trans hCs), ((carry_main_arg21_10_0 m c).trans (arg_launch m c main_arg21)),
    take_20000x32 _ _ b21, wrapCol_eq_v48]
  rfl

theorem take_main_v28 (m : (ℓ : Loc nD τ sig) → Buf (Elt Ideal) ℓ) (c : Dev nD)
    (b23 : ∀ j, -30000 ≤ ((at0 m c main_arg23) j).toInt ∧ ((at0 m c main_arg23) j).toInt < 30000)
    (tEp : U7 m c main_v20_0 = ref_v24 m c) :
    U14 m c main_v28 = ref_v60 m c := by
  show StableHlo.after (hostOps7 (F := Ideal)) (U13 m c) main_v28 = _
  rw [host7, ((carry_main_v20_0_13_7 m c).trans tEp), ((carry_main_arg23_13_0 m c).trans (arg_launch m c main_arg23)),
    take_30000x64 _ _ b23, wrapCol_eq_v59]
  rfl

theorem take_main_v29 (m : (ℓ : Loc nD τ sig) → Buf (Elt Ideal) ℓ) (c : Dev nD)
    (b22 : ∀ j, -50000 ≤ ((at0 m c main_arg22) j).toInt ∧ ((at0 m c main_arg22) j).toInt < 50000)
    (tCa : U7 m c main_v19_1 = ref_v26 m c) :
    U15 m c main_v29 = ref_v67 m c := by
  show StableHlo.after (hostOps7_1 (F := Ideal)) (U14 m c) main_v29 = _
  rw [host7_1, ((carry_main_v19_1_14_7 m c).trans tCa), ((carry_main_arg22_14_0 m c).trans (arg_launch m c main_arg22)),
    take_50000x32 _ _ b22, wrapCol_eq_v66]
  rfl

theorem take_main_v30 (m : (ℓ : Loc nD τ sig) → Buf (Elt Ideal) ℓ) (c : Dev nD)
    (b24 : ∀ j, -20000 ≤ ((at0 m c main_arg24) j).toInt ∧ ((at0 m c main_arg24) j).toInt < 20000)
    (hCs : U7 m c main_v21_1 = ref_v28 m c) :
    U16 m c main_v30 = ref_v74 m c := by
  show StableHlo.after (hostOps7_2 (F := Ideal)) (U15 m c) main_v30 = _
  rw [host7_2, ((carry_main_v21_1_15_7 m c).trans hCs), ((carry_main_arg24_15_0 m c).trans (arg_launch m c main_arg24)),
    take_20000x32 _ _ b24, wrapCol_eq_v73]
  rfl

theorem take_main_v33 (m : (ℓ : Loc nD τ sig) → Buf (Elt Ideal) ℓ) (c : Dev nD)
    (b27 : ∀ j, -20000 ≤ ((at0 m c main_arg27) j).toInt ∧ ((at0 m c main_arg27) j).toInt < 20000)
    (hEs : U7 m c main_v21_0 = ref_v25 m c) :
    U19 m c main_v33 = ref_v85 m c := by
  show StableHlo.after (hostOps8 (F := Ideal)) (U18 m c) main_v33 = _
  rw [host8, ((carry_main_v21_0_18_7 m c).trans hEs), ((carry_main_arg27_18_0 m c).trans (arg_launch m c main_arg27)),
    take_20000x64 _ _ b27, wrapCol_eq_v84]
  rfl

theorem take_main_v34 (m : (ℓ : Loc nD τ sig) → Buf (Elt Ideal) ℓ) (c : Dev nD)
    (b25 : ∀ j, -50000 ≤ ((at0 m c main_arg25) j).toInt ∧ ((at0 m c main_arg25) j).toInt < 50000)
    (tCa : U7 m c main_v19_1 = ref_v26 m c) :
    U20 m c main_v34 = ref_v92 m c := by
  show StableHlo.after (hostOps8_1 (F := Ideal)) (U19 m c) main_v34 = _
  rw [host8_1, ((carry_main_v19_1_19_7 m c).trans tCa), ((carry_main_arg25_19_0 m c).trans (arg_launch m c main_arg25)),
    take_50000x32 _ _ b25, wrapCol_eq_v91]
  rfl

theorem take_main_v35 (m : (ℓ : Loc nD τ sig) → Buf (Elt Ideal) ℓ) (c : Dev nD)
    (b26 : ∀ j, -30000 ≤ ((at0 m c main_arg26) j).toInt ∧ ((at0 m c main_arg26) j).toInt < 30000)
    (tCp : U7 m c main_v20_1 = ref_v27 m c) :
    U21 m c main_v35 = ref_v99 m c := by
  show StableHlo.after (hostOps8_2 (F := Ideal)) (U20 m c) main_v35 = _
  rw [host8_2, ((carry_main_v20_1_20_7 m c).trans tCp), ((carry_main_arg26_20_0 m c).trans (arg_launch m c main_arg26)),
    take_30000x32 _ _ b26, wrapCol_eq_v98]
  rfl

theorem join_main_v26 (m : (ℓ : Loc nD τ sig) → Buf (Elt Ideal) ℓ) (c : Dev nD)
    (k_main_v23 : U9 m c main_v23 = ref_v35 m c)
    (k_main_v24 : U10 m c main_v24 = ref_v42 m c)
    (k_main_v25 : U11 m c main_v25 = ref_v49 m c) :
    U12 m c main_v26 = ref_v50 m c := by
  show StableHlo.after (hostOps6_4 (F := Ideal)) (U11 m c) main_v26 = _
  rw [host6_4, ((carry_main_v23_11_9 m c).trans k_main_v23),
    ((carry_main_v24_11_10 m c).trans k_main_v24),
    k_main_v25]
  rfl

theorem join_main_v31 (m : (ℓ : Loc nD τ sig) → Buf (Elt Ideal) ℓ) (c : Dev nD)
    (k_main_v28 : U14 m c main_v28 = ref_v60 m c)
    (k_main_v29 : U15 m c main_v29 = ref_v67 m c)
    (k_main_v30 : U16 m c main_v30 = ref_v74 m c) :
    U17 m c main_v31 = ref_v75 m c := by
  show StableHlo.after (hostOps7_3 (F := Ideal)) (U16 m c) main_v31 = _
  rw [host7_3, ((carry_main_v28_16_14 m c).trans k_main_v28),
    ((carry_main_v29_16_15 m c).trans k_main_v29),
    k_main_v30]
  rfl

theorem join_main_v36 (m : (ℓ : Loc nD τ sig) → Buf (Elt Ideal) ℓ) (c : Dev nD)
    (k_main_v33 : U19 m c main_v33 = ref_v85 m c)
    (k_main_v34 : U20 m c main_v34 = ref_v92 m c)
    (k_main_v35 : U21 m c main_v35 = ref_v99 m c) :
    U22 m c main_v36 = ref_v100 m c := by
  show StableHlo.after (hostOps8_3 (F := Ideal)) (U21 m c) main_v36 = _
  rw [host8_3, ((carry_main_v33_21_19 m c).trans k_main_v33),
    ((carry_main_v34_21_20 m c).trans k_main_v34),
    k_main_v35]
  rfl

theorem score_main_v27 (m : (ℓ : Loc nD τ sig) → Buf (Elt Ideal) ℓ) (c : Dev nD)
    (x_main_v26 : U12 m c main_v26 = ref_v50 m c) :
    ∀ i, U13 m c main_v27 i = sig1 (ref_v53 m c i) := by
  have e : U13 m c main_v27 = (dat6 (F := Ideal) (rd (U12 m)) c).arrAt 3 cfg6.N := by
    unfold U13; exact Function.update_self _ _ _
  intro i
  rw [e]
  exact cls6_value (rd (U12 m)) c (at0 m c main_arg0) (at0 m c main_arg1) (at0 m c main_arg2) (at0 m c main_arg3) (at0 m c main_arg4) (at0 m c main_arg5) (at0 m c main_arg6) (at0 m c main_arg7) (at0 m c main_arg9) (at0 m c main_arg10) (at0 m c main_arg11) (at0 m c main_arg14) (at0 m c main_arg17) (at0 m c main_arg18) (at0 m c main_arg19) (at0 m c main_arg20) (at0 m c main_arg21) x_main_v26
    ((carry_main_arg11_12_0 m c).trans (arg_launch m c main_arg11))
    ((carry_main_arg14_12_0 m c).trans (arg_launch m c main_arg14)) i

theorem score_main_v32 (m : (ℓ : Loc nD τ sig) → Buf (Elt Ideal) ℓ) (c : Dev nD)
    (x_main_v31 : U17 m c main_v31 = ref_v75 m c) :
    ∀ i, U18 m c main_v32 i = sig1 (ref_v78 m c i) := by
  have e : U18 m c main_v32 = (dat7 (F := Ideal) (rd (U17 m)) c).arrAt 3 cfg7.N := by
    unfold U18; exact Function.update_self _ _ _
  intro i
  rw [e]
  exact cls7_value (rd (U17 m)) c (at0 m c main_arg0) (at0 m c main_arg1) (at0 m c main_arg2) (at0 m c main_arg3) (at0 m c main_arg4) (at0 m c main_arg5) (at0 m c main_arg6) (at0 m c main_arg7) (at0 m c main_arg8) (at0 m c main_arg10) (at0 m c main_arg12) (at0 m c main_arg15) (at0 m c main_arg17) (at0 m c main_arg18) (at0 m c main_arg22) (at0 m c main_arg23) (at0 m c main_arg24) x_main_v31
    ((carry_main_arg12_17_0 m c).trans (arg_launch m c main_arg12))
    ((carry_main_arg15_17_0 m c).trans (arg_launch m c main_arg15)) i

theorem score_main_v37 (m : (ℓ : Loc nD τ sig) → Buf (Elt Ideal) ℓ) (c : Dev nD)
    (x_main_v36 : U22 m c main_v36 = ref_v100 m c) :
    ∀ i, U23 m c main_v37 i = sig1 (ref_v103 m c i) := by
  have e : U23 m c main_v37 = (dat8 (F := Ideal) (rd (U22 m)) c).arrAt 3 cfg8.N := by
    unfold U23; exact Function.update_self _ _ _
  intro i
  rw [e]
  exact cls8_value (rd (U22 m)) c (at0 m c main_arg0) (at0 m c main_arg1) (at0 m c main_arg2) (at0 m c main_arg3) (at0 m c main_arg4) (at0 m c main_arg5) (at0 m c main_arg6) (at0 m c main_arg7) (at0 m c main_arg8) (at0 m c main_arg9) (at0 m c main_arg13) (at0 m c main_arg16) (at0 m c main_arg17) (at0 m c main_arg18) (at0 m c main_arg25) (at0 m c main_arg26) (at0 m c main_arg27) x_main_v36
    ((carry_main_arg13_22_0 m c).trans (arg_launch m c main_arg13))
    ((carry_main_arg16_22_0 m c).trans (arg_launch m c main_arg16)) i

end Cert.KernelIdeal.Hand.Chain2

namespace Cert.KernelIdeal.Hand

open Cert.KernelIdeal Cert.KernelIdeal.Gen Idealize.ShloMosaic Idealize.ShloMosaic.TcCoe Idealize.SL.Sem
open Cert.KernelIdeal.Hand.Chain2

theorem chain2 (m : (ℓ : Loc nD τ sig) → Buf (Elt Ideal) ℓ) (c : Dev nD)
    (hb : (∀ j, -50000 ≤ ((at0 m c main_arg19) j).toInt ∧ ((at0 m c main_arg19) j).toInt < 50000)
      ∧ (∀ j, -30000 ≤ ((at0 m c main_arg20) j).toInt ∧ ((at0 m c main_arg20) j).toInt < 30000)
      ∧ (∀ j, -20000 ≤ ((at0 m c main_arg21) j).toInt ∧ ((at0 m c main_arg21) j).toInt < 20000)
      ∧ (∀ j, -50000 ≤ ((at0 m c main_arg22) j).toInt ∧ ((at0 m c main_arg22) j).toInt < 50000)
      ∧ (∀ j, -30000 ≤ ((at0 m c main_arg23) j).toInt ∧ ((at0 m c main_arg23) j).toInt < 30000)
      ∧ (∀ j, -20000 ≤ ((at0 m c main_arg24) j).toInt ∧ ((at0 m c main_arg24) j).toInt < 20000)
      ∧ (∀ j, -50000 ≤ ((at0 m c main_arg25) j).toInt ∧ ((at0 m c main_arg25) j).toInt < 50000)
      ∧ (∀ j, -30000 ≤ ((at0 m c main_arg26) j).toInt ∧ ((at0 m c main_arg26) j).toInt < 30000)
      ∧ (∀ j, -20000 ≤ ((at0 m c main_arg27) j).toInt ∧ ((at0 m c main_arg27) j).toInt < 20000))
    (hEa : U5 m c main_v19_0 = ref_v23 m c)
    (hCa : U5 m c main_v19_1 = ref_v26 m c)
    (hEp : U6 m c main_v20_0 = ref_v24 m c)
    (hCp : U6 m c main_v20_1 = ref_v27 m c)
    (hEs : U7 m c main_v21_0 = ref_v25 m c)
    (hCs : U7 m c main_v21_1 = ref_v28 m c) :
    U24 m c main_v39 = ref_v111 m c := by
  obtain ⟨b19, b20, b21, b22, b23, b24, b25, b26, b27⟩ := hb

  have tEa := (carry_main_v19_0_7_5 m c).trans hEa
  have tCa := (carry_main_v19_1_7_5 m c).trans hCa
  have tEp := (carry_main_v20_0_7_6 m c).trans hEp
  have tCp := (carry_main_v20_1_7_6 m c).trans hCp

  have k_main_v23 := take_main_v23 m c b19 tEa
  have k_main_v24 := take_main_v24 m c b20 tCp
  have k_main_v25 := take_main_v25 m c b21 hCs
  have x_main_v26 := join_main_v26 m c k_main_v23 k_main_v24 k_main_v25
  have s_main_v27 := score_main_v27 m c x_main_v26

  have k_main_v28 := take_main_v28 m c b23 tEp
  have k_main_v29 := take_main_v29 m c b22 tCa
  have k_main_v30 := take_main_v30 m c b24 hCs
  have x_main_v31 := join_main_v31 m c k_main_v28 k_main_v29 k_main_v30
  have s_main_v32 := score_main_v32 m c x_main_v31

  have k_main_v33 := take_main_v33 m c b27 hEs
  have k_main_v34 := take_main_v34 m c b25 tCa
  have k_main_v35 := take_main_v35 m c b26 tCp
  have x_main_v36 := join_main_v36 m c k_main_v33 k_main_v34 k_main_v35
  have s_main_v37 := score_main_v37 m c x_main_v36

  have ha : ∀ i, U23 m c main_v27 i = sig1 (ref_v53 m c i) := fun i => by
    rw [(carry_main_v27_23_13 m c)]; exact s_main_v27 i
  have hb' : ∀ i, U23 m c main_v32 i = sig1 (ref_v78 m c i) := fun i => by
    rw [(carry_main_v32_23_18 m c)]; exact s_main_v32 i
  show StableHlo.after (hostOps9 (F := Ideal)) (U23 m c) main_v39 = _
  refine ((host9 (U23 m c)).2).trans ?_
  exact sigmoid_tail (at0 m c main_arg0) (at0 m c main_arg1) (at0 m c main_arg2) (at0 m c main_arg3) (at0 m c main_arg4) (at0 m c main_arg5) (at0 m c main_arg6) (at0 m c main_arg7) (at0 m c main_arg8) (at0 m c main_arg9) (at0 m c main_arg10) (at0 m c main_arg11) (at0 m c main_arg12) (at0 m c main_arg13) (at0 m c main_arg14) (at0 m c main_arg15) (at0 m c main_arg16) (at0 m c main_arg17) (at0 m c main_arg18) (at0 m c main_arg19) (at0 m c main_arg20) (at0 m c main_arg21) (at0 m c main_arg22) (at0 m c main_arg23) (at0 m c main_arg24) (at0 m c main_arg25) (at0 m c main_arg26) (at0 m c main_arg27)
    (U23 m c main_v27) (U23 m c main_v32) (U23 m c main_v37) ha hb' s_main_v37

end Cert.KernelIdeal.Hand

end
-- ==== Proof.LibNary3.lean ====
import Idealize.ShloMosaic.Lib.StableHlo.Run

noncomputable section

namespace Idealize.ShloMosaic.StableHlo

variable {τ : Topo} {sig : RefSig} {Val : EltTy → Type}

section Nary3

variable {x a b y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Nary3

macro "after_results_simp3" : tactic =>
  `(tactic| (simp (disch := decide) only [after_cons, after_nil,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne']))

theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

end Idealize.ShloMosaic.StableHlo

end
-- ==== Proof.RefRun2.lean ====
import proofs.«418426_j87943750353447_3_alg».proof.Proof.RefStages
import proofs.«418426_j87943750353447_3_alg».proof.Proof.LibNary3

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev ops5 : List (HloOp τ sig (Elt F)) :=
  [ unary main_v22 main_v23 ((extractStridedSlice S50000x64 ![0, 0] · slices_S100000x64_S50000x64_0_0) : (⟨S100000x64, .f32⟩ : BufTy).Contents (Elt F) → (⟨S50000x64, .f32⟩ : BufTy).Contents (Elt F)),
    unary main_v22 main_v24 ((extractStridedSlice S30000x64 ![50000, 0] · slices_S100000x64_S30000x64_50000_0) : (⟨S100000x64, .f32⟩ : BufTy).Contents (Elt F) → (⟨S30000x64, .f32⟩ : BufTy).Contents (Elt F)),
    unary main_v22 main_v25 ((extractStridedSlice S20000x64 ![80000, 0] · slices_S100000x64_S20000x64_80000_0) : (⟨S100000x64, .f32⟩ : BufTy).Contents (Elt F) → (⟨S20000x64, .f32⟩ : BufTy).Contents (Elt F)),
    binary main_v23 main_arg8 main_v26 ((fun l r => Host.dotGeneral dot_S50000x64_S64x32_S50000x32_1_0_0_1_n_n none l r) : (⟨S50000x64, .f32⟩ : BufTy).Contents (Elt F) → (⟨S64x32, .f32⟩ : BufTy).Contents (Elt F) → (⟨S50000x32, .f32⟩ : BufTy).Contents (Elt F)),
    binary main_v24 main_arg9 main_v27 ((fun l r => Host.dotGeneral dot_S30000x64_S64x32_S30000x32_1_0_0_1_n_n none l r) : (⟨S30000x64, .f32⟩ : BufTy).Contents (Elt F) → (⟨S64x32, .f32⟩ : BufTy).Contents (Elt F) → (⟨S30000x32, .f32⟩ : BufTy).Contents (Elt F)),
    binary main_v25 main_arg10 main_v28 ((fun l r => Host.dotGeneral dot_S20000x64_S64x32_S20000x32_1_0_0_1_n_n none l r) : (⟨S20000x64, .f32⟩ : BufTy).Contents (Elt F) → (⟨S64x32, .f32⟩ : BufTy).Contents (Elt F) → (⟨S20000x32, .f32⟩ : BufTy).Contents (Elt F)) ]

abbrev wr5 : List (Ref sig .tc) := [main_v23, main_v24, main_v25, main_v26, main_v27, main_v28]
theorem ops5_writes : (ops5 : List (HloOp τ sig (Elt F))).Forall fun op => op.writes ⊆ ((wr5 : List (Ref sig .tc)).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

theorem frame5 (W : Valuation τ sig (Elt F)) (r : Ref sig .tc) (h : r ∉ (wr5 : List (Ref sig .tc))) :
    after (ops5 (F := F)) W (Proc.devRef .tc r) = W (Proc.devRef .tc r) :=
  after_of_writes_sub ops5 W ops5_writes h

theorem st5_main_v23 (W : Valuation τ sig (Elt F)) (x0 : (⟨S50000x128, .f32⟩ : BufTy).Contents (Elt F)) (x1 : (⟨S30000x128, .f32⟩ : BufTy).Contents (Elt F)) (x2 : (⟨S20000x128, .f32⟩ : BufTy).Contents (Elt F)) (x3 : (⟨S128x64, .f32⟩ : BufTy).Contents (Elt F)) (x4 : (⟨S128x64, .f32⟩ : BufTy).Contents (Elt F)) (x5 : (⟨S128x64, .f32⟩ : BufTy).Contents (Elt F)) (x6 : (⟨S64x64, .f32⟩ : BufTy).Contents (Elt F)) (x7 : (⟨S64, .f32⟩ : BufTy).Contents (Elt F)) (x17 : (⟨S3200000, .i32⟩ : BufTy).Contents (Elt F)) (x18 : (⟨S3200000, .i32⟩ : BufTy).Contents (Elt F))
    (h_main_v22 : W (Proc.devRef .tc main_v22) = val_main_v22 (F := F) x0 x1 x2 x3 x4 x5 x6 x7 x17 x18) :
    after (ops5 (F := F)) W (Proc.devRef .tc main_v23) = val_main_v23 (F := F) x0 x1 x2 x3 x4 x5 x6 x7 x17 x18 := by
  after_results_simp3
  rw [h_main_v22]
  rfl

theorem st5_main_v24 (W : Valuation τ sig (Elt F)) (x0 : (⟨S50000x128, .f32⟩ : BufTy).Contents (Elt F)) (x1 : (⟨S30000x128, .f32⟩ : BufTy).Contents (Elt F)) (x2 : (⟨S20000x128, .f32⟩ : BufTy).Contents (Elt F)) (x3 : (⟨S128x64, .f32⟩ : BufTy).Contents (Elt F)) (x4 : (⟨S128x64, .f32⟩ : BufTy).Contents (Elt F)) (x5 : (⟨S128x64, .f32⟩ : BufTy).Contents (Elt F)) (x6 : (⟨S64x64, .f32⟩ : BufTy).Contents (Elt F)) (x7 : (⟨S64, .f32⟩ : BufTy).Contents (Elt F)) (x17 : (⟨S3200000, .i32⟩ : BufTy).Contents (Elt F)) (x18 : (⟨S3200000, .i32⟩ : BufTy).Contents (Elt F))
    (h_main_v22 : W (Proc.devRef .tc main_v22) = val_main_v22 (F := F) x0 x1 x2 x3 x4 x5 x6 x7 x17 x18) :
    after (ops5 (F := F)) W (Proc.devRef .tc main_v24) = val_main_v24 (F := F) x0 x1 x2 x3 x4 x5 x6 x7 x17 x18 := by
  after_results_simp3
  rw [h_main_v22]
  rfl

theorem st5_main_v25 (W : Valuation τ sig (Elt F)) (x0 : (⟨S50000x128, .f32⟩ : BufTy).Contents (Elt F)) (x1 : (⟨S30000x128, .f32⟩ : BufTy).Contents (Elt F)) (x2 : (⟨S20000x128, .f32⟩ : BufTy).Contents (Elt F)) (x3 : (⟨S128x64, .f32⟩ : BufTy).Contents (Elt F)) (x4 : (⟨S128x64, .f32⟩ : BufTy).Contents (Elt F)) (x5 : (⟨S128x64, .f32⟩ : BufTy).Contents (Elt F)) (x6 : (⟨S64x64, .f32⟩ : BufTy).Contents (Elt F)) (x7 : (⟨S64, .f32⟩ : BufTy).Contents (Elt F)) (x17 : (⟨S3200000, .i32⟩ : BufTy).Contents (Elt F)) (x18 : (⟨S3200000, .i32⟩ : BufTy).Contents (Elt F))
    (h_main_v22 : W (Proc.devRef .tc main_v22) = val_main_v22 (F := F) x0 x1 x2 x3 x4 x5 x6 x7 x17 x18) :
    after (ops5 (F := F)) W (Proc.devRef .tc main_v25) = val_main_v25 (F := F) x0 x1 x2 x3 x4 x5 x6 x7 x17 x18 := by
  after_results_simp3
  rw [h_main_v22]
  rfl

theorem st5_main_v26 (W : Valuation τ sig (Elt F)) (x0 : (⟨S50000x128, .f32⟩ : BufTy).Contents (Elt F)) (x1 : (⟨S30000x128, .f32⟩ : BufTy).Contents (Elt F)) (x2 : (⟨S20000x128, .f32⟩ : BufTy).Contents (Elt F)) (x3 : (⟨S128x64, .f32⟩ : BufTy).Contents (Elt F)) (x4 : (⟨S128x64, .f32⟩ : BufTy).Contents (Elt F)) (x5 : (⟨S128x64, .f32⟩ : BufTy).Contents (Elt F)) (x6 : (⟨S64x64, .f32⟩ : BufTy).Contents (Elt F)) (x7 : (⟨S64, .f32⟩ : BufTy).Contents (Elt F)) (x8 : (⟨S64x32, .f32⟩ : BufTy).Contents (Elt F)) (x17 : (⟨S3200000, .i32⟩ : BufTy).Contents (Elt F)) (x18 : (⟨S3200000, .i32⟩ : BufTy).Contents (Elt F))
    (h_main_arg8 : W (Proc.devRef .tc main_arg8) = x8)
    (h_main_v22 : W (Proc.devRef .tc main_v22) = val_main_v22 (F := F) x0 x1 x2 x3 x4 x5 x6 x7 x17 x18) :
    after (ops5 (F := F)) W (Proc.devRef .tc main_v26) = val_main_v26 (F := F) x0 x1 x2 x3 x4 x5 x6 x7 x8 x17 x18 := by
  after_results_simp3
  rw [h_main_arg8, h_main_v22]
  rfl

theorem st5_main_v27 (W : Valuation τ sig (Elt F)) (x0 : (⟨S50000x128, .f32⟩ : BufTy).Contents (Elt F)) (x1 : (⟨S30000x128, .f32⟩ : BufTy).Contents (Elt F)) (x2 : (⟨S20000x128, .f32⟩ : BufTy).Contents (Elt F)) (x3 : (⟨S128x64, .f32⟩ : BufTy).Contents (Elt F)) (x4 : (⟨S128x64, .f32⟩ : BufTy).Contents (Elt F)) (x5 : (⟨S128x64, .f32⟩ : BufTy).Contents (Elt F)) (x6 : (⟨S64x64, .f32⟩ : BufTy).Contents (Elt F)) (x7 : (⟨S64, .f32⟩ : BufTy).Contents (Elt F)) (x9 : (⟨S64x32, .f32⟩ : BufTy).Contents (Elt F)) (x17 : (⟨S3200000, .i32⟩ : BufTy).Contents (Elt F)) (x18 : (⟨S3200000, .i32⟩ : BufTy).Contents (Elt F))
    (h_main_arg9 : W (Proc.devRef .tc main_arg9) = x9)
    (h_main_v22 : W (Proc.devRef .tc main_v22) = val_main_v22 (F := F) x0 x1 x2 x3 x4 x5 x6 x7 x17 x18) :
    after (ops5 (F := F)) W (Proc.devRef .tc main_v27) = val_main_v27 (F := F) x0 x1 x2 x3 x4 x5 x6 x7 x9 x17 x18 := by
  after_results_simp3
  rw [h_main_arg9, h_main_v22]
  rfl

theorem st5_main_v28 (W : Valuation τ sig (Elt F)) (x0 : (⟨S50000x128, .f32⟩ : BufTy).Contents (Elt F)) (x1 : (⟨S30000x128, .f32⟩ : BufTy).Contents (Elt F)) (x2 : (⟨S20000x128, .f32⟩ : BufTy).Contents (Elt F)) (x3 : (⟨S128x64, .f32⟩ : BufTy).Contents (Elt F)) (x4 : (⟨S128x64, .f32⟩ : BufTy).Contents (Elt F)) (x5 : (⟨S128x64, .f32⟩ : BufTy).Contents (Elt F)) (x6 : (⟨S64x64, .f32⟩ : BufTy).Contents (Elt F)) (x7 : (⟨S64, .f32⟩ : BufTy).Contents (Elt F)) (x10 : (⟨S64x32, .f32⟩ : BufTy).Contents (Elt F)) (x17 : (⟨S3200000, .i32⟩ : BufTy).Contents (Elt F)) (x18 : (⟨S3200000, .i32⟩ : BufTy).Contents (Elt F))
    (h_main_arg10 : W (Proc.devRef .tc main_arg10) = x10)
    (h_main_v22 : W (Proc.devRef .tc main_v22) = val_main_v22 (F := F) x0 x1 x2 x3 x4 x5 x6 x7 x17 x18) :
    after (ops5 (F := F)) W (Proc.devRef .tc main_v28) = val_main_v28 (F := F) x0 x1 x2 x3 x4 x5 x6 x7 x10 x17 x18 := by
  after_results_simp3
  rw [h_main_arg10, h_main_v22]
  rfl

abbrev ops6 : List (HloOp τ sig (Elt F)) :=
  [ nullary main_c_2 (constantI S_ 32 0#32),
    unary main_c_2 main_v29 (broadcastInDim S100000 ![] bcast_S_S100000 : (⟨S_, .i32⟩ : BufTy).Contents (Elt F) → (⟨S100000, .i32⟩ : BufTy).Contents (Elt F)),
    binary main_arg19 main_v29 main_v30 (cmpi .slt : (⟨S100000, .i32⟩ : BufTy).Contents (Elt F) → (⟨S100000, .i32⟩ : BufTy).Contents (Elt F) → (⟨S100000, .i1⟩ : BufTy).Contents (Elt F)),
    nullary main_c_3 (constantI S_ 32 50000#32),
    unary main_c_3 main_v31 (broadcastInDim S100000 ![] bcast_S_S100000 : (⟨S_, .i32⟩ : BufTy).Contents (Elt F) → (⟨S100000, .i32⟩ : BufTy).Contents (Elt F)),
    binary main_arg19 main_v31 main_v32 (addi : (⟨S100000, .i32⟩ : BufTy).Contents (Elt F) → (⟨S100000, .i32⟩ : BufTy).Contents (Elt F) → (⟨S100000, .i32⟩ : BufTy).Contents (Elt F)),
    ternary main_v30 main_v32 main_arg19 main_v33 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v33 main_v34 (broadcastInDim S100000x1 ![0] bcast_S100000_S100000x1_0 : (⟨S100000, .i32⟩ : BufTy).Contents (Elt F) → (⟨S100000x1, .i32⟩ : BufTy).Contents (Elt F)),
    binary main_v23 main_v34 main_v35 ((fun x i => Host.gather gather_S50000x64_S100000x1_S100000x64_1_0_n_n_0_1_164 x i) : (⟨S50000x64, .f32⟩ : BufTy).Contents (Elt F) → (⟨S100000x1, .i32⟩ : BufTy).Contents (Elt F) → (⟨S100000x64, .f32⟩ : BufTy).Contents (Elt F)) ]

abbrev wr6 : List (Ref sig .tc) := [main_c_2, main_v29, main_v30, main_c_3, main_v31, main_v32, main_v33, main_v34, main_v35]
theorem ops6_writes : (ops6 : List (HloOp τ sig (Elt F))).Forall fun op => op.writes ⊆ ((wr6 : List (Ref sig .tc)).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

theorem frame6 (W : Valuation τ sig (Elt F)) (r : Ref sig .tc) (h : r ∉ (wr6 : List (Ref sig .tc))) :
    after (ops6 (F := F)) W (Proc.devRef .tc r) = W (Proc.devRef .tc r) :=
  after_of_writes_sub ops6 W ops6_writes h

theorem st6_main_v35 (W : Valuation τ sig (Elt F)) (x0 : (⟨S50000x128, .f32⟩ : BufTy).Contents (Elt F)) (x1 : (⟨S30000x128, .f32⟩ : BufTy).Contents (Elt F)) (x2 : (⟨S20000x128, .f32⟩ : BufTy).Contents (Elt F)) (x3 : (⟨S128x64, .f32⟩ : BufTy).Contents (Elt F)) (x4 : (⟨S128x64, .f32⟩ : BufTy).Contents (Elt F)) (x5 : (⟨S128x64, .f32⟩ : BufTy).Contents (Elt F)) (x6 : (⟨S64x64, .f32⟩ : BufTy).Contents (Elt F)) (x7 : (⟨S64, .f32⟩ : BufTy).Contents (Elt F)) (x17 : (⟨S3200000, .i32⟩ : BufTy).Contents (Elt F)) (x18 : (⟨S3200000, .i32⟩ : BufTy).Contents (Elt F)) (x19 : (⟨S100000, .i32⟩ : BufTy).Contents (Elt F))
    (h_main_arg19 : W (Proc.devRef .tc main_arg19) = x19)
    (h_main_v23 : W (Proc.devRef .tc main_v23) = val_main_v23 (F := F) x0 x1 x2 x3 x4 x5 x6 x7 x17 x18) :
    after (ops6 (F := F)) W (Proc.devRef .tc main_v35) = val_main_v35 (F := F) x0 x1 x2 x3 x4 x5 x6 x7 x17 x18 x19 := by
  after_results_simp3
  rw [h_main_arg19, h_main_v23]
  rfl

abbrev ops7 : List (HloOp τ sig (Elt F)) :=
  [ nullary main_c_4 (constantI S_ 32 0#32),
    unary main_c_4 main_v36 (broadcastInDim S100000 ![] bcast_S_S100000 : (⟨S_, .i32⟩ : BufTy).Contents (Elt F) → (⟨S100000, .i32⟩ : BufTy).Contents (Elt F)),
    binary main_arg20 main_v36 main_v37 (cmpi .slt : (⟨S100000, .i32⟩ : BufTy).Contents (Elt F) → (⟨S100000, .i32⟩ : BufTy).Contents (Elt F) → (⟨S100000, .i1⟩ : BufTy).Contents (Elt F)),
    nullary main_c_5 (constantI S_ 32 30000#32),
    unary main_c_5 main_v38 (broadcastInDim S100000 ![] bcast_S_S100000 : (⟨S_, .i32⟩ : BufTy).Contents (Elt F) → (⟨S100000, .i32⟩ : BufTy).Contents (Elt F)),
    binary main_arg20 main_v38 main_v39 (addi : (⟨S100000, .i32⟩ : BufTy).Contents (Elt F) → (⟨S100000, .i32⟩ : BufTy).Contents (Elt F) → (⟨S100000, .i32⟩ : BufTy).Contents (Elt F)),
    ternary main_v37 main_v39 main_arg20 main_v40 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v40 main_v41 (broadcastInDim S100000x1 ![0] bcast_S100000_S100000x1_0 : (⟨S100000, .i32⟩ : BufTy).Contents (Elt F) → (⟨S100000x1, .i32⟩ : BufTy).Contents (Elt F)),
    binary main_v27 main_v41 main_v42 ((fun x i => Host.gather gather_S30000x32_S100000x1_S100000x32_1_0_n_n_0_1_132 x i) : (⟨S30000x32, .f32⟩ : BufTy).Contents (Elt F) → (⟨S100000x1, .i32⟩ : BufTy).Contents (Elt F) → (⟨S100000x32, .f32⟩ : BufTy).Contents (Elt F)) ]

abbrev wr7 : List (Ref sig .tc) := [main_c_4, main_v36, main_v37, main_c_5, main_v38, main_v39, main_v40, main_v41, main_v42]
theorem ops7_writes : (ops7 : List (HloOp τ sig (Elt F))).Forall fun op => op.writes ⊆ ((wr7 : List (Ref sig .tc)).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

theorem frame7 (W : Valuation τ sig (Elt F)) (r : Ref sig .tc) (h : r ∉ (wr7 : List (Ref sig .tc))) :
    after (ops7 (F := F)) W (Proc.devRef .tc r) = W (Proc.devRef .tc r) :=
  after_of_writes_sub ops7 W ops7_writes h

theorem st7_main_v42 (W : Valuation τ sig (Elt F)) (x0 : (⟨S50000x128, .f32⟩ : BufTy).Contents (Elt F)) (x1 : (⟨S30000x128, .f32⟩ : BufTy).Contents (Elt F)) (x2 : (⟨S20000x128, .f32⟩ : BufTy).Contents (Elt F)) (x3 : (⟨S128x64, .f32⟩ : BufTy).Contents (Elt F)) (x4 : (⟨S128x64, .f32⟩ : BufTy).Contents (Elt F)) (x5 : (⟨S128x64, .f32⟩ : BufTy).Contents (Elt F)) (x6 : (⟨S64x64, .f32⟩ : BufTy).Contents (Elt F)) (x7 : (⟨S64, .f32⟩ : BufTy).Contents (Elt F)) (x9 : (⟨S64x32, .f32⟩ : BufTy).Contents (Elt F)) (x17 : (⟨S3200000, .i32⟩ : BufTy).Contents (Elt F)) (x18 : (⟨S3200000, .i32⟩ : BufTy).Contents (Elt F)) (x20 : (⟨S100000, .i32⟩ : BufTy).Contents (Elt F))
    (h_main_arg20 : W (Proc.devRef .tc main_arg20) = x20)
    (h_main_v27 : W (Proc.devRef .tc main_v27) = val_main_v27 (F := F) x0 x1 x2 x3 x4 x5 x6 x7 x9 x17 x18) :
    after (ops7 (F := F)) W (Proc.devRef .tc main_v42) = val_main_v42 (F := F) x0 x1 x2 x3 x4 x5 x6 x7 x9 x17 x18 x20 := by
  after_results_simp3
  rw [h_main_arg20, h_main_v27]
  rfl

abbrev ops8 : List (HloOp τ sig (Elt F)) :=
  [ nullary main_c_6 (constantI S_ 32 0#32),
    unary main_c_6 main_v43 (broadcastInDim S100000 ![] bcast_S_S100000 : (⟨S_, .i32⟩ : BufTy).Contents (Elt F) → (⟨S100000, .i32⟩ : BufTy).Contents (Elt F)),
    binary main_arg21 main_v43 main_v44 (cmpi .slt : (⟨S100000, .i32⟩ : BufTy).Contents (Elt F) → (⟨S100000, .i32⟩ : BufTy).Contents (Elt F) → (⟨S100000, .i1⟩ : BufTy).Contents (Elt F)),
    nullary main_c_7 (constantI S_ 32 20000#32),
    unary main_c_7 main_v45 (broadcastInDim S100000 ![] bcast_S_S100000 : (⟨S_, .i32⟩ : BufTy).Contents (Elt F) → (⟨S100000, .i32⟩ : BufTy).Contents (Elt F)),
    binary main_arg21 main_v45 main_v46 (addi : (⟨S100000, .i32⟩ : BufTy).Contents (Elt F) → (⟨S100000, .i32⟩ : BufTy).Contents (Elt F) → (⟨S100000, .i32⟩ : BufTy).Contents (Elt F)),
    ternary main_v44 main_v46 main_arg21 main_v47 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v47 main_v48 (broadcastInDim S100000x1 ![0] bcast_S100000_S100000x1_0 : (⟨S100000, .i32⟩ : BufTy).Contents (Elt F) → (⟨S100000x1, .i32⟩ : BufTy).Contents (Elt F)),
    binary main_v28 main_v48 main_v49 ((fun x i => Host.gather gather_S20000x32_S100000x1_S100000x32_1_0_n_n_0_1_132 x i) : (⟨S20000x32, .f32⟩ : BufTy).Contents (Elt F) → (⟨S100000x1, .i32⟩ : BufTy).Contents (Elt F) → (⟨S100000x32, .f32⟩ : BufTy).Contents (Elt F)) ]

abbrev wr8 : List (Ref sig .tc) := [main_c_6, main_v43, main_v44, main_c_7, main_v45, main_v46, main_v47, main_v48, main_v49]
theorem ops8_writes : (ops8 : List (HloOp τ sig (Elt F))).Forall fun op => op.writes ⊆ ((wr8 : List (Ref sig .tc)).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

theorem frame8 (W : Valuation τ sig (Elt F)) (r : Ref sig .tc) (h : r ∉ (wr8 : List (Ref sig .tc))) :
    after (ops8 (F := F)) W (Proc.devRef .tc r) = W (Proc.devRef .tc r) :=
  after_of_writes_sub ops8 W ops8_writes h

theorem st8_main_v49 (W : Valuation τ sig (Elt F)) (x0 : (⟨S50000x128, .f32⟩ : BufTy).Contents (Elt F)) (x1 : (⟨S30000x128, .f32⟩ : BufTy).Contents (Elt F)) (x2 : (⟨S20000x128, .f32⟩ : BufTy).Contents (Elt F)) (x3 : (⟨S128x64, .f32⟩ : BufTy).Contents (Elt F)) (x4 : (⟨S128x64, .f32⟩ : BufTy).Contents (Elt F)) (x5 : (⟨S128x64, .f32⟩ : BufTy).Contents (Elt F)) (x6 : (⟨S64x64, .f32⟩ : BufTy).Contents (Elt F)) (x7 : (⟨S64, .f32⟩ : BufTy).Contents (Elt F)) (x10 : (⟨S64x32, .f32⟩ : BufTy).Contents (Elt F)) (x17 : (⟨S3200000, .i32⟩ : BufTy).Contents (Elt F)) (x18 : (⟨S3200000, .i32⟩ : BufTy).Contents (Elt F)) (x21 : (⟨S100000, .i32⟩ : BufTy).Contents (Elt F))
    (h_main_arg21 : W (Proc.devRef .tc main_arg21) = x21)
    (h_main_v28 : W (Proc.devRef .tc main_v28) = val_main_v28 (F := F) x0 x1 x2 x3 x4 x5 x6 x7 x10 x17 x18) :
    after (ops8 (F := F)) W (Proc.devRef .tc main_v49) = val_main_v49 (F := F) x0 x1 x2 x3 x4 x5 x6 x7 x10 x17 x18 x21 := by
  after_results_simp3
  rw [h_main_arg21, h_main_v28]
  rfl

abbrev ops9 : List (HloOp τ sig (Elt F)) :=
  [ nary ![main_v35, main_v42, main_v49] main_v50 (fun u => concatenate S100000x128 1 [⟨S100000x64, u 0⟩, ⟨S100000x32, u 1⟩, ⟨S100000x32, u 2⟩] concatenates_S100000x64_S100000x32_S100000x32_S100000x128_d1),
    binary main_v50 main_arg11 main_v51 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v51) (TRef.of (T := ⟨S100000x16, .f32⟩) main_call1_v0) (TRef.of (T := ⟨S100000x16, .f32⟩) main_v52) maximumf,
    binary main_v52 main_arg14 main_v53 ((fun l r => Host.dotGeneral dot_S100000x16_S16x1_S100000x1_1_0_0_1_n_n none l r) : (⟨S100000x16, .f32⟩ : BufTy).Contents (Elt F) → (⟨S16x1, .f32⟩ : BufTy).Contents (Elt F) → (⟨S100000x1, .f32⟩ : BufTy).Contents (Elt F)) ]

abbrev wr9 : List (Ref sig .tc) := [main_v50, main_v51, main_call1_cst, main_call1_v0, main_v52, main_v53]
theorem ops9_writes : (ops9 : List (HloOp τ sig (Elt F))).Forall fun op => op.writes ⊆ ((wr9 : List (Ref sig .tc)).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

theorem frame9 (W : Valuation τ sig (Elt F)) (r : Ref sig .tc) (h : r ∉ (wr9 : List (Ref sig .tc))) :
    after (ops9 (F := F)) W (Proc.devRef .tc r) = W (Proc.devRef .tc r) :=
  after_of_writes_sub ops9 W ops9_writes h

theorem st9_main_v53 (W : Valuation τ sig (Elt F)) (x0 : (⟨S50000x128, .f32⟩ : BufTy).Contents (Elt F)) (x1 : (⟨S30000x128, .f32⟩ : BufTy).Contents (Elt F)) (x2 : (⟨S20000x128, .f32⟩ : BufTy).Contents (Elt F)) (x3 : (⟨S128x64, .f32⟩ : BufTy).Contents (Elt F)) (x4 : (⟨S128x64, .f32⟩ : BufTy).Contents (Elt F)) (x5 : (⟨S128x64, .f32⟩ : BufTy).Contents (Elt F)) (x6 : (⟨S64x64, .f32⟩ : BufTy).Contents (Elt F)) (x7 : (⟨S64, .f32⟩ : BufTy).Contents (Elt F)) (x9 : (⟨S64x32, .f32⟩ : BufTy).Contents (Elt F)) (x10 : (⟨S64x32, .f32⟩ : BufTy).Contents (Elt F)) (x11 : (⟨S128x16, .f32⟩ : BufTy).Contents (Elt F)) (x14 : (⟨S16x1, .f32⟩ : BufTy).Contents (Elt F)) (x17 : (⟨S3200000, .i32⟩ : BufTy).Contents (Elt F)) (x18 : (⟨S3200000, .i32⟩ : BufTy).Contents (Elt F)) (x19 : (⟨S100000, .i32⟩ : BufTy).Contents (Elt F)) (x20 : (⟨S100000, .i32⟩ : BufTy).Contents (Elt F)) (x21 : (⟨S100000, .i32⟩ : BufTy).Contents (Elt F))
    (h_main_arg11 : W (Proc.devRef .tc main_arg11) = x11)
    (h_main_arg14 : W (Proc.devRef .tc main_arg14) = x14)
    (h_main_v35 : W (Proc.devRef .tc main_v35) = val_main_v35 (F := F) x0 x1 x2 x3 x4 x5 x6 x7 x17 x18 x19)
    (h_main_v42 : W (Proc.devRef .tc main_v42) = val_main_v42 (F := F) x0 x1 x2 x3 x4 x5 x6 x7 x9 x17 x18 x20)
    (h_main_v49 : W (Proc.devRef .tc main_v49) = val_main_v49 (F := F) x0 x1 x2 x3 x4 x5 x6 x7 x10 x17 x18 x21) :
    after (ops9 (F := F)) W (Proc.devRef .tc main_v53) = val_main_v53 (F := F) x0 x1 x2 x3 x4 x5 x6 x7 x9 x10 x11 x14 x17 x18 x19 x20 x21 := by
  after_results_simp3
  rw [h_main_arg11, h_main_arg14, h_main_v35, h_main_v42, h_main_v49]
  rfl

abbrev ops10 : List (HloOp τ sig (Elt F)) :=
  [ nullary main_c_8 (constantI S_ 32 0#32),
    unary main_c_8 main_v54 (broadcastInDim S100000 ![] bcast_S_S100000 : (⟨S_, .i32⟩ : BufTy).Contents (Elt F) → (⟨S100000, .i32⟩ : BufTy).Contents (Elt F)),
    binary main_arg23 main_v54 main_v55 (cmpi .slt : (⟨S100000, .i32⟩ : BufTy).Contents (Elt F) → (⟨S100000, .i32⟩ : BufTy).Contents (Elt F) → (⟨S100000, .i1⟩ : BufTy).Contents (Elt F)),
    nullary main_c_9 (constantI S_ 32 30000#32),
    unary main_c_9 main_v56 (broadcastInDim S100000 ![] bcast_S_S100000 : (⟨S_, .i32⟩ : BufTy).Contents (Elt F) → (⟨S100000, .i32⟩ : BufTy).Contents (Elt F)),
    binary main_arg23 main_v56 main_v57 (addi : (⟨S100000, .i32⟩ : BufTy).Contents (Elt F) → (⟨S100000, .i32⟩ : BufTy).Contents (Elt F) → (⟨S100000, .i32⟩ : BufTy).Contents (Elt F)),
    ternary main_v55 main_v57 main_arg23 main_v58 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v58 main_v59 (broadcastInDim S100000x1 ![0] bcast_S100000_S100000x1_0 : (⟨S100000, .i32⟩ : BufTy).Contents (Elt F) → (⟨S100000x1, .i32⟩ : BufTy).Contents (Elt F)),
    binary main_v24 main_v59 main_v60 ((fun x i => Host.gather gather_S30000x64_S100000x1_S100000x64_1_0_n_n_0_1_164 x i) : (⟨S30000x64, .f32⟩ : BufTy).Contents (Elt F) → (⟨S100000x1, .i32⟩ : BufTy).Contents (Elt F) → (⟨S100000x64, .f32⟩ : BufTy).Contents (Elt F)) ]

abbrev wr10 : List (Ref sig .tc) := [main_c_8, main_v54, main_v55, main_c_9, main_v56, main_v57, main_v58, main_v59, main_v60]
theorem ops10_writes : (ops10 : List (HloOp τ sig (Elt F))).Forall fun op => op.writes ⊆ ((wr10 : List (Ref sig .tc)).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

theorem frame10 (W : Valuation τ sig (Elt F)) (r : Ref sig .tc) (h : r ∉ (wr10 : List (Ref sig .tc))) :
    after (ops10 (F := F)) W (Proc.devRef .tc r) = W (Proc.devRef .tc r) :=
  after_of_writes_sub ops10 W ops10_writes h

theorem st10_main_v60 (W : Valuation τ sig (Elt F)) (x0 : (⟨S50000x128, .f32⟩ : BufTy).Contents (Elt F)) (x1 : (⟨S30000x128, .f32⟩ : BufTy).Contents (Elt F)) (x2 : (⟨S20000x128, .f32⟩ : BufTy).Contents (Elt F)) (x3 : (⟨S128x64, .f32⟩ : BufTy).Contents (Elt F)) (x4 : (⟨S128x64, .f32⟩ : BufTy).Contents (Elt F)) (x5 : (⟨S128x64, .f32⟩ : BufTy).Contents (Elt F)) (x6 : (⟨S64x64, .f32⟩ : BufTy).Contents (Elt F)) (x7 : (⟨S64, .f32⟩ : BufTy).Contents (Elt F)) (x17 : (⟨S3200000, .i32⟩ : BufTy).Contents (Elt F)) (x18 : (⟨S3200000, .i32⟩ : BufTy).Contents (Elt F)) (x23 : (⟨S100000, .i32⟩ : BufTy).Contents (Elt F))
    (h_main_arg23 : W (Proc.devRef .tc main_arg23) = x23)
    (h_main_v24 : W (Proc.devRef .tc main_v24) = val_main_v24 (F := F) x0 x1 x2 x3 x4 x5 x6 x7 x17 x18) :
    after (ops10 (F := F)) W (Proc.devRef .tc main_v60) = val_main_v60 (F := F) x0 x1 x2 x3 x4 x5 x6 x7 x17 x18 x23 := by
  after_results_simp3
  rw [h_main_arg23, h_main_v24]
  rfl

abbrev ops11 : List (HloOp τ sig (Elt F)) :=
  [ nullary main_c_10 (constantI S_ 32 0#32),
    unary main_c_10 main_v61 (broadcastInDim S100000 ![] bcast_S_S100000 : (⟨S_, .i32⟩ : BufTy).Contents (Elt F) → (⟨S100000, .i32⟩ : BufTy).Contents (Elt F)),
    binary main_arg22 main_v61 main_v62 (cmpi .slt : (⟨S100000, .i32⟩ : BufTy).Contents (Elt F) → (⟨S100000, .i32⟩ : BufTy).Contents (Elt F) → (⟨S100000, .i1⟩ : BufTy).Contents (Elt F)),
    nullary main_c_11 (constantI S_ 32 50000#32),
    unary main_c_11 main_v63 (broadcastInDim S100000 ![] bcast_S_S100000 : (⟨S_, .i32⟩ : BufTy).Contents (Elt F) → (⟨S100000, .i32⟩ : BufTy).Contents (Elt F)),
    binary main_arg22 main_v63 main_v64 (addi : (⟨S100000, .i32⟩ : BufTy).Contents (Elt F) → (⟨S100000, .i32⟩ : BufTy).Contents (Elt F) → (⟨S100000, .i32⟩ : BufTy).Contents (Elt F)),
    ternary main_v62 main_v64 main_arg22 main_v65 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v65 main_v66 (broadcastInDim S100000x1 ![0] bcast_S100000_S100000x1_0 : (⟨S100000, .i32⟩ : BufTy).Contents (Elt F) → (⟨S100000x1, .i32⟩ : BufTy).Contents (Elt F)),
    binary main_v26 main_v66 main_v67 ((fun x i => Host.gather gather_S50000x32_S100000x1_S100000x32_1_0_n_n_0_1_132 x i) : (⟨S50000x32, .f32⟩ : BufTy).Contents (Elt F) → (⟨S100000x1, .i32⟩ : BufTy).Contents (Elt F) → (⟨S100000x32, .f32⟩ : BufTy).Contents (Elt F)) ]

abbrev wr11 : List (Ref sig .tc) := [main_c_10, main_v61, main_v62, main_c_11, main_v63, main_v64, main_v65, main_v66, main_v67]
theorem ops11_writes : (ops11 : List (HloOp τ sig (Elt F))).Forall fun op => op.writes ⊆ ((wr11 : List (Ref sig .tc)).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

theorem frame11 (W : Valuation τ sig (Elt F)) (r : Ref sig .tc) (h : r ∉ (wr11 : List (Ref sig .tc))) :
    after (ops11 (F := F)) W (Proc.devRef .tc r) = W (Proc.devRef .tc r) :=
  after_of_writes_sub ops11 W ops11_writes h

theorem st11_main_v67 (W : Valuation τ sig (Elt F)) (x0 : (⟨S50000x128, .f32⟩ : BufTy).Contents (Elt F)) (x1 : (⟨S30000x128, .f32⟩ : BufTy).Contents (Elt F)) (x2 : (⟨S20000x128, .f32⟩ : BufTy).Contents (Elt F)) (x3 : (⟨S128x64, .f32⟩ : BufTy).Contents (Elt F)) (x4 : (⟨S128x64, .f32⟩ : BufTy).Contents (Elt F)) (x5 : (⟨S128x64, .f32⟩ : BufTy).Contents (Elt F)) (x6 : (⟨S64x64, .f32⟩ : BufTy).Contents (Elt F)) (x7 : (⟨S64, .f32⟩ : BufTy).Contents (Elt F)) (x8 : (⟨S64x32, .f32⟩ : BufTy).Contents (Elt F)) (x17 : (⟨S3200000, .i32⟩ : BufTy).Contents (Elt F)) (x18 : (⟨S3200000, .i32⟩ : BufTy).Contents (Elt F)) (x22 : (⟨S100000, .i32⟩ : BufTy).Contents (Elt F))
    (h_main_arg22 : W (Proc.devRef .tc main_arg22) = x22)
    (h_main_v26 : W (Proc.devRef .tc main_v26) = val_main_v26 (F := F) x0 x1 x2 x3 x4 x5 x6 x7 x8 x17 x18) :
    after (ops11 (F := F)) W (Proc.devRef .tc main_v67) = val_main_v67 (F := F) x0 x1 x2 x3 x4 x5 x6 x7 x8 x17 x18 x22 := by
  after_results_simp3
  rw [h_main_arg22, h_main_v26]
  rfl

abbrev ops12 : List (HloOp τ sig (Elt F)) :=
  [ nullary main_c_12 (constantI S_ 32 0#32),
    unary main_c_12 main_v68 (broadcastInDim S100000 ![] bcast_S_S100000 : (⟨S_, .i32⟩ : BufTy).Contents (Elt F) → (⟨S100000, .i32⟩ : BufTy).Contents (Elt F)),
    binary main_arg24 main_v68 main_v69 (cmpi .slt : (⟨S100000, .i32⟩ : BufTy).Contents (Elt F) → (⟨S100000, .i32⟩ : BufTy).Contents (Elt F) → (⟨S100000, .i1⟩ : BufTy).Contents (Elt F)),
    nullary main_c_13 (constantI S_ 32 20000#32),
    unary main_c_13 main_v70 (broadcastInDim S100000 ![] bcast_S_S100000 : (⟨S_, .i32⟩ : BufTy).Contents (Elt F) → (⟨S100000, .i32⟩ : BufTy).Contents (Elt F)),
    binary main_arg24 main_v70 main_v71 (addi : (⟨S100000, .i32⟩ : BufTy).Contents (Elt F) → (⟨S100000, .i32⟩ : BufTy).Contents (Elt F) → (⟨S100000, .i32⟩ : BufTy).Contents (Elt F)),
    ternary main_v69 main_v71 main_arg24 main_v72 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v72 main_v73 (broadcastInDim S100000x1 ![0] bcast_S100000_S100000x1_0 : (⟨S100000, .i32⟩ : BufTy).Contents (Elt F) → (⟨S100000x1, .i32⟩ : BufTy).Contents (Elt F)),
    binary main_v28 main_v73 main_v74 ((fun x i => Host.gather gather_S20000x32_S100000x1_S100000x32_1_0_n_n_0_1_132 x i) : (⟨S20000x32, .f32⟩ : BufTy).Contents (Elt F) → (⟨S100000x1, .i32⟩ : BufTy).Contents (Elt F) → (⟨S100000x32, .f32⟩ : BufTy).Contents (Elt F)) ]

abbrev wr12 : List (Ref sig .tc) := [main_c_12, main_v68, main_v69, main_c_13, main_v70, main_v71, main_v72, main_v73, main_v74]
theorem ops12_writes : (ops12 : List (HloOp τ sig (Elt F))).Forall fun op => op.writes ⊆ ((wr12 : List (Ref sig .tc)).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

theorem frame12 (W : Valuation τ sig (Elt F)) (r : Ref sig .tc) (h : r ∉ (wr12 : List (Ref sig .tc))) :
    after (ops12 (F := F)) W (Proc.devRef .tc r) = W (Proc.devRef .tc r) :=
  after_of_writes_sub ops12 W ops12_writes h

theorem st12_main_v74 (W : Valuation τ sig (Elt F)) (x0 : (⟨S50000x128, .f32⟩ : BufTy).Contents (Elt F)) (x1 : (⟨S30000x128, .f32⟩ : BufTy).Contents (Elt F)) (x2 : (⟨S20000x128, .f32⟩ : BufTy).Contents (Elt F)) (x3 : (⟨S128x64, .f32⟩ : BufTy).Contents (Elt F)) (x4 : (⟨S128x64, .f32⟩ : BufTy).Contents (Elt F)) (x5 : (⟨S128x64, .f32⟩ : BufTy).Contents (Elt F)) (x6 : (⟨S64x64, .f32⟩ : BufTy).Contents (Elt F)) (x7 : (⟨S64, .f32⟩ : BufTy).Contents (Elt F)) (x10 : (⟨S64x32, .f32⟩ : BufTy).Contents (Elt F)) (x17 : (⟨S3200000, .i32⟩ : BufTy).Contents (Elt F)) (x18 : (⟨S3200000, .i32⟩ : BufTy).Contents (Elt F)) (x24 : (⟨S100000, .i32⟩ : BufTy).Contents (Elt F))
    (h_main_arg24 : W (Proc.devRef .tc main_arg24) = x24)
    (h_main_v28 : W (Proc.devRef .tc main_v28) = val_main_v28 (F := F) x0 x1 x2 x3 x4 x5 x6 x7 x10 x17 x18) :
    after (ops12 (F := F)) W (Proc.devRef .tc main_v74) = val_main_v74 (F := F) x0 x1 x2 x3 x4 x5 x6 x7 x10 x17 x18 x24 := by
  after_results_simp3
  rw [h_main_arg24, h_main_v28]
  rfl

abbrev ops13 : List (HloOp τ sig (Elt F)) :=
  [ nary ![main_v60, main_v67, main_v74] main_v75 (fun u => concatenate S100000x128 1 [⟨S100000x64, u 0⟩, ⟨S100000x32, u 1⟩, ⟨S100000x32, u 2⟩] concatenates_S100000x64_S100000x32_S100000x32_S100000x128_d1),
    binary main_v75 main_arg12 main_v76 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x16, .f32⟩) main_call2_v0) (broadcastInDim S100000x16 ![] bcast_S_S100000x16),
    TRef.binary (TRef.of (T := ⟨S100000x16, .f32⟩) main_v76) (TRef.of (T := ⟨S100000x16, .f32⟩) main_call2_v0) (TRef.of (T := ⟨S100000x16, .f32⟩) main_v77) maximumf,
    binary main_v77 main_arg15 main_v78 ((fun l r => Host.dotGeneral dot_S100000x16_S16x1_S100000x1_1_0_0_1_n_n none l r) : (⟨S100000x16, .f32⟩ : BufTy).Contents (Elt F) → (⟨S16x1, .f32⟩ : BufTy).Contents (Elt F) → (⟨S100000x1, .f32⟩ : BufTy).Contents (Elt F)) ]

abbrev wr13 : List (Ref sig .tc) := [main_v75, main_v76, main_call2_cst, main_call2_v0, main_v77, main_v78]
theorem ops13_writes : (ops13 : List (HloOp τ sig (Elt F))).Forall fun op => op.writes ⊆ ((wr13 : List (Ref sig .tc)).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

theorem frame13 (W : Valuation τ sig (Elt F)) (r : Ref sig .tc) (h : r ∉ (wr13 : List (Ref sig .tc))) :
    after (ops13 (F := F)) W (Proc.devRef .tc r) = W (Proc.devRef .tc r) :=
  after_of_writes_sub ops13 W ops13_writes h

theorem st13_main_v78 (W : Valuation τ sig (Elt F)) (x0 : (⟨S50000x128, .f32⟩ : BufTy).Contents (Elt F)) (x1 : (⟨S30000x128, .f32⟩ : BufTy).Contents (Elt F)) (x2 : (⟨S20000x128, .f32⟩ : BufTy).Contents (Elt F)) (x3 : (⟨S128x64, .f32⟩ : BufTy).Contents (Elt F)) (x4 : (⟨S128x64, .f32⟩ : BufTy).Contents (Elt F)) (x5 : (⟨S128x64, .f32⟩ : BufTy).Contents (Elt F)) (x6 : (⟨S64x64, .f32⟩ : BufTy).Contents (Elt F)) (x7 : (⟨S64, .f32⟩ : BufTy).Contents (Elt F)) (x8 : (⟨S64x32, .f32⟩ : BufTy).Contents (Elt F)) (x10 : (⟨S64x32, .f32⟩ : BufTy).Contents (Elt F)) (x12 : (⟨S128x16, .f32⟩ : BufTy).Contents (Elt F)) (x15 : (⟨S16x1, .f32⟩ : BufTy).Contents (Elt F)) (x17 : (⟨S3200000, .i32⟩ : BufTy).Contents (Elt F)) (x18 : (⟨S3200000, .i32⟩ : BufTy).Contents (Elt F)) (x22 : (⟨S100000, .i32⟩ : BufTy).Contents (Elt F)) (x23 : (⟨S100000, .i32⟩ : BufTy).Contents (Elt F)) (x24 : (⟨S100000, .i32⟩ : BufTy).Contents (Elt F))
    (h_main_arg12 : W (Proc.devRef .tc main_arg12) = x12)
    (h_main_arg15 : W (Proc.devRef .tc main_arg15) = x15)
    (h_main_v60 : W (Proc.devRef .tc main_v60) = val_main_v60 (F := F) x0 x1 x2 x3 x4 x5 x6 x7 x17 x18 x23)
    (h_main_v67 : W (Proc.devRef .tc main_v67) = val_main_v67 (F := F) x0 x1 x2 x3 x4 x5 x6 x7 x8 x17 x18 x22)
    (h_main_v74 : W (Proc.devRef .tc main_v74) = val_main_v74 (F := F) x0 x1 x2 x3 x4 x5 x6 x7 x10 x17 x18 x24) :
    after (ops13 (F := F)) W (Proc.devRef .tc main_v78) = val_main_v78 (F := F) x0 x1 x2 x3 x4 x5 x6 x7 x8 x10 x12 x15 x17 x18 x22 x23 x24 := by
  after_results_simp3
  rw [h_main_arg12, h_main_arg15, h_main_v60, h_main_v67, h_main_v74]
  rfl

abbrev ops14 : List (HloOp τ sig (Elt F)) :=
  [ nullary main_c_14 (constantI S_ 32 0#32),
    unary main_c_14 main_v79 (broadcastInDim S100000 ![] bcast_S_S100000 : (⟨S_, .i32⟩ : BufTy).Contents (Elt F) → (⟨S100000, .i32⟩ : BufTy).Contents (Elt F)),
    binary main_arg27 main_v79 main_v80 (cmpi .slt : (⟨S100000, .i32⟩ : BufTy).Contents (Elt F) → (⟨S100000, .i32⟩ : BufTy).Contents (Elt F) → (⟨S100000, .i1⟩ : BufTy).Contents (Elt F)),
    nullary main_c_15 (constantI S_ 32 20000#32),
    unary main_c_15 main_v81 (broadcastInDim S100000 ![] bcast_S_S100000 : (⟨S_, .i32⟩ : BufTy).Contents (Elt F) → (⟨S100000, .i32⟩ : BufTy).Contents (Elt F)),
    binary main_arg27 main_v81 main_v82 (addi : (⟨S100000, .i32⟩ : BufTy).Contents (Elt F) → (⟨S100000, .i32⟩ : BufTy).Contents (Elt F) → (⟨S100000, .i32⟩ : BufTy).Contents (Elt F)),
    ternary main_v80 main_v82 main_arg27 main_v83 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v83 main_v84 (broadcastInDim S100000x1 ![0] bcast_S100000_S100000x1_0 : (⟨S100000, .i32⟩ : BufTy).Contents (Elt F) → (⟨S100000x1, .i32⟩ : BufTy).Contents (Elt F)),
    binary main_v25 main_v84 main_v85 ((fun x i => Host.gather gather_S20000x64_S100000x1_S100000x64_1_0_n_n_0_1_164 x i) : (⟨S20000x64, .f32⟩ : BufTy).Contents (Elt F) → (⟨S100000x1, .i32⟩ : BufTy).Contents (Elt F) → (⟨S100000x64, .f32⟩ : BufTy).Contents (Elt F)) ]

abbrev wr14 : List (Ref sig .tc) := [main_c_14, main_v79, main_v80, main_c_15, main_v81, main_v82, main_v83, main_v84, main_v85]
theorem ops14_writes : (ops14 : List (HloOp τ sig (Elt F))).Forall fun op => op.writes ⊆ ((wr14 : List (Ref sig .tc)).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

theorem frame14 (W : Valuation τ sig (Elt F)) (r : Ref sig .tc) (h : r ∉ (wr14 : List (Ref sig .tc))) :
    after (ops14 (F := F)) W (Proc.devRef .tc r) = W (Proc.devRef .tc r) :=
  after_of_writes_sub ops14 W ops14_writes h

theorem st14_main_v85 (W : Valuation τ sig (Elt F)) (x0 : (⟨S50000x128, .f32⟩ : BufTy).Contents (Elt F)) (x1 : (⟨S30000x128, .f32⟩ : BufTy).Contents (Elt F)) (x2 : (⟨S20000x128, .f32⟩ : BufTy).Contents (Elt F)) (x3 : (⟨S128x64, .f32⟩ : BufTy).Contents (Elt F)) (x4 : (⟨S128x64, .f32⟩ : BufTy).Contents (Elt F)) (x5 : (⟨S128x64, .f32⟩ : BufTy).Contents (Elt F)) (x6 : (⟨S64x64, .f32⟩ : BufTy).Contents (Elt F)) (x7 : (⟨S64, .f32⟩ : BufTy).Contents (Elt F)) (x17 : (⟨S3200000, .i32⟩ : BufTy).Contents (Elt F)) (x18 : (⟨S3200000, .i32⟩ : BufTy).Contents (Elt F)) (x27 : (⟨S100000, .i32⟩ : BufTy).Contents (Elt F))
    (h_main_arg27 : W (Proc.devRef .tc main_arg27) = x27)
    (h_main_v25 : W (Proc.devRef .tc main_v25) = val_main_v25 (F := F) x0 x1 x2 x3 x4 x5 x6 x7 x17 x18) :
    after (ops14 (F := F)) W (Proc.devRef .tc main_v85) = val_main_v85 (F := F) x0 x1 x2 x3 x4 x5 x6 x7 x17 x18 x27 := by
  after_results_simp3
  rw [h_main_arg27, h_main_v25]
  rfl

abbrev ops15 : List (HloOp τ sig (Elt F)) :=
  [ nullary main_c_16 (constantI S_ 32 0#32),
    unary main_c_16 main_v86 (broadcastInDim S100000 ![] bcast_S_S100000 : (⟨S_, .i32⟩ : BufTy).Contents (Elt F) → (⟨S100000, .i32⟩ : BufTy).Contents (Elt F)),
    binary main_arg25 main_v86 main_v87 (cmpi .slt : (⟨S100000, .i32⟩ : BufTy).Contents (Elt F) → (⟨S100000, .i32⟩ : BufTy).Contents (Elt F) → (⟨S100000, .i1⟩ : BufTy).Contents (Elt F)),
    nullary main_c_17 (constantI S_ 32 50000#32),
    unary main_c_17 main_v88 (broadcastInDim S100000 ![] bcast_S_S100000 : (⟨S_, .i32⟩ : BufTy).Contents (Elt F) → (⟨S100000, .i32⟩ : BufTy).Contents (Elt F)),
    binary main_arg25 main_v88 main_v89 (addi : (⟨S100000, .i32⟩ : BufTy).Contents (Elt F) → (⟨S100000, .i32⟩ : BufTy).Contents (Elt F) → (⟨S100000, .i32⟩ : BufTy).Contents (Elt F)),
    ternary main_v87 main_v89 main_arg25 main_v90 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v90 main_v91 (broadcastInDim S100000x1 ![0] bcast_S100000_S100000x1_0 : (⟨S100000, .i32⟩ : BufTy).Contents (Elt F) → (⟨S100000x1, .i32⟩ : BufTy).Contents (Elt F)),
    binary main_v26 main_v91 main_v92 ((fun x i => Host.gather gather_S50000x32_S100000x1_S100000x32_1_0_n_n_0_1_132 x i) : (⟨S50000x32, .f32⟩ : BufTy).Contents (Elt F) → (⟨S100000x1, .i32⟩ : BufTy).Contents (Elt F) → (⟨S100000x32, .f32⟩ : BufTy).Contents (Elt F)) ]

abbrev wr15 : List (Ref sig .tc) := [main_c_16, main_v86, main_v87, main_c_17, main_v88, main_v89, main_v90, main_v91, main_v92]
theorem ops15_writes : (ops15 : List (HloOp τ sig (Elt F))).Forall fun op => op.writes ⊆ ((wr15 : List (Ref sig .tc)).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

theorem frame15 (W : Valuation τ sig (Elt F)) (r : Ref sig .tc) (h : r ∉ (wr15 : List (Ref sig .tc))) :
    after (ops15 (F := F)) W (Proc.devRef .tc r) = W (Proc.devRef .tc r) :=
  after_of_writes_sub ops15 W ops15_writes h

theorem st15_main_v92 (W : Valuation τ sig (Elt F)) (x0 : (⟨S50000x128, .f32⟩ : BufTy).Contents (Elt F)) (x1 : (⟨S30000x128, .f32⟩ : BufTy).Contents (Elt F)) (x2 : (⟨S20000x128, .f32⟩ : BufTy).Contents (Elt F)) (x3 : (⟨S128x64, .f32⟩ : BufTy).Contents (Elt F)) (x4 : (⟨S128x64, .f32⟩ : BufTy).Contents (Elt F)) (x5 : (⟨S128x64, .f32⟩ : BufTy).Contents (Elt F)) (x6 : (⟨S64x64, .f32⟩ : BufTy).Contents (Elt F)) (x7 : (⟨S64, .f32⟩ : BufTy).Contents (Elt F)) (x8 : (⟨S64x32, .f32⟩ : BufTy).Contents (Elt F)) (x17 : (⟨S3200000, .i32⟩ : BufTy).Contents (Elt F)) (x18 : (⟨S3200000, .i32⟩ : BufTy).Contents (Elt F)) (x25 : (⟨S100000, .i32⟩ : BufTy).Contents (Elt F))
    (h_main_arg25 : W (Proc.devRef .tc main_arg25) = x25)
    (h_main_v26 : W (Proc.devRef .tc main_v26) = val_main_v26 (F := F) x0 x1 x2 x3 x4 x5 x6 x7 x8 x17 x18) :
    after (ops15 (F := F)) W (Proc.devRef .tc main_v92) = val_main_v92 (F := F) x0 x1 x2 x3 x4 x5 x6 x7 x8 x17 x18 x25 := by
  after_results_simp3
  rw [h_main_arg25, h_main_v26]
  rfl

abbrev ops16 : List (HloOp τ sig (Elt F)) :=
  [ nullary main_c_18 (constantI S_ 32 0#32),
    unary main_c_18 main_v93 (broadcastInDim S100000 ![] bcast_S_S100000 : (⟨S_, .i32⟩ : BufTy).Contents (Elt F) → (⟨S100000, .i32⟩ : BufTy).Contents (Elt F)),
    binary main_arg26 main_v93 main_v94 (cmpi .slt : (⟨S100000, .i32⟩ : BufTy).Contents (Elt F) → (⟨S100000, .i32⟩ : BufTy).Contents (Elt F) → (⟨S100000, .i1⟩ : BufTy).Contents (Elt F)),
    nullary main_c_19 (constantI S_ 32 30000#32),
    unary main_c_19 main_v95 (broadcastInDim S100000 ![] bcast_S_S100000 : (⟨S_, .i32⟩ : BufTy).Contents (Elt F) → (⟨S100000, .i32⟩ : BufTy).Contents (Elt F)),
    binary main_arg26 main_v95 main_v96 (addi : (⟨S100000, .i32⟩ : BufTy).Contents (Elt F) → (⟨S100000, .i32⟩ : BufTy).Contents (Elt F) → (⟨S100000, .i32⟩ : BufTy).Contents (Elt F)),
    ternary main_v94 main_v96 main_arg26 main_v97 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v97 main_v98 (broadcastInDim S100000x1 ![0] bcast_S100000_S100000x1_0 : (⟨S100000, .i32⟩ : BufTy).Contents (Elt F) → (⟨S100000x1, .i32⟩ : BufTy).Contents (Elt F)),
    binary main_v27 main_v98 main_v99 ((fun x i => Host.gather gather_S30000x32_S100000x1_S100000x32_1_0_n_n_0_1_132 x i) : (⟨S30000x32, .f32⟩ : BufTy).Contents (Elt F) → (⟨S100000x1, .i32⟩ : BufTy).Contents (Elt F) → (⟨S100000x32, .f32⟩ : BufTy).Contents (Elt F)) ]

abbrev wr16 : List (Ref sig .tc) := [main_c_18, main_v93, main_v94, main_c_19, main_v95, main_v96, main_v97, main_v98, main_v99]
theorem ops16_writes : (ops16 : List (HloOp τ sig (Elt F))).Forall fun op => op.writes ⊆ ((wr16 : List (Ref sig .tc)).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

theorem frame16 (W : Valuation τ sig (Elt F)) (r : Ref sig .tc) (h : r ∉ (wr16 : List (Ref sig .tc))) :
    after (ops16 (F := F)) W (Proc.devRef .tc r) = W (Proc.devRef .tc r) :=
  after_of_writes_sub ops16 W ops16_writes h

theorem st16_main_v99 (W : Valuation τ sig (Elt F)) (x0 : (⟨S50000x128, .f32⟩ : BufTy).Contents (Elt F)) (x1 : (⟨S30000x128, .f32⟩ : BufTy).Contents (Elt F)) (x2 : (⟨S20000x128, .f32⟩ : BufTy).Contents (Elt F)) (x3 : (⟨S128x64, .f32⟩ : BufTy).Contents (Elt F)) (x4 : (⟨S128x64, .f32⟩ : BufTy).Contents (Elt F)) (x5 : (⟨S128x64, .f32⟩ : BufTy).Contents (Elt F)) (x6 : (⟨S64x64, .f32⟩ : BufTy).Contents (Elt F)) (x7 : (⟨S64, .f32⟩ : BufTy).Contents (Elt F)) (x9 : (⟨S64x32, .f32⟩ : BufTy).Contents (Elt F)) (x17 : (⟨S3200000, .i32⟩ : BufTy).Contents (Elt F)) (x18 : (⟨S3200000, .i32⟩ : BufTy).Contents (Elt F)) (x26 : (⟨S100000, .i32⟩ : BufTy).Contents (Elt F))
    (h_main_arg26 : W (Proc.devRef .tc main_arg26) = x26)
    (h_main_v27 : W (Proc.devRef .tc main_v27) = val_main_v27 (F := F) x0 x1 x2 x3 x4 x5 x6 x7 x9 x17 x18) :
    after (ops16 (F := F)) W (Proc.devRef .tc main_v99) = val_main_v99 (F := F) x0 x1 x2 x3 x4 x5 x6 x7 x9 x17 x18 x26 := by
  after_results_simp3
  rw [h_main_arg26, h_main_v27]
  rfl

abbrev ops17 : List (HloOp τ sig (Elt F)) :=
  [ nary ![main_v85, main_v92, main_v99] main_v100 (fun u => concatenate S100000x128 1 [⟨S100000x64, u 0⟩, ⟨S100000x32, u 1⟩, ⟨S100000x32, u 2⟩] concatenates_S100000x64_S100000x32_S100000x32_S100000x128_d1),
    binary main_v100 main_arg13 main_v101 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x16, .f32⟩) main_call3_v0) (broadcastInDim S100000x16 ![] bcast_S_S100000x16),
    TRef.binary (TRef.of (T := ⟨S100000x16, .f32⟩) main_v101) (TRef.of (T := ⟨S100000x16, .f32⟩) main_call3_v0) (TRef.of (T := ⟨S100000x16, .f32⟩) main_v102) maximumf,
    binary main_v102 main_arg16 main_v103 ((fun l r => Host.dotGeneral dot_S100000x16_S16x1_S100000x1_1_0_0_1_n_n none l r) : (⟨S100000x16, .f32⟩ : BufTy).Contents (Elt F) → (⟨S16x1, .f32⟩ : BufTy).Contents (Elt F) → (⟨S100000x1, .f32⟩ : BufTy).Contents (Elt F)) ]

abbrev wr17 : List (Ref sig .tc) := [main_v100, main_v101, main_call3_cst, main_call3_v0, main_v102, main_v103]
theorem ops17_writes : (ops17 : List (HloOp τ sig (Elt F))).Forall fun op => op.writes ⊆ ((wr17 : List (Ref sig .tc)).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

theorem frame17 (W : Valuation τ sig (Elt F)) (r : Ref sig .tc) (h : r ∉ (wr17 : List (Ref sig .tc))) :
    after (ops17 (F := F)) W (Proc.devRef .tc r) = W (Proc.devRef .tc r) :=
  after_of_writes_sub ops17 W ops17_writes h

theorem st17_main_v103 (W : Valuation τ sig (Elt F)) (x0 : (⟨S50000x128, .f32⟩ : BufTy).Contents (Elt F)) (x1 : (⟨S30000x128, .f32⟩ : BufTy).Contents (Elt F)) (x2 : (⟨S20000x128, .f32⟩ : BufTy).Contents (Elt F)) (x3 : (⟨S128x64, .f32⟩ : BufTy).Contents (Elt F)) (x4 : (⟨S128x64, .f32⟩ : BufTy).Contents (Elt F)) (x5 : (⟨S128x64, .f32⟩ : BufTy).Contents (Elt F)) (x6 : (⟨S64x64, .f32⟩ : BufTy).Contents (Elt F)) (x7 : (⟨S64, .f32⟩ : BufTy).Contents (Elt F)) (x8 : (⟨S64x32, .f32⟩ : BufTy).Contents (Elt F)) (x9 : (⟨S64x32, .f32⟩ : BufTy).Contents (Elt F)) (x13 : (⟨S128x16, .f32⟩ : BufTy).Contents (Elt F)) (x16 : (⟨S16x1, .f32⟩ : BufTy).Contents (Elt F)) (x17 : (⟨S3200000, .i32⟩ : BufTy).Contents (Elt F)) (x18 : (⟨S3200000, .i32⟩ : BufTy).Contents (Elt F)) (x25 : (⟨S100000, .i32⟩ : BufTy).Contents (Elt F)) (x26 : (⟨S100000, .i32⟩ : BufTy).Contents (Elt F)) (x27 : (⟨S100000, .i32⟩ : BufTy).Contents (Elt F))
    (h_main_arg13 : W (Proc.devRef .tc main_arg13) = x13)
    (h_main_arg16 : W (Proc.devRef .tc main_arg16) = x16)
    (h_main_v85 : W (Proc.devRef .tc main_v85) = val_main_v85 (F := F) x0 x1 x2 x3 x4 x5 x6 x7 x17 x18 x27)
    (h_main_v92 : W (Proc.devRef .tc main_v92) = val_main_v92 (F := F) x0 x1 x2 x3 x4 x5 x6 x7 x8 x17 x18 x25)
    (h_main_v99 : W (Proc.devRef .tc main_v99) = val_main_v99 (F := F) x0 x1 x2 x3 x4 x5 x6 x7 x9 x17 x18 x26) :
    after (ops17 (F := F)) W (Proc.devRef .tc main_v103) = val_main_v103 (F := F) x0 x1 x2 x3 x4 x5 x6 x7 x8 x9 x13 x16 x17 x18 x25 x26 x27 := by
  after_results_simp3
  rw [h_main_arg13, h_main_arg16, h_main_v85, h_main_v92, h_main_v99]
  rfl

abbrev ops18 : List (HloOp τ sig (Elt F)) :=
  [ nary ![main_v53, main_v78, main_v103] main_v104 (fun u => concatenate S300000x1 0 [⟨S100000x1, u 0⟩, ⟨S100000x1, u 1⟩, ⟨S100000x1, u 2⟩] concatenates_S100000x1_S100000x1_S100000x1_S300000x1_d0),
    unary main_v104 main_v105 (Host.negf : (⟨S300000x1, .f32⟩ : BufTy).Contents (Elt F) → (⟨S300000x1, .f32⟩ : BufTy).Contents (Elt F)),
    unary main_v105 main_v106 (Host.exp : (⟨S300000x1, .f32⟩ : BufTy).Contents (Elt F) → (⟨S300000x1, .f32⟩ : BufTy).Contents (Elt F)),
    nullary main_cst_20 (constant S_ .f32 0x3F800000#32),
    unary main_cst_20 main_v107 (broadcastInDim S300000x1 ![] bcast_S_S300000x1 : (⟨S_, .f32⟩ : BufTy).Contents (Elt F) → (⟨S300000x1, .f32⟩ : BufTy).Contents (Elt F)),
    binary main_v107 main_v106 main_v108 (addf : (⟨S300000x1, .f32⟩ : BufTy).Contents (Elt F) → (⟨S300000x1, .f32⟩ : BufTy).Contents (Elt F) → (⟨S300000x1, .f32⟩ : BufTy).Contents (Elt F)),
    nullary main_cst_21 (constant S_ .f32 0x3F800000#32),
    unary main_cst_21 main_v109 (broadcastInDim S300000x1 ![] bcast_S_S300000x1 : (⟨S_, .f32⟩ : BufTy).Contents (Elt F) → (⟨S300000x1, .f32⟩ : BufTy).Contents (Elt F)),
    binary main_v109 main_v108 main_v110 (Host.divf : (⟨S300000x1, .f32⟩ : BufTy).Contents (Elt F) → (⟨S300000x1, .f32⟩ : BufTy).Contents (Elt F) → (⟨S300000x1, .f32⟩ : BufTy).Contents (Elt F)),
    reshape main_v110 main_v111 rfl shapeCasts_S300000x1_S300000 ]

abbrev wr18 : List (Ref sig .tc) := [main_v104, main_v105, main_v106, main_cst_20, main_v107, main_v108, main_cst_21, main_v109, main_v110, main_v111]
theorem ops18_writes : (ops18 : List (HloOp τ sig (Elt F))).Forall fun op => op.writes ⊆ ((wr18 : List (Ref sig .tc)).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

theorem frame18 (W : Valuation τ sig (Elt F)) (r : Ref sig .tc) (h : r ∉ (wr18 : List (Ref sig .tc))) :
    after (ops18 (F := F)) W (Proc.devRef .tc r) = W (Proc.devRef .tc r) :=
  after_of_writes_sub ops18 W ops18_writes h

theorem st18_main_v111 (W : Valuation τ sig (Elt F)) (x0 : (⟨S50000x128, .f32⟩ : BufTy).Contents (Elt F)) (x1 : (⟨S30000x128, .f32⟩ : BufTy).Contents (Elt F)) (x2 : (⟨S20000x128, .f32⟩ : BufTy).Contents (Elt F)) (x3 : (⟨S128x64, .f32⟩ : BufTy).Contents (Elt F)) (x4 : (⟨S128x64, .f32⟩ : BufTy).Contents (Elt F)) (x5 : (⟨S128x64, .f32⟩ : BufTy).Contents (Elt F)) (x6 : (⟨S64x64, .f32⟩ : BufTy).Contents (Elt F)) (x7 : (⟨S64, .f32⟩ : BufTy).Contents (Elt F)) (x8 : (⟨S64x32, .f32⟩ : BufTy).Contents (Elt F)) (x9 : (⟨S64x32, .f32⟩ : BufTy).Contents (Elt F)) (x10 : (⟨S64x32, .f32⟩ : BufTy).Contents (Elt F)) (x11 : (⟨S128x16, .f32⟩ : BufTy).Contents (Elt F)) (x12 : (⟨S128x16, .f32⟩ : BufTy).Contents (Elt F)) (x13 : (⟨S128x16, .f32⟩ : BufTy).Contents (Elt F)) (x14 : (⟨S16x1, .f32⟩ : BufTy).Contents (Elt F)) (x15 : (⟨S16x1, .f32⟩ : BufTy).Contents (Elt F)) (x16 : (⟨S16x1, .f32⟩ : BufTy).Contents (Elt F)) (x17 : (⟨S3200000, .i32⟩ : BufTy).Contents (Elt F)) (x18 : (⟨S3200000, .i32⟩ : BufTy).Contents (Elt F)) (x19 : (⟨S100000, .i32⟩ : BufTy).Contents (Elt F)) (x20 : (⟨S100000, .i32⟩ : BufTy).Contents (Elt F)) (x21 : (⟨S100000, .i32⟩ : BufTy).Contents (Elt F)) (x22 : (⟨S100000, .i32⟩ : BufTy).Contents (Elt F)) (x23 : (⟨S100000, .i32⟩ : BufTy).Contents (Elt F)) (x24 : (⟨S100000, .i32⟩ : BufTy).Contents (Elt F)) (x25 : (⟨S100000, .i32⟩ : BufTy).Contents (Elt F)) (x26 : (⟨S100000, .i32⟩ : BufTy).Contents (Elt F)) (x27 : (⟨S100000, .i32⟩ : BufTy).Contents (Elt F))
    (h_main_v53 : W (Proc.devRef .tc main_v53) = val_main_v53 (F := F) x0 x1 x2 x3 x4 x5 x6 x7 x9 x10 x11 x14 x17 x18 x19 x20 x21)
    (h_main_v78 : W (Proc.devRef .tc main_v78) = val_main_v78 (F := F) x0 x1 x2 x3 x4 x5 x6 x7 x8 x10 x12 x15 x17 x18 x22 x23 x24)
    (h_main_v103 : W (Proc.devRef .tc main_v103) = val_main_v103 (F := F) x0 x1 x2 x3 x4 x5 x6 x7 x8 x9 x13 x16 x17 x18 x25 x26 x27) :
    after (ops18 (F := F)) W (Proc.devRef .tc main_v111) = val_main_v111 (F := F) x0 x1 x2 x3 x4 x5 x6 x7 x8 x9 x10 x11 x12 x13 x14 x15 x16 x17 x18 x19 x20 x21 x22 x23 x24 x25 x26 x27 := by
  after_results_simp3
  rw [h_main_v53, h_main_v78, h_main_v103]
  rfl

end Cert.ReferenceIdeal.Hand

end
-- ==== Proof.RefRun.lean ====
import proofs.«418426_j87943750353447_3_alg».proof.Proof.RefStages
import proofs.«418426_j87943750353447_3_alg».proof.Proof.RefOps
import proofs.«418426_j87943750353447_3_alg».proof.Proof.LibNary3
import proofs.«418426_j87943750353447_3_alg».proof.Proof.RefRun2
import proofs.«418426_j87943750353447_3_alg».proof.Proof.Gen.ReferenceIdeal
import proofs.«418426_j87943750353447_3_alg».proof.ReferenceIdeal
import Idealize.ShloMosaic.Lib.StableHlo.Run

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev ops1 : List (HloOp τ sig (Elt F)) :=
  [ binary main_arg0 main_arg3 main_v0 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_arg1 main_arg4 main_v1 ((fun l r => Host.dotGeneral dot_S30000x128_S128x64_S30000x64_1_0_0_1_n_n none l r) : (⟨S30000x128, .f32⟩ : BufTy).Contents (Elt F) → (⟨S128x64, .f32⟩ : BufTy).Contents (Elt F) → (⟨S30000x64, .f32⟩ : BufTy).Contents (Elt F)),
    binary main_arg2 main_arg5 main_v2 ((fun l r => Host.dotGeneral dot_S20000x128_S128x64_S20000x64_1_0_0_1_n_n none l r) : (⟨S20000x128, .f32⟩ : BufTy).Contents (Elt F) → (⟨S128x64, .f32⟩ : BufTy).Contents (Elt F) → (⟨S20000x64, .f32⟩ : BufTy).Contents (Elt F)) ]

abbrev wr1 : List (Ref sig .tc) := [main_v0, main_v1, main_v2]
theorem ops1_writes : (ops1 : List (HloOp τ sig (Elt F))).Forall fun op => op.writes ⊆ ((wr1 : List (Ref sig .tc)).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

theorem frame1 (W : Valuation τ sig (Elt F)) (r : Ref sig .tc) (h : r ∉ (wr1 : List (Ref sig .tc))) :
    after (ops1 (F := F)) W (Proc.devRef .tc r) = W (Proc.devRef .tc r) :=
  after_of_writes_sub ops1 W ops1_writes h

theorem st1_main_v0 (W : Valuation τ sig (Elt F)) (x0 : (⟨S50000x128, .f32⟩ : BufTy).Contents (Elt F)) (x3 : (⟨S128x64, .f32⟩ : BufTy).Contents (Elt F))
    (h_main_arg0 : W (Proc.devRef .tc main_arg0) = x0)
    (h_main_arg3 : W (Proc.devRef .tc main_arg3) = x3) :
    after (ops1 (F := F)) W (Proc.devRef .tc main_v0) = val_main_v0 (F := F) x0 x3 := by
  after_results_simp3
  rw [h_main_arg0, h_main_arg3]
  rfl

theorem st1_main_v1 (W : Valuation τ sig (Elt F)) (x1 : (⟨S30000x128, .f32⟩ : BufTy).Contents (Elt F)) (x4 : (⟨S128x64, .f32⟩ : BufTy).Contents (Elt F))
    (h_main_arg1 : W (Proc.devRef .tc main_arg1) = x1)
    (h_main_arg4 : W (Proc.devRef .tc main_arg4) = x4) :
    after (ops1 (F := F)) W (Proc.devRef .tc main_v1) = val_main_v1 (F := F) x1 x4 := by
  after_results_simp3
  rw [h_main_arg1, h_main_arg4]
  rfl

theorem st1_main_v2 (W : Valuation τ sig (Elt F)) (x2 : (⟨S20000x128, .f32⟩ : BufTy).Contents (Elt F)) (x5 : (⟨S128x64, .f32⟩ : BufTy).Contents (Elt F))
    (h_main_arg2 : W (Proc.devRef .tc main_arg2) = x2)
    (h_main_arg5 : W (Proc.devRef .tc main_arg5) = x5) :
    after (ops1 (F := F)) W (Proc.devRef .tc main_v2) = val_main_v2 (F := F) x2 x5 := by
  after_results_simp3
  rw [h_main_arg2, h_main_arg5]
  rfl

abbrev ops2 : List (HloOp τ sig (Elt F)) :=
  [ nary ![main_v0, main_v1, main_v2] main_v3 (fun u => concatenate S100000x64 0 [⟨S50000x64, u 0⟩, ⟨S30000x64, u 1⟩, ⟨S20000x64, u 2⟩] concatenates_S50000x64_S30000x64_S20000x64_S100000x64_d0),
    nullary main_c (constantI S_ 32 0#32),
    unary main_c main_v4 (broadcastInDim S3200000 ![] bcast_S_S3200000 : (⟨S_, .i32⟩ : BufTy).Contents (Elt F) → (⟨S3200000, .i32⟩ : BufTy).Contents (Elt F)),
    binary main_arg17 main_v4 main_v5 (cmpi .slt : (⟨S3200000, .i32⟩ : BufTy).Contents (Elt F) → (⟨S3200000, .i32⟩ : BufTy).Contents (Elt F) → (⟨S3200000, .i1⟩ : BufTy).Contents (Elt F)),
    nullary main_c_0 (constantI S_ 32 100000#32),
    unary main_c_0 main_v6 (broadcastInDim S3200000 ![] bcast_S_S3200000 : (⟨S_, .i32⟩ : BufTy).Contents (Elt F) → (⟨S3200000, .i32⟩ : BufTy).Contents (Elt F)),
    binary main_arg17 main_v6 main_v7 (addi : (⟨S3200000, .i32⟩ : BufTy).Contents (Elt F) → (⟨S3200000, .i32⟩ : BufTy).Contents (Elt F) → (⟨S3200000, .i32⟩ : BufTy).Contents (Elt F)),
    ternary main_v5 main_v7 main_arg17 main_v8 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v8 main_v9 (broadcastInDim S3200000x1 ![0] bcast_S3200000_S3200000x1_0 : (⟨S3200000, .i32⟩ : BufTy).Contents (Elt F) → (⟨S3200000x1, .i32⟩ : BufTy).Contents (Elt F)),
    binary main_v3 main_v9 main_v10 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)) ]

abbrev wr2 : List (Ref sig .tc) := [main_v3, main_c, main_v4, main_v5, main_c_0, main_v6, main_v7, main_v8, main_v9, main_v10]
theorem ops2_writes : (ops2 : List (HloOp τ sig (Elt F))).Forall fun op => op.writes ⊆ ((wr2 : List (Ref sig .tc)).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

theorem frame2 (W : Valuation τ sig (Elt F)) (r : Ref sig .tc) (h : r ∉ (wr2 : List (Ref sig .tc))) :
    after (ops2 (F := F)) W (Proc.devRef .tc r) = W (Proc.devRef .tc r) :=
  after_of_writes_sub ops2 W ops2_writes h

theorem st2_main_v10 (W : Valuation τ sig (Elt F)) (x0 : (⟨S50000x128, .f32⟩ : BufTy).Contents (Elt F)) (x1 : (⟨S30000x128, .f32⟩ : BufTy).Contents (Elt F)) (x2 : (⟨S20000x128, .f32⟩ : BufTy).Contents (Elt F)) (x3 : (⟨S128x64, .f32⟩ : BufTy).Contents (Elt F)) (x4 : (⟨S128x64, .f32⟩ : BufTy).Contents (Elt F)) (x5 : (⟨S128x64, .f32⟩ : BufTy).Contents (Elt F)) (x17 : (⟨S3200000, .i32⟩ : BufTy).Contents (Elt F))
    (h_main_arg17 : W (Proc.devRef .tc main_arg17) = x17)
    (h_main_v0 : W (Proc.devRef .tc main_v0) = val_main_v0 (F := F) x0 x3)
    (h_main_v1 : W (Proc.devRef .tc main_v1) = val_main_v1 (F := F) x1 x4)
    (h_main_v2 : W (Proc.devRef .tc main_v2) = val_main_v2 (F := F) x2 x5) :
    after (ops2 (F := F)) W (Proc.devRef .tc main_v10) = val_main_v10 (F := F) x0 x1 x2 x3 x4 x5 x17 := by
  after_results_simp3
  rw [h_main_arg17, h_main_v0, h_main_v1, h_main_v2]
  rfl

abbrev ops3 : List (HloOp τ sig (Elt F)) :=
  [ nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_arg18 main_v12 (broadcastInDim S3200000x1 ![0] bcast_S3200000_S3200000x1_0 : (⟨S3200000, .i32⟩ : BufTy).Contents (Elt F) → (⟨S3200000x1, .i32⟩ : BufTy).Contents (Elt F)),
    ternary main_v11 main_v12 main_v10 main_v13 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    binary main_v13 main_arg6 main_v14 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg7 main_v15 (broadcastInDim S1x64 ![1] bcast_S64_S1x64_1 : (⟨S64, .f32⟩ : BufTy).Contents (Elt F) → (⟨S1x64, .f32⟩ : BufTy).Contents (Elt F)),
    unary main_v15 main_v16 (broadcastInDim S100000x64 ![0, 1] bcast_S1x64_S100000x64_0_1 : (⟨S1x64, .f32⟩ : BufTy).Contents (Elt F) → (⟨S100000x64, .f32⟩ : BufTy).Contents (Elt F)),
    binary main_v14 main_v16 main_v17 (addf : (⟨S100000x64, .f32⟩ : BufTy).Contents (Elt F) → (⟨S100000x64, .f32⟩ : BufTy).Contents (Elt F) → (⟨S100000x64, .f32⟩ : BufTy).Contents (Elt F)) ]

abbrev wr3 : List (Ref sig .tc) := [main_cst, main_v11, main_v12, main_v13, main_v14, main_v15, main_v16, main_v17]
theorem ops3_writes : (ops3 : List (HloOp τ sig (Elt F))).Forall fun op => op.writes ⊆ ((wr3 : List (Ref sig .tc)).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

theorem frame3 (W : Valuation τ sig (Elt F)) (r : Ref sig .tc) (h : r ∉ (wr3 : List (Ref sig .tc))) :
    after (ops3 (F := F)) W (Proc.devRef .tc r) = W (Proc.devRef .tc r) :=
  after_of_writes_sub ops3 W ops3_writes h

theorem st3_main_v17 (W : Valuation τ sig (Elt F)) (x0 : (⟨S50000x128, .f32⟩ : BufTy).Contents (Elt F)) (x1 : (⟨S30000x128, .f32⟩ : BufTy).Contents (Elt F)) (x2 : (⟨S20000x128, .f32⟩ : BufTy).Contents (Elt F)) (x3 : (⟨S128x64, .f32⟩ : BufTy).Contents (Elt F)) (x4 : (⟨S128x64, .f32⟩ : BufTy).Contents (Elt F)) (x5 : (⟨S128x64, .f32⟩ : BufTy).Contents (Elt F)) (x6 : (⟨S64x64, .f32⟩ : BufTy).Contents (Elt F)) (x7 : (⟨S64, .f32⟩ : BufTy).Contents (Elt F)) (x17 : (⟨S3200000, .i32⟩ : BufTy).Contents (Elt F)) (x18 : (⟨S3200000, .i32⟩ : BufTy).Contents (Elt F))
    (h_main_arg6 : W (Proc.devRef .tc main_arg6) = x6)
    (h_main_arg7 : W (Proc.devRef .tc main_arg7) = x7)
    (h_main_arg18 : W (Proc.devRef .tc main_arg18) = x18)
    (h_main_v10 : W (Proc.devRef .tc main_v10) = val_main_v10 (F := F) x0 x1 x2 x3 x4 x5 x17) :
    after (ops3 (F := F)) W (Proc.devRef .tc main_v17) = val_main_v17 (F := F) x0 x1 x2 x3 x4 x5 x6 x7 x17 x18 := by
  after_results_simp3
  rw [h_main_arg6, h_main_arg7, h_main_arg18, h_main_v10]
  rfl

abbrev ops4 : List (HloOp τ sig (Elt F)) :=
  [ TRef.binary (TRef.of (T := ⟨S100000x64, .f32⟩) main_v17) (TRef.of (T := ⟨S100000x64, .f32⟩) main_v17) (TRef.of (T := ⟨S100000x64, .f32⟩) main_call0_v0) mulf,
    TRef.nullary (TRef.of (T := ⟨S_, .f32⟩) main_call0_cst) (constant S_ .f32 0x00000000#32),
    TRef.binary (TRef.of (T := ⟨S100000x64, .f32⟩) main_call0_v0) (TRef.of (T := ⟨S_, .f32⟩) main_call0_cst) (TRef.of (T := ⟨S100000, .f32⟩) main_call0_v1) (fun x v => Host.reduceAdd x v reducesTo_S100000x64_S100000_d1 h_S_),
    TRef.unary (TRef.of (T := ⟨S100000, .f32⟩) main_call0_v1) (TRef.of (T := ⟨S100000x1, .f32⟩) main_call0_v2) (broadcastInDim S100000x1 ![0] bcast_S100000_S100000x1_0),
    TRef.unary (TRef.of (T := ⟨S100000x1, .f32⟩) main_call0_v2) (TRef.of (T := ⟨S100000x1, .f32⟩) main_v18) Host.sqrt,
    nullary main_cst_1 (constant S_ .f32 0x2B8CBCCC#32),
    unary main_cst_1 main_v19 (broadcastInDim S100000x1 ![] bcast_S_S100000x1 : (⟨S_, .f32⟩ : BufTy).Contents (Elt F) → (⟨S100000x1, .f32⟩ : BufTy).Contents (Elt F)),
    binary main_v18 main_v19 main_v20 (maximumf : (⟨S100000x1, .f32⟩ : BufTy).Contents (Elt F) → (⟨S100000x1, .f32⟩ : BufTy).Contents (Elt F) → (⟨S100000x1, .f32⟩ : BufTy).Contents (Elt F)),
    unary main_v20 main_v21 (broadcastInDim S100000x64 ![0, 1] bcast_S100000x1_S100000x64_0_1 : (⟨S100000x1, .f32⟩ : BufTy).Contents (Elt F) → (⟨S100000x64, .f32⟩ : BufTy).Contents (Elt F)),
    binary main_v17 main_v21 main_v22 (Host.divf : (⟨S100000x64, .f32⟩ : BufTy).Contents (Elt F) → (⟨S100000x64, .f32⟩ : BufTy).Contents (Elt F) → (⟨S100000x64, .f32⟩ : BufTy).Contents (Elt F)) ]

abbrev wr4 : List (Ref sig .tc) := [main_call0_v0, main_call0_cst, main_call0_v1, main_call0_v2, main_v18, main_cst_1, main_v19, main_v20, main_v21, main_v22]
theorem ops4_writes : (ops4 : List (HloOp τ sig (Elt F))).Forall fun op => op.writes ⊆ ((wr4 : List (Ref sig .tc)).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

theorem frame4 (W : Valuation τ sig (Elt F)) (r : Ref sig .tc) (h : r ∉ (wr4 : List (Ref sig .tc))) :
    after (ops4 (F := F)) W (Proc.devRef .tc r) = W (Proc.devRef .tc r) :=
  after_of_writes_sub ops4 W ops4_writes h

theorem st4_main_v22 (W : Valuation τ sig (Elt F)) (x0 : (⟨S50000x128, .f32⟩ : BufTy).Contents (Elt F)) (x1 : (⟨S30000x128, .f32⟩ : BufTy).Contents (Elt F)) (x2 : (⟨S20000x128, .f32⟩ : BufTy).Contents (Elt F)) (x3 : (⟨S128x64, .f32⟩ : BufTy).Contents (Elt F)) (x4 : (⟨S128x64, .f32⟩ : BufTy).Contents (Elt F)) (x5 : (⟨S128x64, .f32⟩ : BufTy).Contents (Elt F)) (x6 : (⟨S64x64, .f32⟩ : BufTy).Contents (Elt F)) (x7 : (⟨S64, .f32⟩ : BufTy).Contents (Elt F)) (x17 : (⟨S3200000, .i32⟩ : BufTy).Contents (Elt F)) (x18 : (⟨S3200000, .i32⟩ : BufTy).Contents (Elt F))
    (h_main_v17 : W (Proc.devRef .tc main_v17) = val_main_v17 (F := F) x0 x1 x2 x3 x4 x5 x6 x7 x17 x18) :
    after (ops4 (F := F)) W (Proc.devRef .tc main_v22) = val_main_v22 (F := F) x0 x1 x2 x3 x4 x5 x6 x7 x17 x18 := by
  after_results_simp3
  rw [h_main_v17]
  rfl

section Assembly

variable (m : (ℓ : Loc nD τ sig) → Buf (Elt F) ℓ) (c : Dev nD)

/-- What buffer `r` holds on core `c` when the program is launched. -/
abbrev at0 (r : Ref sig .tc) : Buf (Elt F) ((c.tc : Thread nD τ).loc r) := m ((c.tc : Thread nD τ).loc r)

/-- The stage functions at the launch contents of the arguments. -/
abbrev stg_v0 := val_main_v0 (F := F) (at0 m c main_arg0) (at0 m c main_arg3)
abbrev stg_v1 := val_main_v1 (F := F) (at0 m c main_arg1) (at0 m c main_arg4)
abbrev stg_v2 := val_main_v2 (F := F) (at0 m c main_arg2) (at0 m c main_arg5)
abbrev stg_v10 := val_main_v10 (F := F) (at0 m c main_arg0) (at0 m c main_arg1) (at0 m c main_arg2) (at0 m c main_arg3) (at0 m c main_arg4) (at0 m c main_arg5) (at0 m c main_arg17)
abbrev stg_v17 := val_main_v17 (F := F) (at0 m c main_arg0) (at0 m c main_arg1) (at0 m c main_arg2) (at0 m c main_arg3) (at0 m c main_arg4) (at0 m c main_arg5) (at0 m c main_arg6) (at0 m c main_arg7) (at0 m c main_arg17) (at0 m c main_arg18)
abbrev stg_v22 := val_main_v22 (F := F) (at0 m c main_arg0) (at0 m c main_arg1) (at0 m c main_arg2) (at0 m c main_arg3) (at0 m c main_arg4) (at0 m c main_arg5) (at0 m c main_arg6) (at0 m c main_arg7) (at0 m c main_arg17) (at0 m c main_arg18)
abbrev stg_v23 := val_main_v23 (F := F) (at0 m c main_arg0) (at0 m c main_arg1) (at0 m c main_arg2) (at0 m c main_arg3) (at0 m c main_arg4) (at0 m c main_arg5) (at0 m c main_arg6) (at0 m c main_arg7) (at0 m c main_arg17) (at0 m c main_arg18)
abbrev stg_v24 := val_main_v24 (F := F) (at0 m c main_arg0) (at0 m c main_arg1) (at0 m c main_arg2) (at0 m c main_arg3) (at0 m c main_arg4) (at0 m c main_arg5) (at0 m c main_arg6) (at0 m c main_arg7) (at0 m c main_arg17) (at0 m c main_arg18)
abbrev stg_v25 := val_main_v25 (F := F) (at0 m c main_arg0) (at0 m c main_arg1) (at0 m c main_arg2) (at0 m c main_arg3) (at0 m c main_arg4) (at0 m c main_arg5) (at0 m c main_arg6) (at0 m c main_arg7) (at0 m c main_arg17) (at0 m c main_arg18)
abbrev stg_v26 := val_main_v26 (F := F) (at0 m c main_arg0) (at0 m c main_arg1) (at0 m c main_arg2) (at0 m c main_arg3) (at0 m c main_arg4) (at0 m c main_arg5) (at0 m c main_arg6) (at0 m c main_arg7) (at0 m c main_arg8) (at0 m c main_arg17) (at0 m c main_arg18)
abbrev stg_v27 := val_main_v27 (F := F) (at0 m c main_arg0) (at0 m c main_arg1) (at0 m c main_arg2) (at0 m c main_arg3) (at0 m c main_arg4) (at0 m c main_arg5) (at0 m c main_arg6) (at0 m c main_arg7) (at0 m c main_arg9) (at0 m c main_arg17) (at0 m c main_arg18)
abbrev stg_v28 := val_main_v28 (F := F) (at0 m c main_arg0) (at0 m c main_arg1) (at0 m c main_arg2) (at0 m c main_arg3) (at0 m c main_arg4) (at0 m c main_arg5) (at0 m c main_arg6) (at0 m c main_arg7) (at0 m c main_arg10) (at0 m c main_arg17) (at0 m c main_arg18)
abbrev stg_v35 := val_main_v35 (F := F) (at0 m c main_arg0) (at0 m c main_arg1) (at0 m c main_arg2) (at0 m c main_arg3) (at0 m c main_arg4) (at0 m c main_arg5) (at0 m c main_arg6) (at0 m c main_arg7) (at0 m c main_arg17) (at0 m c main_arg18) (at0 m c main_arg19)
abbrev stg_v42 := val_main_v42 (F := F) (at0 m c main_arg0) (at0 m c main_arg1) (at0 m c main_arg2) (at0 m c main_arg3) (at0 m c main_arg4) (at0 m c main_arg5) (at0 m c main_arg6) (at0 m c main_arg7) (at0 m c main_arg9) (at0 m c main_arg17) (at0 m c main_arg18) (at0 m c main_arg20)
abbrev stg_v49 := val_main_v49 (F := F) (at0 m c main_arg0) (at0 m c main_arg1) (at0 m c main_arg2) (at0 m c main_arg3) (at0 m c main_arg4) (at0 m c main_arg5) (at0 m c main_arg6) (at0 m c main_arg7) (at0 m c main_arg10) (at0 m c main_arg17) (at0 m c main_arg18) (at0 m c main_arg21)
abbrev stg_v53 := val_main_v53 (F := F) (at0 m c main_arg0) (at0 m c main_arg1) (at0 m c main_arg2) (at0 m c main_arg3) (at0 m c main_arg4) (at0 m c main_arg5) (at0 m c main_arg6) (at0 m c main_arg7) (at0 m c main_arg9) (at0 m c main_arg10) (at0 m c main_arg11) (at0 m c main_arg14) (at0 m c main_arg17) (at0 m c main_arg18) (at0 m c main_arg19) (at0 m c main_arg20) (at0 m c main_arg21)
abbrev stg_v60 := val_main_v60 (F := F) (at0 m c main_arg0) (at0 m c main_arg1) (at0 m c main_arg2) (at0 m c main_arg3) (at0 m c main_arg4) (at0 m c main_arg5) (at0 m c main_arg6) (at0 m c main_arg7) (at0 m c main_arg17) (at0 m c main_arg18) (at0 m c main_arg23)
abbrev stg_v67 := val_main_v67 (F := F) (at0 m c main_arg0) (at0 m c main_arg1) (at0 m c main_arg2) (at0 m c main_arg3) (at0 m c main_arg4) (at0 m c main_arg5) (at0 m c main_arg6) (at0 m c main_arg7) (at0 m c main_arg8) (at0 m c main_arg17) (at0 m c main_arg18) (at0 m c main_arg22)
abbrev stg_v74 := val_main_v74 (F := F) (at0 m c main_arg0) (at0 m c main_arg1) (at0 m c main_arg2) (at0 m c main_arg3) (at0 m c main_arg4) (at0 m c main_arg5) (at0 m c main_arg6) (at0 m c main_arg7) (at0 m c main_arg10) (at0 m c main_arg17) (at0 m c main_arg18) (at0 m c main_arg24)
abbrev stg_v78 := val_main_v78 (F := F) (at0 m c main_arg0) (at0 m c main_arg1) (at0 m c main_arg2) (at0 m c main_arg3) (at0 m c main_arg4) (at0 m c main_arg5) (at0 m c main_arg6) (at0 m c main_arg7) (at0 m c main_arg8) (at0 m c main_arg10) (at0 m c main_arg12) (at0 m c main_arg15) (at0 m c main_arg17) (at0 m c main_arg18) (at0 m c main_arg22) (at0 m c main_arg23) (at0 m c main_arg24)
abbrev stg_v85 := val_main_v85 (F := F) (at0 m c main_arg0) (at0 m c main_arg1) (at0 m c main_arg2) (at0 m c main_arg3) (at0 m c main_arg4) (at0 m c main_arg5) (at0 m c main_arg6) (at0 m c main_arg7) (at0 m c main_arg17) (at0 m c main_arg18) (at0 m c main_arg27)
abbrev stg_v92 := val_main_v92 (F := F) (at0 m c main_arg0) (at0 m c main_arg1) (at0 m c main_arg2) (at0 m c main_arg3) (at0 m c main_arg4) (at0 m c main_arg5) (at0 m c main_arg6) (at0 m c main_arg7) (at0 m c main_arg8) (at0 m c main_arg17) (at0 m c main_arg18) (at0 m c main_arg25)
abbrev stg_v99 := val_main_v99 (F := F) (at0 m c main_arg0) (at0 m c main_arg1) (at0 m c main_arg2) (at0 m c main_arg3) (at0 m c main_arg4) (at0 m c main_arg5) (at0 m c main_arg6) (at0 m c main_arg7) (at0 m c main_arg9) (at0 m c main_arg17) (at0 m c main_arg18) (at0 m c main_arg26)
abbrev stg_v103 := val_main_v103 (F := F) (at0 m c main_arg0) (at0 m c main_arg1) (at0 m c main_arg2) (at0 m c main_arg3) (at0 m c main_arg4) (at0 m c main_arg5) (at0 m c main_arg6) (at0 m c main_arg7) (at0 m c main_arg8) (at0 m c main_arg9) (at0 m c main_arg13) (at0 m c main_arg16) (at0 m c main_arg17) (at0 m c main_arg18) (at0 m c main_arg25) (at0 m c main_arg26) (at0 m c main_arg27)
abbrev stg_v111 := val_main_v111 (F := F) (at0 m c main_arg0) (at0 m c main_arg1) (at0 m c main_arg2) (at0 m c main_arg3) (at0 m c main_arg4) (at0 m c main_arg5) (at0 m c main_arg6) (at0 m c main_arg7) (at0 m c main_arg8) (at0 m c main_arg9) (at0 m c main_arg10) (at0 m c main_arg11) (at0 m c main_arg12) (at0 m c main_arg13) (at0 m c main_arg14) (at0 m c main_arg15) (at0 m c main_arg16) (at0 m c main_arg17) (at0 m c main_arg18) (at0 m c main_arg19) (at0 m c main_arg20) (at0 m c main_arg21) (at0 m c main_arg22) (at0 m c main_arg23) (at0 m c main_arg24) (at0 m c main_arg25) (at0 m c main_arg26) (at0 m c main_arg27)

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27]

def V0 : Valuation τ sig (Elt F) := launchContents m c

def V1 : Valuation τ sig (Elt F) := after ops1 (V0 m c)

def V2 : Valuation τ sig (Elt F) := after ops2 (V1 m c)

def V3 : Valuation τ sig (Elt F) := after ops3 (V2 m c)

def V4 : Valuation τ sig (Elt F) := after ops4 (V3 m c)

def V5 : Valuation τ sig (Elt F) := after ops5 (V4 m c)

def V6 : Valuation τ sig (Elt F) := after ops6 (V5 m c)

def V7 : Valuation τ sig (Elt F) := after ops7 (V6 m c)

def V8 : Valuation τ sig (Elt F) := after ops8 (V7 m c)

def V9 : Valuation τ sig (Elt F) := after ops9 (V8 m c)

def V10 : Valuation τ sig (Elt F) := after ops10 (V9 m c)

def V11 : Valuation τ sig (Elt F) := after ops11 (V10 m c)

def V12 : Valuation τ sig (Elt F) := after ops12 (V11 m c)

def V13 : Valuation τ sig (Elt F) := after ops13 (V12 m c)

def V14 : Valuation τ sig (Elt F) := after ops14 (V13 m c)

def V15 : Valuation τ sig (Elt F) := after ops15 (V14 m c)

def V16 : Valuation τ sig (Elt F) := after ops16 (V15 m c)

def V17 : Valuation τ sig (Elt F) := after ops17 (V16 m c)

def V18 : Valuation τ sig (Elt F) := after ops18 (V17 m c)

theorem args_wr1 : ∀ r ∈ (argRefs : List (Ref sig .tc)), r ∉ (wr1 : List (Ref sig .tc)) := by decide
theorem args_wr2 : ∀ r ∈ (argRefs : List (Ref sig .tc)), r ∉ (wr2 : List (Ref sig .tc)) := by decide
theorem args_wr3 : ∀ r ∈ (argRefs : List (Ref sig .tc)), r ∉ (wr3 : List (Ref sig .tc)) := by decide
theorem args_wr4 : ∀ r ∈ (argRefs : List (Ref sig .tc)), r ∉ (wr4 : List (Ref sig .tc)) := by decide
theorem args_wr5 : ∀ r ∈ (argRefs : List (Ref sig .tc)), r ∉ (wr5 : List (Ref sig .tc)) := by decide
theorem args_wr6 : ∀ r ∈ (argRefs : List (Ref sig .tc)), r ∉ (wr6 : List (Ref sig .tc)) := by decide
theorem args_wr7 : ∀ r ∈ (argRefs : List (Ref sig .tc)), r ∉ (wr7 : List (Ref sig .tc)) := by decide
theorem args_wr8 : ∀ r ∈ (argRefs : List (Ref sig .tc)), r ∉ (wr8 : List (Ref sig .tc)) := by decide
theorem args_wr9 : ∀ r ∈ (argRefs : List (Ref sig .tc)), r ∉ (wr9 : List (Ref sig .tc)) := by decide
theorem args_wr10 : ∀ r ∈ (argRefs : List (Ref sig .tc)), r ∉ (wr10 : List (Ref sig .tc)) := by decide
theorem args_wr11 : ∀ r ∈ (argRefs : List (Ref sig .tc)), r ∉ (wr11 : List (Ref sig .tc)) := by decide
theorem args_wr12 : ∀ r ∈ (argRefs : List (Ref sig .tc)), r ∉ (wr12 : List (Ref sig .tc)) := by decide
theorem args_wr13 : ∀ r ∈ (argRefs : List (Ref sig .tc)), r ∉ (wr13 : List (Ref sig .tc)) := by decide
theorem args_wr14 : ∀ r ∈ (argRefs : List (Ref sig .tc)), r ∉ (wr14 : List (Ref sig .tc)) := by decide
theorem args_wr15 : ∀ r ∈ (argRefs : List (Ref sig .tc)), r ∉ (wr15 : List (Ref sig .tc)) := by decide
theorem args_wr16 : ∀ r ∈ (argRefs : List (Ref sig .tc)), r ∉ (wr16 : List (Ref sig .tc)) := by decide
theorem args_wr17 : ∀ r ∈ (argRefs : List (Ref sig .tc)), r ∉ (wr17 : List (Ref sig .tc)) := by decide
theorem args_wr18 : ∀ r ∈ (argRefs : List (Ref sig .tc)), r ∉ (wr18 : List (Ref sig .tc)) := by decide

theorem V0_args (r : Ref sig .tc) (h : r ∈ (argRefs : List (Ref sig .tc))) : V0 m c (Proc.devRef .tc r) = m ((c.tc : Thread nD τ).loc r) := rfl
theorem V1_args (r : Ref sig .tc) (h : r ∈ (argRefs : List (Ref sig .tc))) : V1 m c (Proc.devRef .tc r) = m ((c.tc : Thread nD τ).loc r) :=
  (frame1 (V0 m c) r (args_wr1 r h)).trans (V0_args m c r h)
theorem V2_args (r : Ref sig .tc) (h : r ∈ (argRefs : List (Ref sig .tc))) : V2 m c (Proc.devRef .tc r) = m ((c.tc : Thread nD τ).loc r) :=
  (frame2 (V1 m c) r (args_wr2 r h)).trans (V1_args m c r h)
theorem V3_args (r : Ref sig .tc) (h : r ∈ (argRefs : List (Ref sig .tc))) : V3 m c (Proc.devRef .tc r) = m ((c.tc : Thread nD τ).loc r) :=
  (frame3 (V2 m c) r (args_wr3 r h)).trans (V2_args m c r h)
theorem V4_args (r : Ref sig .tc) (h : r ∈ (argRefs : List (Ref sig .tc))) : V4 m c (Proc.devRef .tc r) = m ((c.tc : Thread nD τ).loc r) :=
  (frame4 (V3 m c) r (args_wr4 r h)).trans (V3_args m c r h)
theorem V5_args (r : Ref sig .tc) (h : r ∈ (argRefs : List (Ref sig .tc))) : V5 m c (Proc.devRef .tc r) = m ((c.tc : Thread nD τ).loc r) :=
  (frame5 (V4 m c) r (args_wr5 r h)).trans (V4_args m c r h)
theorem V6_args (r : Ref sig .tc) (h : r ∈ (argRefs : List (Ref sig .tc))) : V6 m c (Proc.devRef .tc r) = m ((c.tc : Thread nD τ).loc r) :=
  (frame6 (V5 m c) r (args_wr6 r h)).trans (V5_args m c r h)
theorem V7_args (r : Ref sig .tc) (h : r ∈ (argRefs : List (Ref sig .tc))) : V7 m c (Proc.devRef .tc r) = m ((c.tc : Thread nD τ).loc r) :=
  (frame7 (V6 m c) r (args_wr7 r h)).trans (V6_args m c r h)
theorem V8_args (r : Ref sig .tc) (h : r ∈ (argRefs : List (Ref sig .tc))) : V8 m c (Proc.devRef .tc r) = m ((c.tc : Thread nD τ).loc r) :=
  (frame8 (V7 m c) r (args_wr8 r h)).trans (V7_args m c r h)
theorem V9_args (r : Ref sig .tc) (h : r ∈ (argRefs : List (Ref sig .tc))) : V9 m c (Proc.devRef .tc r) = m ((c.tc : Thread nD τ).loc r) :=
  (frame9 (V8 m c) r (args_wr9 r h)).trans (V8_args m c r h)
theorem V10_args (r : Ref sig .tc) (h : r ∈ (argRefs : List (Ref sig .tc))) : V10 m c (Proc.devRef .tc r) = m ((c.tc : Thread nD τ).loc r) :=
  (frame10 (V9 m c) r (args_wr10 r h)).trans (V9_args m c r h)
theorem V11_args (r : Ref sig .tc) (h : r ∈ (argRefs : List (Ref sig .tc))) : V11 m c (Proc.devRef .tc r) = m ((c.tc : Thread nD τ).loc r) :=
  (frame11 (V10 m c) r (args_wr11 r h)).trans (V10_args m c r h)
theorem V12_args (r : Ref sig .tc) (h : r ∈ (argRefs : List (Ref sig .tc))) : V12 m c (Proc.devRef .tc r) = m ((c.tc : Thread nD τ).loc r) :=
  (frame12 (V11 m c) r (args_wr12 r h)).trans (V11_args m c r h)
theorem V13_args (r : Ref sig .tc) (h : r ∈ (argRefs : List (Ref sig .tc))) : V13 m c (Proc.devRef .tc r) = m ((c.tc : Thread nD τ).loc r) :=
  (frame13 (V12 m c) r (args_wr13 r h)).trans (V12_args m c r h)
theorem V14_args (r : Ref sig .tc) (h : r ∈ (argRefs : List (Ref sig .tc))) : V14 m c (Proc.devRef .tc r) = m ((c.tc : Thread nD τ).loc r) :=
  (frame14 (V13 m c) r (args_wr14 r h)).trans (V13_args m c r h)
theorem V15_args (r : Ref sig .tc) (h : r ∈ (argRefs : List (Ref sig .tc))) : V15 m c (Proc.devRef .tc r) = m ((c.tc : Thread nD τ).loc r) :=
  (frame15 (V14 m c) r (args_wr15 r h)).trans (V14_args m c r h)
theorem V16_args (r : Ref sig .tc) (h : r ∈ (argRefs : List (Ref sig .tc))) : V16 m c (Proc.devRef .tc r) = m ((c.tc : Thread nD τ).loc r) :=
  (frame16 (V15 m c) r (args_wr16 r h)).trans (V15_args m c r h)
theorem V17_args (r : Ref sig .tc) (h : r ∈ (argRefs : List (Ref sig .tc))) : V17 m c (Proc.devRef .tc r) = m ((c.tc : Thread nD τ).loc r) :=
  (frame17 (V16 m c) r (args_wr17 r h)).trans (V16_args m c r h)
theorem V18_args (r : Ref sig .tc) (h : r ∈ (argRefs : List (Ref sig .tc))) : V18 m c (Proc.devRef .tc r) = m ((c.tc : Thread nD τ).loc r) :=
  (frame18 (V17 m c) r (args_wr18 r h)).trans (V17_args m c r h)

theorem V1_main_v0 : V1 m c (Proc.devRef .tc main_v0) = stg_v0 m c :=
  st1_main_v0 (V0 m c) (at0 m c main_arg0) (at0 m c main_arg3)
    (V0_args m c main_arg0 (by decide)) (V0_args m c main_arg3 (by decide))
theorem V1_main_v1 : V1 m c (Proc.devRef .tc main_v1) = stg_v1 m c :=
  st1_main_v1 (V0 m c) (at0 m c main_arg1) (at0 m c main_arg4)
    (V0_args m c main_arg1 (by decide)) (V0_args m c main_arg4 (by decide))
theorem V1_main_v2 : V1 m c (Proc.devRef .tc main_v2) = stg_v2 m c :=
  st1_main_v2 (V0 m c) (at0 m c main_arg2) (at0 m c main_arg5)
    (V0_args m c main_arg2 (by decide)) (V0_args m c main_arg5 (by decide))
theorem V2_main_v10 : V2 m c (Proc.devRef .tc main_v10) = stg_v10 m c :=
  st2_main_v10 (V1 m c) (at0 m c main_arg0) (at0 m c main_arg1) (at0 m c main_arg2) (at0 m c main_arg3) (at0 m c main_arg4) (at0 m c main_arg5) (at0 m c main_arg17)
    (V1_args m c main_arg17 (by decide)) (V1_main_v0 m c) (V1_main_v1 m c) (V1_main_v2 m c)
theorem V3_main_v17 : V3 m c (Proc.devRef .tc main_v17) = stg_v17 m c :=
  st3_main_v17 (V2 m c) (at0 m c main_arg0) (at0 m c main_arg1) (at0 m c main_arg2) (at0 m c main_arg3) (at0 m c main_arg4) (at0 m c main_arg5) (at0 m c main_arg6) (at0 m c main_arg7) (at0 m c main_arg17) (at0 m c main_arg18)
    (V2_args m c main_arg6 (by decide)) (V2_args m c main_arg7 (by decide)) (V2_args m c main_arg18 (by decide)) (V2_main_v10 m c)
theorem V4_main_v22 : V4 m c (Proc.devRef .tc main_v22) = stg_v22 m c :=
  st4_main_v22 (V3 m c) (at0 m c main_arg0) (at0 m c main_arg1) (at0 m c main_arg2) (at0 m c main_arg3) (at0 m c main_arg4) (at0 m c main_arg5) (at0 m c main_arg6) (at0 m c main_arg7) (at0 m c main_arg17) (at0 m c main_arg18)
    (V3_main_v17 m c)
theorem V5_main_v23 : V5 m c (Proc.devRef .tc main_v23) = stg_v23 m c :=
  st5_main_v23 (V4 m c) (at0 m c main_arg0) (at0 m c main_arg1) (at0 m c main_arg2) (at0 m c main_arg3) (at0 m c main_arg4) (at0 m c main_arg5) (at0 m c main_arg6) (at0 m c main_arg7) (at0 m c main_arg17) (at0 m c main_arg18)
    (V4_main_v22 m c)
theorem V5_main_v24 : V5 m c (Proc.devRef .tc main_v24) = stg_v24 m c :=
  st5_main_v24 (V4 m c) (at0 m c main_arg0) (at0 m c main_arg1) (at0 m c main_arg2) (at0 m c main_arg3) (at0 m c main_arg4) (at0 m c main_arg5) (at0 m c main_arg6) (at0 m c main_arg7) (at0 m c main_arg17) (at0 m c main_arg18)
    (V4_main_v22 m c)
theorem V5_main_v25 : V5 m c (Proc.devRef .tc main_v25) = stg_v25 m c :=
  st5_main_v25 (V4 m c) (at0 m c main_arg0) (at0 m c main_arg1) (at0 m c main_arg2) (at0 m c main_arg3) (at0 m c main_arg4) (at0 m c main_arg5) (at0 m c main_arg6) (at0 m c main_arg7) (at0 m c main_arg17) (at0 m c main_arg18)
    (V4_main_v22 m c)
theorem V5_main_v26 : V5 m c (Proc.devRef .tc main_v26) = stg_v26 m c :=
  st5_main_v26 (V4 m c) (at0 m c main_arg0) (at0 m c main_arg1) (at0 m c main_arg2) (at0 m c main_arg3) (at0 m c main_arg4) (at0 m c main_arg5) (at0 m c main_arg6) (at0 m c main_arg7) (at0 m c main_arg8) (at0 m c main_arg17) (at0 m c main_arg18)
    (V4_args m c main_arg8 (by decide)) (V4_main_v22 m c)
theorem V5_main_v27 : V5 m c (Proc.devRef .tc main_v27) = stg_v27 m c :=
  st5_main_v27 (V4 m c) (at0 m c main_arg0) (at0 m c main_arg1) (at0 m c main_arg2) (at0 m c main_arg3) (at0 m c main_arg4) (at0 m c main_arg5) (at0 m c main_arg6) (at0 m c main_arg7) (at0 m c main_arg9) (at0 m c main_arg17) (at0 m c main_arg18)
    (V4_args m c main_arg9 (by decide)) (V4_main_v22 m c)
theorem V5_main_v28 : V5 m c (Proc.devRef .tc main_v28) = stg_v28 m c :=
  st5_main_v28 (V4 m c) (at0 m c main_arg0) (at0 m c main_arg1) (at0 m c main_arg2) (at0 m c main_arg3) (at0 m c main_arg4) (at0 m c main_arg5) (at0 m c main_arg6) (at0 m c main_arg7) (at0 m c main_arg10) (at0 m c main_arg17) (at0 m c main_arg18)
    (V4_args m c main_arg10 (by decide)) (V4_main_v22 m c)
theorem V5_main_v22 : V5 m c (Proc.devRef .tc main_v22) = stg_v22 m c :=
  (frame5 (V4 m c) main_v22 (by decide)).trans (V4_main_v22 m c)
theorem V6_main_v35 : V6 m c (Proc.devRef .tc main_v35) = stg_v35 m c :=
  st6_main_v35 (V5 m c) (at0 m c main_arg0) (at0 m c main_arg1) (at0 m c main_arg2) (at0 m c main_arg3) (at0 m c main_arg4) (at0 m c main_arg5) (at0 m c main_arg6) (at0 m c main_arg7) (at0 m c main_arg17) (at0 m c main_arg18) (at0 m c main_arg19)
    (V5_args m c main_arg19 (by decide)) (V5_main_v23 m c)
theorem V6_main_v22 : V6 m c (Proc.devRef .tc main_v22) = stg_v22 m c :=
  (frame6 (V5 m c) main_v22 (by decide)).trans (V5_main_v22 m c)
theorem V6_main_v24 : V6 m c (Proc.devRef .tc main_v24) = stg_v24 m c :=
  (frame6 (V5 m c) main_v24 (by decide)).trans (V5_main_v24 m c)
theorem V6_main_v25 : V6 m c (Proc.devRef .tc main_v25) = stg_v25 m c :=
  (frame6 (V5 m c) main_v25 (by decide)).trans (V5_main_v25 m c)
theorem V6_main_v26 : V6 m c (Proc.devRef .tc main_v26) = stg_v26 m c :=
  (frame6 (V5 m c) main_v26 (by decide)).trans (V5_main_v26 m c)
theorem V6_main_v27 : V6 m c (Proc.devRef .tc main_v27) = stg_v27 m c :=
  (frame6 (V5 m c) main_v27 (by decide)).trans (V5_main_v27 m c)
theorem V6_main_v28 : V6 m c (Proc.devRef .tc main_v28) = stg_v28 m c :=
  (frame6 (V5 m c) main_v28 (by decide)).trans (V5_main_v28 m c)
theorem V7_main_v42 : V7 m c (Proc.devRef .tc main_v42) = stg_v42 m c :=
  st7_main_v42 (V6 m c) (at0 m c main_arg0) (at0 m c main_arg1) (at0 m c main_arg2) (at0 m c main_arg3) (at0 m c main_arg4) (at0 m c main_arg5) (at0 m c main_arg6) (at0 m c main_arg7) (at0 m c main_arg9) (at0 m c main_arg17) (at0 m c main_arg18) (at0 m c main_arg20)
    (V6_args m c main_arg20 (by decide)) (V6_main_v27 m c)
theorem V7_main_v22 : V7 m c (Proc.devRef .tc main_v22) = stg_v22 m c :=
  (frame7 (V6 m c) main_v22 (by decide)).trans (V6_main_v22 m c)
theorem V7_main_v24 : V7 m c (Proc.devRef .tc main_v24) = stg_v24 m c :=
  (frame7 (V6 m c) main_v24 (by decide)).trans (V6_main_v24 m c)
theorem V7_main_v25 : V7 m c (Proc.devRef .tc main_v25) = stg_v25 m c :=
  (frame7 (V6 m c) main_v25 (by decide)).trans (V6_main_v25 m c)
theorem V7_main_v26 : V7 m c (Proc.devRef .tc main_v26) = stg_v26 m c :=
  (frame7 (V6 m c) main_v26 (by decide)).trans (V6_main_v26 m c)
theorem V7_main_v27 : V7 m c (Proc.devRef .tc main_v27) = stg_v27 m c :=
  (frame7 (V6 m c) main_v27 (by decide)).trans (V6_main_v27 m c)
theorem V7_main_v28 : V7 m c (Proc.devRef .tc main_v28) = stg_v28 m c :=
  (frame7 (V6 m c) main_v28 (by decide)).trans (V6_main_v28 m c)
theorem V7_main_v35 : V7 m c (Proc.devRef .tc main_v35) = stg_v35 m c :=
  (frame7 (V6 m c) main_v35 (by decide)).trans (V6_main_v35 m c)
theorem V8_main_v49 : V8 m c (Proc.devRef .tc main_v49) = stg_v49 m c :=
  st8_main_v49 (V7 m c) (at0 m c main_arg0) (at0 m c main_arg1) (at0 m c main_arg2) (at0 m c main_arg3) (at0 m c main_arg4) (at0 m c main_arg5) (at0 m c main_arg6) (at0 m c main_arg7) (at0 m c main_arg10) (at0 m c main_arg17) (at0 m c main_arg18) (at0 m c main_arg21)
    (V7_args m c main_arg21 (by decide)) (V7_main_v28 m c)
theorem V8_main_v22 : V8 m c (Proc.devRef .tc main_v22) = stg_v22 m c :=
  (frame8 (V7 m c) main_v22 (by decide)).trans (V7_main_v22 m c)
theorem V8_main_v24 : V8 m c (Proc.devRef .tc main_v24) = stg_v24 m c :=
  (frame8 (V7 m c) main_v24 (by decide)).trans (V7_main_v24 m c)
theorem V8_main_v25 : V8 m c (Proc.devRef .tc main_v25) = stg_v25 m c :=
  (frame8 (V7 m c) main_v25 (by decide)).trans (V7_main_v25 m c)
theorem V8_main_v26 : V8 m c (Proc.devRef .tc main_v26) = stg_v26 m c :=
  (frame8 (V7 m c) main_v26 (by decide)).trans (V7_main_v26 m c)
theorem V8_main_v27 : V8 m c (Proc.devRef .tc main_v27) = stg_v27 m c :=
  (frame8 (V7 m c) main_v27 (by decide)).trans (V7_main_v27 m c)
theorem V8_main_v28 : V8 m c (Proc.devRef .tc main_v28) = stg_v28 m c :=
  (frame8 (V7 m c) main_v28 (by decide)).trans (V7_main_v28 m c)
theorem V8_main_v35 : V8 m c (Proc.devRef .tc main_v35) = stg_v35 m c :=
  (frame8 (V7 m c) main_v35 (by decide)).trans (V7_main_v35 m c)
theorem V8_main_v42 : V8 m c (Proc.devRef .tc main_v42) = stg_v42 m c :=
  (frame8 (V7 m c) main_v42 (by decide)).trans (V7_main_v42 m c)
theorem V9_main_v53 : V9 m c (Proc.devRef .tc main_v53) = stg_v53 m c :=
  st9_main_v53 (V8 m c) (at0 m c main_arg0) (at0 m c main_arg1) (at0 m c main_arg2) (at0 m c main_arg3) (at0 m c main_arg4) (at0 m c main_arg5) (at0 m c main_arg6) (at0 m c main_arg7) (at0 m c main_arg9) (at0 m c main_arg10) (at0 m c main_arg11) (at0 m c main_arg14) (at0 m c main_arg17) (at0 m c main_arg18) (at0 m c main_arg19) (at0 m c main_arg20) (at0 m c main_arg21)
    (V8_args m c main_arg11 (by decide)) (V8_args m c main_arg14 (by decide)) (V8_main_v35 m c) (V8_main_v42 m c) (V8_main_v49 m c)
theorem V9_main_v22 : V9 m c (Proc.devRef .tc main_v22) = stg_v22 m c :=
  (frame9 (V8 m c) main_v22 (by decide)).trans (V8_main_v22 m c)
theorem V9_main_v24 : V9 m c (Proc.devRef .tc main_v24) = stg_v24 m c :=
  (frame9 (V8 m c) main_v24 (by decide)).trans (V8_main_v24 m c)
theorem V9_main_v25 : V9 m c (Proc.devRef .tc main_v25) = stg_v25 m c :=
  (frame9 (V8 m c) main_v25 (by decide)).trans (V8_main_v25 m c)
theorem V9_main_v26 : V9 m c (Proc.devRef .tc main_v26) = stg_v26 m c :=
  (frame9 (V8 m c) main_v26 (by decide)).trans (V8_main_v26 m c)
theorem V9_main_v27 : V9 m c (Proc.devRef .tc main_v27) = stg_v27 m c :=
  (frame9 (V8 m c) main_v27 (by decide)).trans (V8_main_v27 m c)
theorem V9_main_v28 : V9 m c (Proc.devRef .tc main_v28) = stg_v28 m c :=
  (frame9 (V8 m c) main_v28 (by decide)).trans (V8_main_v28 m c)
theorem V10_main_v60 : V10 m c (Proc.devRef .tc main_v60) = stg_v60 m c :=
  st10_main_v60 (V9 m c) (at0 m c main_arg0) (at0 m c main_arg1) (at0 m c main_arg2) (at0 m c main_arg3) (at0 m c main_arg4) (at0 m c main_arg5) (at0 m c main_arg6) (at0 m c main_arg7) (at0 m c main_arg17) (at0 m c main_arg18) (at0 m c main_arg23)
    (V9_args m c main_arg23 (by decide)) (V9_main_v24 m c)
theorem V10_main_v22 : V10 m c (Proc.devRef .tc main_v22) = stg_v22 m c :=
  (frame10 (V9 m c) main_v22 (by decide)).trans (V9_main_v22 m c)
theorem V10_main_v25 : V10 m c (Proc.devRef .tc main_v25) = stg_v25 m c :=
  (frame10 (V9 m c) main_v25 (by decide)).trans (V9_main_v25 m c)
theorem V10_main_v26 : V10 m c (Proc.devRef .tc main_v26) = stg_v26 m c :=
  (frame10 (V9 m c) main_v26 (by decide)).trans (V9_main_v26 m c)
theorem V10_main_v27 : V10 m c (Proc.devRef .tc main_v27) = stg_v27 m c :=
  (frame10 (V9 m c) main_v27 (by decide)).trans (V9_main_v27 m c)
theorem V10_main_v28 : V10 m c (Proc.devRef .tc main_v28) = stg_v28 m c :=
  (frame10 (V9 m c) main_v28 (by decide)).trans (V9_main_v28 m c)
theorem V10_main_v53 : V10 m c (Proc.devRef .tc main_v53) = stg_v53 m c :=
  (frame10 (V9 m c) main_v53 (by decide)).trans (V9_main_v53 m c)
theorem V11_main_v67 : V11 m c (Proc.devRef .tc main_v67) = stg_v67 m c :=
  st11_main_v67 (V10 m c) (at0 m c main_arg0) (at0 m c main_arg1) (at0 m c main_arg2) (at0 m c main_arg3) (at0 m c main_arg4) (at0 m c main_arg5) (at0 m c main_arg6) (at0 m c main_arg7) (at0 m c main_arg8) (at0 m c main_arg17) (at0 m c main_arg18) (at0 m c main_arg22)
    (V10_args m c main_arg22 (by decide)) (V10_main_v26 m c)
theorem V11_main_v22 : V11 m c (Proc.devRef .tc main_v22) = stg_v22 m c :=
  (frame11 (V10 m c) main_v22 (by decide)).trans (V10_main_v22 m c)
theorem V11_main_v25 : V11 m c (Proc.devRef .tc main_v25) = stg_v25 m c :=
  (frame11 (V10 m c) main_v25 (by decide)).trans (V10_main_v25 m c)
theorem V11_main_v26 : V11 m c (Proc.devRef .tc main_v26) = stg_v26 m c :=
  (frame11 (V10 m c) main_v26 (by decide)).trans (V10_main_v26 m c)
theorem V11_main_v27 : V11 m c (Proc.devRef .tc main_v27) = stg_v27 m c :=
  (frame11 (V10 m c) main_v27 (by decide)).trans (V10_main_v27 m c)
theorem V11_main_v28 : V11 m c (Proc.devRef .tc main_v28) = stg_v28 m c :=
  (frame11 (V10 m c) main_v28 (by decide)).trans (V10_main_v28 m c)
theorem V11_main_v53 : V11 m c (Proc.devRef .tc main_v53) = stg_v53 m c :=
  (frame11 (V10 m c) main_v53 (by decide)).trans (V10_main_v53 m c)
theorem V11_main_v60 : V11 m c (Proc.devRef .tc main_v60) = stg_v60 m c :=
  (frame11 (V10 m c) main_v60 (by decide)).trans (V10_main_v60 m c)
theorem V12_main_v74 : V12 m c (Proc.devRef .tc main_v74) = stg_v74 m c :=
  st12_main_v74 (V11 m c) (at0 m c main_arg0) (at0 m c main_arg1) (at0 m c main_arg2) (at0 m c main_arg3) (at0 m c main_arg4) (at0 m c main_arg5) (at0 m c main_arg6) (at0 m c main_arg7) (at0 m c main_arg10) (at0 m c main_arg17) (at0 m c main_arg18) (at0 m c main_arg24)
    (V11_args m c main_arg24 (by decide)) (V11_main_v28 m c)
theorem V12_main_v22 : V12 m c (Proc.devRef .tc main_v22) = stg_v22 m c :=
  (frame12 (V11 m c) main_v22 (by decide)).trans (V11_main_v22 m c)
theorem V12_main_v25 : V12 m c (Proc.devRef .tc main_v25) = stg_v25 m c :=
  (frame12 (V11 m c) main_v25 (by decide)).trans (V11_main_v25 m c)
theorem V12_main_v26 : V12 m c (Proc.devRef .tc main_v26) = stg_v26 m c :=
  (frame12 (V11 m c) main_v26 (by decide)).trans (V11_main_v26 m c)
theorem V12_main_v27 : V12 m c (Proc.devRef .tc main_v27) = stg_v27 m c :=
  (frame12 (V11 m c) main_v27 (by decide)).trans (V11_main_v27 m c)
theorem V12_main_v53 : V12 m c (Proc.devRef .tc main_v53) = stg_v53 m c :=
  (frame12 (V11 m c) main_v53 (by decide)).trans (V11_main_v53 m c)
theorem V12_main_v60 : V12 m c (Proc.devRef .tc main_v60) = stg_v60 m c :=
  (frame12 (V11 m c) main_v60 (by decide)).trans (V11_main_v60 m c)
theorem V12_main_v67 : V12 m c (Proc.devRef .tc main_v67) = stg_v67 m c :=
  (frame12 (V11 m c) main_v67 (by decide)).trans (V11_main_v67 m c)
theorem V13_main_v78 : V13 m c (Proc.devRef .tc main_v78) = stg_v78 m c :=
  st13_main_v78 (V12 m c) (at0 m c main_arg0) (at0 m c main_arg1) (at0 m c main_arg2) (at0 m c main_arg3) (at0 m c main_arg4) (at0 m c main_arg5) (at0 m c main_arg6) (at0 m c main_arg7) (at0 m c main_arg8) (at0 m c main_arg10) (at0 m c main_arg12) (at0 m c main_arg15) (at0 m c main_arg17) (at0 m c main_arg18) (at0 m c main_arg22) (at0 m c main_arg23) (at0 m c main_arg24)
    (V12_args m c main_arg12 (by decide)) (V12_args m c main_arg15 (by decide)) (V12_main_v60 m c) (V12_main_v67 m c) (V12_main_v74 m c)
theorem V13_main_v22 : V13 m c (Proc.devRef .tc main_v22) = stg_v22 m c :=
  (frame13 (V12 m c) main_v22 (by decide)).trans (V12_main_v22 m c)
theorem V13_main_v25 : V13 m c (Proc.devRef .tc main_v25) = stg_v25 m c :=
  (frame13 (V12 m c) main_v25 (by decide)).trans (V12_main_v25 m c)
theorem V13_main_v26 : V13 m c (Proc.devRef .tc main_v26) = stg_v26 m c :=
  (frame13 (V12 m c) main_v26 (by decide)).trans (V12_main_v26 m c)
theorem V13_main_v27 : V13 m c (Proc.devRef .tc main_v27) = stg_v27 m c :=
  (frame13 (V12 m c) main_v27 (by decide)).trans (V12_main_v27 m c)
theorem V13_main_v53 : V13 m c (Proc.devRef .tc main_v53) = stg_v53 m c :=
  (frame13 (V12 m c) main_v53 (by decide)).trans (V12_main_v53 m c)
theorem V14_main_v85 : V14 m c (Proc.devRef .tc main_v85) = stg_v85 m c :=
  st14_main_v85 (V13 m c) (at0 m c main_arg0) (at0 m c main_arg1) (at0 m c main_arg2) (at0 m c main_arg3) (at0 m c main_arg4) (at0 m c main_arg5) (at0 m c main_arg6) (at0 m c main_arg7) (at0 m c main_arg17) (at0 m c main_arg18) (at0 m c main_arg27)
    (V13_args m c main_arg27 (by decide)) (V13_main_v25 m c)
theorem V14_main_v22 : V14 m c (Proc.devRef .tc main_v22) = stg_v22 m c :=
  (frame14 (V13 m c) main_v22 (by decide)).trans (V13_main_v22 m c)
theorem V14_main_v26 : V14 m c (Proc.devRef .tc main_v26) = stg_v26 m c :=
  (frame14 (V13 m c) main_v26 (by decide)).trans (V13_main_v26 m c)
theorem V14_main_v27 : V14 m c (Proc.devRef .tc main_v27) = stg_v27 m c :=
  (frame14 (V13 m c) main_v27 (by decide)).trans (V13_main_v27 m c)
theorem V14_main_v53 : V14 m c (Proc.devRef .tc main_v53) = stg_v53 m c :=
  (frame14 (V13 m c) main_v53 (by decide)).trans (V13_main_v53 m c)
theorem V14_main_v78 : V14 m c (Proc.devRef .tc main_v78) = stg_v78 m c :=
  (frame14 (V13 m c) main_v78 (by decide)).trans (V13_main_v78 m c)
theorem V15_main_v92 : V15 m c (Proc.devRef .tc main_v92) = stg_v92 m c :=
  st15_main_v92 (V14 m c) (at0 m c main_arg0) (at0 m c main_arg1) (at0 m c main_arg2) (at0 m c main_arg3) (at0 m c main_arg4) (at0 m c main_arg5) (at0 m c main_arg6) (at0 m c main_arg7) (at0 m c main_arg8) (at0 m c main_arg17) (at0 m c main_arg18) (at0 m c main_arg25)
    (V14_args m c main_arg25 (by decide)) (V14_main_v26 m c)
theorem V15_main_v22 : V15 m c (Proc.devRef .tc main_v22) = stg_v22 m c :=
  (frame15 (V14 m c) main_v22 (by decide)).trans (V14_main_v22 m c)
theorem V15_main_v27 : V15 m c (Proc.devRef .tc main_v27) = stg_v27 m c :=
  (frame15 (V14 m c) main_v27 (by decide)).trans (V14_main_v27 m c)
theorem V15_main_v53 : V15 m c (Proc.devRef .tc main_v53) = stg_v53 m c :=
  (frame15 (V14 m c) main_v53 (by decide)).trans (V14_main_v53 m c)
theorem V15_main_v78 : V15 m c (Proc.devRef .tc main_v78) = stg_v78 m c :=
  (frame15 (V14 m c) main_v78 (by decide)).trans (V14_main_v78 m c)
theorem V15_main_v85 : V15 m c (Proc.devRef .tc main_v85) = stg_v85 m c :=
  (frame15 (V14 m c) main_v85 (by decide)).trans (V14_main_v85 m c)
theorem V16_main_v99 : V16 m c (Proc.devRef .tc main_v99) = stg_v99 m c :=
  st16_main_v99 (V15 m c) (at0 m c main_arg0) (at0 m c main_arg1) (at0 m c main_arg2) (at0 m c main_arg3) (at0 m c main_arg4) (at0 m c main_arg5) (at0 m c main_arg6) (at0 m c main_arg7) (at0 m c main_arg9) (at0 m c main_arg17) (at0 m c main_arg18) (at0 m c main_arg26)
    (V15_args m c main_arg26 (by decide)) (V15_main_v27 m c)
theorem V16_main_v22 : V16 m c (Proc.devRef .tc main_v22) = stg_v22 m c :=
  (frame16 (V15 m c) main_v22 (by decide)).trans (V15_main_v22 m c)
theorem V16_main_v53 : V16 m c (Proc.devRef .tc main_v53) = stg_v53 m c :=
  (frame16 (V15 m c) main_v53 (by decide)).trans (V15_main_v53 m c)
theorem V16_main_v78 : V16 m c (Proc.devRef .tc main_v78) = stg_v78 m c :=
  (frame16 (V15 m c) main_v78 (by decide)).trans (V15_main_v78 m c)
theorem V16_main_v85 : V16 m c (Proc.devRef .tc main_v85) = stg_v85 m c :=
  (frame16 (V15 m c) main_v85 (by decide)).trans (V15_main_v85 m c)
theorem V16_main_v92 : V16 m c (Proc.devRef .tc main_v92) = stg_v92 m c :=
  (frame16 (V15 m c) main_v92 (by decide)).trans (V15_main_v92 m c)
theorem V17_main_v103 : V17 m c (Proc.devRef .tc main_v103) = stg_v103 m c :=
  st17_main_v103 (V16 m c) (at0 m c main_arg0) (at0 m c main_arg1) (at0 m c main_arg2) (at0 m c main_arg3) (at0 m c main_arg4) (at0 m c main_arg5) (at0 m c main_arg6) (at0 m c main_arg7) (at0 m c main_arg8) (at0 m c main_arg9) (at0 m c main_arg13) (at0 m c main_arg16) (at0 m c main_arg17) (at0 m c main_arg18) (at0 m c main_arg25) (at0 m c main_arg26) (at0 m c main_arg27)
    (V16_args m c main_arg13 (by decide)) (V16_args m c main_arg16 (by decide)) (V16_main_v85 m c) (V16_main_v92 m c) (V16_main_v99 m c)
theorem V17_main_v22 : V17 m c (Proc.devRef .tc main_v22) = stg_v22 m c :=
  (frame17 (V16 m c) main_v22 (by decide)).trans (V16_main_v22 m c)
theorem V17_main_v53 : V17 m c (Proc.devRef .tc main_v53) = stg_v53 m c :=
  (frame17 (V16 m c) main_v53 (by decide)).trans (V16_main_v53 m c)
theorem V17_main_v78 : V17 m c (Proc.devRef .tc main_v78) = stg_v78 m c :=
  (frame17 (V16 m c) main_v78 (by decide)).trans (V16_main_v78 m c)
theorem V18_main_v111 : V18 m c (Proc.devRef .tc main_v111) = stg_v111 m c :=
  st18_main_v111 (V17 m c) (at0 m c main_arg0) (at0 m c main_arg1) (at0 m c main_arg2) (at0 m c main_arg3) (at0 m c main_arg4) (at0 m c main_arg5) (at0 m c main_arg6) (at0 m c main_arg7) (at0 m c main_arg8) (at0 m c main_arg9) (at0 m c main_arg10) (at0 m c main_arg11) (at0 m c main_arg12) (at0 m c main_arg13) (at0 m c main_arg14) (at0 m c main_arg15) (at0 m c main_arg16) (at0 m c main_arg17) (at0 m c main_arg18) (at0 m c main_arg19) (at0 m c main_arg20) (at0 m c main_arg21) (at0 m c main_arg22) (at0 m c main_arg23) (at0 m c main_arg24) (at0 m c main_arg25) (at0 m c main_arg26) (at0 m c main_arg27)
    (V17_main_v53 m c) (V17_main_v78 m c) (V17_main_v103 m c)
theorem V18_main_v22 : V18 m c (Proc.devRef .tc main_v22) = stg_v22 m c :=
  (frame18 (V17 m c) main_v22 (by decide)).trans (V17_main_v22 m c)

theorem ops_split : (ops : List (HloOp τ sig (Elt F))) = ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ (ops17 ++ (ops18))))))))))))))))) := rfl

theorem after_ops : after (ops (F := F)) (launchContents m c) = V18 m c := by
  rw [ops_split]; simp only [after_app]; rfl

theorem ops_fresh : (ops : List (HloOp τ sig (Elt F))).Forall fun op => op.fresh = ∅ := by
  simp only [List.Forall]; repeat' constructor

end Assembly

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22) = stg_v22 m c
      ∧ r.2.mem ((c.tc : Thread nD τ).loc main_v111) = stg_v111 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun _ h c => ⟨(h c main_v22).trans ((congrFun (after_ops m c) _).trans (V18_main_v22 m c)),
      (h c main_v111).trans ((congrFun (after_ops m c) _).trans (V18_main_v111 m c)),
      (h c main_arg0).trans ((congrFun (after_ops m c) _).trans (V18_args m c main_arg0 (by decide))),
      (h c main_arg1).trans ((congrFun (after_ops m c) _).trans (V18_args m c main_arg1 (by decide))),
      (h c main_arg2).trans ((congrFun (after_ops m c) _).trans (V18_args m c main_arg2 (by decide))),
      (h c main_arg3).trans ((congrFun (after_ops m c) _).trans (V18_args m c main_arg3 (by decide))),
      (h c main_arg4).trans ((congrFun (after_ops m c) _).trans (V18_args m c main_arg4 (by decide))),
      (h c main_arg5).trans ((congrFun (after_ops m c) _).trans (V18_args m c main_arg5 (by decide))),
      (h c main_arg6).trans ((congrFun (after_ops m c) _).trans (V18_args m c main_arg6 (by decide))),
      (h c main_arg7).trans ((congrFun (after_ops m c) _).trans (V18_args m c main_arg7 (by decide))),
      (h c main_arg8).trans ((congrFun (after_ops m c) _).trans (V18_args m c main_arg8 (by decide))),
      (h c main_arg9).trans ((congrFun (after_ops m c) _).trans (V18_args m c main_arg9 (by decide))),
      (h c main_arg10).trans ((congrFun (after_ops m c) _).trans (V18_args m c main_arg10 (by decide))),
      (h c main_arg11).trans ((congrFun (after_ops m c) _).trans (V18_args m c main_arg11 (by decide))),
      (h c main_arg12).trans ((congrFun (after_ops m c) _).trans (V18_args m c main_arg12 (by decide))),
      (h c main_arg13).trans ((congrFun (after_ops m c) _).trans (V18_args m c main_arg13 (by decide))),
      (h c main_arg14).trans ((congrFun (after_ops m c) _).trans (V18_args m c main_arg14 (by decide))),
      (h c main_arg15).trans ((congrFun (after_ops m c) _).trans (V18_args m c main_arg15 (by decide))),
      (h c main_arg16).trans ((congrFun (after_ops m c) _).trans (V18_args m c main_arg16 (by decide))),
      (h c main_arg17).trans ((congrFun (after_ops m c) _).trans (V18_args m c main_arg17 (by decide))),
      (h c main_arg18).trans ((congrFun (after_ops m c) _).trans (V18_args m c main_arg18 (by decide))),
      (h c main_arg19).trans ((congrFun (after_ops m c) _).trans (V18_args m c main_arg19 (by decide))),
      (h c main_arg20).trans ((congrFun (after_ops m c) _).trans (V18_args m c main_arg20 (by decide))),
      (h c main_arg21).trans ((congrFun (after_ops m c) _).trans (V18_args m c main_arg21 (by decide))),
      (h c main_arg22).trans ((congrFun (after_ops m c) _).trans (V18_args m c main_arg22 (by decide))),
      (h c main_arg23).trans ((congrFun (after_ops m c) _).trans (V18_args m c main_arg23 (by decide))),
      (h c main_arg24).trans ((congrFun (after_ops m c) _).trans (V18_args m c main_arg24 (by decide))),
      (h c main_arg25).trans ((congrFun (after_ops m c) _).trans (V18_args m c main_arg25 (by decide))),
      (h c main_arg26).trans ((congrFun (after_ops m c) _).trans (V18_args m c main_arg26 (by decide))),
      (h c main_arg27).trans ((congrFun (after_ops m c) _).trans (V18_args m c main_arg27 (by decide)))⟩)
    (run_seq scopedRefs_eq scopedSems_eq defs main (fun _ => ops) main_eq (fun _ => ops_sub) m ρ
      (fun _ => List.forall_iff_forall_mem.1 ops_fresh))

end Cert.ReferenceIdeal.Hand

end
-- ==== Proof.lean ====
import proofs.«418426_j87943750353447_3_alg».proof.Defs
import proofs.«418426_j87943750353447_3_alg».proof.Proof.Gen.Kernel
import proofs.«418426_j87943750353447_3_alg».proof.Proof.Gen.KernelIdeal
import proofs.«418426_j87943750353447_3_alg».proof.Proof.Gen.ReferenceIdeal
import proofs.«418426_j87943750353447_3_alg».proof.Proof.Gen.Pre_finite_inputs
import proofs.«418426_j87943750353447_3_alg».proof.Proof.KernelIdeal.RunVal
import proofs.«418426_j87943750353447_3_alg».proof.Proof.Val.PreDecode
import proofs.«418426_j87943750353447_3_alg».proof.Proof.Val.Chain1
import proofs.«418426_j87943750353447_3_alg».proof.Proof.Val.Chain2
import proofs.«418426_j87943750353447_3_alg».proof.Proof.RefRun
import Idealize.ShloMosaic.Adequacy
import Idealize.ShloMosaic.Init

set_option maxRecDepth 16384

open Lean Elab Tactic Meta in
/-- Closes the goal with a term whose type is the goal up to unfolding definitions; the comparison is made when the declaration is checked. -/
elab "exact_up_to_unfolding " t:term : tactic => withMainContext do
  let e ← instantiateMVars (← Tactic.elabTerm t none)
  if e.hasExprMVar then throwError "the term has holes"
  (← getMainGoal).assign e
  replaceMainGoal []

noncomputable section

namespace Cert.Proof

open Idealize.ShloMosaic Idealize.ShloMosaic.TcCoe Idealize.SL.Sem

/-- The two kernel programs are one text, and its run is proved for every number type: here the two results are dropped. -/
theorem frame_k : Cert.frame_Kernel (hKernel := Cert.Kernel.Gen.facts) (hPre_finite_inputs := Cert.Pre_finite_inputs.Gen.facts) := by
  intro m ρ _
  exact_up_to_unfolding flip (θ_run (Cert.KernelIdeal.defs (F := Bits)) _ _).mono (Cert.KernelIdeal.Hand.run_val (F := Bits) m ρ) (fun _ h c => (h c).2.2)

/-- The same run over the extended reals, its two results dropped. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2.2) (Cert.KernelIdeal.Hand.run_val (F := Ideal) m ρ)

/-- The reference's run, its two results dropped. -/
theorem frame_r : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Hand.ref_run (F := Ideal) m ρ)

set_option maxHeartbeats 4000000 in
/-- Inside the index range both programs end at the reference's stage functions of the 28 arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.ref_v22 m c,
    fun c => Cert.KernelIdeal.Hand.ref_v111 m c, ?_, ?_⟩
  · refine (θ_run Cert.KernelIdeal.defs _ _).mono (fun r h c => ?_) (Cert.KernelIdeal.Hand.run_val (F := Ideal) m ρ)
    obtain ⟨h22, h39, hargs⟩ := h c
    have hb := Cert.KernelIdeal.Hand.idx_bounds_of_pre m hpre c
    obtain ⟨hEa, hCa, hEp, hCp, hEs, hCs, hres⟩ := Cert.KernelIdeal.Hand.chain1 m c
    exact ⟨h22.trans hres, h39.trans (Cert.KernelIdeal.Hand.chain2 m c hb hEa hCa hEp hCp hEs hCs), hargs⟩
  · refine (θ_run Cert.ReferenceIdeal.defs _ _).mono (fun r h c => ?_) (Cert.ReferenceIdeal.Hand.ref_run (F := Ideal) m' ρ')
    obtain ⟨h22, h111, hargs⟩ := h c
    obtain ⟨e0, e1, e2, e3, e4, e5, e6, e7, e8, e9, e10, e11, e12, e13, e14, e15, e16, e17, e18, e19, e20, e21, e22, e23, e24, e25, e26, e27⟩ := hagree c
    refine ⟨h22.trans ?_, h111.trans ?_, hargs⟩
    · unfold Cert.ReferenceIdeal.Hand.stg_v22 Cert.ReferenceIdeal.Hand.at0
      rw [e0, e1, e2, e3, e4, e5, e6, e7, e17, e18]
    · unfold Cert.ReferenceIdeal.Hand.stg_v111 Cert.ReferenceIdeal.Hand.at0
      rw [e0, e1, e2, e3, e4, e5, e6, e7, e8, e9, e10, e11, e12, e13, e14, e15, e16, e17, e18, e19, e20, e21, e22, e23, e24, e25, e26, e27]

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
